-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v129)) (v1 : (c : Dev Cert.KernelIdeal.nD) → Buf (Elt Ideal) ((c.tc : Thread Cert.KernelIdeal.nD Cert.KernelIdeal.τ).loc Cert.KernelIdeal.main_v131)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v129) = v0 c
          ∧ r.2.mem ((c.tc : Thread Cert.KernelIdeal.nD Cert.KernelIdeal.τ).loc Cert.KernelIdeal.main_v131) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v159) = v0 c
          ∧ r.2.mem ((c.tc : Thread Cert.ReferenceIdeal.nD Cert.ReferenceIdeal.τ).loc Cert.ReferenceIdeal.main_v162) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S100000 : Shape := ⟨1, ![100000]⟩
abbrev S3x128x128 : Shape := ⟨3, ![3, 128, 128]⟩
abbrev S3x128 : Shape := ⟨2, ![3, 128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_

variable [Facts]

def fn_part1 {F : FTy → Type} [FloatOps F] (main_arg6 : FVec F S3x128 .f32) (main_arg7 : FVec F S3x128 .f32) (main_arg8 : FVec F S3x128 .f32) (main_v13 : IVec S_ 1) (main_v16 : IVec S3x128x128 1) : IVec S_ 1 :=
  let main_c_5 : IVec S_ 1 := constantI S_ 1 1#1
  let main_v17 : IVec S_ 1 := (fun x v => Host.reduce IntOp.andi x v reducesTo_S3x128x128_S_d0_1_2 h_S_) main_v16 main_c_5
  let main_v18 : IVec S_ 1 := andi main_v13 main_v17
  let main_v19 : FVec F S3x128 .f32 := Host.absf main_arg6
  let main_cst_6 : FVec F S_ .f32 := constant S_ .f32 0x7F800000#32
  let main_v20 : FVec F S3x128 .f32 := broadcastInDim S3x128 ![] bcast_S_S3x128 main_cst_6
  let main_v21 : IVec S3x128 1 := cmpf .olt main_v19 main_v20
  let main_c_7 : IVec S_ 1 := constantI S_ 1 1#1
  let main_v22 : IVec S_ 1 := (fun x v => Host.reduce IntOp.andi x v reducesTo_S3x128_S_d0_1 h_S_) main_v21 main_c_7
  let main_v23 : IVec S_ 1 := andi main_v18 main_v22
  let main_v24 : FVec F S3x128 .f32 := Host.absf main_arg7
  let main_cst_8 : FVec F S_ .f32 := constant S_ .f32 0x7F800000#32
  let main_v25 : FVec F S3x128 .f32 := broadcastInDim S3x128 ![] bcast_S_S3x128 main_cst_8
  let main_v26 : IVec S3x128 1 := cmpf .olt main_v24 main_v25
  let main_c_9 : IVec S_ 1 := constantI S_ 1 1#1
  let main_v27 : IVec S_ 1 := (fun x v => Host.reduce IntOp.andi x v reducesTo_S3x128_S_d0_1 h_S_) main_v26 main_c_9
  let main_v28 : IVec S_ 1 := andi main_v23 main_v27
  let main_v29 : FVec F S3x128 .f32 := Host.absf main_arg8
  let main_cst_10 : FVec F S_ .f32 := constant S_ .f32 0x7F800000#32
  let main_v30 : FVec F S3x128 .f32 := broadcastInDim S3x128 ![] bcast_S_S3x128 main_cst_10
  let main_v31 : IVec S3x128 1 := cmpf .olt main_v29 main_v30
  let main_c_11 : IVec S_ 1 := constantI S_ 1 1#1
  let main_v32 : IVec S_ 1 := (fun x v => Host.reduce IntOp.andi x v reducesTo_S3x128_S_d0_1 h_S_) main_v31 main_c_11
  let main_v33 : IVec S_ 1 := andi main_v28 main_v32
  main_v33

def fn {F : FTy → Type} [FloatOps F] (main_arg0 : FVec F S100000x128 .f32) (main_arg1 : IVec S2x1600000 32) (main_arg2 : IVec S100000 32) (main_arg3 : FVec F S3x128x128 .f32) (main_arg4 : FVec F S3x128 .f32) (main_arg5 : FVec F S3x128x128 .f32) (main_arg6 : FVec F S3x128 .f32) (main_arg7 : FVec F S3x128 .f32) (main_arg8 : FVec F S3x128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S3x128x128 .f32 := Host.absf main_arg3
  let main_cst_0 : FVec F S_ .f32 := constant S_ .f32 0x7F800000#32
  let main_v5 : FVec F S3x128x128 .f32 := broadcastInDim S3x128x128 ![] bcast_S_S3x128x128 main_cst_0
  let main_v6 : IVec S3x128x128 1 := cmpf .olt main_v4 main_v5
  let main_c_1 : IVec S_ 1 := constantI S_ 1 1#1
  let main_v7 : IVec S_ 1 := (fun x v => Host.reduce IntOp.andi x v reducesTo_S3x128x128_S_d0_1_2 h_S_) main_v6 main_c_1
  let main_v8 : IVec S_ 1 := andi main_v3 main_v7
  let main_v9 : FVec F S3x128 .f32 := Host.absf main_arg4
  let main_cst_2 : FVec F S_ .f32 := constant S_ .f32 0x7F800000#32
  let main_v10 : FVec F S3x128 .f32 := broadcastInDim S3x128 ![] bcast_S_S3x128 main_cst_2
  let main_v11 : IVec S3x128 1 := cmpf .olt main_v9 main_v10
  let main_c_3 : IVec S_ 1 := constantI S_ 1 1#1
  let main_v12 : IVec S_ 1 := (fun x v => Host.reduce IntOp.andi x v reducesTo_S3x128_S_d0_1 h_S_) main_v11 main_c_3
  let main_v13 : IVec S_ 1 := andi main_v8 main_v12
  let main_v14 : FVec F S3x128x128 .f32 := Host.absf main_arg5
  let main_cst_4 : FVec F S_ .f32 := constant S_ .f32 0x7F800000#32
  let main_v15 : FVec F S3x128x128 .f32 := broadcastInDim S3x128x128 ![] bcast_S_S3x128x128 main_cst_4
  let main_v16 : IVec S3x128x128 1 := cmpf .olt main_v14 main_v15
  fn_part1 (F := F) main_arg6 main_arg7 main_arg8 main_v13 main_v16
-- ==== Kernel.lean ====
abbrev S100000x128 : Shape := ⟨2, ![100000, 128]⟩
abbrev S2x1600000 : Shape := ⟨2, ![2, 1600000]⟩
abbrev S100000 : Shape := ⟨1, ![100000]⟩
abbrev S3x128x128 : Shape := ⟨3, ![3, 128, 128]⟩
abbrev S3x128 : Shape := ⟨2, ![3, 128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S5000x128 : Shape := ⟨2, ![5000, 128]⟩
abbrev S100000x1 : Shape := ⟨2, ![100000, 1]⟩
abbrev S512x128 : Shape := ⟨2, ![512, 128]⟩
abbrev S5000x1 : Shape := ⟨2, ![5000, 1]⟩
abbrev S5000x512 : Shape := ⟨2, ![5000, 512]⟩
abbrev S512x5000 : Shape := ⟨2, ![512, 5000]⟩

abbrev nBuf : Space → Nat
  | .hbm => 165
  | .vmem => 66
  | .smem => 0
  | _ => 0

abbrev hbmTy0_0 (i : Nat) : BufTy := match i % 128 with
  | 0 => ⟨S100000x128, .f32⟩
  | 1 => ⟨S2x1600000, .i32⟩
  | 2 => ⟨S100000, .i32⟩
  | 3 => ⟨S3x128x128, .f32⟩
  | 4 => ⟨S3x128, .f32⟩
  | 5 => ⟨S3x128x128, .f32⟩
  | 6 => ⟨S3x128, .f32⟩
  | 7 => ⟨S3x128, .f32⟩
  | 8 => ⟨S3x128, .f32⟩
  | 9 => ⟨S1x1600000, .i32⟩
  | 10 => ⟨S1600000, .i32⟩
  | 11 => ⟨S1x1600000, .i32⟩
  | 12 => ⟨S1600000, .i32⟩
  | 13 => ⟨S_, .i32⟩
  | 14 => ⟨S1600000, .i32⟩
  | 15 => ⟨S1600000, .i1⟩
  | 16 => ⟨S_, .i32⟩
  | 17 => ⟨S1600000, .i32⟩
  | 18 => ⟨S1600000, .i32⟩
  | 19 => ⟨S1600000, .i32⟩
  | 20 => ⟨S1600000x1, .i32⟩
  | 21 => ⟨S1600000x128, .f32⟩
  | 22 => ⟨S_, .f32⟩
  | 23 => ⟨S100000x128, .f32⟩
  | 24 => ⟨S1600000x1, .i32⟩
  | 25 => ⟨S100000x128, .f32⟩
  | 26 => ⟨S100000x128, .f32⟩
  | 27 => ⟨S1x128x128, .f32⟩
  | 28 => ⟨S128x128, .f32⟩
  | 29 => ⟨S1x128, .f32⟩
  | 30 => ⟨S128, .f32⟩
  | 31 => ⟨S1x128x128, .f32⟩
  | 32 => ⟨S128x128, .f32⟩
  | 33 => ⟨S1x128, .f32⟩
  | 34 => ⟨S128, .f32⟩
  | 35 => ⟨S1x128, .f32⟩
  | 36 => ⟨S1x128, .f32⟩
  | 37 => ⟨S100000x128, .f32⟩
  | 38 => ⟨S1x128, .f32⟩
  | 39 => ⟨S1x128, .f32⟩
  | 40 => ⟨S128, .f32⟩
  | 41 => ⟨S_, .f32⟩
  | 42 => ⟨S128, .f32⟩
  | 43 => ⟨S128, .f32⟩
  | 44 => ⟨S128, .f32⟩
  | 45 => ⟨S_, .f32⟩
  | 46 => ⟨S128, .f32⟩
  | 47 => ⟨S128, .f32⟩
  | 48 => ⟨S128, .f32⟩
  | 49 => ⟨S128, .f32⟩
  | 50 => ⟨S_, .f32⟩
  | 51 => ⟨S128, .f32⟩
  | 52 => ⟨S128, .f32⟩
  | 53 => ⟨S128, .f32⟩
  | 54 => ⟨S1x128, .f32⟩
  | 55 => ⟨S128, .f32⟩
  | 56 => ⟨S1x128, .f32⟩
  | 57 => ⟨S128, .f32⟩
  | 58 => ⟨S1x128, .f32⟩
  | 59 => ⟨S1x128, .f32⟩
  | 60 => ⟨S1x128, .f32⟩
  | 61 => ⟨S1x128, .f32⟩
  | 62 => ⟨S100000x128, .f32⟩
  | 63 => ⟨S_, .i32⟩
  | 64 => ⟨S1600000, .i32⟩
  | 65 => ⟨S1600000, .i1⟩
  | 66 => ⟨S_, .i32⟩
  | 67 => ⟨S1600000, .i32⟩
  | 68 => ⟨S1600000, .i32⟩
  | 69 => ⟨S1600000, .i32⟩
  | 70 => ⟨S1600000x1, .i32⟩
  | 71 => ⟨S1600000x128, .f32⟩
  | 72 => ⟨S_, .f32⟩
  | 73 => ⟨S100000x128, .f32⟩
  | 74 => ⟨S1600000x1, .i32⟩
  | 75 => ⟨S100000x128, .f32⟩
  | 76 => ⟨S100000x128, .f32⟩
  | 77 => ⟨S1x128x128, .f32⟩
  | 78 => ⟨S128x128, .f32⟩
  | 79 => ⟨S1x128, .f32⟩
  | 80 => ⟨S128, .f32⟩
  | 81 => ⟨S1x128x128, .f32⟩
  | 82 => ⟨S128x128, .f32⟩
  | 83 => ⟨S1x128, .f32⟩
  | 84 => ⟨S128, .f32⟩
  | 85 => ⟨S1x128, .f32⟩
  | 86 => ⟨S1x128, .f32⟩
  | 87 => ⟨S100000x128, .f32⟩
  | 88 => ⟨S1x128, .f32⟩
  | 89 => ⟨S1x128, .f32⟩
  | 90 => ⟨S128, .f32⟩
  | 91 => ⟨S_, .f32⟩
  | 92 => ⟨S128, .f32⟩
  | 93 => ⟨S128, .f32⟩
  | 94 => ⟨S128, .f32⟩
  | 95 => ⟨S_, .f32⟩
  | 96 => ⟨S128, .f32⟩
  | 97 => ⟨S128, .f32⟩
  | 98 => ⟨S128, .f32⟩
  | 99 => ⟨S128, .f32⟩
  | 100 => ⟨S_, .f32⟩
  | 101 => ⟨S128, .f32⟩
  | 102 => ⟨S128, .f32⟩
  | 103 => ⟨S128, .f32⟩
  | 104 => ⟨S1x128, .f32⟩
  | 105 => ⟨S128, .f32⟩
  | 106 => ⟨S1x128, .f32⟩
  | 107 => ⟨S128, .f32⟩
  | 108 => ⟨S1x128, .f32⟩
  | 109 => ⟨S1x128, .f32⟩
  | 110 => ⟨S1x128, .f32⟩
  | 111 => ⟨S1x128, .f32⟩
  | 112 => ⟨S100000x128, .f32⟩
  | 113 => ⟨S_, .i32⟩
  | 114 => ⟨S1600000, .i32⟩
  | 115 => ⟨S1600000, .i1⟩
  | 116 => ⟨S_, .i32⟩
  | 117 => ⟨S1600000, .i32⟩
  | 118 => ⟨S1600000, .i32⟩
  | 119 => ⟨S1600000, .i32⟩
  | 120 => ⟨S1600000x1, .i32⟩
  | 121 => ⟨S1600000x128, .f32⟩
  | 122 => ⟨S_, .f32⟩
  | 123 => ⟨S100000x128, .f32⟩
  | 124 => ⟨S1600000x1, .i32⟩
  | 125 => ⟨S100000x128, .f32⟩
  | 126 => ⟨S100000x128, .f32⟩
  | 127 => ⟨S1x128x128, .f32⟩
  | _ => ⟨S100000x128, .f32⟩

abbrev hbmTy0_1 (i : Nat) : BufTy := match i % 128 with
  | 0 => ⟨S128x128, .f32⟩
  | 1 => ⟨S1x128, .f32⟩
  | 2 => ⟨S128, .f32⟩
  | 3 => ⟨S1x128x128, .f32⟩
  | 4 => ⟨S128x128, .f32⟩
  | 5 => ⟨S1x128, .f32⟩
  | 6 => ⟨S128, .f32⟩
  | 7 => ⟨S1x128, .f32⟩
  | 8 => ⟨S1x128, .f32⟩
  | 9 => ⟨S100000x128, .f32⟩
  | 10 => ⟨S1x128, .f32⟩
  | 11 => ⟨S1x128, .f32⟩
  | 12 => ⟨S128, .f32⟩
  | 13 => ⟨S_, .f32⟩
  | 14 => ⟨S128, .f32⟩
  | 15 => ⟨S128, .f32⟩
  | 16 => ⟨S128, .f32⟩
  | 17 => ⟨S_, .f32⟩
  | 18 => ⟨S128, .f32⟩
  | 19 => ⟨S128, .f32⟩
  | 20 => ⟨S128, .f32⟩
  | 21 => ⟨S128, .f32⟩
  | 22 => ⟨S_, .f32⟩
  | 23 => ⟨S128, .f32⟩
  | 24 => ⟨S128, .f32⟩
  | 25 => ⟨S128, .f32⟩
  | 26 => ⟨S1x128, .f32⟩
  | 27 => ⟨S128, .f32⟩
  | 28 => ⟨S1x128, .f32⟩
  | 29 => ⟨S128, .f32⟩
  | 30 => ⟨S1x128, .f32⟩
  | 31 => ⟨S1x128, .f32⟩
  | 32 => ⟨S1x128, .f32⟩
  | 33 => ⟨S1x128, .f32⟩
  | 34 => ⟨S100000x128, .f32⟩
  | 35 => ⟨S100000x1, .i32⟩
  | 36 => ⟨S512x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S1x128, .f32⟩
  | .local _ .vmem, ⟨4, _⟩ => ⟨S128x128, .f32⟩
  | .local _ .vmem, ⟨5, _⟩ => ⟨S1x128, .f32⟩
  | .local _ .vmem, ⟨6, _⟩ => ⟨S5000x128, .f32⟩
  | .local _ .vmem, ⟨7, _⟩ => ⟨S5000x128, .f32⟩
  | .local _ .vmem, ⟨8, _⟩ => ⟨S1x128, .f32⟩
  | .local _ .vmem, ⟨9, _⟩ => ⟨S1x128, .f32⟩
  | .local _ .vmem, ⟨10, _⟩ => ⟨S1x128, .f32⟩
  | .local _ .vmem, ⟨11, _⟩ => ⟨S1x128, .f32⟩
  | .local _ .vmem, ⟨12, _⟩ => ⟨S5000x128, .f32⟩
  | .local _ .vmem, ⟨13, _⟩ => ⟨S5000x128, .f32⟩
  | .local _ .vmem, ⟨14, _⟩ => ⟨S1x128, .f32⟩
  | .local _ .vmem, ⟨15, _⟩ => ⟨S1x128, .f32⟩
  | .local _ .vmem, ⟨16, _⟩ => ⟨S1x128, .f32⟩
  | .local _ .vmem, ⟨17, _⟩ => ⟨S1x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x128, .f32⟩
  | .local _ .vmem, ⟨23, _⟩ => ⟨S1x128, .f32⟩
  | .local _ .vmem, ⟨24, _⟩ => ⟨S128x128, .f32⟩
  | .local _ .vmem, ⟨25, _⟩ => ⟨S1x128, .f32⟩
  | .local _ .vmem, ⟨26, _⟩ => ⟨S5000x128, .f32⟩
  | .local _ .vmem, ⟨27, _⟩ => ⟨S5000x128, .f32⟩
  | .local _ .vmem, ⟨28, _⟩ => ⟨S1x128, .f32⟩
  | .local _ .vmem, ⟨29, _⟩ => ⟨S1x128, .f32⟩
  | .local _ .vmem, ⟨30, _⟩ => ⟨S1x128, .f32⟩
  | .local _ .vmem, ⟨31, _⟩ => ⟨S1x128, .f32⟩
  | .local _ .vmem, ⟨32, _⟩ => ⟨S5000x128, .f32⟩
  | .local _ .vmem, ⟨33, _⟩ => ⟨S5000x128, .f32⟩
  | .local _ .vmem, ⟨34, _⟩ => ⟨S1x128, .f32⟩
  | .local _ .vmem, ⟨35, _⟩ => ⟨S1x128, .f32⟩
  | .local _ .vmem, ⟨36, _⟩ => ⟨S1x128, .f32⟩
  | .local _ .vmem, ⟨37, _⟩ => ⟨S1x128, .f32⟩
  | .local _ .vmem, ⟨38, _⟩ => ⟨S5000x128, .f32⟩
  | .local _ .vmem, ⟨39, _⟩ => ⟨S5000x128, .f32⟩
  | .local _ .vmem, ⟨40, _⟩ => ⟨S5000x128, .f32⟩
  | .local _ .vmem, ⟨41, _⟩ => ⟨S5000x128, .f32⟩
  | .local _ .vmem, ⟨42, _⟩ => ⟨S128x128, .f32⟩
  | .local _ .vmem, ⟨43, _⟩ => ⟨S1x128, .f32⟩
  | .local _ .vmem, ⟨44, _⟩ => ⟨S128x128, .f32⟩
  | .local _ .vmem, ⟨45, _⟩ => ⟨S1x128, .f32⟩
  | .local _ .vmem, ⟨46, _⟩ => ⟨S5000x128, .f32⟩
  | .local _ .vmem, ⟨47, _⟩ => ⟨S5000x128, .f32⟩
  | .local _ .vmem, ⟨48, _⟩ => ⟨S1x128, .f32⟩
  | .local _ .vmem, ⟨49, _⟩ => ⟨S1x128, .f32⟩
  | .local _ .vmem, ⟨50, _⟩ => ⟨S1x128, .f32⟩
  | .local _ .vmem, ⟨51, _⟩ => ⟨S1x128, .f32⟩
  | .local _ .vmem, ⟨52, _⟩ => ⟨S5000x128, .f32⟩
  | .local _ .vmem, ⟨53, _⟩ => ⟨S5000x128, .f32⟩
  | .local _ .vmem, ⟨54, _⟩ => ⟨S1x128, .f32⟩
  | .local _ .vmem, ⟨55, _⟩ => ⟨S1x128, .f32⟩
  | .local _ .vmem, ⟨56, _⟩ => ⟨S1x128, .f32⟩
  | .local _ .vmem, ⟨57, _⟩ => ⟨S1x128, .f32⟩
  | .local _ .vmem, ⟨58, _⟩ => ⟨S5000x128, .f32⟩
  | .local _ .vmem, ⟨59, _⟩ => ⟨S5000x128, .f32⟩
  | .local _ .vmem, ⟨60, _⟩ => ⟨S5000x1, .i32⟩
  | .local _ .vmem, ⟨61, _⟩ => ⟨S5000x1, .i32⟩
  | .local _ .vmem, ⟨62, _⟩ => ⟨S5000x128, .f32⟩
  | .local _ .vmem, ⟨63, _⟩ => ⟨S5000x128, .f32⟩
  | .local _ .vmem, ⟨64, _⟩ => ⟨S512x128, .f32⟩
  | .local _ .vmem, ⟨65, _⟩ => ⟨S512x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | _, _ => false

abbrev semScoped : Fin 0 → Bool
  | ⟨_, h⟩ => absurd h (Nat.not_lt_zero _)

abbrev dmaSemScoped : Fin 59 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | _ => false

abbrev sig : RefSig :=
  ofTc nBuf bufTy 0 59 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25_0 : Ref sig .tc := ⟨.hbm, 37, rfl⟩
abbrev main_v25_1 : Ref sig .tc := ⟨.hbm, 38, rfl⟩
abbrev main_v25_2 : Ref sig .tc := ⟨.hbm, 39, rfl⟩
abbrev main_v26 : Ref sig .tc := ⟨.hbm, 40, rfl⟩
abbrev main_cst_1 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_2 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_3 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_c_4 : Ref sig .tc := ⟨.hbm, 63, rfl⟩
abbrev main_v46 : Ref sig .tc := ⟨.hbm, 64, rfl⟩
abbrev main_v47 : Ref sig .tc := ⟨.hbm, 65, rfl⟩
abbrev main_c_5 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_cst_6 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67_0 : Ref sig .tc := ⟨.hbm, 87, rfl⟩
abbrev main_v67_1 : Ref sig .tc := ⟨.hbm, 88, rfl⟩
abbrev main_v67_2 : Ref sig .tc := ⟨.hbm, 89, rfl⟩
abbrev main_v68 : Ref sig .tc := ⟨.hbm, 90, rfl⟩
abbrev main_cst_7 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_cst_8 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_cst_9 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_c_10 : Ref sig .tc := ⟨.hbm, 113, rfl⟩
abbrev main_v88 : Ref sig .tc := ⟨.hbm, 114, rfl⟩
abbrev main_v89 : Ref sig .tc := ⟨.hbm, 115, rfl⟩
abbrev main_c_11 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_cst_12 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_v103 : Ref sig .tc := ⟨.hbm, 131, rfl⟩
abbrev main_v104 : Ref sig .tc := ⟨.hbm, 132, rfl⟩
abbrev main_v105 : Ref sig .tc := ⟨.hbm, 133, rfl⟩
abbrev main_v106 : Ref sig .tc := ⟨.hbm, 134, rfl⟩
abbrev main_v107 : Ref sig .tc := ⟨.hbm, 135, rfl⟩
abbrev main_v108 : Ref sig .tc := ⟨.hbm, 136, rfl⟩
abbrev main_v109_0 : Ref sig .tc := ⟨.hbm, 137, rfl⟩
abbrev main_v109_1 : Ref sig .tc := ⟨.hbm, 138, rfl⟩
abbrev main_v109_2 : Ref sig .tc := ⟨.hbm, 139, rfl⟩
abbrev main_v110 : Ref sig .tc := ⟨.hbm, 140, rfl⟩
abbrev main_cst_13 : Ref sig .tc := ⟨.hbm, 141, rfl⟩
abbrev main_v111 : Ref sig .tc := ⟨.hbm, 142, rfl⟩
abbrev main_v112 : Ref sig .tc := ⟨.hbm, 143, rfl⟩
abbrev main_v113 : Ref sig .tc := ⟨.hbm, 144, rfl⟩
abbrev main_cst_14 : Ref sig .tc := ⟨.hbm, 145, rfl⟩
abbrev main_v114 : Ref sig .tc := ⟨.hbm, 146, rfl⟩
abbrev main_v115 : Ref sig .tc := ⟨.hbm, 147, rfl⟩
abbrev main_v116 : Ref sig .tc := ⟨.hbm, 148, rfl⟩
abbrev main_v117 : Ref sig .tc := ⟨.hbm, 149, rfl⟩
abbrev main_cst_15 : Ref sig .tc := ⟨.hbm, 150, rfl⟩
abbrev main_v118 : Ref sig .tc := ⟨.hbm, 151, rfl⟩
abbrev main_v119 : Ref sig .tc := ⟨.hbm, 152, rfl⟩
abbrev main_v120 : Ref sig .tc := ⟨.hbm, 153, rfl⟩
abbrev main_v121 : Ref sig .tc := ⟨.hbm, 154, rfl⟩
abbrev main_v122 : Ref sig .tc := ⟨.hbm, 155, rfl⟩
abbrev main_v123 : Ref sig .tc := ⟨.hbm, 156, rfl⟩
abbrev main_v124 : Ref sig .tc := ⟨.hbm, 157, rfl⟩
abbrev main_v125 : Ref sig .tc := ⟨.hbm, 158, rfl⟩
abbrev main_v126 : Ref sig .tc := ⟨.hbm, 159, rfl⟩
abbrev main_v127 : Ref sig .tc := ⟨.hbm, 160, rfl⟩
abbrev main_v128 : Ref sig .tc := ⟨.hbm, 161, rfl⟩
abbrev main_v129 : Ref sig .tc := ⟨.hbm, 162, rfl⟩
abbrev main_v130 : Ref sig .tc := ⟨.hbm, 163, rfl⟩
abbrev main_v131 : Ref sig .tc := ⟨.hbm, 164, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg7_0 : Ref sig .tc := ⟨.vmem, 9, rfl⟩
abbrev cc0_scratch0 : Ref sig .tc := ⟨.vmem, 10, rfl⟩
abbrev cc0_scratch1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg5_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg2_0 : Ref sig .tc := ⟨.vmem, 23, rfl⟩
abbrev cc2_stg3_0 : Ref sig .tc := ⟨.vmem, 24, rfl⟩
abbrev cc2_stg4_0 : Ref sig .tc := ⟨.vmem, 25, rfl⟩
abbrev cc2_stg5_0 : Ref sig .tc := ⟨.vmem, 26, rfl⟩
abbrev cc2_stg5_1 : Ref sig .tc := ⟨.vmem, 27, rfl⟩
abbrev cc2_stg6_0 : Ref sig .tc := ⟨.vmem, 28, rfl⟩
abbrev cc2_stg7_0 : Ref sig .tc := ⟨.vmem, 29, rfl⟩
abbrev cc2_scratch0 : Ref sig .tc := ⟨.vmem, 30, rfl⟩
abbrev cc2_scratch1 : Ref sig .tc := ⟨.vmem, 31, rfl⟩
abbrev cc3_stg0_0 : Ref sig .tc := ⟨.vmem, 32, rfl⟩
abbrev cc3_stg0_1 : Ref sig .tc := ⟨.vmem, 33, rfl⟩
abbrev cc3_stg1_0 : Ref sig .tc := ⟨.vmem, 34, rfl⟩
abbrev cc3_stg2_0 : Ref sig .tc := ⟨.vmem, 35, rfl⟩
abbrev cc3_stg3_0 : Ref sig .tc := ⟨.vmem, 36, rfl⟩
abbrev cc3_stg4_0 : Ref sig .tc := ⟨.vmem, 37, rfl⟩
abbrev cc3_stg5_0 : Ref sig .tc := ⟨.vmem, 38, rfl⟩
abbrev cc3_stg5_1 : Ref sig .tc := ⟨.vmem, 39, rfl⟩
abbrev cc4_stg0_0 : Ref sig .tc := ⟨.vmem, 40, rfl⟩
abbrev cc4_stg0_1 : Ref sig .tc := ⟨.vmem, 41, rfl⟩
abbrev cc4_stg1_0 : Ref sig .tc := ⟨.vmem, 42, rfl⟩
abbrev cc4_stg2_0 : Ref sig .tc := ⟨.vmem, 43, rfl⟩
abbrev cc4_stg3_0 : Ref sig .tc := ⟨.vmem, 44, rfl⟩
abbrev cc4_stg4_0 : Ref sig .tc := ⟨.vmem, 45, rfl⟩
abbrev cc4_stg5_0 : Ref sig .tc := ⟨.vmem, 46, rfl⟩
abbrev cc4_stg5_1 : Ref sig .tc := ⟨.vmem, 47, rfl⟩
abbrev cc4_stg6_0 : Ref sig .tc := ⟨.vmem, 48, rfl⟩
abbrev cc4_stg7_0 : Ref sig .tc := ⟨.vmem, 49, rfl⟩
abbrev cc4_scratch0 : Ref sig .tc := ⟨.vmem, 50, rfl⟩
abbrev cc4_scratch1 : Ref sig .tc := ⟨.vmem, 51, rfl⟩
abbrev cc5_stg0_0 : Ref sig .tc := ⟨.vmem, 52, rfl⟩
abbrev cc5_stg0_1 : Ref sig .tc := ⟨.vmem, 53, rfl⟩
abbrev cc5_stg1_0 : Ref sig .tc := ⟨.vmem, 54, rfl⟩
abbrev cc5_stg2_0 : Ref sig .tc := ⟨.vmem, 55, rfl⟩
abbrev cc5_stg3_0 : Ref sig .tc := ⟨.vmem, 56, rfl⟩
abbrev cc5_stg4_0 : Ref sig .tc := ⟨.vmem, 57, rfl⟩
abbrev cc5_stg5_0 : Ref sig .tc := ⟨.vmem, 58, rfl⟩
abbrev cc5_stg5_1 : Ref sig .tc := ⟨.vmem, 59, rfl⟩
abbrev cc6_stg0_0 : Ref sig .tc := ⟨.vmem, 60, rfl⟩
abbrev cc6_stg0_1 : Ref sig .tc := ⟨.vmem, 61, rfl⟩
abbrev cc6_stg1_0 : Ref sig .tc := ⟨.vmem, 62, rfl⟩
abbrev cc6_stg1_1 : Ref sig .tc := ⟨.vmem, 63, rfl⟩
abbrev cc6_stg2_0 : Ref sig .tc := ⟨.vmem, 64, rfl⟩
abbrev cc6_scratch0 : Ref sig .tc := ⟨.vmem, 65, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem7_0 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem2_0 : DmaSem sig := 21
abbrev cc2_sem3_0 : DmaSem sig := 22
abbrev cc2_sem4_0 : DmaSem sig := 23
abbrev cc2_sem5_0 : DmaSem sig := 24
abbrev cc2_sem5_1 : DmaSem sig := 25
abbrev cc2_sem6_0 : DmaSem sig := 26
abbrev cc2_sem7_0 : DmaSem sig := 27
abbrev cc3_sem0_0 : DmaSem sig := 28
abbrev cc3_sem0_1 : DmaSem sig := 29
abbrev cc3_sem1_0 : DmaSem sig := 30
abbrev cc3_sem2_0 : DmaSem sig := 31
abbrev cc3_sem3_0 : DmaSem sig := 32
abbrev cc3_sem4_0 : DmaSem sig := 33
abbrev cc3_sem5_0 : DmaSem sig := 34
abbrev cc3_sem5_1 : DmaSem sig := 35
abbrev cc4_sem0_0 : DmaSem sig := 36
abbrev cc4_sem0_1 : DmaSem sig := 37
abbrev cc4_sem1_0 : DmaSem sig := 38
abbrev cc4_sem2_0 : DmaSem sig := 39
abbrev cc4_sem3_0 : DmaSem sig := 40
abbrev cc4_sem4_0 : DmaSem sig := 41
abbrev cc4_sem5_0 : DmaSem sig := 42
abbrev cc4_sem5_1 : DmaSem sig := 43
abbrev cc4_sem6_0 : DmaSem sig := 44
abbrev cc4_sem7_0 : DmaSem sig := 45
abbrev cc5_sem0_0 : DmaSem sig := 46
abbrev cc5_sem0_1 : DmaSem sig := 47
abbrev cc5_sem1_0 : DmaSem sig := 48
abbrev cc5_sem2_0 : DmaSem sig := 49
abbrev cc5_sem3_0 : DmaSem sig := 50
abbrev cc5_sem4_0 : DmaSem sig := 51
abbrev cc5_sem5_0 : DmaSem sig := 52
abbrev cc5_sem5_1 : DmaSem sig := 53
abbrev cc6_sem0_0 : DmaSem sig := 54
abbrev cc6_sem0_1 : DmaSem sig := 55
abbrev cc6_sem1_0 : DmaSem sig := 56
abbrev cc6_sem1_1 : DmaSem sig := 57
abbrev cc6_sem2_0 : DmaSem sig := 58

abbrev nD : Nat := 1
abbrev τ : Topo := Topo.v7x

variable {F : FTy → Type} [FloatOps F]

abbrev grid0 : Pipeline.Grid := ⟨1, ![20], ![false]⟩

def k0_cond2 (i : grid0.Coords) : BitVec 1 :=
  let arg0 : BitVec 32 := BitVec.ofNat 32 (i 0).val
  let c19_i32 : BitVec 32 := 19#32
  let v41 : BitVec 1 := Scalar.cmpi .eq arg0 c19_i32
  let v42 : BitVec 32 := Scalar.extui v41
  let c0_i32_24 : BitVec 32 := 0#32
  let v43 : BitVec 1 := Scalar.cmpi .ne v42 c0_i32_24
  v43

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def k2_cond2 (i : grid2.Coords) : BitVec 1 :=
  let arg0 : BitVec 32 := BitVec.ofNat 32 (i 0).val
  let c19_i32 : BitVec 32 := 19#32
  let v41 : BitVec 1 := Scalar.cmpi .eq arg0 c19_i32
  let v42 : BitVec 32 := Scalar.extui v41
  let c0_i32_24 : BitVec 32 := 0#32
  let v43 : BitVec 1 := Scalar.cmpi .ne v42 c0_i32_24
  v43

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![20], ![false]⟩

def k4_cond2 (i : grid4.Coords) : BitVec 1 :=
  let arg0 : BitVec 32 := BitVec.ofNat 32 (i 0).val
  let c19_i32 : BitVec 32 := 19#32
  let v41 : BitVec 1 := Scalar.cmpi .eq arg0 c19_i32
  let v42 : BitVec 32 := Scalar.extui v41
  let c0_i32_24 : BitVec 32 := 0#32
  let v43 : BitVec 1 := Scalar.cmpi .ne v42 c0_i32_24
  v43

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S128x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S5000x128 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev stage4_6 : Fin 1 → Memref sig .tc .vmem S1x128 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 1 → Memref sig .tc .vmem S1x128 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S5000x128 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨1, ![20], ![false]⟩

def k6_cond2 (i : grid6.Coords) : BitVec 1 :=
  let arg0 : BitVec 32 := BitVec.ofNat 32 (i 0).val
  let c19_i32 : BitVec 32 := 19#32
  let v21 : BitVec 1 := Scalar.cmpi .eq arg0 c19_i32
  let v22 : BitVec 32 := Scalar.extui v21
  let c0_i32_8 : BitVec 32 := 0#32
  let v23 : BitVec 1 := Scalar.cmpi .ne v22 c0_i32_8
  v23

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 2 → Memref sig .tc .vmem S5000x1 .i32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S5000x128 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S512x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  shapeCasts_S128_S1x128 : S128.ShapeCasts S1x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  broadcasts_S1x128_S5000x128 : S1x128.Broadcasts S5000x128
  reduces_S5000x128_S128 : S5000x128.Reduces [0] S128
  bcast_S_S128 : S_.BroadcastsInDim S128 (![] : Fin 0 → Fin S128.rank)
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  shapeCasts_S100000_S100000x1 : S100000.ShapeCasts S100000x1
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  iota_S5000x512_d1_w32 : S5000x512.Iotas .tc 32 [1]
  broadcasts_S5000x1_S5000x512 : S5000x1.Broadcasts S5000x512
  natLt_1_32 : 1 < 32
  transposes_S5000x512_p1_0_S512x5000 : S5000x512.Transposes [1, 0] S512x5000
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  dot_S512x5000_S5000x128_S512x128_1_0_0_1_n_n_wf : DotDims.WF S512x5000 S5000x128 S512x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S100000x128.size a
  hwx1_5 : ∀ i : grid1.Coords, EltTy.bits .f32 = 32 ∨ (Rect.block (s := S100000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S100000x128.size a
  hwx2_5 : ∀ i : grid2.Coords, EltTy.bits .f32 = 32 ∨ (Rect.block (s := S100000x128) S5000x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x128.size a ≤ S1x128.size a
  hwx2_7 : ∀ i : grid2.Coords, EltTy.bits .f32 = 32 ∨ (Rect.block (s := S1x128) S1x128.size (cc2_transform_7 i) (hinb2_7 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x128.size a ≤ S100000x128.size a
  hwx3_5 : ∀ i : grid3.Coords, EltTy.bits .f32 = 32 ∨ (Rect.block (s := S100000x128) S5000x128.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128x128.size a ≤ S128x128.size a
  hwx4_3 : ∀ i : grid4.Coords, EltTy.bits .f32 = 32 ∨ (Rect.block (s := S128x128) S128x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x128.size a ≤ S1x128.size a
  hwx4_4 : ∀ i : grid4.Coords, EltTy.bits .f32 = 32 ∨ (Rect.block (s := S1x128) S1x128.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S5000x128.size a ≤ S100000x128.size a
  hwx4_5 : ∀ i : grid4.Coords, EltTy.bits .f32 = 32 ∨ (Rect.block (s := S100000x128) S5000x128.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x128.size a ≤ S1x128.size a
  hwx4_6 : ∀ i : grid4.Coords, EltTy.bits .f32 = 32 ∨ (Rect.block (s := S1x128) S1x128.size (cc4_transform_6 i) (hinb4_6 i)).WholeWords (EltTy.packing .f32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S1x128.size a ≤ S1x128.size a
  hwx4_7 : ∀ i : grid4.Coords, EltTy.bits .f32 = 32 ∨ (Rect.block (s := S1x128) S1x128.size (cc4_transform_7 i) (hinb4_7 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S100000x128.size a
  hwx5_0 : ∀ i : grid5.Coords, EltTy.bits .f32 = 32 ∨ (Rect.block (s := S100000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S5000x128.size a ≤ S100000x128.size a
  hwx5_5 : ∀ i : grid5.Coords, EltTy.bits .f32 = 32 ∨ (Rect.block (s := S100000x128) S5000x128.size (cc5_transform_5 i) (hinb5_5 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x1.size a ≤ S100000x1.size a
  hwx6_0 : ∀ i : grid6.Coords, EltTy.bits .i32 = 32 ∨ (Rect.block (s := S100000x1) S5000x1.size (cc6_transform_0 i) (hinb6_0 i)).WholeWords (EltTy.packing .i32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S5000x128.size a ≤ S100000x128.size a
  hwx6_1 : ∀ i : grid6.Coords, EltTy.bits .f32 = 32 ∨ (Rect.block (s := S100000x128) S5000x128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S512x128.size a ≤ S512x128.size a
  hwx6_2 : ∀ i : grid6.Coords, EltTy.bits .f32 = 32 ∨ (Rect.block (s := S512x128) S512x128.size (cc6_transform_2 i) (hinb6_2 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S512x5000_S5000x128_S512x128_1_0_0_1_n_n : DotDims S512x5000 S5000x128 S512x128 where
  lhsContracting := [1]
  rhsContracting := [0]
  lhsNonContracting := [0]
  rhsNonContracting := [1]
  lhsBatch := []
  rhsBatch := []
  wf := dot_S512x5000_S5000x128_S512x128_1_0_0_1_n_n_wf

abbrev win0_0 : Pipeline.Window sig grid0 :=
  Pipeline.Window.ofSpec (Memref.whole main_v14) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v16) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v23) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v20) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v24) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v25_0) S5000x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v25_1) S1x128.size cc0_transform_6 reads0_6 true true 1 stage0_6 sem0_6
    hrank0 hreads0_6 hinb0_6 nbuf0_6 (Memref.isWhole_whole _) hwx0_6 hstage0_6

abbrev win0_7 : Pipeline.Window sig grid0 :=
  Pipeline.Window.ofSpec (Memref.whole main_v25_2) S1x128.size cc0_transform_7 reads0_7 true true 1 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun i => !(k0_cond2 i == 1#1) | 7 => fun i => !(k0_cond2 i == 1#1) | ⟨_ + 8, h⟩ => absurd h (Nat.not_lt.2 (Nat.le_add_left _ _))

abbrev win1_0 : Pipeline.Window sig grid1 :=
  Pipeline.Window.ofSpec (Memref.whole main_v25_0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v41) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v42) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v43) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v44) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v45) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v56) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v58) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v65) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v62) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v66) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v67_0) S5000x128.size cc2_transform_5 reads2_5 true false 2 stage2_5 sem2_5
    hrank2 hreads2_5 hinb2_5 nbuf2_5 (Memref.isWhole_whole _) hwx2_5 hstage2_5

abbrev win2_6 : Pipeline.Window sig grid2 :=
  Pipeline.Window.ofSpec (Memref.whole main_v67_1) S1x128.size cc2_transform_6 reads2_6 true true 1 stage2_6 sem2_6
    hrank2 hreads2_6 hinb2_6 nbuf2_6 (Memref.isWhole_whole _) hwx2_6 hstage2_6

abbrev win2_7 : Pipeline.Window sig grid2 :=
  Pipeline.Window.ofSpec (Memref.whole main_v67_2) S1x128.size cc2_transform_7 reads2_7 true true 1 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev idle2 : Fin 8 → grid2.Coords → Bool := fun | 0 => fun _ => false | 1 => fun _ => false | 2 => fun _ => false | 3 => fun _ => false | 4 => fun _ => false | 5 => fun _ => false | 6 => fun i => !(k2_cond2 i == 1#1) | 7 => fun i => !(k2_cond2 i == 1#1) | ⟨_ + 8, h⟩ => absurd h (Nat.not_lt.2 (Nat.le_add_left _ _))

abbrev win3_0 : Pipeline.Window sig grid3 :=
  Pipeline.Window.ofSpec (Memref.whole main_v67_0) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v83) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v84) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v85) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v86) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v87) S5000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v98) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v100) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v107) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v104) S128x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v108) S1x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v109_0) S5000x128.size cc4_transform_5 reads4_5 true false 2 stage4_5 sem4_5
    hrank4 hreads4_5 hinb4_5 nbuf4_5 (Memref.isWhole_whole _) hwx4_5 hstage4_5

abbrev win4_6 : Pipeline.Window sig grid4 :=
  Pipeline.Window.ofSpec (Memref.whole main_v109_1) S1x128.size cc4_transform_6 reads4_6 true true 1 stage4_6 sem4_6
    hrank4 hreads4_6 hinb4_6 nbuf4_6 (Memref.isWhole_whole _) hwx4_6 hstage4_6

abbrev win4_7 : Pipeline.Window sig grid4 :=
  Pipeline.Window.ofSpec (Memref.whole main_v109_2) S1x128.size cc4_transform_7 reads4_7 true true 1 stage4_7 sem4_7
    hrank4 hreads4_7 hinb4_7 nbuf4_7 (Memref.isWhole_whole _) hwx4_7 hstage4_7

abbrev win4 : Fin 8 → Pipeline.Window sig grid4 := fun | 0 => win4_0 | 1 => win4_1 | 2 => win4_2 | 3 => win4_3 | 4 => win4_4 | 5 => win4_5 | 6 => win4_6 | 7 => win4_7 | ⟨_ + 8, h⟩ => absurd h (Nat.not_lt.2 (Nat.le_add_left _ _))
abbrev spec4 : Fin 8 → Pipeline.WinSpec sig grid4.rank := fun w => (win4 w).toWinSpec

abbrev idle4 : Fin 8 → grid4.Coords → Bool := fun | 0 => fun _ => false | 1 => fun _ => false | 2 => fun _ => false | 3 => fun _ => false | 4 => fun _ => false | 5 => fun _ => false | 6 => fun i => !(k4_cond2 i == 1#1) | 7 => fun i => !(k4_cond2 i == 1#1) | ⟨_ + 8, h⟩ => absurd h (Nat.not_lt.2 (Nat.le_add_left _ _))

abbrev win5_0 : Pipeline.Window sig grid5 :=
  Pipeline.Window.ofSpec (Memref.whole main_v109_0) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v125) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v126) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v127) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v128) S1x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v129) S5000x128.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_v130) S5000x1.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v129) S5000x128.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v131) S512x128.size cc6_transform_2 reads6_2 true true 1 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev idle6 : Fin 3 → grid6.Coords → Bool := fun | 0 => fun _ => false | 1 => fun _ => false | 2 => fun i => !(k6_cond2 i == 1#1) | ⟨_ + 3, h⟩ => absurd h (Nat.not_lt.2 (Nat.le_add_left _ _))

class Facts : Prop extends Facts₀ where

variable [Facts]
-- ==== ReferenceIdeal.lean ====
abbrev S100000x128 : Shape := ⟨2, ![100000, 128]⟩
abbrev S2x1600000 : Shape := ⟨2, ![2, 1600000]⟩
abbrev S100000 : Shape := ⟨1, ![100000]⟩
abbrev S3x128x128 : Shape := ⟨3, ![3, 128, 128]⟩
abbrev S3x128 : Shape := ⟨2, ![3, 128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S512x128 : Shape := ⟨2, ![512, 128]⟩
abbrev S100000x1 : Shape := ⟨2, ![100000, 1]⟩

abbrev nBuf : Space → Nat
  | .hbm => 269
  | .vmem => 0
  | .smem => 0
  | _ => 0

abbrev hbmTy0_0 (i : Nat) : BufTy := match i % 128 with
  | 0 => ⟨S100000x128, .f32⟩
  | 1 => ⟨S2x1600000, .i32⟩
  | 2 => ⟨S100000, .i32⟩
  | 3 => ⟨S3x128x128, .f32⟩
  | 4 => ⟨S3x128, .f32⟩
  | 5 => ⟨S3x128x128, .f32⟩
  | 6 => ⟨S3x128, .f32⟩
  | 7 => ⟨S3x128, .f32⟩
  | 8 => ⟨S3x128, .f32⟩
  | 9 => ⟨S1x1600000, .i32⟩
  | 10 => ⟨S1600000, .i32⟩
  | 11 => ⟨S1x1600000, .i32⟩
  | 12 => ⟨S1600000, .i32⟩
  | 13 => ⟨S_, .i32⟩
  | 14 => ⟨S1600000, .i32⟩
  | 15 => ⟨S1600000, .i1⟩
  | 16 => ⟨S_, .i32⟩
  | 17 => ⟨S1600000, .i32⟩
  | 18 => ⟨S1600000, .i32⟩
  | 19 => ⟨S1600000, .i32⟩
  | 20 => ⟨S1600000x1, .i32⟩
  | 21 => ⟨S1600000x128, .f32⟩
  | 22 => ⟨S_, .f32⟩
  | 23 => ⟨S100000x128, .f32⟩
  | 24 => ⟨S1600000x1, .i32⟩
  | 25 => ⟨S100000x128, .f32⟩
  | 26 => ⟨S100000x128, .f32⟩
  | 27 => ⟨S1x128x128, .f32⟩
  | 28 => ⟨S128x128, .f32⟩
  | 29 => ⟨S100000x128, .f32⟩
  | 30 => ⟨S1x128, .f32⟩
  | 31 => ⟨S128, .f32⟩
  | 32 => ⟨S1x128, .f32⟩
  | 33 => ⟨S100000x128, .f32⟩
  | 34 => ⟨S100000x128, .f32⟩
  | 35 => ⟨S_, .f32⟩
  | 36 => ⟨S100000x128, .f32⟩
  | 37 => ⟨S100000x128, .f32⟩
  | 38 => ⟨S1x128x128, .f32⟩
  | 39 => ⟨S128x128, .f32⟩
  | 40 => ⟨S100000x128, .f32⟩
  | 41 => ⟨S1x128, .f32⟩
  | 42 => ⟨S128, .f32⟩
  | 43 => ⟨S1x128, .f32⟩
  | 44 => ⟨S100000x128, .f32⟩
  | 45 => ⟨S100000x128, .f32⟩
  | 46 => ⟨S1x128, .f32⟩
  | 47 => ⟨S128, .f32⟩
  | 48 => ⟨S1x128, .f32⟩
  | 49 => ⟨S128, .f32⟩
  | 50 => ⟨S_, .f32⟩
  | 51 => ⟨S128, .f32⟩
  | 52 => ⟨S_, .f32⟩
  | 53 => ⟨S128, .f32⟩
  | 54 => ⟨S128, .f32⟩
  | 55 => ⟨S_, .i32⟩
  | 56 => ⟨S_, .f32⟩
  | 57 => ⟨S128, .f32⟩
  | 58 => ⟨S1x128, .f32⟩
  | 59 => ⟨S_, .f32⟩
  | 60 => ⟨S1x128, .f32⟩
  | 61 => ⟨S1x128, .f32⟩
  | 62 => ⟨S100000x128, .f32⟩
  | 63 => ⟨S100000x128, .f32⟩
  | 64 => ⟨S100000x128, .f32⟩
  | 65 => ⟨S_, .f32⟩
  | 66 => ⟨S_, .f32⟩
  | 67 => ⟨S_, .f32⟩
  | 68 => ⟨S_, .f32⟩
  | 69 => ⟨S128, .f32⟩
  | 70 => ⟨S128, .f32⟩
  | 71 => ⟨S128, .f32⟩
  | 72 => ⟨S_, .f32⟩
  | 73 => ⟨S_, .i1⟩
  | 74 => ⟨S_, .f32⟩
  | 75 => ⟨S_, .f32⟩
  | 76 => ⟨S128, .f32⟩
  | 77 => ⟨S128, .f32⟩
  | 78 => ⟨S1x128, .f32⟩
  | 79 => ⟨S100000x128, .f32⟩
  | 80 => ⟨S100000x128, .f32⟩
  | 81 => ⟨S_, .f32⟩
  | 82 => ⟨S128, .f32⟩
  | 83 => ⟨S128, .f32⟩
  | 84 => ⟨S128, .f32⟩
  | 85 => ⟨S1x128, .f32⟩
  | 86 => ⟨S100000x128, .f32⟩
  | 87 => ⟨S100000x128, .f32⟩
  | 88 => ⟨S1x128, .f32⟩
  | 89 => ⟨S100000x128, .f32⟩
  | 90 => ⟨S100000x128, .f32⟩
  | 91 => ⟨S1x128, .f32⟩
  | 92 => ⟨S100000x128, .f32⟩
  | 93 => ⟨S100000x128, .f32⟩
  | 94 => ⟨S_, .f32⟩
  | 95 => ⟨S100000x128, .f32⟩
  | 96 => ⟨S100000x128, .f32⟩
  | 97 => ⟨S_, .i32⟩
  | 98 => ⟨S1600000, .i32⟩
  | 99 => ⟨S1600000, .i1⟩
  | 100 => ⟨S_, .i32⟩
  | 101 => ⟨S1600000, .i32⟩
  | 102 => ⟨S1600000, .i32⟩
  | 103 => ⟨S1600000, .i32⟩
  | 104 => ⟨S1600000x1, .i32⟩
  | 105 => ⟨S1600000x128, .f32⟩
  | 106 => ⟨S_, .f32⟩
  | 107 => ⟨S100000x128, .f32⟩
  | 108 => ⟨S1600000x1, .i32⟩
  | 109 => ⟨S100000x128, .f32⟩
  | 110 => ⟨S100000x128, .f32⟩
  | 111 => ⟨S1x128x128, .f32⟩
  | 112 => ⟨S128x128, .f32⟩
  | 113 => ⟨S100000x128, .f32⟩
  | 114 => ⟨S1x128, .f32⟩
  | 115 => ⟨S128, .f32⟩
  | 116 => ⟨S1x128, .f32⟩
  | 117 => ⟨S100000x128, .f32⟩
  | 118 => ⟨S100000x128, .f32⟩
  | 119 => ⟨S_, .f32⟩
  | 120 => ⟨S100000x128, .f32⟩
  | 121 => ⟨S100000x128, .f32⟩
  | 122 => ⟨S1x128x128, .f32⟩
  | 123 => ⟨S128x128, .f32⟩
  | 124 => ⟨S100000x128, .f32⟩
  | 125 => ⟨S1x128, .f32⟩
  | 126 => ⟨S128, .f32⟩
  | 127 => ⟨S1x128, .f32⟩
  | _ => ⟨S100000x128, .f32⟩

abbrev hbmTy0_1 (i : Nat) : BufTy := match i % 128 with
  | 0 => ⟨S100000x128, .f32⟩
  | 1 => ⟨S100000x128, .f32⟩
  | 2 => ⟨S1x128, .f32⟩
  | 3 => ⟨S128, .f32⟩
  | 4 => ⟨S1x128, .f32⟩
  | 5 => ⟨S128, .f32⟩
  | 6 => ⟨S_, .f32⟩
  | 7 => ⟨S128, .f32⟩
  | 8 => ⟨S_, .f32⟩
  | 9 => ⟨S128, .f32⟩
  | 10 => ⟨S128, .f32⟩
  | 11 => ⟨S_, .i32⟩
  | 12 => ⟨S_, .f32⟩
  | 13 => ⟨S128, .f32⟩
  | 14 => ⟨S1x128, .f32⟩
  | 15 => ⟨S_, .f32⟩
  | 16 => ⟨S1x128, .f32⟩
  | 17 => ⟨S1x128, .f32⟩
  | 18 => ⟨S100000x128, .f32⟩
  | 19 => ⟨S100000x128, .f32⟩
  | 20 => ⟨S100000x128, .f32⟩
  | 21 => ⟨S_, .f32⟩
  | 22 => ⟨S_, .f32⟩
  | 23 => ⟨S_, .f32⟩
  | 24 => ⟨S_, .f32⟩
  | 25 => ⟨S128, .f32⟩
  | 26 => ⟨S128, .f32⟩
  | 27 => ⟨S128, .f32⟩
  | 28 => ⟨S_, .f32⟩
  | 29 => ⟨S_, .i1⟩
  | 30 => ⟨S_, .f32⟩
  | 31 => ⟨S_, .f32⟩
  | 32 => ⟨S128, .f32⟩
  | 33 => ⟨S128, .f32⟩
  | 34 => ⟨S1x128, .f32⟩
  | 35 => ⟨S100000x128, .f32⟩
  | 36 => ⟨S100000x128, .f32⟩
  | 37 => ⟨S_, .f32⟩
  | 38 => ⟨S128, .f32⟩
  | 39 => ⟨S128, .f32⟩
  | 40 => ⟨S128, .f32⟩
  | 41 => ⟨S1x128, .f32⟩
  | 42 => ⟨S100000x128, .f32⟩
  | 43 => ⟨S100000x128, .f32⟩
  | 44 => ⟨S1x128, .f32⟩
  | 45 => ⟨S100000x128, .f32⟩
  | 46 => ⟨S100000x128, .f32⟩
  | 47 => ⟨S1x128, .f32⟩
  | 48 => ⟨S100000x128, .f32⟩
  | 49 => ⟨S100000x128, .f32⟩
  | 50 => ⟨S_, .f32⟩
  | 51 => ⟨S100000x128, .f32⟩
  | 52 => ⟨S100000x128, .f32⟩
  | 53 => ⟨S_, .i32⟩
  | 54 => ⟨S1600000, .i32⟩
  | 55 => ⟨S1600000, .i1⟩
  | 56 => ⟨S_, .i32⟩
  | 57 => ⟨S1600000, .i32⟩
  | 58 => ⟨S1600000, .i32⟩
  | 59 => ⟨S1600000, .i32⟩
  | 60 => ⟨S1600000x1, .i32⟩
  | 61 => ⟨S1600000x128, .f32⟩
  | 62 => ⟨S_, .f32⟩
  | 63 => ⟨S100000x128, .f32⟩
  | 64 => ⟨S1600000x1, .i32⟩
  | 65 => ⟨S100000x128, .f32⟩
  | 66 => ⟨S100000x128, .f32⟩
  | 67 => ⟨S1x128x128, .f32⟩
  | 68 => ⟨S128x128, .f32⟩
  | 69 => ⟨S100000x128, .f32⟩
  | 70 => ⟨S1x128, .f32⟩
  | 71 => ⟨S128, .f32⟩
  | 72 => ⟨S1x128, .f32⟩
  | 73 => ⟨S100000x128, .f32⟩
  | 74 => ⟨S100000x128, .f32⟩
  | 75 => ⟨S_, .f32⟩
  | 76 => ⟨S100000x128, .f32⟩
  | 77 => ⟨S100000x128, .f32⟩
  | 78 => ⟨S1x128x128, .f32⟩
  | 79 => ⟨S128x128, .f32⟩
  | 80 => ⟨S100000x128, .f32⟩
  | 81 => ⟨S1x128, .f32⟩
  | 82 => ⟨S128, .f32⟩
  | 83 => ⟨S1x128, .f32⟩
  | 84 => ⟨S100000x128, .f32⟩
  | 85 => ⟨S100000x128, .f32⟩
  | 86 => ⟨S1x128, .f32⟩
  | 87 => ⟨S128, .f32⟩
  | 88 => ⟨S1x128, .f32⟩
  | 89 => ⟨S128, .f32⟩
  | 90 => ⟨S_, .f32⟩
  | 91 => ⟨S128, .f32⟩
  | 92 => ⟨S_, .f32⟩
  | 93 => ⟨S128, .f32⟩
  | 94 => ⟨S128, .f32⟩
  | 95 => ⟨S_, .i32⟩
  | 96 => ⟨S_, .f32⟩
  | 97 => ⟨S128, .f32⟩
  | 98 => ⟨S1x128, .f32⟩
  | 99 => ⟨S_, .f32⟩
  | 100 => ⟨S1x128, .f32⟩
  | 101 => ⟨S1x128, .f32⟩
  | 102 => ⟨S100000x128, .f32⟩
  | 103 => ⟨S100000x128, .f32⟩
  | 104 => ⟨S100000x128, .f32⟩
  | 105 => ⟨S_, .f32⟩
  | 106 => ⟨S_, .f32⟩
  | 107 => ⟨S_, .f32⟩
  | 108 => ⟨S_, .f32⟩
  | 109 => ⟨S128, .f32⟩
  | 110 => ⟨S128, .f32⟩
  | 111 => ⟨S128, .f32⟩
  | 112 => ⟨S_, .f32⟩
  | 113 => ⟨S_, .i1⟩
  | 114 => ⟨S_, .f32⟩
  | 115 => ⟨S_, .f32⟩
  | 116 => ⟨S128, .f32⟩
  | 117 => ⟨S128, .f32⟩
  | 118 => ⟨S1x128, .f32⟩
  | 119 => ⟨S100000x128, .f32⟩
  | 120 => ⟨S100000x128, .f32⟩
  | 121 => ⟨S_, .f32⟩
  | 122 => ⟨S128, .f32⟩
  | 123 => ⟨S128, .f32⟩
  | 124 => ⟨S128, .f32⟩
  | 125 => ⟨S1x128, .f32⟩
  | 126 => ⟨S100000x128, .f32⟩
  | 127 => ⟨S100000x128, .f32⟩
  | _ => ⟨S100000x128, .f32⟩

abbrev hbmTy0_2 (i : Nat) : BufTy := match i % 128 with
  | 0 => ⟨S1x128, .f32⟩
  | 1 => ⟨S100000x128, .f32⟩
  | 2 => ⟨S100000x128, .f32⟩
  | 3 => ⟨S1x128, .f32⟩
  | 4 => ⟨S100000x128, .f32⟩
  | 5 => ⟨S100000x128, .f32⟩
  | 6 => ⟨S_, .f32⟩
  | 7 => ⟨S100000x128, .f32⟩
  | 8 => ⟨S100000x128, .f32⟩
  | 9 => ⟨S_, .f32⟩
  | 10 => ⟨S512x128, .f32⟩
  | 11 => ⟨S100000x1, .i32⟩
  | 12 => ⟨S512x128, .f32⟩
  | _ => ⟨S100000x128, .f32⟩

abbrev hbmTy (i : Nat) : BufTy := match i / 128 with
  | 0 => hbmTy0_0 i
  | 1 => hbmTy0_1 i
  | 2 => hbmTy0_2 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_call0_cst : Ref sig .tc := ⟨.hbm, 35, rfl⟩
abbrev main_call0_v0 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_1 : Ref sig .tc := ⟨.hbm, 50, rfl⟩
abbrev main_v36 : Ref sig .tc := ⟨.hbm, 51, rfl⟩
abbrev main_cst_2 : Ref sig .tc := ⟨.hbm, 52, rfl⟩
abbrev main_v37 : Ref sig .tc := ⟨.hbm, 53, rfl⟩
abbrev main_v38 : Ref sig .tc := ⟨.hbm, 54, rfl⟩
abbrev main_c_3 : Ref sig .tc := ⟨.hbm, 55, rfl⟩
abbrev main_call1_cst : Ref sig .tc := ⟨.hbm, 56, rfl⟩
abbrev main_call1_v0 : Ref sig .tc := ⟨.hbm, 57, rfl⟩
abbrev main_call1_v1 : Ref sig .tc := ⟨.hbm, 58, rfl⟩
abbrev main_call1_cst_0 : Ref sig .tc := ⟨.hbm, 59, rfl⟩
abbrev main_call1_v2 : Ref sig .tc := ⟨.hbm, 60, rfl⟩
abbrev main_call1_v3 : Ref sig .tc := ⟨.hbm, 61, rfl⟩
abbrev main_call1_v4 : Ref sig .tc := ⟨.hbm, 62, rfl⟩
abbrev main_call1_v5 : Ref sig .tc := ⟨.hbm, 63, rfl⟩
abbrev main_call1_v6 : Ref sig .tc := ⟨.hbm, 64, rfl⟩
abbrev main_call1_v7 : Ref sig .tc := ⟨.hbm, 65, rfl⟩
abbrev main_call1_cst_1 : Ref sig .tc := ⟨.hbm, 66, rfl⟩
abbrev main_call1_v8 : Ref sig .tc := ⟨.hbm, 67, rfl⟩
abbrev main_call1_cst_2 : Ref sig .tc := ⟨.hbm, 68, rfl⟩
abbrev main_call1_v9 : Ref sig .tc := ⟨.hbm, 69, rfl⟩
abbrev main_call1_v10 : Ref sig .tc := ⟨.hbm, 70, rfl⟩
abbrev main_call1_v11 : Ref sig .tc := ⟨.hbm, 71, rfl⟩
abbrev main_call1_cst_3 : Ref sig .tc := ⟨.hbm, 72, rfl⟩
abbrev main_call1_v12 : Ref sig .tc := ⟨.hbm, 73, rfl⟩
abbrev main_call1_cst_4 : Ref sig .tc := ⟨.hbm, 74, rfl⟩
abbrev main_call1_call0_v0 : Ref sig .tc := ⟨.hbm, 75, rfl⟩
abbrev main_call1_call0_v1 : Ref sig .tc := ⟨.hbm, 76, rfl⟩
abbrev main_v39 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_cst_4 : Ref sig .tc := ⟨.hbm, 81, rfl⟩
abbrev main_v43 : Ref sig .tc := ⟨.hbm, 82, rfl⟩
abbrev main_v44 : Ref sig .tc := ⟨.hbm, 83, rfl⟩
abbrev main_v45 : Ref sig .tc := ⟨.hbm, 84, rfl⟩
abbrev main_v46 : Ref sig .tc := ⟨.hbm, 85, rfl⟩
abbrev main_v47 : Ref sig .tc := ⟨.hbm, 86, rfl⟩
abbrev main_v48 : Ref sig .tc := ⟨.hbm, 87, rfl⟩
abbrev main_v49 : Ref sig .tc := ⟨.hbm, 88, rfl⟩
abbrev main_v50 : Ref sig .tc := ⟨.hbm, 89, rfl⟩
abbrev main_v51 : Ref sig .tc := ⟨.hbm, 90, rfl⟩
abbrev main_v52 : Ref sig .tc := ⟨.hbm, 91, rfl⟩
abbrev main_v53 : Ref sig .tc := ⟨.hbm, 92, rfl⟩
abbrev main_v54 : Ref sig .tc := ⟨.hbm, 93, rfl⟩
abbrev main_call2_cst : Ref sig .tc := ⟨.hbm, 94, rfl⟩
abbrev main_call2_v0 : Ref sig .tc := ⟨.hbm, 95, rfl⟩
abbrev main_v55 : Ref sig .tc := ⟨.hbm, 96, rfl⟩
abbrev main_c_5 : Ref sig .tc := ⟨.hbm, 97, rfl⟩
abbrev main_v56 : Ref sig .tc := ⟨.hbm, 98, rfl⟩
abbrev main_v57 : Ref sig .tc := ⟨.hbm, 99, rfl⟩
abbrev main_c_6 : Ref sig .tc := ⟨.hbm, 100, rfl⟩
abbrev main_v58 : Ref sig .tc := ⟨.hbm, 101, rfl⟩
abbrev main_v59 : Ref sig .tc := ⟨.hbm, 102, rfl⟩
abbrev main_v60 : Ref sig .tc := ⟨.hbm, 103, rfl⟩
abbrev main_v61 : Ref sig .tc := ⟨.hbm, 104, rfl⟩
abbrev main_v62 : Ref sig .tc := ⟨.hbm, 105, rfl⟩
abbrev main_cst_7 : Ref sig .tc := ⟨.hbm, 106, rfl⟩
abbrev main_v63 : Ref sig .tc := ⟨.hbm, 107, rfl⟩
abbrev main_v64 : Ref sig .tc := ⟨.hbm, 108, rfl⟩
abbrev main_v65 : Ref sig .tc := ⟨.hbm, 109, rfl⟩
abbrev main_v66 : Ref sig .tc := ⟨.hbm, 110, rfl⟩
abbrev main_v67 : Ref sig .tc := ⟨.hbm, 111, rfl⟩
abbrev main_v68 : Ref sig .tc := ⟨.hbm, 112, rfl⟩
abbrev main_v69 : Ref sig .tc := ⟨.hbm, 113, rfl⟩
abbrev main_v70 : Ref sig .tc := ⟨.hbm, 114, rfl⟩
abbrev main_v71 : Ref sig .tc := ⟨.hbm, 115, rfl⟩
abbrev main_v72 : Ref sig .tc := ⟨.hbm, 116, rfl⟩
abbrev main_v73 : Ref sig .tc := ⟨.hbm, 117, rfl⟩
abbrev main_v74 : Ref sig .tc := ⟨.hbm, 118, rfl⟩
abbrev main_call3_cst : Ref sig .tc := ⟨.hbm, 119, rfl⟩
abbrev main_call3_v0 : Ref sig .tc := ⟨.hbm, 120, rfl⟩
abbrev main_v75 : Ref sig .tc := ⟨.hbm, 121, rfl⟩
abbrev main_v76 : Ref sig .tc := ⟨.hbm, 122, rfl⟩
abbrev main_v77 : Ref sig .tc := ⟨.hbm, 123, rfl⟩
abbrev main_v78 : Ref sig .tc := ⟨.hbm, 124, rfl⟩
abbrev main_v79 : Ref sig .tc := ⟨.hbm, 125, rfl⟩
abbrev main_v80 : Ref sig .tc := ⟨.hbm, 126, rfl⟩
abbrev main_v81 : Ref sig .tc := ⟨.hbm, 127, rfl⟩
abbrev main_v82 : Ref sig .tc := ⟨.hbm, 128, rfl⟩
abbrev main_v83 : Ref sig .tc := ⟨.hbm, 129, rfl⟩
abbrev main_v84 : Ref sig .tc := ⟨.hbm, 130, rfl⟩
abbrev main_v85 : Ref sig .tc := ⟨.hbm, 131, rfl⟩
abbrev main_v86 : Ref sig .tc := ⟨.hbm, 132, rfl⟩
abbrev main_v87 : Ref sig .tc := ⟨.hbm, 133, rfl⟩
abbrev main_cst_8 : Ref sig .tc := ⟨.hbm, 134, rfl⟩
abbrev main_v88 : Ref sig .tc := ⟨.hbm, 135, rfl⟩
abbrev main_cst_9 : Ref sig .tc := ⟨.hbm, 136, rfl⟩
abbrev main_v89 : Ref sig .tc := ⟨.hbm, 137, rfl⟩
abbrev main_v90 : Ref sig .tc := ⟨.hbm, 138, rfl⟩
abbrev main_c_10 : Ref sig .tc := ⟨.hbm, 139, rfl⟩
abbrev main_call4_cst : Ref sig .tc := ⟨.hbm, 140, rfl⟩
abbrev main_call4_v0 : Ref sig .tc := ⟨.hbm, 141, rfl⟩
abbrev main_call4_v1 : Ref sig .tc := ⟨.hbm, 142, rfl⟩
abbrev main_call4_cst_0 : Ref sig .tc := ⟨.hbm, 143, rfl⟩
abbrev main_call4_v2 : Ref sig .tc := ⟨.hbm, 144, rfl⟩
abbrev main_call4_v3 : Ref sig .tc := ⟨.hbm, 145, rfl⟩
abbrev main_call4_v4 : Ref sig .tc := ⟨.hbm, 146, rfl⟩
abbrev main_call4_v5 : Ref sig .tc := ⟨.hbm, 147, rfl⟩
abbrev main_call4_v6 : Ref sig .tc := ⟨.hbm, 148, rfl⟩
abbrev main_call4_v7 : Ref sig .tc := ⟨.hbm, 149, rfl⟩
abbrev main_call4_cst_1 : Ref sig .tc := ⟨.hbm, 150, rfl⟩
abbrev main_call4_v8 : Ref sig .tc := ⟨.hbm, 151, rfl⟩
abbrev main_call4_cst_2 : Ref sig .tc := ⟨.hbm, 152, rfl⟩
abbrev main_call4_v9 : Ref sig .tc := ⟨.hbm, 153, rfl⟩
abbrev main_call4_v10 : Ref sig .tc := ⟨.hbm, 154, rfl⟩
abbrev main_call4_v11 : Ref sig .tc := ⟨.hbm, 155, rfl⟩
abbrev main_call4_cst_3 : Ref sig .tc := ⟨.hbm, 156, rfl⟩
abbrev main_call4_v12 : Ref sig .tc := ⟨.hbm, 157, rfl⟩
abbrev main_call4_cst_4 : Ref sig .tc := ⟨.hbm, 158, rfl⟩
abbrev main_call4_call0_v0 : Ref sig .tc := ⟨.hbm, 159, rfl⟩
abbrev main_call4_call0_v1 : Ref sig .tc := ⟨.hbm, 160, rfl⟩
abbrev main_v91 : Ref sig .tc := ⟨.hbm, 161, rfl⟩
abbrev main_v92 : Ref sig .tc := ⟨.hbm, 162, rfl⟩
abbrev main_v93 : Ref sig .tc := ⟨.hbm, 163, rfl⟩
abbrev main_v94 : Ref sig .tc := ⟨.hbm, 164, rfl⟩
abbrev main_cst_11 : Ref sig .tc := ⟨.hbm, 165, rfl⟩
abbrev main_v95 : Ref sig .tc := ⟨.hbm, 166, rfl⟩
abbrev main_v96 : Ref sig .tc := ⟨.hbm, 167, rfl⟩
abbrev main_v97 : Ref sig .tc := ⟨.hbm, 168, rfl⟩
abbrev main_v98 : Ref sig .tc := ⟨.hbm, 169, rfl⟩
abbrev main_v99 : Ref sig .tc := ⟨.hbm, 170, rfl⟩
abbrev main_v100 : Ref sig .tc := ⟨.hbm, 171, rfl⟩
abbrev main_v101 : Ref sig .tc := ⟨.hbm, 172, rfl⟩
abbrev main_v102 : Ref sig .tc := ⟨.hbm, 173, rfl⟩
abbrev main_v103 : Ref sig .tc := ⟨.hbm, 174, rfl⟩
abbrev main_v104 : Ref sig .tc := ⟨.hbm, 175, rfl⟩
abbrev main_v105 : Ref sig .tc := ⟨.hbm, 176, rfl⟩
abbrev main_v106 : Ref sig .tc := ⟨.hbm, 177, rfl⟩
abbrev main_call5_cst : Ref sig .tc := ⟨.hbm, 178, rfl⟩
abbrev main_call5_v0 : Ref sig .tc := ⟨.hbm, 179, rfl⟩
abbrev main_v107 : Ref sig .tc := ⟨.hbm, 180, rfl⟩
abbrev main_c_12 : Ref sig .tc := ⟨.hbm, 181, rfl⟩
abbrev main_v108 : Ref sig .tc := ⟨.hbm, 182, rfl⟩
abbrev main_v109 : Ref sig .tc := ⟨.hbm, 183, rfl⟩
abbrev main_c_13 : Ref sig .tc := ⟨.hbm, 184, rfl⟩
abbrev main_v110 : Ref sig .tc := ⟨.hbm, 185, rfl⟩
abbrev main_v111 : Ref sig .tc := ⟨.hbm, 186, rfl⟩
abbrev main_v112 : Ref sig .tc := ⟨.hbm, 187, rfl⟩
abbrev main_v113 : Ref sig .tc := ⟨.hbm, 188, rfl⟩
abbrev main_v114 : Ref sig .tc := ⟨.hbm, 189, rfl⟩
abbrev main_cst_14 : Ref sig .tc := ⟨.hbm, 190, rfl⟩
abbrev main_v115 : Ref sig .tc := ⟨.hbm, 191, rfl⟩
abbrev main_v116 : Ref sig .tc := ⟨.hbm, 192, rfl⟩
abbrev main_v117 : Ref sig .tc := ⟨.hbm, 193, rfl⟩
abbrev main_v118 : Ref sig .tc := ⟨.hbm, 194, rfl⟩
abbrev main_v119 : Ref sig .tc := ⟨.hbm, 195, rfl⟩
abbrev main_v120 : Ref sig .tc := ⟨.hbm, 196, rfl⟩
abbrev main_v121 : Ref sig .tc := ⟨.hbm, 197, rfl⟩
abbrev main_v122 : Ref sig .tc := ⟨.hbm, 198, rfl⟩
abbrev main_v123 : Ref sig .tc := ⟨.hbm, 199, rfl⟩
abbrev main_v124 : Ref sig .tc := ⟨.hbm, 200, rfl⟩
abbrev main_v125 : Ref sig .tc := ⟨.hbm, 201, rfl⟩
abbrev main_v126 : Ref sig .tc := ⟨.hbm, 202, rfl⟩
abbrev main_call6_cst : Ref sig .tc := ⟨.hbm, 203, rfl⟩
abbrev main_call6_v0 : Ref sig .tc := ⟨.hbm, 204, rfl⟩
abbrev main_v127 : Ref sig .tc := ⟨.hbm, 205, rfl⟩
abbrev main_v128 : Ref sig .tc := ⟨.hbm, 206, rfl⟩
abbrev main_v129 : Ref sig .tc := ⟨.hbm, 207, rfl⟩
abbrev main_v130 : Ref sig .tc := ⟨.hbm, 208, rfl⟩
abbrev main_v131 : Ref sig .tc := ⟨.hbm, 209, rfl⟩
abbrev main_v132 : Ref sig .tc := ⟨.hbm, 210, rfl⟩
abbrev main_v133 : Ref sig .tc := ⟨.hbm, 211, rfl⟩
abbrev main_v134 : Ref sig .tc := ⟨.hbm, 212, rfl⟩
abbrev main_v135 : Ref sig .tc := ⟨.hbm, 213, rfl⟩
abbrev main_v136 : Ref sig .tc := ⟨.hbm, 214, rfl⟩
abbrev main_v137 : Ref sig .tc := ⟨.hbm, 215, rfl⟩
abbrev main_v138 : Ref sig .tc := ⟨.hbm, 216, rfl⟩
abbrev main_v139 : Ref sig .tc := ⟨.hbm, 217, rfl⟩
abbrev main_cst_15 : Ref sig .tc := ⟨.hbm, 218, rfl⟩
abbrev main_v140 : Ref sig .tc := ⟨.hbm, 219, rfl⟩
abbrev main_cst_16 : Ref sig .tc := ⟨.hbm, 220, rfl⟩
abbrev main_v141 : Ref sig .tc := ⟨.hbm, 221, rfl⟩
abbrev main_v142 : Ref sig .tc := ⟨.hbm, 222, rfl⟩
abbrev main_c_17 : Ref sig .tc := ⟨.hbm, 223, rfl⟩
abbrev main_call7_cst : Ref sig .tc := ⟨.hbm, 224, rfl⟩
abbrev main_call7_v0 : Ref sig .tc := ⟨.hbm, 225, rfl⟩
abbrev main_call7_v1 : Ref sig .tc := ⟨.hbm, 226, rfl⟩
abbrev main_call7_cst_0 : Ref sig .tc := ⟨.hbm, 227, rfl⟩
abbrev main_call7_v2 : Ref sig .tc := ⟨.hbm, 228, rfl⟩
abbrev main_call7_v3 : Ref sig .tc := ⟨.hbm, 229, rfl⟩
abbrev main_call7_v4 : Ref sig .tc := ⟨.hbm, 230, rfl⟩
abbrev main_call7_v5 : Ref sig .tc := ⟨.hbm, 231, rfl⟩
abbrev main_call7_v6 : Ref sig .tc := ⟨.hbm, 232, rfl⟩
abbrev main_call7_v7 : Ref sig .tc := ⟨.hbm, 233, rfl⟩
abbrev main_call7_cst_1 : Ref sig .tc := ⟨.hbm, 234, rfl⟩
abbrev main_call7_v8 : Ref sig .tc := ⟨.hbm, 235, rfl⟩
abbrev main_call7_cst_2 : Ref sig .tc := ⟨.hbm, 236, rfl⟩
abbrev main_call7_v9 : Ref sig .tc := ⟨.hbm, 237, rfl⟩
abbrev main_call7_v10 : Ref sig .tc := ⟨.hbm, 238, rfl⟩
abbrev main_call7_v11 : Ref sig .tc := ⟨.hbm, 239, rfl⟩
abbrev main_call7_cst_3 : Ref sig .tc := ⟨.hbm, 240, rfl⟩
abbrev main_call7_v12 : Ref sig .tc := ⟨.hbm, 241, rfl⟩
abbrev main_call7_cst_4 : Ref sig .tc := ⟨.hbm, 242, rfl⟩
abbrev main_call7_call0_v0 : Ref sig .tc := ⟨.hbm, 243, rfl⟩
abbrev main_call7_call0_v1 : Ref sig .tc := ⟨.hbm, 244, rfl⟩
abbrev main_v143 : Ref sig .tc := ⟨.hbm, 245, rfl⟩
abbrev main_v144 : Ref sig .tc := ⟨.hbm, 246, rfl⟩
abbrev main_v145 : Ref sig .tc := ⟨.hbm, 247, rfl⟩
abbrev main_v146 : Ref sig .tc := ⟨.hbm, 248, rfl⟩
abbrev main_cst_18 : Ref sig .tc := ⟨.hbm, 249, rfl⟩
abbrev main_v147 : Ref sig .tc := ⟨.hbm, 250, rfl⟩
abbrev main_v148 : Ref sig .tc := ⟨.hbm, 251, rfl⟩
abbrev main_v149 : Ref sig .tc := ⟨.hbm, 252, rfl⟩
abbrev main_v150 : Ref sig .tc := ⟨.hbm, 253, rfl⟩
abbrev main_v151 : Ref sig .tc := ⟨.hbm, 254, rfl⟩
abbrev main_v152 : Ref sig .tc := ⟨.hbm, 255, rfl⟩
abbrev main_v153 : Ref sig .tc := ⟨.hbm, 256, rfl⟩
abbrev main_v154 : Ref sig .tc := ⟨.hbm, 257, rfl⟩
abbrev main_v155 : Ref sig .tc := ⟨.hbm, 258, rfl⟩
abbrev main_v156 : Ref sig .tc := ⟨.hbm, 259, rfl⟩
abbrev main_v157 : Ref sig .tc := ⟨.hbm, 260, rfl⟩
abbrev main_v158 : Ref sig .tc := ⟨.hbm, 261, rfl⟩
abbrev main_call8_cst : Ref sig .tc := ⟨.hbm, 262, rfl⟩
abbrev main_call8_v0 : Ref sig .tc := ⟨.hbm, 263, rfl⟩
abbrev main_v159 : Ref sig .tc := ⟨.hbm, 264, rfl⟩
abbrev main_cst_19 : Ref sig .tc := ⟨.hbm, 265, rfl⟩
abbrev main_v160 : Ref sig .tc := ⟨.hbm, 266, rfl⟩
abbrev main_v161 : Ref sig .tc := ⟨.hbm, 267, rfl⟩
abbrev main_v162 : Ref sig .tc := ⟨.hbm, 268, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S128_d0 : S100000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  bcast_S_S512x128 : S_.BroadcastsInDim S512x128 (![] : Fin 0 → Fin S512x128.rank)
  bcast_S100000_S100000x1_0 : S100000.BroadcastsInDim S100000x1 (![0] : Fin 1 → Fin S100000x1.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  scatter_S512x128_S100000x1_S100000x128_1_0_0_1_wf : ScatterDims.WF S512x128 S100000x1 S100000x128 [1] [0] [0] 1

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S512x128_S100000x1_S100000x128_1_0_0_1 : ScatterDims S512x128 S100000x1 S100000x128 where
  updateWindowDims := [1]
  insertedWindowDims := [0]
  scatterDimsToOperandDims := [0]
  indexVectorDim := 1
  wf := scatter_S512x128_S100000x1_S100000x128_1_0_0_1_wf

class Facts : Prop extends Facts₀ where

variable [Facts]
-- ==== Proof.MlpSpec.lean ====
import proofs.«414687_j59708635349041_1_alg».proof.Proof.Gen.KernelIdeal.Skeleton
import Idealize.ShloMosaic.Lib.ValueIdx

noncomputable section

namespace Cert.KernelIdeal.Hand.Mlp

open Cert.KernelIdeal Cert.KernelIdeal.Gen
open Idealize.ShloMosaic Idealize.ShloMosaic.ValueIdx

variable {F : FTy → Type} [FloatOps F] (X : Vec F S100000x128 .f32) (w1 : Vec F S128x128 .f32) (b1 : Vec F S1x128 .f32)
  (w2 : Vec F S128x128 .f32) (b2 : Vec F S1x128 .f32)

theorem blk_row_lt (t : Fin 20) (p : Fin 5000) : t.val * 5000 + p.val < 100000 := by omega

/-- Rows `5000·t … 5000·t + 4999` of `X`. -/
def blk (t : Fin 20) : Vec F S5000x128 .f32 :=
  fun j => X (ix2 (⟨t.val * 5000 + (j 0).val, blk_row_lt t (j 0)⟩ : Fin 100000) (j 1))

theorem blk_apply (t : Fin 20) (p : Fin 5000) (q : Fin 128) :
    blk X t (ix2 p q) = X (ix2 (⟨t.val * 5000 + p.val, blk_row_lt t p⟩ : Fin 100000) q) := rfl

theorem row_div_lt (r : Fin 100000) : r.val / 5000 < 20 := by omega
theorem row_mod_lt (r : Fin 100000) : r.val % 5000 < 5000 := by omega

/-- The whole h2 array: row `r` is row `r % 5000` of the block's h2 on block `r / 5000`. -/
def h2Arr : Vec F S100000x128 .f32 :=
  fun i => k0_pay4 (blk X ⟨(i 0).val / 5000, row_div_lt (i 0)⟩) w1 b1 w2 b2
    (ix2 (⟨(i 0).val % 5000, row_mod_lt (i 0)⟩ : Fin 5000) (i 1))

abbrev pt (n : ℕ) : Fin 20 := ⟨n % 20, Nat.mod_lt _ (by decide)⟩

def sumAcc : ℕ → Vec F S1x128 .f32
  | 0 => k0_pay5 (blk X 0) w1 b1 w2 b2 k0_pay2
  | n + 1 => k0_pay5 (blk X (pt (n + 1))) w1 b1 w2 b2 (sumAcc n)

def sqAcc : ℕ → Vec F S1x128 .f32
  | 0 => k0_pay1 (k0_pay4 (blk X 0) w1 b1 w2 b2) k0_pay3
  | n + 1 => k0_pay1 (k0_pay4 (blk X (pt (n + 1))) w1 b1 w2 b2) (sqAcc n)

def sumRow : Vec F S1x128 .f32 := sumAcc X w1 b1 w2 b2 19
def sqRow : Vec F S1x128 .f32 := sqAcc X w1 b1 w2 b2 19

theorem sumAcc_zero : sumAcc X w1 b1 w2 b2 0 = k0_pay5 (blk X 0) w1 b1 w2 b2 k0_pay2 := rfl
theorem sumAcc_succ (n : ℕ) :
    sumAcc X w1 b1 w2 b2 (n + 1) = k0_pay5 (blk X (pt (n + 1))) w1 b1 w2 b2 (sumAcc X w1 b1 w2 b2 n) := rfl
theorem sqAcc_zero : sqAcc X w1 b1 w2 b2 0 = k0_pay1 (k0_pay4 (blk X 0) w1 b1 w2 b2) k0_pay3 := rfl
theorem sqAcc_succ (n : ℕ) :
    sqAcc X w1 b1 w2 b2 (n + 1) = k0_pay1 (k0_pay4 (blk X (pt (n + 1))) w1 b1 w2 b2) (sqAcc X w1 b1 w2 b2 n) := rfl

end Cert.KernelIdeal.Hand.Mlp

namespace Cert.KernelIdeal.Hand
namespace Mlp2
export Mlp (blk_row_lt blk blk_apply row_div_lt row_mod_lt h2Arr pt sumAcc sqAcc sumRow sqRow sumAcc_zero sumAcc_succ sqAcc_zero sqAcc_succ)
end Mlp2
namespace Mlp4
export Mlp (blk_row_lt blk blk_apply row_div_lt row_mod_lt h2Arr pt sumAcc sqAcc sumRow sqRow sumAcc_zero sumAcc_succ sqAcc_zero sqAcc_succ)
end Mlp4
end Cert.KernelIdeal.Hand

end
-- ==== Proof.MlpRegion0Base.lean ====
import proofs.«414687_j59708635349041_1_alg».proof.Proof.Gen.KernelIdeal.Skeleton
import proofs.«414687_j59708635349041_1_alg».proof.Proof.Gen.KernelIdeal.Launch
import proofs.«414687_j59708635349041_1_alg».proof.Proof.Gen.KernelIdeal.Points
import proofs.«414687_j59708635349041_1_alg».proof.Proof.MlpSpec
import Idealize.ShloMosaic.Lib.Pipeline.Frame
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.ProofMode Idealize.SL.Sem
open Idealize.ShloMosaic.Pipeline (Dat)

variable {F : FTy → Type} [FloatOps F]

local notation "𝕄" => MT nD τ sig Unit (Elt F) ℕ (UR sig nD τ) ℕ

abbrev cond0_1 (i : grid0.Coords) : Prop :=
  (Scalar.cmpi .ne (Scalar.extui (Scalar.cmpi .eq (BitVec.ofNat 32 (i 0).val) 0#32)) 0#32) = 1#1
abbrev cond0_2 (i : grid0.Coords) : Prop := k0_cond2 i = 1#1

theorem hcond0_1 : ∀ t : Fin cfg0.N, cond0_1 (grid0.coords t) ↔ t.val % 20 = 0 := by decide +kernel
theorem hcond0_2 : ∀ t : Fin cfg0.N, cond0_2 (grid0.coords t) ↔ t.val % 20 = 19 := by decide +kernel

theorem idleAt0_6 : ∀ t : Fin cfg0.N, ¬t.val % 20 = 19 → cfg0.idle 6 (grid0.coords t) = true := by decide +kernel
theorem idleAt0_7 : ∀ t : Fin cfg0.N, ¬t.val % 20 = 19 → cfg0.idle 7 (grid0.coords t) = true := by decide +kernel
theorem noFlush0_6 (t : Fin cfg0.N) (h : ¬t.val % 20 = 19) : (cfg0.win 6).flush t = false :=
  Bool.eq_false_iff.mpr (mt (flush0_6 t).mp h)
theorem noFlush0_7 (t : Fin cfg0.N) (h : ¬t.val % 20 = 19) : (cfg0.win 7).flush t = false :=
  Bool.eq_false_iff.mpr (mt (flush0_7 t).mp h)

theorem hz0 : (![0, 0] : Fin 2 → Nat) = fun _ => 0 := funext fun a => by fin_cases a <;> rfl

/-- Where each window's block sits in its array. -/
theorem idx_facts0 : ∀ t : Fin cfg0.N,
    (∀ (w : Fin cfg0.W) (a : Fin (cfg0.win w).shape.rank), w.val % 5 ≠ 0 ∨ a.val ≠ 0 → (cfg0.win w).index t a = 0)
    ∧ win0_0.index t (0 : Fin 2) = t.val ∧ win0_5.index t (0 : Fin 2) = t.val ∧ t.val < 20 := by decide +kernel

section Region0

variable (V : (c : Dev nD) → (b : Ref sig .tc) → Buf (Elt F) ((c : Thread nD τ).loc b)) (c : Dev nD)

/-- Window `w`'s block of its array at point `t`. -/
def iblk0 (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev xArr0 : Vec F S100000x128 .f32 := V c main_v14
abbrev w1Arr0 : Vec F S128x128 .f32 := V c main_v16
abbrev b1Arr0 : Vec F S1x128 .f32 := V c main_v23
abbrev w2Arr0 : Vec F S128x128 .f32 := V c main_v20
abbrev b2Arr0 : Vec F S1x128 .f32 := V c main_v24

abbrev ptOf0 (t : Fin cfg0.N) : Fin 20 := Mlp.pt t.val

variable (t : Fin cfg0.N) (n : ℕ)

theorem iblk0_0_eq : iblk0 V c 0 t = Mlp.blk (xArr0 V c) (ptOf0 t) := by
  obtain ⟨hz, e0, -, hN⟩ := idx_facts0 t
  refine funext fun j => congrArg (V c main_v14) (funext fun a => Fin.ext ?_)
  match a with
  | ⟨0, _⟩ => show win0_0.index t (0 : Fin 2) * 5000 + 1 * (j 0).val = t.val % 20 * 5000 + (j 0).val; omega
  | ⟨1, _⟩ => exact win0_0.rect_emb_val_of_index_zero t 1 (hz 0 (1 : Fin 2) (.inr (by decide))) j

/-- A block at index 0 on every axis that is as large as its array is the array. -/
theorem iblk0_1_eq : iblk0 V c 1 t = w1Arr0 V c :=
  funext fun j => congrArg (V c main_v16) (funext fun a => Fin.ext
    (win0_1.rect_emb_val_of_index_zero t a ((idx_facts0 t).1 1 a (.inl (by decide))) j))
theorem iblk0_2_eq : iblk0 V c 2 t = b1Arr0 V c :=
  funext fun j => congrArg (V c main_v23) (funext fun a => Fin.ext
    (win0_2.rect_emb_val_of_index_zero t a ((idx_facts0 t).1 2 a (.inl (by decide))) j))
theorem iblk0_3_eq : iblk0 V c 3 t = w2Arr0 V c :=
  funext fun j => congrArg (V c main_v20) (funext fun a => Fin.ext
    (win0_3.rect_emb_val_of_index_zero t a ((idx_facts0 t).1 3 a (.inl (by decide))) j))
theorem iblk0_4_eq : iblk0 V c 4 t = b2Arr0 V c :=
  funext fun j => congrArg (V c main_v24) (funext fun a => Fin.ext
    (win0_4.rect_emb_val_of_index_zero t a ((idx_facts0 t).1 4 a (.inl (by decide))) j))

abbrev sumAt0 : Vec F S1x128 .f32 := Mlp.sumAcc (xArr0 V c) (w1Arr0 V c) (b1Arr0 V c) (w2Arr0 V c) (b2Arr0 V c) n
abbrev sqAt0 : Vec F S1x128 .f32 := Mlp.sqAcc (xArr0 V c) (w1Arr0 V c) (b1Arr0 V c) (w2Arr0 V c) (b2Arr0 V c) n
abbrev h2At0 (k : Fin 20) : Vec F S5000x128 .f32 := k0_pay4 (Mlp.blk (xArr0 V c) k) (w1Arr0 V c) (b1Arr0 V c) (w2Arr0 V c) (b2Arr0 V c)

theorem sumAt0_first (hn : n = 0) :
    sumAt0 V c n = k0_pay5 (Mlp.blk (xArr0 V c) (Mlp.pt n)) (w1Arr0 V c) (b1Arr0 V c) (w2Arr0 V c) (b2Arr0 V c) k0_pay2 := by
  subst hn; rfl
theorem sumAt0_next (hn : n ≠ 0) :
    sumAt0 V c n = k0_pay5 (Mlp.blk (xArr0 V c) (Mlp.pt n)) (w1Arr0 V c) (b1Arr0 V c) (w2Arr0 V c) (b2Arr0 V c) (sumAt0 V c (n - 1)) := by
  obtain _ | n := n; exacts [absurd rfl hn, rfl]
theorem sqAt0_first (hn : n = 0) : sqAt0 V c n = k0_pay1 (h2At0 V c (Mlp.pt n)) k0_pay3 := by
  subst hn; rfl
theorem sqAt0_next (hn : n ≠ 0) : sqAt0 V c n = k0_pay1 (h2At0 V c (Mlp.pt n)) (sqAt0 V c (n - 1)) := by
  obtain _ | n := n; exacts [absurd rfl hn, rfl]

abbrev scM0_0 : Memref sig .tc .vmem S1x128 .f32 := Memref.whole cc0_scratch0
abbrev scM0_1 : Memref sig .tc .vmem S1x128 .f32 := Memref.whole cc0_scratch1

theorem PhiA0_eq :
    (Pipeline.ΦA spec0 c : sProp 𝕄)
      = iprop(iprop(iprop((∃ d, owns (c : Thread nD τ) scM0_0 fullShare d) ∗ (∃ d, owns (c : Thread nD τ) scM0_1 fullShare d))
          ∗ Pipeline.scopedRestBut spec0 c [cc0_scratch0, cc0_scratch1])
          ∗ (∃ r, prngReg c r)) := by
  unfold Pipeline.ΦA; rw [scopedRest0_split]; simp only [scM0_0, scM0_1, owns_whole]; try rfl

/-- The invariant before point `n + 1`: the two scratch rows hold the running sums after blocks `0 … n`. -/
def PhiS0 : ℕ → sProp 𝕄
  | 0 => Pipeline.ΦA spec0 c
  | n + 1 => iprop(iprop(iprop(owns (c : Thread nD τ) scM0_0 fullShare (sumAt0 V c n) ∗ owns (c : Thread nD τ) scM0_1 fullShare (sqAt0 V c n))
          ∗ Pipeline.scopedRestBut spec0 c [cc0_scratch0, cc0_scratch1])
          ∗ (∃ r, prngReg c r))

theorem PhiS0_zero (hz : n = 0) : PhiS0 V c n = Pipeline.ΦA spec0 c := by subst hz; rfl
theorem PhiS0_succ :
    PhiS0 V c (n + 1) = iprop(iprop(iprop(owns (c : Thread nD τ) scM0_0 fullShare (sumAt0 V c n) ∗ owns (c : Thread nD τ) scM0_1 fullShare (sqAt0 V c n))
          ∗ Pipeline.scopedRestBut spec0 c [cc0_scratch0, cc0_scratch1])
          ∗ (∃ r, prngReg c r)) := rfl
theorem PhiS0_pos (hz : n ≠ 0) :
    PhiS0 V c n = iprop(iprop(iprop(owns (c : Thread nD τ) scM0_0 fullShare (sumAt0 V c (n - 1)) ∗ owns (c : Thread nD τ) scM0_1 fullShare (sqAt0 V c (n - 1)))
          ∗ Pipeline.scopedRestBut spec0 c [cc0_scratch0, cc0_scratch1])
          ∗ (∃ r, prngReg c r)) := by
  obtain _ | n := n; exacts [absurd rfl hz, rfl]

/-- What the body leaves at point `t`: each input's block, the block's h2, and the sums over all blocks. -/
def dat0 : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => h2At0 V c (ptOf0 t)
    | ⟨6, _⟩ => sumAt0 V c 19
    | ⟨7, _⟩ => sqAt0 V c 19
  Φ t := PhiS0 V c t.val
  q _ := fullShare
  owed _ := 0

theorem after0_0 : (dat0 V c).after 0 t = iblk0 V c 0 t := rfl
theorem after0_1 : (dat0 V c).after 1 t = iblk0 V c 1 t := rfl
theorem after0_2 : (dat0 V c).after 2 t = iblk0 V c 2 t := rfl
theorem after0_3 : (dat0 V c).after 3 t = iblk0 V c 3 t := rfl
theorem after0_4 : (dat0 V c).after 4 t = iblk0 V c 4 t := rfl
theorem after0_5 : (dat0 V c).after 5 t = h2At0 V c (ptOf0 t) := rfl
theorem after0_6 : (dat0 V c).after 6 t = sumAt0 V c 19 := rfl
theorem after0_7 : (dat0 V c).after 7 t = sqAt0 V c 19 := rfl

theorem before0_0 (d) : (dat0 V c).before 0 t d = iblk0 V c 0 t :=
  (dat0 V c).before_in_eq_fetched 0 rfl (fun _ => rfl) (fun _ _ _ => rfl) (fun _ => rfl) t d
theorem before0_1 (d) : (dat0 V c).before 1 t d = iblk0 V c 1 t :=
  (dat0 V c).before_in_eq_fetched 1 rfl (fun _ => rfl) (fun _ _ _ => rfl) (fun _ => rfl) t d
theorem before0_2 (d) : (dat0 V c).before 2 t d = iblk0 V c 2 t :=
  (dat0 V c).before_in_eq_fetched 2 rfl (fun _ => rfl) (fun _ _ _ => rfl) (fun _ => rfl) t d
theorem before0_3 (d) : (dat0 V c).before 3 t d = iblk0 V c 3 t :=
  (dat0 V c).before_in_eq_fetched 3 rfl (fun _ => rfl) (fun _ _ _ => rfl) (fun _ => rfl) t d
theorem before0_4 (d) : (dat0 V c).before 4 t d = iblk0 V c 4 t :=
  (dat0 V c).before_in_eq_fetched 4 rfl (fun _ => rfl) (fun _ _ _ => rfl) (fun _ => rfl) t d

theorem PhiS0_castSucc : (dat0 V c).Φ t.castSucc = PhiS0 V c t.val := rfl

theorem hin0 : Pipeline.ΦA spec0 c ⊢ (dat0 V c).Φ 0 := Idealize.SL.BI.Entails.refl _

/-- After the last point the invariant gives the launch's form back: the rows' values are forgotten. -/
theorem hout0 : (dat0 V c).Φ (Fin.last cfg0.N) ⊢ Pipeline.ΦA spec0 c := by
  rw [show (dat0 V c).Φ (Fin.last cfg0.N) = PhiS0 V c (19 + 1) from rfl, PhiS0_succ, PhiA0_eq]
  iintro ⟨⟨⟨HS0, HS1⟩, HR⟩, Hg⟩
  isplitr [Hg]
  · isplitr [HR]
    · isplitl [HS0]
      · iexists _; iexact HS0
      · iexists _; iexact HS1
    · iexact HR
  · iexact Hg

end Region0

end Cert.KernelIdeal.Hand
end
-- ==== Proof.BnSpec.lean ====
import proofs.«414687_j59708635349041_1_alg».proof.Proof.Gen.KernelIdeal.Skeleton
import Idealize.ShloMosaic.Lib.ValueIdx

noncomputable section

namespace Cert.KernelIdeal.Hand.Bn

open Cert.KernelIdeal Cert.KernelIdeal.Gen
open Idealize.ShloMosaic Idealize.ShloMosaic.ValueIdx

variable {F : FTy → Type} [FloatOps F] (X : Vec F S100000x128 .f32) (t : Fin 20)

/-- Block `t` of the twenty blocks of 5000 rows: its row `r` is row `5000 * t + r` of the array. -/
def blk : Vec F S5000x128 .f32 :=
  fun j => X (ix2 (n0 := 100000) (n1 := 128)
    ⟨5000 * t.val + (j 0).val, by have h := idx2_lt0 j; have ht := t.isLt; omega⟩ ⟨(j 1).val, idx2_lt1 j⟩)

theorem blk_apply (p : Fin 5000) (q : Fin 128) :
    blk X t (ix2 p q) = X (ix2 (n0 := 100000) (n1 := 128) ⟨5000 * t.val + p.val, by have ht := t.isLt; omega⟩ q) := rfl

/-- Row `r` of the result is computed in block `r / 5000`, at that block's row `r % 5000`. -/
def outArr (H2 : Vec F S100000x128 .f32) (mean inv g be : Vec F S1x128 .f32) : Vec F S100000x128 .f32 :=
  fun i => k1_pay1 (blk H2 ⟨(i 0).val / 5000, by have h := idx2_lt0 i; omega⟩) mean inv g be
    (ix2 (n0 := 5000) (n1 := 128) ⟨(i 0).val % 5000, Nat.mod_lt _ (by decide)⟩ ⟨(i 1).val, idx2_lt1 i⟩)

end Cert.KernelIdeal.Hand.Bn

namespace Cert.KernelIdeal.Hand
namespace Bn3
export Bn (blk blk_apply outArr)
end Bn3
namespace Bn5
export Bn (blk blk_apply outArr)
end Bn5
end Cert.KernelIdeal.Hand

end
-- ==== Proof.BnRegion1.lean ====
import proofs.«414687_j59708635349041_1_alg».proof.Proof.Gen.KernelIdeal.Launch
import proofs.«414687_j59708635349041_1_alg».proof.Proof.Gen.KernelIdeal.Points
import proofs.«414687_j59708635349041_1_alg».proof.Proof.BnSpec
import Idealize.ShloMosaic.Lib.Pipeline.Value
import Idealize.ShloMosaic.Lib.Ring

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)
open Idealize.ShloMosaic.ValueIdx

variable {F : FTy → Type} [FloatOps F]

variable (V : (c : Dev nD) → (b : Ref sig .tc) → Buf (Elt F) ((c : Thread nD τ).loc b)) (c : Dev nD) (t : Fin cfg1.N)

def inBlk1 (w : Fin cfg1.W) : ((cfg1.win w).xblock (cfg1.grid.coords t)).Idx → Elt F (cfg1.win w).elt :=
  ((cfg1.win w).blk t).view.read (Elt F) (V c (Pipeline.arrRef spec1 w))

abbrev rBlk1 : Rect S5000x128 := Rect.unit (s := S5000x128) ![0, 0] S5000x128.size inb_S5000x128_S5000x128_0_0
abbrev rRow1 : Rect S1x128 := Rect.unit (s := S1x128) ![0, 0] S1x128.size inb_S1x128_S1x128_0_0

/-- What the body's one store, over the whole buffer, leaves there: a function of the five inputs' contents alone. -/
def out1_5 (x0 : Vec F S5000x128 .f32) (x1 x2 x3 x4 : Vec F S1x128 .f32) : Vec F S5000x128 .f32 :=
  View.canon [⟨rBlk1, k1_pay1 (View.ld x0 rBlk1) (View.ld x1 rRow1) (View.ld x2 rRow1) (View.ld x3 rRow1) (View.ld x4 rRow1)⟩]

/-- The body on whole memrefs: the inputs are read and kept, the output is overwritten with `out1_5` of the inputs. -/
theorem sound_kernel1 (E : Set ℕ) (i : grid1.Coords) {m0 m5 : Memref sig .tc .vmem S5000x128 .f32} {m1 m2 m3 m4 : Memref sig .tc .vmem S1x128 .f32}
    (h0 : m0.IsWhole) (h1 : m1.IsWhole) (h2 : m2.IsWhole) (h3 : m3.IsWhole) (h4 : m4.IsWhole) (h5 : m5.IsWhole)
    (x0 : Vec F S5000x128 .f32) (x1 x2 x3 x4 : Vec F S1x128 .f32) (K : PUnit → sProp (MT nD τ sig Unit (Elt F) ℕ (UR sig nD τ) ℕ)) :
    iprop(owns c.tc m0 fullShare x0 ∗ owns c.tc m1 fullShare x1 ∗ owns c.tc m2 fullShare x2
        ∗ owns c.tc m3 fullShare x3 ∗ owns c.tc m4 fullShare x4 ∗ (∃ d, owns c.tc m5 fullShare d)
        ∗ (iprop(owns c.tc m0 fullShare x0 ∗ owns c.tc m1 fullShare x1 ∗ owns c.tc m2 fullShare x2
            ∗ owns c.tc m3 fullShare x3 ∗ owns c.tc m4 fullShare x4
            ∗ owns c.tc m5 fullShare (out1_5 x0 x1 x2 x3 x4)) -∗ K ⟨⟩))
      ⊢ wp frame (wpE (defs₀ (F := F)) Variants.none c none) E (cc1__bn_relu_kernel i m0 h0 m1 h1 m2 h2 m3 h3 m4 h4 m5 h5) K := by
  simp only [cc1__bn_relu_kernel_eq_skeleton]; unfold cc1__bn_relu_kernel_skel owns
  iintro ⟨⟨%f0, %e0, H0⟩, ⟨%f1, %e1, H1⟩, ⟨%f2, %e2, H2⟩, ⟨%f3, %e3, H3⟩, ⟨%f4, %e4, H4⟩, ⟨%d, %f5, -, H5⟩, Hk⟩
  subst e0 e1 e2 e3 e4
  sl_exec
  sl_step
  iapply Hk
  isplitl [H0]; · iexists f0; iframe H0; ipureintro; rfl
  isplitl [H1]; · iexists f1; iframe H1; ipureintro; rfl
  isplitl [H2]; · iexists f2; iframe H2; ipureintro; rfl
  isplitl [H3]; · iexists f3; iframe H3; ipureintro; rfl
  isplitl [H4]; · iexists f4; iframe H4; ipureintro; rfl
  iexists _; iframe H5
  ipureintro
  exact View.read_writes_eq_canon _ _ _ (View.cover_of_tiled _ S5000x128.size (by rfl))

/-- The proof data of the region on core `c`: the arrays as found; after the body each input's buffer at its block and the output's at `out1_5` of the input blocks. -/
def dat1 : Dat τ (Elt F) Unit ℕ (UR sig nD τ) ℕ cfg1 c where
  A w := V c (Pipeline.arrRef spec1 w)
  after w t := match w with
    | ⟨0, _⟩ => inBlk1 V c t 0
    | ⟨1, _⟩ => inBlk1 V c t 1
    | ⟨2, _⟩ => inBlk1 V c t 2
    | ⟨3, _⟩ => inBlk1 V c t 3
    | ⟨4, _⟩ => inBlk1 V c t 4
    | ⟨5, _⟩ => out1_5 (inBlk1 V c t 0) (inBlk1 V c t 1) (inBlk1 V c t 2) (inBlk1 V c t 3) (inBlk1 V c t 4)
  Φ _ := Pipeline.ΦA spec1 c
  q _ := fullShare
  owed _ := 0

theorem hin1 : Pipeline.ΦA spec1 c ⊢ (dat1 V c).Φ 0 := Entails.refl _

theorem hout1 : (dat1 V c).Φ (Fin.last cfg1.N) ⊢ Pipeline.ΦA spec1 c := Entails.refl _

/-- Before the body, as after it, an input's buffer holds its block. -/
theorem before1 : ∀ w : Fin cfg1.W, w.val < 5 → ∀ d, (dat1 V c).before w t d = (dat1 V c).after w t
  | ⟨0, _⟩, _ | ⟨1, _⟩, _ | ⟨2, _⟩, _ | ⟨3, _⟩, _ | ⟨4, _⟩, _ =>
    (dat1 V c).before_in_eq_fetched _ rfl (fun _ => rfl) (fun _ _ _ => rfl) (fun _ => rfl) t

/-- The body at any point: each input's memref holds its block, so the body's triple applies; the invariant and what the core owes pass through unread. -/
theorem body_obligation1 : BodyObligation (dat1 (F := F) V c) (defs₀ (F := F)) Variants.none () Set.univ := fun t => by
  rw [bigSep_W1, bigSep_W1]
  simp +decide only [before1 V c t]
  dsimp only [dat1, Dat.owesAt, Dat.bound]
  change _ ⊢ wp _ _ _ (bodyAt1 t) _
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ (inBlk1 V c t 0) (inBlk1 V c t 1) (inBlk1 V c t 2) (inBlk1 V c t 3) (inBlk1 V c t 4) _)
  iframe H0 H1 H2 H3 H4
  isplitl [H5]; · iexists _; iexact H5
  iintro ⟨H0, H1, H2, H3, H4, H5⟩
  iframe

theorem kept1 (w : Fin cfg1.W) (hw : w.val < 5) : (dat1 V c).arrAt w cfg1.N = V c (Pipeline.arrRef spec1 w) :=
  match w, hw with
  | ⟨0, _⟩, _ | ⟨1, _⟩, _ | ⟨2, _⟩, _ | ⟨3, _⟩, _ | ⟨4, _⟩, _ => (dat1 V c).arrAt_in _ rfl _

theorem hz1 : (![0, 0] : Fin 2 → Nat) = fun _ => 0 := funext fun a => by fin_cases a <;> rfl

theorem lt20_1 : t.val < 20 := Nat.lt_of_lt_of_eq t.isLt N_1

/-- The printed index maps, decided over the grid: the two blocked windows are at block row `t`, column block 0; the four row windows are at block (0, 0). -/
theorem idx_facts1 : ∀ t : Fin cfg1.N, (win1_0.index t (0 : Fin 2) = t.val ∧ win1_0.index t (1 : Fin 2) = 0)
    ∧ (win1_5.index t (0 : Fin 2) = t.val ∧ win1_5.index t (1 : Fin 2) = 0)
    ∧ (∀ a, win1_1.index t a = 0) ∧ (∀ a, win1_2.index t a = 0) ∧ (∀ a, win1_3.index t a = 0) ∧ ∀ a, win1_4.index t a = 0 :=
  (by decide +kernel : ∀ t : Fin grid1.N, _)

/-- The output array at row `5000 tt + p` is the payload of block `tt` at its row `p`: quotient and remainder by 5000. -/
theorem outArr_at1 (H2 : Vec F S100000x128 .f32) (mean inv g be : Vec F S1x128 .f32) (tt : Fin 20) (j : S5000x128.Idx) (i : S100000x128.Idx)
    (h0 : (i 0).val = 5000 * tt.val + (j 0).val) (h1 : (i 1).val = (j 1).val) :
    Bn.outArr H2 mean inv g be i = k1_pay1 (Bn.blk H2 tt) mean inv g be j := by
  have hj := idx2_lt0 j
  exact congrArg₂ (fun a b => k1_pay1 (Bn.blk H2 a) mean inv g be b) (Fin.ext (by show (i 0).val / 5000 = tt.val; omega))
    ((congrArg₂ ix2 (Fin.ext (by show (i 0).val % 5000 = (j 0).val; omega)) (Fin.ext h1)).trans (eq_ix2 j).symm)

theorem inBlk1_0_eq : inBlk1 V c t 0 = Bn.blk (V c main_v25_0) ⟨t.val, lt20_1 t⟩ := by
  obtain ⟨⟨e0, e1⟩, -⟩ := idx_facts1 t
  funext y
  refine congrArg (V c main_v25_0) (funext fun a => Fin.ext ?_)
  match a with
  | ⟨0, _⟩ => show win1_0.index t (0 : Fin 2) * 5000 + 1 * (y 0).val = 5000 * t.val + (y 0).val; omega
  | ⟨1, _⟩ => show win1_0.index t (1 : Fin 2) * 128 + 1 * (y 1).val = (y 1).val; omega

/-- Each row window's block at every point is its whole array: its block index is 0 on both axes. -/
theorem inBlk1_row : inBlk1 V c t 1 = V c main_v41 ∧ inBlk1 V c t 2 = V c main_v42 ∧ inBlk1 V c t 3 = V c main_v43 ∧ inBlk1 V c t 4 = V c main_v44 := by
  obtain ⟨-, -, h1, h2, h3, h4⟩ := idx_facts1 t
  refine ⟨?_, ?_, ?_, ?_⟩ <;> funext y <;> refine congrArg (V c _) (funext fun a => Fin.ext ?_)
  exacts [(cfg1.win 1).rect_emb_val_of_index_zero t a (h1 a) y, (cfg1.win 2).rect_emb_val_of_index_zero t a (h2 a) y,
    (cfg1.win 3).rect_emb_val_of_index_zero t a (h3 a) y, (cfg1.win 4).rect_emb_val_of_index_zero t a (h4 a) y]

/-- Point `t`'s contribution to the output array is block `t` of the normalised array. -/
theorem flushed1_5_eq : (dat1 V c).flushed 5 t = ((cfg1.win 5).blk t).view.read (Elt F)
    (Bn.outArr (V c main_v25_0) (V c main_v41) (V c main_v42) (V c main_v43) (V c main_v44)) := by
  obtain ⟨-, ⟨e0, e1⟩, -⟩ := idx_facts1 t
  obtain ⟨r1, r2, r3, r4⟩ := inBlk1_row V c t
  show (cfg1.win 5).cut (grid1.coords t) ((dat1 V c).after 5 t) = _
  dsimp only [dat1]
  rw [out1_5, View.canon_unit_zero hz1]
  simp only [View.ld_unit_zero (S := S5000x128) hz1, View.ld_unit_zero (S := S1x128) hz1, inBlk1_0_eq V c t, r1, r2, r3, r4]
  funext j
  refine (outArr_at1 _ _ _ _ _ ⟨t.val, lt20_1 t⟩ j _ ?_ ?_).symm
  · show win1_5.index t (0 : Fin 2) * 5000 + 1 * (j 0).val = 5000 * t.val + (j 0).val; omega
  · show win1_5.index t (1 : Fin 2) * 128 + 1 * (j 1).val = (j 1).val; omega

theorem cover1_5_arr (i : S100000x128.Idx) : ∃ s : Fin cfg1.N, (cfg1.win 5).flush s = true ∧ i ∈ ((cfg1.win 5).blk s).view.set := by
  have hi0 := idx2_lt0 i
  have hi1 := idx2_lt1 i
  let s : Fin cfg1.N := ⟨(i 0).val / 5000, by rw [show cfg1.N = 20 from N_1]; omega⟩
  obtain ⟨-, ⟨e0, e1⟩, -⟩ := idx_facts1 s
  have hs : s.val = (i 0).val / 5000 := rfl
  refine ⟨s, flush1_5 s, ?_⟩
  show i ∈ ((View.whole main_v45).slice (win1_5.rect s)).set
  rw [View.set_slice_whole, Rect.mem_set_unit]
  intro a
  match a with
  | ⟨0, _⟩ => show win1_5.index s (0 : Fin 2) * 5000 ≤ (i 0).val ∧ (i 0).val < win1_5.index s (0 : Fin 2) * 5000 + 5000; omega
  | ⟨1, _⟩ => show win1_5.index s (1 : Fin 2) * 128 ≤ (i 1).val ∧ (i 1).val < win1_5.index s (1 : Fin 2) * 128 + 128; omega

theorem final1_5 : (dat1 V c).arrAt 5 cfg1.N = Bn.outArr (V c main_v25_0) (V c main_v41) (V c main_v42) (V c main_v43) (V c main_v44) :=
  (dat1 V c).arrAt_eq_of_cover 5 _ (fun t _ => flushed1_5_eq V c t) cover1_5_arr

end Cert.KernelIdeal.Hand

end
-- ==== Proof.MlpRegion2Base.lean ====
import proofs.«414687_j59708635349041_1_alg».proof.Proof.Gen.KernelIdeal.Skeleton
import proofs.«414687_j59708635349041_1_alg».proof.Proof.Gen.KernelIdeal.Launch
import proofs.«414687_j59708635349041_1_alg».proof.Proof.Gen.KernelIdeal.Points
import proofs.«414687_j59708635349041_1_alg».proof.Proof.MlpSpec
import Idealize.ShloMosaic.Lib.Pipeline.Frame
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.ProofMode Idealize.SL.Sem
open Idealize.ShloMosaic.Pipeline (Dat)

variable {F : FTy → Type} [FloatOps F]

local notation "𝕄" => MT nD τ sig Unit (Elt F) ℕ (UR sig nD τ) ℕ

abbrev cond2_1 (i : grid2.Coords) : Prop :=
  (Scalar.cmpi .ne (Scalar.extui (Scalar.cmpi .eq (BitVec.ofNat 32 (i 0).val) 0#32)) 0#32) = 1#1
abbrev cond2_2 (i : grid2.Coords) : Prop := k2_cond2 i = 1#1

theorem hcond2_1 : ∀ t : Fin cfg2.N, cond2_1 (grid2.coords t) ↔ t.val % 20 = 0 := by decide +kernel
theorem hcond2_2 : ∀ t : Fin cfg2.N, cond2_2 (grid2.coords t) ↔ t.val % 20 = 19 := by decide +kernel

theorem idleAt2_6 : ∀ t : Fin cfg2.N, ¬t.val % 20 = 19 → cfg2.idle 6 (grid2.coords t) = true := by decide +kernel
theorem idleAt2_7 : ∀ t : Fin cfg2.N, ¬t.val % 20 = 19 → cfg2.idle 7 (grid2.coords t) = true := by decide +kernel
theorem noFlush2_6 (t : Fin cfg2.N) (h : ¬t.val % 20 = 19) : (cfg2.win 6).flush t = false :=
  Bool.eq_false_iff.mpr (mt (flush2_6 t).mp h)
theorem noFlush2_7 (t : Fin cfg2.N) (h : ¬t.val % 20 = 19) : (cfg2.win 7).flush t = false :=
  Bool.eq_false_iff.mpr (mt (flush2_7 t).mp h)

theorem hz2 : (![0, 0] : Fin 2 → Nat) = fun _ => 0 := funext fun a => by fin_cases a <;> rfl

/-- Where each window's block sits in its array. -/
theorem idx_facts2 : ∀ t : Fin cfg2.N,
    (∀ (w : Fin cfg2.W) (a : Fin (cfg2.win w).shape.rank), w.val % 5 ≠ 0 ∨ a.val ≠ 0 → (cfg2.win w).index t a = 0)
    ∧ win2_0.index t (0 : Fin 2) = t.val ∧ win2_5.index t (0 : Fin 2) = t.val ∧ t.val < 20 := by decide +kernel

section Region2

variable (V : (c : Dev nD) → (b : Ref sig .tc) → Buf (Elt F) ((c : Thread nD τ).loc b)) (c : Dev nD)

/-- Window `w`'s block of its array at point `t`. -/
def iblk2 (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev xArr2 : Vec F S100000x128 .f32 := V c main_v56
abbrev w1Arr2 : Vec F S128x128 .f32 := V c main_v58
abbrev b1Arr2 : Vec F S1x128 .f32 := V c main_v65
abbrev w2Arr2 : Vec F S128x128 .f32 := V c main_v62
abbrev b2Arr2 : Vec F S1x128 .f32 := V c main_v66

abbrev ptOf2 (t : Fin cfg2.N) : Fin 20 := Mlp2.pt t.val

variable (t : Fin cfg2.N) (n : ℕ)

theorem iblk2_0_eq : iblk2 V c 0 t = Mlp2.blk (xArr2 V c) (ptOf2 t) := by
  obtain ⟨hz, e0, -, hN⟩ := idx_facts2 t
  refine funext fun j => congrArg (V c main_v56) (funext fun a => Fin.ext ?_)
  match a with
  | ⟨0, _⟩ => show win2_0.index t (0 : Fin 2) * 5000 + 1 * (j 0).val = t.val % 20 * 5000 + (j 0).val; omega
  | ⟨1, _⟩ => exact win2_0.rect_emb_val_of_index_zero t 1 (hz 0 (1 : Fin 2) (.inr (by decide))) j

/-- A block at index 0 on every axis that is as large as its array is the array. -/
theorem iblk2_1_eq : iblk2 V c 1 t = w1Arr2 V c :=
  funext fun j => congrArg (V c main_v58) (funext fun a => Fin.ext
    (win2_1.rect_emb_val_of_index_zero t a ((idx_facts2 t).1 1 a (.inl (by decide))) j))
theorem iblk2_2_eq : iblk2 V c 2 t = b1Arr2 V c :=
  funext fun j => congrArg (V c main_v65) (funext fun a => Fin.ext
    (win2_2.rect_emb_val_of_index_zero t a ((idx_facts2 t).1 2 a (.inl (by decide))) j))
theorem iblk2_3_eq : iblk2 V c 3 t = w2Arr2 V c :=
  funext fun j => congrArg (V c main_v62) (funext fun a => Fin.ext
    (win2_3.rect_emb_val_of_index_zero t a ((idx_facts2 t).1 3 a (.inl (by decide))) j))
theorem iblk2_4_eq : iblk2 V c 4 t = b2Arr2 V c :=
  funext fun j => congrArg (V c main_v66) (funext fun a => Fin.ext
    (win2_4.rect_emb_val_of_index_zero t a ((idx_facts2 t).1 4 a (.inl (by decide))) j))

abbrev sumAt2 : Vec F S1x128 .f32 := Mlp2.sumAcc (xArr2 V c) (w1Arr2 V c) (b1Arr2 V c) (w2Arr2 V c) (b2Arr2 V c) n
abbrev sqAt2 : Vec F S1x128 .f32 := Mlp2.sqAcc (xArr2 V c) (w1Arr2 V c) (b1Arr2 V c) (w2Arr2 V c) (b2Arr2 V c) n
abbrev h2At2 (k : Fin 20) : Vec F S5000x128 .f32 := k2_pay4 (Mlp2.blk (xArr2 V c) k) (w1Arr2 V c) (b1Arr2 V c) (w2Arr2 V c) (b2Arr2 V c)

theorem sumAt2_first (hn : n = 0) :
    sumAt2 V c n = k2_pay5 (Mlp2.blk (xArr2 V c) (Mlp2.pt n)) (w1Arr2 V c) (b1Arr2 V c) (w2Arr2 V c) (b2Arr2 V c) k2_pay2 := by
  subst hn; rfl
theorem sumAt2_next (hn : n ≠ 0) :
    sumAt2 V c n = k2_pay5 (Mlp2.blk (xArr2 V c) (Mlp2.pt n)) (w1Arr2 V c) (b1Arr2 V c) (w2Arr2 V c) (b2Arr2 V c) (sumAt2 V c (n - 1)) := by
  obtain _ | n := n; exacts [absurd rfl hn, rfl]
theorem sqAt2_first (hn : n = 0) : sqAt2 V c n = k2_pay1 (h2At2 V c (Mlp2.pt n)) k2_pay3 := by
  subst hn; rfl
theorem sqAt2_next (hn : n ≠ 0) : sqAt2 V c n = k2_pay1 (h2At2 V c (Mlp2.pt n)) (sqAt2 V c (n - 1)) := by
  obtain _ | n := n; exacts [absurd rfl hn, rfl]

abbrev scM2_0 : Memref sig .tc .vmem S1x128 .f32 := Memref.whole cc2_scratch0
abbrev scM2_1 : Memref sig .tc .vmem S1x128 .f32 := Memref.whole cc2_scratch1

theorem PhiA2_eq :
    (Pipeline.ΦA spec2 c : sProp 𝕄)
      = iprop(iprop(iprop((∃ d, owns (c : Thread nD τ) scM2_0 fullShare d) ∗ (∃ d, owns (c : Thread nD τ) scM2_1 fullShare d))
          ∗ Pipeline.scopedRestBut spec2 c [cc2_scratch0, cc2_scratch1])
          ∗ (∃ r, prngReg c r)) := by
  unfold Pipeline.ΦA; rw [scopedRest2_split]; simp only [scM2_0, scM2_1, owns_whole]; try rfl

/-- The invariant before point `n + 1`: the two scratch rows hold the running sums after blocks `0 … n`. -/
def PhiS2 : ℕ → sProp 𝕄
  | 0 => Pipeline.ΦA spec2 c
  | n + 1 => iprop(iprop(iprop(owns (c : Thread nD τ) scM2_0 fullShare (sumAt2 V c n) ∗ owns (c : Thread nD τ) scM2_1 fullShare (sqAt2 V c n))
          ∗ Pipeline.scopedRestBut spec2 c [cc2_scratch0, cc2_scratch1])
          ∗ (∃ r, prngReg c r))

theorem PhiS2_zero (hz : n = 0) : PhiS2 V c n = Pipeline.ΦA spec2 c := by subst hz; rfl
theorem PhiS2_succ :
    PhiS2 V c (n + 1) = iprop(iprop(iprop(owns (c : Thread nD τ) scM2_0 fullShare (sumAt2 V c n) ∗ owns (c : Thread nD τ) scM2_1 fullShare (sqAt2 V c n))
          ∗ Pipeline.scopedRestBut spec2 c [cc2_scratch0, cc2_scratch1])
          ∗ (∃ r, prngReg c r)) := rfl
theorem PhiS2_pos (hz : n ≠ 0) :
    PhiS2 V c n = iprop(iprop(iprop(owns (c : Thread nD τ) scM2_0 fullShare (sumAt2 V c (n - 1)) ∗ owns (c : Thread nD τ) scM2_1 fullShare (sqAt2 V c (n - 1)))
          ∗ Pipeline.scopedRestBut spec2 c [cc2_scratch0, cc2_scratch1])
          ∗ (∃ r, prngReg c r)) := by
  obtain _ | n := n; exacts [absurd rfl hz, rfl]

/-- What the body leaves at point `t`: each input's block, the block's h2, and the sums over all blocks. -/
def dat2 : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => h2At2 V c (ptOf2 t)
    | ⟨6, _⟩ => sumAt2 V c 19
    | ⟨7, _⟩ => sqAt2 V c 19
  Φ t := PhiS2 V c t.val
  q _ := fullShare
  owed _ := 0

theorem after2_0 : (dat2 V c).after 0 t = iblk2 V c 0 t := rfl
theorem after2_1 : (dat2 V c).after 1 t = iblk2 V c 1 t := rfl
theorem after2_2 : (dat2 V c).after 2 t = iblk2 V c 2 t := rfl
theorem after2_3 : (dat2 V c).after 3 t = iblk2 V c 3 t := rfl
theorem after2_4 : (dat2 V c).after 4 t = iblk2 V c 4 t := rfl
theorem after2_5 : (dat2 V c).after 5 t = h2At2 V c (ptOf2 t) := rfl
theorem after2_6 : (dat2 V c).after 6 t = sumAt2 V c 19 := rfl
theorem after2_7 : (dat2 V c).after 7 t = sqAt2 V c 19 := rfl

theorem before2_0 (d) : (dat2 V c).before 0 t d = iblk2 V c 0 t :=
  (dat2 V c).before_in_eq_fetched 0 rfl (fun _ => rfl) (fun _ _ _ => rfl) (fun _ => rfl) t d
theorem before2_1 (d) : (dat2 V c).before 1 t d = iblk2 V c 1 t :=
  (dat2 V c).before_in_eq_fetched 1 rfl (fun _ => rfl) (fun _ _ _ => rfl) (fun _ => rfl) t d
theorem before2_2 (d) : (dat2 V c).before 2 t d = iblk2 V c 2 t :=
  (dat2 V c).before_in_eq_fetched 2 rfl (fun _ => rfl) (fun _ _ _ => rfl) (fun _ => rfl) t d
theorem before2_3 (d) : (dat2 V c).before 3 t d = iblk2 V c 3 t :=
  (dat2 V c).before_in_eq_fetched 3 rfl (fun _ => rfl) (fun _ _ _ => rfl) (fun _ => rfl) t d
theorem before2_4 (d) : (dat2 V c).before 4 t d = iblk2 V c 4 t :=
  (dat2 V c).before_in_eq_fetched 4 rfl (fun _ => rfl) (fun _ _ _ => rfl) (fun _ => rfl) t d

theorem PhiS2_castSucc : (dat2 V c).Φ t.castSucc = PhiS2 V c t.val := rfl

theorem hin2 : Pipeline.ΦA spec2 c ⊢ (dat2 V c).Φ 0 := Idealize.SL.BI.Entails.refl _

/-- After the last point the invariant gives the launch's form back: the rows' values are forgotten. -/
theorem hout2 : (dat2 V c).Φ (Fin.last cfg2.N) ⊢ Pipeline.ΦA spec2 c := by
  rw [show (dat2 V c).Φ (Fin.last cfg2.N) = PhiS2 V c (19 + 1) from rfl, PhiS2_succ, PhiA2_eq]
  iintro ⟨⟨⟨HS0, HS1⟩, HR⟩, Hg⟩
  isplitr [Hg]
  · isplitr [HR]
    · isplitl [HS0]
      · iexists _; iexact HS0
      · iexists _; iexact HS1
    · iexact HR
  · iexact Hg

end Region2

end Cert.KernelIdeal.Hand
end
-- ==== Proof.BnRegion3.lean ====
import proofs.«414687_j59708635349041_1_alg».proof.Proof.Gen.KernelIdeal.Launch
import proofs.«414687_j59708635349041_1_alg».proof.Proof.Gen.KernelIdeal.Points
import proofs.«414687_j59708635349041_1_alg».proof.Proof.BnSpec
import Idealize.ShloMosaic.Lib.Pipeline.Value
import Idealize.ShloMosaic.Lib.Ring

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)
open Idealize.ShloMosaic.ValueIdx

variable {F : FTy → Type} [FloatOps F]

variable (V : (c : Dev nD) → (b : Ref sig .tc) → Buf (Elt F) ((c : Thread nD τ).loc b)) (c : Dev nD) (t : Fin cfg3.N)

def inBlk3 (w : Fin cfg3.W) : ((cfg3.win w).xblock (cfg3.grid.coords t)).Idx → Elt F (cfg3.win w).elt :=
  ((cfg3.win w).blk t).view.read (Elt F) (V c (Pipeline.arrRef spec3 w))

abbrev rBlk3 : Rect S5000x128 := Rect.unit (s := S5000x128) ![0, 0] S5000x128.size inb_S5000x128_S5000x128_0_0
abbrev rRow3 : Rect S1x128 := Rect.unit (s := S1x128) ![0, 0] S1x128.size inb_S1x128_S1x128_0_0

/-- What the body's one store, over the whole buffer, leaves there: a function of the five inputs' contents alone. -/
def out3_5 (x0 : Vec F S5000x128 .f32) (x1 x2 x3 x4 : Vec F S1x128 .f32) : Vec F S5000x128 .f32 :=
  View.canon [⟨rBlk3, k3_pay1 (View.ld x0 rBlk3) (View.ld x1 rRow3) (View.ld x2 rRow3) (View.ld x3 rRow3) (View.ld x4 rRow3)⟩]

/-- The body on whole memrefs: the inputs are read and kept, the output is overwritten with `out3_5` of the inputs. -/
theorem sound_kernel3 (E : Set ℕ) (i : grid3.Coords) {m0 m5 : Memref sig .tc .vmem S5000x128 .f32} {m1 m2 m3 m4 : Memref sig .tc .vmem S1x128 .f32}
    (h0 : m0.IsWhole) (h1 : m1.IsWhole) (h2 : m2.IsWhole) (h3 : m3.IsWhole) (h4 : m4.IsWhole) (h5 : m5.IsWhole)
    (x0 : Vec F S5000x128 .f32) (x1 x2 x3 x4 : Vec F S1x128 .f32) (K : PUnit → sProp (MT nD τ sig Unit (Elt F) ℕ (UR sig nD τ) ℕ)) :
    iprop(owns c.tc m0 fullShare x0 ∗ owns c.tc m1 fullShare x1 ∗ owns c.tc m2 fullShare x2
        ∗ owns c.tc m3 fullShare x3 ∗ owns c.tc m4 fullShare x4 ∗ (∃ d, owns c.tc m5 fullShare d)
        ∗ (iprop(owns c.tc m0 fullShare x0 ∗ owns c.tc m1 fullShare x1 ∗ owns c.tc m2 fullShare x2
            ∗ owns c.tc m3 fullShare x3 ∗ owns c.tc m4 fullShare x4
            ∗ owns c.tc m5 fullShare (out3_5 x0 x1 x2 x3 x4)) -∗ K ⟨⟩))
      ⊢ wp frame (wpE (defs₀ (F := F)) Variants.none c none) E (cc3__bn_relu_kernel i m0 h0 m1 h1 m2 h2 m3 h3 m4 h4 m5 h5) K := by
  simp only [cc3__bn_relu_kernel_eq_skeleton]; unfold cc3__bn_relu_kernel_skel owns
  iintro ⟨⟨%f0, %e0, H0⟩, ⟨%f1, %e1, H1⟩, ⟨%f2, %e2, H2⟩, ⟨%f3, %e3, H3⟩, ⟨%f4, %e4, H4⟩, ⟨%d, %f5, -, H5⟩, Hk⟩
  subst e0 e1 e2 e3 e4
  sl_exec
  sl_step
  iapply Hk
  isplitl [H0]; · iexists f0; iframe H0; ipureintro; rfl
  isplitl [H1]; · iexists f1; iframe H1; ipureintro; rfl
  isplitl [H2]; · iexists f2; iframe H2; ipureintro; rfl
  isplitl [H3]; · iexists f3; iframe H3; ipureintro; rfl
  isplitl [H4]; · iexists f4; iframe H4; ipureintro; rfl
  iexists _; iframe H5
  ipureintro
  exact View.read_writes_eq_canon _ _ _ (View.cover_of_tiled _ S5000x128.size (by rfl))

/-- The proof data of the region on core `c`: the arrays as found; after the body each input's buffer at its block and the output's at `out3_5` of the input blocks. -/
def dat3 : Dat τ (Elt F) Unit ℕ (UR sig nD τ) ℕ cfg3 c where
  A w := V c (Pipeline.arrRef spec3 w)
  after w t := match w with
    | ⟨0, _⟩ => inBlk3 V c t 0
    | ⟨1, _⟩ => inBlk3 V c t 1
    | ⟨2, _⟩ => inBlk3 V c t 2
    | ⟨3, _⟩ => inBlk3 V c t 3
    | ⟨4, _⟩ => inBlk3 V c t 4
    | ⟨5, _⟩ => out3_5 (inBlk3 V c t 0) (inBlk3 V c t 1) (inBlk3 V c t 2) (inBlk3 V c t 3) (inBlk3 V c t 4)
  Φ _ := Pipeline.ΦA spec3 c
  q _ := fullShare
  owed _ := 0

theorem hin3 : Pipeline.ΦA spec3 c ⊢ (dat3 V c).Φ 0 := Entails.refl _

theorem hout3 : (dat3 V c).Φ (Fin.last cfg3.N) ⊢ Pipeline.ΦA spec3 c := Entails.refl _

/-- Before the body, as after it, an input's buffer holds its block. -/
theorem before3 : ∀ w : Fin cfg3.W, w.val < 5 → ∀ d, (dat3 V c).before w t d = (dat3 V c).after w t
  | ⟨0, _⟩, _ | ⟨1, _⟩, _ | ⟨2, _⟩, _ | ⟨3, _⟩, _ | ⟨4, _⟩, _ =>
    (dat3 V c).before_in_eq_fetched _ rfl (fun _ => rfl) (fun _ _ _ => rfl) (fun _ => rfl) t

/-- The body at any point: each input's memref holds its block, so the body's triple applies; the invariant and what the core owes pass through unread. -/
theorem body_obligation3 : BodyObligation (dat3 (F := F) V c) (defs₀ (F := F)) Variants.none () Set.univ := fun t => by
  rw [bigSep_W3, bigSep_W3]
  simp +decide only [before3 V c t]
  dsimp only [dat3, Dat.owesAt, Dat.bound]
  change _ ⊢ wp _ _ _ (bodyAt3 t) _
  iintro ⟨HΦ, Ho, ⟨%d0, H0⟩, ⟨%d1, H1⟩, ⟨%d2, H2⟩, ⟨%d3, H3⟩, ⟨%d4, H4⟩, ⟨%d5, H5⟩⟩
  iapply (sound_kernel3 c Set.univ _ _ _ _ _ _ _ (inBlk3 V c t 0) (inBlk3 V c t 1) (inBlk3 V c t 2) (inBlk3 V c t 3) (inBlk3 V c t 4) _)
  iframe H0 H1 H2 H3 H4
  isplitl [H5]; · iexists _; iexact H5
  iintro ⟨H0, H1, H2, H3, H4, H5⟩
  iframe

theorem kept3 (w : Fin cfg3.W) (hw : w.val < 5) : (dat3 V c).arrAt w cfg3.N = V c (Pipeline.arrRef spec3 w) :=
  match w, hw with
  | ⟨0, _⟩, _ | ⟨1, _⟩, _ | ⟨2, _⟩, _ | ⟨3, _⟩, _ | ⟨4, _⟩, _ => (dat3 V c).arrAt_in _ rfl _

theorem hz3 : (![0, 0] : Fin 2 → Nat) = fun _ => 0 := funext fun a => by fin_cases a <;> rfl

theorem lt20_3 : t.val < 20 := Nat.lt_of_lt_of_eq t.isLt N_3

/-- The printed index maps, decided over the grid: the two blocked windows are at block row `t`, column block 0; the four row windows are at block (0, 0). -/
theorem idx_facts3 : ∀ t : Fin cfg3.N, (win3_0.index t (0 : Fin 2) = t.val ∧ win3_0.index t (1 : Fin 2) = 0)
    ∧ (win3_5.index t (0 : Fin 2) = t.val ∧ win3_5.index t (1 : Fin 2) = 0)
    ∧ (∀ a, win3_1.index t a = 0) ∧ (∀ a, win3_2.index t a = 0) ∧ (∀ a, win3_3.index t a = 0) ∧ ∀ a, win3_4.index t a = 0 :=
  (by decide +kernel : ∀ t : Fin grid3.N, _)

/-- The output array at row `5000 tt + p` is the payload of block `tt` at its row `p`: quotient and remainder by 5000. -/
theorem outArr_at3 (H2 : Vec F S100000x128 .f32) (mean inv g be : Vec F S1x128 .f32) (tt : Fin 20) (j : S5000x128.Idx) (i : S100000x128.Idx)
    (h0 : (i 0).val = 5000 * tt.val + (j 0).val) (h1 : (i 1).val = (j 1).val) :
    Bn3.outArr H2 mean inv g be i = k3_pay1 (Bn3.blk H2 tt) mean inv g be j := by
  have hj := idx2_lt0 j
  exact congrArg₂ (fun a b => k3_pay1 (Bn3.blk H2 a) mean inv g be b) (Fin.ext (by show (i 0).val / 5000 = tt.val; omega))
    ((congrArg₂ ix2 (Fin.ext (by show (i 0).val % 5000 = (j 0).val; omega)) (Fin.ext h1)).trans (eq_ix2 j).symm)

theorem inBlk3_0_eq : inBlk3 V c t 0 = Bn3.blk (V c main_v67_0) ⟨t.val, lt20_3 t⟩ := by
  obtain ⟨⟨e0, e1⟩, -⟩ := idx_facts3 t
  funext y
  refine congrArg (V c main_v67_0) (funext fun a => Fin.ext ?_)
  match a with
  | ⟨0, _⟩ => show win3_0.index t (0 : Fin 2) * 5000 + 1 * (y 0).val = 5000 * t.val + (y 0).val; omega
  | ⟨1, _⟩ => show win3_0.index t (1 : Fin 2) * 128 + 1 * (y 1).val = (y 1).val; omega

/-- Each row window's block at every point is its whole array: its block index is 0 on both axes. -/
theorem inBlk3_row : inBlk3 V c t 1 = V c main_v83 ∧ inBlk3 V c t 2 = V c main_v84 ∧ inBlk3 V c t 3 = V c main_v85 ∧ inBlk3 V c t 4 = V c main_v86 := by
  obtain ⟨-, -, h1, h2, h3, h4⟩ := idx_facts3 t
  refine ⟨?_, ?_, ?_, ?_⟩ <;> funext y <;> refine congrArg (V c _) (funext fun a => Fin.ext ?_)
  exacts [(cfg3.win 1).rect_emb_val_of_index_zero t a (h1 a) y, (cfg3.win 2).rect_emb_val_of_index_zero t a (h2 a) y,
    (cfg3.win 3).rect_emb_val_of_index_zero t a (h3 a) y, (cfg3.win 4).rect_emb_val_of_index_zero t a (h4 a) y]

/-- Point `t`'s contribution to the output array is block `t` of the normalised array. -/
theorem flushed3_5_eq : (dat3 V c).flushed 5 t = ((cfg3.win 5).blk t).view.read (Elt F)
    (Bn3.outArr (V c main_v67_0) (V c main_v83) (V c main_v84) (V c main_v85) (V c main_v86)) := by
  obtain ⟨-, ⟨e0, e1⟩, -⟩ := idx_facts3 t
  obtain ⟨r1, r2, r3, r4⟩ := inBlk3_row V c t
  show (cfg3.win 5).cut (grid3.coords t) ((dat3 V c).after 5 t) = _
  dsimp only [dat3]
  rw [out3_5, View.canon_unit_zero hz3]
  simp only [View.ld_unit_zero (S := S5000x128) hz3, View.ld_unit_zero (S := S1x128) hz3, inBlk3_0_eq V c t, r1, r2, r3, r4]
  funext j
  refine (outArr_at3 _ _ _ _ _ ⟨t.val, lt20_3 t⟩ j _ ?_ ?_).symm
  · show win3_5.index t (0 : Fin 2) * 5000 + 1 * (j 0).val = 5000 * t.val + (j 0).val; omega
  · show win3_5.index t (1 : Fin 2) * 128 + 1 * (j 1).val = (j 1).val; omega

theorem cover3_5_arr (i : S100000x128.Idx) : ∃ s : Fin cfg3.N, (cfg3.win 5).flush s = true ∧ i ∈ ((cfg3.win 5).blk s).view.set := by
  have hi0 := idx2_lt0 i
  have hi1 := idx2_lt1 i
  let s : Fin cfg3.N := ⟨(i 0).val / 5000, by rw [show cfg3.N = 20 from N_3]; omega⟩
  obtain ⟨-, ⟨e0, e1⟩, -⟩ := idx_facts3 s
  have hs : s.val = (i 0).val / 5000 := rfl
  refine ⟨s, flush3_5 s, ?_⟩
  show i ∈ ((View.whole main_v87).slice (win3_5.rect s)).set
  rw [View.set_slice_whole, Rect.mem_set_unit]
  intro a
  match a with
  | ⟨0, _⟩ => show win3_5.index s (0 : Fin 2) * 5000 ≤ (i 0).val ∧ (i 0).val < win3_5.index s (0 : Fin 2) * 5000 + 5000; omega
  | ⟨1, _⟩ => show win3_5.index s (1 : Fin 2) * 128 ≤ (i 1).val ∧ (i 1).val < win3_5.index s (1 : Fin 2) * 128 + 128; omega

theorem final3_5 : (dat3 V c).arrAt 5 cfg3.N = Bn3.outArr (V c main_v67_0) (V c main_v83) (V c main_v84) (V c main_v85) (V c main_v86) :=
  (dat3 V c).arrAt_eq_of_cover 5 _ (fun t _ => flushed3_5_eq V c t) cover3_5_arr

end Cert.KernelIdeal.Hand

end
-- ==== Proof.MlpRegion4Base.lean ====
import proofs.«414687_j59708635349041_1_alg».proof.Proof.Gen.KernelIdeal.Skeleton
import proofs.«414687_j59708635349041_1_alg».proof.Proof.Gen.KernelIdeal.Launch
import proofs.«414687_j59708635349041_1_alg».proof.Proof.Gen.KernelIdeal.Points
import proofs.«414687_j59708635349041_1_alg».proof.Proof.MlpSpec
import Idealize.ShloMosaic.Lib.Pipeline.Frame
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.ProofMode Idealize.SL.Sem
open Idealize.ShloMosaic.Pipeline (Dat)

variable {F : FTy → Type} [FloatOps F]

local notation "𝕄" => MT nD τ sig Unit (Elt F) ℕ (UR sig nD τ) ℕ

abbrev cond4_1 (i : grid4.Coords) : Prop :=
  (Scalar.cmpi .ne (Scalar.extui (Scalar.cmpi .eq (BitVec.ofNat 32 (i 0).val) 0#32)) 0#32) = 1#1
abbrev cond4_2 (i : grid4.Coords) : Prop := k4_cond2 i = 1#1

theorem hcond4_1 : ∀ t : Fin cfg4.N, cond4_1 (grid4.coords t) ↔ t.val % 20 = 0 := by decide +kernel
theorem hcond4_2 : ∀ t : Fin cfg4.N, cond4_2 (grid4.coords t) ↔ t.val % 20 = 19 := by decide +kernel

theorem idleAt4_6 : ∀ t : Fin cfg4.N, ¬t.val % 20 = 19 → cfg4.idle 6 (grid4.coords t) = true := by decide +kernel
theorem idleAt4_7 : ∀ t : Fin cfg4.N, ¬t.val % 20 = 19 → cfg4.idle 7 (grid4.coords t) = true := by decide +kernel
theorem noFlush4_6 (t : Fin cfg4.N) (h : ¬t.val % 20 = 19) : (cfg4.win 6).flush t = false :=
  Bool.eq_false_iff.mpr (mt (flush4_6 t).mp h)
theorem noFlush4_7 (t : Fin cfg4.N) (h : ¬t.val % 20 = 19) : (cfg4.win 7).flush t = false :=
  Bool.eq_false_iff.mpr (mt (flush4_7 t).mp h)

theorem hz4 : (![0, 0] : Fin 2 → Nat) = fun _ => 0 := funext fun a => by fin_cases a <;> rfl

/-- Where each window's block sits in its array. -/
theorem idx_facts4 : ∀ t : Fin cfg4.N,
    (∀ (w : Fin cfg4.W) (a : Fin (cfg4.win w).shape.rank), w.val % 5 ≠ 0 ∨ a.val ≠ 0 → (cfg4.win w).index t a = 0)
    ∧ win4_0.index t (0 : Fin 2) = t.val ∧ win4_5.index t (0 : Fin 2) = t.val ∧ t.val < 20 := by decide +kernel

section Region4

variable (V : (c : Dev nD) → (b : Ref sig .tc) → Buf (Elt F) ((c : Thread nD τ).loc b)) (c : Dev nD)

/-- Window `w`'s block of its array at point `t`. -/
def iblk4 (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev xArr4 : Vec F S100000x128 .f32 := V c main_v98
abbrev w1Arr4 : Vec F S128x128 .f32 := V c main_v100
abbrev b1Arr4 : Vec F S1x128 .f32 := V c main_v107
abbrev w2Arr4 : Vec F S128x128 .f32 := V c main_v104
abbrev b2Arr4 : Vec F S1x128 .f32 := V c main_v108

abbrev ptOf4 (t : Fin cfg4.N) : Fin 20 := Mlp4.pt t.val

variable (t : Fin cfg4.N) (n : ℕ)

theorem iblk4_0_eq : iblk4 V c 0 t = Mlp4.blk (xArr4 V c) (ptOf4 t) := by
  obtain ⟨hz, e0, -, hN⟩ := idx_facts4 t
  refine funext fun j => congrArg (V c main_v98) (funext fun a => Fin.ext ?_)
  match a with
  | ⟨0, _⟩ => show win4_0.index t (0 : Fin 2) * 5000 + 1 * (j 0).val = t.val % 20 * 5000 + (j 0).val; omega
  | ⟨1, _⟩ => exact win4_0.rect_emb_val_of_index_zero t 1 (hz 0 (1 : Fin 2) (.inr (by decide))) j

/-- A block at index 0 on every axis that is as large as its array is the array. -/
theorem iblk4_1_eq : iblk4 V c 1 t = w1Arr4 V c :=
  funext fun j => congrArg (V c main_v100) (funext fun a => Fin.ext
    (win4_1.rect_emb_val_of_index_zero t a ((idx_facts4 t).1 1 a (.inl (by decide))) j))
theorem iblk4_2_eq : iblk4 V c 2 t = b1Arr4 V c :=
  funext fun j => congrArg (V c main_v107) (funext fun a => Fin.ext
    (win4_2.rect_emb_val_of_index_zero t a ((idx_facts4 t).1 2 a (.inl (by decide))) j))
theorem iblk4_3_eq : iblk4 V c 3 t = w2Arr4 V c :=
  funext fun j => congrArg (V c main_v104) (funext fun a => Fin.ext
    (win4_3.rect_emb_val_of_index_zero t a ((idx_facts4 t).1 3 a (.inl (by decide))) j))
theorem iblk4_4_eq : iblk4 V c 4 t = b2Arr4 V c :=
  funext fun j => congrArg (V c main_v108) (funext fun a => Fin.ext
    (win4_4.rect_emb_val_of_index_zero t a ((idx_facts4 t).1 4 a (.inl (by decide))) j))

abbrev sumAt4 : Vec F S1x128 .f32 := Mlp4.sumAcc (xArr4 V c) (w1Arr4 V c) (b1Arr4 V c) (w2Arr4 V c) (b2Arr4 V c) n
abbrev sqAt4 : Vec F S1x128 .f32 := Mlp4.sqAcc (xArr4 V c) (w1Arr4 V c) (b1Arr4 V c) (w2Arr4 V c) (b2Arr4 V c) n
abbrev h2At4 (k : Fin 20) : Vec F S5000x128 .f32 := k4_pay4 (Mlp4.blk (xArr4 V c) k) (w1Arr4 V c) (b1Arr4 V c) (w2Arr4 V c) (b2Arr4 V c)

theorem sumAt4_first (hn : n = 0) :
    sumAt4 V c n = k4_pay5 (Mlp4.blk (xArr4 V c) (Mlp4.pt n)) (w1Arr4 V c) (b1Arr4 V c) (w2Arr4 V c) (b2Arr4 V c) k4_pay2 := by
  subst hn; rfl
theorem sumAt4_next (hn : n ≠ 0) :
    sumAt4 V c n = k4_pay5 (Mlp4.blk (xArr4 V c) (Mlp4.pt n)) (w1Arr4 V c) (b1Arr4 V c) (w2Arr4 V c) (b2Arr4 V c) (sumAt4 V c (n - 1)) := by
  obtain _ | n := n; exacts [absurd rfl hn, rfl]
theorem sqAt4_first (hn : n = 0) : sqAt4 V c n = k4_pay1 (h2At4 V c (Mlp4.pt n)) k4_pay3 := by
  subst hn; rfl
theorem sqAt4_next (hn : n ≠ 0) : sqAt4 V c n = k4_pay1 (h2At4 V c (Mlp4.pt n)) (sqAt4 V c (n - 1)) := by
  obtain _ | n := n; exacts [absurd rfl hn, rfl]

abbrev scM4_0 : Memref sig .tc .vmem S1x128 .f32 := Memref.whole cc4_scratch0
abbrev scM4_1 : Memref sig .tc .vmem S1x128 .f32 := Memref.whole cc4_scratch1

theorem PhiA4_eq :
    (Pipeline.ΦA spec4 c : sProp 𝕄)
      = iprop(iprop(iprop((∃ d, owns (c : Thread nD τ) scM4_0 fullShare d) ∗ (∃ d, owns (c : Thread nD τ) scM4_1 fullShare d))
          ∗ Pipeline.scopedRestBut spec4 c [cc4_scratch0, cc4_scratch1])
          ∗ (∃ r, prngReg c r)) := by
  unfold Pipeline.ΦA; rw [scopedRest4_split]; simp only [scM4_0, scM4_1, owns_whole]; try rfl

/-- The invariant before point `n + 1`: the two scratch rows hold the running sums after blocks `0 … n`. -/
def PhiS4 : ℕ → sProp 𝕄
  | 0 => Pipeline.ΦA spec4 c
  | n + 1 => iprop(iprop(iprop(owns (c : Thread nD τ) scM4_0 fullShare (sumAt4 V c n) ∗ owns (c : Thread nD τ) scM4_1 fullShare (sqAt4 V c n))
          ∗ Pipeline.scopedRestBut spec4 c [cc4_scratch0, cc4_scratch1])
          ∗ (∃ r, prngReg c r))

theorem PhiS4_zero (hz : n = 0) : PhiS4 V c n = Pipeline.ΦA spec4 c := by subst hz; rfl
theorem PhiS4_succ :
    PhiS4 V c (n + 1) = iprop(iprop(iprop(owns (c : Thread nD τ) scM4_0 fullShare (sumAt4 V c n) ∗ owns (c : Thread nD τ) scM4_1 fullShare (sqAt4 V c n))
          ∗ Pipeline.scopedRestBut spec4 c [cc4_scratch0, cc4_scratch1])
          ∗ (∃ r, prngReg c r)) := rfl
theorem PhiS4_pos (hz : n ≠ 0) :
    PhiS4 V c n = iprop(iprop(iprop(owns (c : Thread nD τ) scM4_0 fullShare (sumAt4 V c (n - 1)) ∗ owns (c : Thread nD τ) scM4_1 fullShare (sqAt4 V c (n - 1)))
          ∗ Pipeline.scopedRestBut spec4 c [cc4_scratch0, cc4_scratch1])
          ∗ (∃ r, prngReg c r)) := by
  obtain _ | n := n; exacts [absurd rfl hz, rfl]

/-- What the body leaves at point `t`: each input's block, the block's h2, and the sums over all blocks. -/
def dat4 : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => h2At4 V c (ptOf4 t)
    | ⟨6, _⟩ => sumAt4 V c 19
    | ⟨7, _⟩ => sqAt4 V c 19
  Φ t := PhiS4 V c t.val
  q _ := fullShare
  owed _ := 0

theorem after4_0 : (dat4 V c).after 0 t = iblk4 V c 0 t := rfl
theorem after4_1 : (dat4 V c).after 1 t = iblk4 V c 1 t := rfl
theorem after4_2 : (dat4 V c).after 2 t = iblk4 V c 2 t := rfl
theorem after4_3 : (dat4 V c).after 3 t = iblk4 V c 3 t := rfl
theorem after4_4 : (dat4 V c).after 4 t = iblk4 V c 4 t := rfl
theorem after4_5 : (dat4 V c).after 5 t = h2At4 V c (ptOf4 t) := rfl
theorem after4_6 : (dat4 V c).after 6 t = sumAt4 V c 19 := rfl
theorem after4_7 : (dat4 V c).after 7 t = sqAt4 V c 19 := rfl

theorem before4_0 (d) : (dat4 V c).before 0 t d = iblk4 V c 0 t :=
  (dat4 V c).before_in_eq_fetched 0 rfl (fun _ => rfl) (fun _ _ _ => rfl) (fun _ => rfl) t d
theorem before4_1 (d) : (dat4 V c).before 1 t d = iblk4 V c 1 t :=
  (dat4 V c).before_in_eq_fetched 1 rfl (fun _ => rfl) (fun _ _ _ => rfl) (fun _ => rfl) t d
theorem before4_2 (d) : (dat4 V c).before 2 t d = iblk4 V c 2 t :=
  (dat4 V c).before_in_eq_fetched 2 rfl (fun _ => rfl) (fun _ _ _ => rfl) (fun _ => rfl) t d
theorem before4_3 (d) : (dat4 V c).before 3 t d = iblk4 V c 3 t :=
  (dat4 V c).before_in_eq_fetched 3 rfl (fun _ => rfl) (fun _ _ _ => rfl) (fun _ => rfl) t d
theorem before4_4 (d) : (dat4 V c).before 4 t d = iblk4 V c 4 t :=
  (dat4 V c).before_in_eq_fetched 4 rfl (fun _ => rfl) (fun _ _ _ => rfl) (fun _ => rfl) t d

theorem PhiS4_castSucc : (dat4 V c).Φ t.castSucc = PhiS4 V c t.val := rfl

theorem hin4 : Pipeline.ΦA spec4 c ⊢ (dat4 V c).Φ 0 := Idealize.SL.BI.Entails.refl _

/-- After the last point the invariant gives the launch's form back: the rows' values are forgotten. -/
theorem hout4 : (dat4 V c).Φ (Fin.last cfg4.N) ⊢ Pipeline.ΦA spec4 c := by
  rw [show (dat4 V c).Φ (Fin.last cfg4.N) = PhiS4 V c (19 + 1) from rfl, PhiS4_succ, PhiA4_eq]
  iintro ⟨⟨⟨HS0, HS1⟩, HR⟩, Hg⟩
  isplitr [Hg]
  · isplitr [HR]
    · isplitl [HS0]
      · iexists _; iexact HS0
      · iexists _; iexact HS1
    · iexact HR
  · iexact Hg

end Region4

end Cert.KernelIdeal.Hand
end
-- ==== Proof.BnRegion5.lean ====
import proofs.«414687_j59708635349041_1_alg».proof.Proof.Gen.KernelIdeal.Launch
import proofs.«414687_j59708635349041_1_alg».proof.Proof.Gen.KernelIdeal.Points
import proofs.«414687_j59708635349041_1_alg».proof.Proof.BnSpec
import Idealize.ShloMosaic.Lib.Pipeline.Value
import Idealize.ShloMosaic.Lib.Ring

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)
open Idealize.ShloMosaic.ValueIdx

variable {F : FTy → Type} [FloatOps F]

variable (V : (c : Dev nD) → (b : Ref sig .tc) → Buf (Elt F) ((c : Thread nD τ).loc b)) (c : Dev nD) (t : Fin cfg5.N)

def inBlk5 (w : Fin cfg5.W) : ((cfg5.win w).xblock (cfg5.grid.coords t)).Idx → Elt F (cfg5.win w).elt :=
  ((cfg5.win w).blk t).view.read (Elt F) (V c (Pipeline.arrRef spec5 w))

abbrev rBlk5 : Rect S5000x128 := Rect.unit (s := S5000x128) ![0, 0] S5000x128.size inb_S5000x128_S5000x128_0_0
abbrev rRow5 : Rect S1x128 := Rect.unit (s := S1x128) ![0, 0] S1x128.size inb_S1x128_S1x128_0_0

/-- What the body's one store, over the whole buffer, leaves there: a function of the five inputs' contents alone. -/
def out5_5 (x0 : Vec F S5000x128 .f32) (x1 x2 x3 x4 : Vec F S1x128 .f32) : Vec F S5000x128 .f32 :=
  View.canon [⟨rBlk5, k5_pay1 (View.ld x0 rBlk5) (View.ld x1 rRow5) (View.ld x2 rRow5) (View.ld x3 rRow5) (View.ld x4 rRow5)⟩]

/-- The body on whole memrefs: the inputs are read and kept, the output is overwritten with `out5_5` of the inputs. -/
theorem sound_kernel5 (E : Set ℕ) (i : grid5.Coords) {m0 m5 : Memref sig .tc .vmem S5000x128 .f32} {m1 m2 m3 m4 : Memref sig .tc .vmem S1x128 .f32}
    (h0 : m0.IsWhole) (h1 : m1.IsWhole) (h2 : m2.IsWhole) (h3 : m3.IsWhole) (h4 : m4.IsWhole) (h5 : m5.IsWhole)
    (x0 : Vec F S5000x128 .f32) (x1 x2 x3 x4 : Vec F S1x128 .f32) (K : PUnit → sProp (MT nD τ sig Unit (Elt F) ℕ (UR sig nD τ) ℕ)) :
    iprop(owns c.tc m0 fullShare x0 ∗ owns c.tc m1 fullShare x1 ∗ owns c.tc m2 fullShare x2
        ∗ owns c.tc m3 fullShare x3 ∗ owns c.tc m4 fullShare x4 ∗ (∃ d, owns c.tc m5 fullShare d)
        ∗ (iprop(owns c.tc m0 fullShare x0 ∗ owns c.tc m1 fullShare x1 ∗ owns c.tc m2 fullShare x2
            ∗ owns c.tc m3 fullShare x3 ∗ owns c.tc m4 fullShare x4
            ∗ owns c.tc m5 fullShare (out5_5 x0 x1 x2 x3 x4)) -∗ K ⟨⟩))
      ⊢ wp frame (wpE (defs₀ (F := F)) Variants.none c none) E (cc5__bn_relu_kernel i m0 h0 m1 h1 m2 h2 m3 h3 m4 h4 m5 h5) K := by
  simp only [cc5__bn_relu_kernel_eq_skeleton]; unfold cc5__bn_relu_kernel_skel owns
  iintro ⟨⟨%f0, %e0, H0⟩, ⟨%f1, %e1, H1⟩, ⟨%f2, %e2, H2⟩, ⟨%f3, %e3, H3⟩, ⟨%f4, %e4, H4⟩, ⟨%d, %f5, -, H5⟩, Hk⟩
  subst e0 e1 e2 e3 e4
  sl_exec
  sl_step
  iapply Hk
  isplitl [H0]; · iexists f0; iframe H0; ipureintro; rfl
  isplitl [H1]; · iexists f1; iframe H1; ipureintro; rfl
  isplitl [H2]; · iexists f2; iframe H2; ipureintro; rfl
  isplitl [H3]; · iexists f3; iframe H3; ipureintro; rfl
  isplitl [H4]; · iexists f4; iframe H4; ipureintro; rfl
  iexists _; iframe H5
  ipureintro
  exact View.read_writes_eq_canon _ _ _ (View.cover_of_tiled _ S5000x128.size (by rfl))

/-- The proof data of the region on core `c`: the arrays as found; after the body each input's buffer at its block and the output's at `out5_5` of the input blocks. -/
def dat5 : Dat τ (Elt F) Unit ℕ (UR sig nD τ) ℕ cfg5 c where
  A w := V c (Pipeline.arrRef spec5 w)
  after w t := match w with
    | ⟨0, _⟩ => inBlk5 V c t 0
    | ⟨1, _⟩ => inBlk5 V c t 1
    | ⟨2, _⟩ => inBlk5 V c t 2
    | ⟨3, _⟩ => inBlk5 V c t 3
    | ⟨4, _⟩ => inBlk5 V c t 4
    | ⟨5, _⟩ => out5_5 (inBlk5 V c t 0) (inBlk5 V c t 1) (inBlk5 V c t 2) (inBlk5 V c t 3) (inBlk5 V c t 4)
  Φ _ := Pipeline.ΦA spec5 c
  q _ := fullShare
  owed _ := 0

theorem hin5 : Pipeline.ΦA spec5 c ⊢ (dat5 V c).Φ 0 := Entails.refl _

theorem hout5 : (dat5 V c).Φ (Fin.last cfg5.N) ⊢ Pipeline.ΦA spec5 c := Entails.refl _

/-- Before the body, as after it, an input's buffer holds its block. -/
theorem before5 : ∀ w : Fin cfg5.W, w.val < 5 → ∀ d, (dat5 V c).before w t d = (dat5 V c).after w t
  | ⟨0, _⟩, _ | ⟨1, _⟩, _ | ⟨2, _⟩, _ | ⟨3, _⟩, _ | ⟨4, _⟩, _ =>
    (dat5 V c).before_in_eq_fetched _ rfl (fun _ => rfl) (fun _ _ _ => rfl) (fun _ => rfl) t

/-- The body at any point: each input's memref holds its block, so the body's triple applies; the invariant and what the core owes pass through unread. -/
theorem body_obligation5 : BodyObligation (dat5 (F := F) V c) (defs₀ (F := F)) Variants.none () Set.univ := fun t => by
  rw [bigSep_W5, bigSep_W5]
  simp +decide only [before5 V c t]
  dsimp only [dat5, Dat.owesAt, Dat.bound]
  change _ ⊢ wp _ _ _ (bodyAt5 t) _
  iintro ⟨HΦ, Ho, ⟨%d0, H0⟩, ⟨%d1, H1⟩, ⟨%d2, H2⟩, ⟨%d3, H3⟩, ⟨%d4, H4⟩, ⟨%d5, H5⟩⟩
  iapply (sound_kernel5 c Set.univ _ _ _ _ _ _ _ (inBlk5 V c t 0) (inBlk5 V c t 1) (inBlk5 V c t 2) (inBlk5 V c t 3) (inBlk5 V c t 4) _)
  iframe H0 H1 H2 H3 H4
  isplitl [H5]; · iexists _; iexact H5
  iintro ⟨H0, H1, H2, H3, H4, H5⟩
  iframe

theorem kept5 (w : Fin cfg5.W) (hw : w.val < 5) : (dat5 V c).arrAt w cfg5.N = V c (Pipeline.arrRef spec5 w) :=
  match w, hw with
  | ⟨0, _⟩, _ | ⟨1, _⟩, _ | ⟨2, _⟩, _ | ⟨3, _⟩, _ | ⟨4, _⟩, _ => (dat5 V c).arrAt_in _ rfl _

theorem hz5 : (![0, 0] : Fin 2 → Nat) = fun _ => 0 := funext fun a => by fin_cases a <;> rfl

theorem lt20_5 : t.val < 20 := Nat.lt_of_lt_of_eq t.isLt N_5

/-- The printed index maps, decided over the grid: the two blocked windows are at block row `t`, column block 0; the four row windows are at block (0, 0). -/
theorem idx_facts5 : ∀ t : Fin cfg5.N, (win5_0.index t (0 : Fin 2) = t.val ∧ win5_0.index t (1 : Fin 2) = 0)
    ∧ (win5_5.index t (0 : Fin 2) = t.val ∧ win5_5.index t (1 : Fin 2) = 0)
    ∧ (∀ a, win5_1.index t a = 0) ∧ (∀ a, win5_2.index t a = 0) ∧ (∀ a, win5_3.index t a = 0) ∧ ∀ a, win5_4.index t a = 0 :=
  (by decide +kernel : ∀ t : Fin grid5.N, _)

/-- The output array at row `5000 tt + p` is the payload of block `tt` at its row `p`: quotient and remainder by 5000. -/
theorem outArr_at5 (H2 : Vec F S100000x128 .f32) (mean inv g be : Vec F S1x128 .f32) (tt : Fin 20) (j : S5000x128.Idx) (i : S100000x128.Idx)
    (h0 : (i 0).val = 5000 * tt.val + (j 0).val) (h1 : (i 1).val = (j 1).val) :
    Bn5.outArr H2 mean inv g be i = k5_pay1 (Bn5.blk H2 tt) mean inv g be j := by
  have hj := idx2_lt0 j
  exact congrArg₂ (fun a b => k5_pay1 (Bn5.blk H2 a) mean inv g be b) (Fin.ext (by show (i 0).val / 5000 = tt.val; omega))
    ((congrArg₂ ix2 (Fin.ext (by show (i 0).val % 5000 = (j 0).val; omega)) (Fin.ext h1)).trans (eq_ix2 j).symm)

theorem inBlk5_0_eq : inBlk5 V c t 0 = Bn5.blk (V c main_v109_0) ⟨t.val, lt20_5 t⟩ := by
  obtain ⟨⟨e0, e1⟩, -⟩ := idx_facts5 t
  funext y
  refine congrArg (V c main_v109_0) (funext fun a => Fin.ext ?_)
  match a with
  | ⟨0, _⟩ => show win5_0.index t (0 : Fin 2) * 5000 + 1 * (y 0).val = 5000 * t.val + (y 0).val; omega
  | ⟨1, _⟩ => show win5_0.index t (1 : Fin 2) * 128 + 1 * (y 1).val = (y 1).val; omega

/-- Each row window's block at every point is its whole array: its block index is 0 on both axes. -/
theorem inBlk5_row : inBlk5 V c t 1 = V c main_v125 ∧ inBlk5 V c t 2 = V c main_v126 ∧ inBlk5 V c t 3 = V c main_v127 ∧ inBlk5 V c t 4 = V c main_v128 := by
  obtain ⟨-, -, h1, h2, h3, h4⟩ := idx_facts5 t
  refine ⟨?_, ?_, ?_, ?_⟩ <;> funext y <;> refine congrArg (V c _) (funext fun a => Fin.ext ?_)
  exacts [(cfg5.win 1).rect_emb_val_of_index_zero t a (h1 a) y, (cfg5.win 2).rect_emb_val_of_index_zero t a (h2 a) y,
    (cfg5.win 3).rect_emb_val_of_index_zero t a (h3 a) y, (cfg5.win 4).rect_emb_val_of_index_zero t a (h4 a) y]

/-- Point `t`'s contribution to the output array is block `t` of the normalised array. -/
theorem flushed5_5_eq : (dat5 V c).flushed 5 t = ((cfg5.win 5).blk t).view.read (Elt F)
    (Bn5.outArr (V c main_v109_0) (V c main_v125) (V c main_v126) (V c main_v127) (V c main_v128)) := by
  obtain ⟨-, ⟨e0, e1⟩, -⟩ := idx_facts5 t
  obtain ⟨r1, r2, r3, r4⟩ := inBlk5_row V c t
  show (cfg5.win 5).cut (grid5.coords t) ((dat5 V c).after 5 t) = _
  dsimp only [dat5]
  rw [out5_5, View.canon_unit_zero hz5]
  simp only [View.ld_unit_zero (S := S5000x128) hz5, View.ld_unit_zero (S := S1x128) hz5, inBlk5_0_eq V c t, r1, r2, r3, r4]
  funext j
  refine (outArr_at5 _ _ _ _ _ ⟨t.val, lt20_5 t⟩ j _ ?_ ?_).symm
  · show win5_5.index t (0 : Fin 2) * 5000 + 1 * (j 0).val = 5000 * t.val + (j 0).val; omega
  · show win5_5.index t (1 : Fin 2) * 128 + 1 * (j 1).val = (j 1).val; omega

theorem cover5_5_arr (i : S100000x128.Idx) : ∃ s : Fin cfg5.N, (cfg5.win 5).flush s = true ∧ i ∈ ((cfg5.win 5).blk s).view.set := by
  have hi0 := idx2_lt0 i
  have hi1 := idx2_lt1 i
  let s : Fin cfg5.N := ⟨(i 0).val / 5000, by rw [show cfg5.N = 20 from N_5]; omega⟩
  obtain ⟨-, ⟨e0, e1⟩, -⟩ := idx_facts5 s
  have hs : s.val = (i 0).val / 5000 := rfl
  refine ⟨s, flush5_5 s, ?_⟩
  show i ∈ ((View.whole main_v129).slice (win5_5.rect s)).set
  rw [View.set_slice_whole, Rect.mem_set_unit]
  intro a
  match a with
  | ⟨0, _⟩ => show win5_5.index s (0 : Fin 2) * 5000 ≤ (i 0).val ∧ (i 0).val < win5_5.index s (0 : Fin 2) * 5000 + 5000; omega
  | ⟨1, _⟩ => show win5_5.index s (1 : Fin 2) * 128 ≤ (i 1).val ∧ (i 1).val < win5_5.index s (1 : Fin 2) * 128 + 128; omega

theorem final5_5 : (dat5 V c).arrAt 5 cfg5.N = Bn5.outArr (V c main_v109_0) (V c main_v125) (V c main_v126) (V c main_v127) (V c main_v128) :=
  (dat5 V c).arrAt_eq_of_cover 5 _ (fun t _ => flushed5_5_eq V c t) cover5_5_arr

end Cert.KernelIdeal.Hand

end
-- ==== Proof.PoolSpec.lean ====
import proofs.«414687_j59708635349041_1_alg».proof.Proof.Gen.KernelIdeal.Skeleton
import Idealize.ShloMosaic.Lib.ValueIdx

noncomputable section

namespace Cert.KernelIdeal.Hand.Pool

open Idealize.ShloMosaic Idealize.ShloMosaic.ValueIdx
open Cert.KernelIdeal Cert.KernelIdeal.Gen

variable {F : FTy → Type} [FloatOps F]

-- Row `r` of block `t`, of twenty blocks of 5000 rows.
def blkRow (t : Fin 20) (r : Fin 5000) : Fin 100000 :=
  ⟨t.val * 5000 + r.val, by have := t.isLt; have := r.isLt; omega⟩

def bblk (B : Vec F S100000x1 .i32) (t : Fin 20) : Vec F S5000x1 .i32 := fun j => B (ix2 (blkRow t (j 0)) (j 1))

def hblk (H : Vec F S100000x128 .f32) (t : Fin 20) : Vec F S5000x128 .f32 := fun j => H (ix2 (blkRow t (j 0)) (j 1))

def pt (n : ℕ) : Fin 20 := ⟨n % 20, Nat.mod_lt _ (by decide)⟩

-- The accumulator after block `n`: the reset value with the blocks `0` to `n` accumulated into it in order.
def acc (B : Vec F S100000x1 .i32) (H : Vec F S100000x128 .f32) : ℕ → Vec F S512x128 .f32
  | 0 => k6_pay2 (bblk B (pt 0)) (hblk H (pt 0)) (k6_pay1 (F := F))
  | n + 1 => k6_pay2 (bblk B (pt (n + 1))) (hblk H (pt (n + 1))) (acc B H n)

def out (B : Vec F S100000x1 .i32) (H : Vec F S100000x128 .f32) : Vec F S512x128 .f32 := acc B H 19

end Cert.KernelIdeal.Hand.Pool

end
-- ==== Proof.PoolRegion6.lean ====
import proofs.«414687_j59708635349041_1_alg».proof.Proof.Gen.KernelIdeal.Skeleton
import proofs.«414687_j59708635349041_1_alg».proof.Proof.Gen.KernelIdeal.Launch
import proofs.«414687_j59708635349041_1_alg».proof.Proof.Gen.KernelIdeal.Points
import proofs.«414687_j59708635349041_1_alg».proof.Proof.PoolSpec
import Idealize.ShloMosaic.Lib.Pipeline.Frame
import Idealize.ShloMosaic.Lib.Pipeline.FrameBody
import Idealize.ShloMosaic.Lib.Pipeline.Value
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Whole

variable {Val : EltTy → Type} [∀ e, Nonempty (Val e)] {κ : Kind} {sp : Space} {S : Shape} {e : EltTy} (v : View sig κ sp S e)
  {off : Fin S.rank → ℕ} (h : off = fun _ => 0) (inb : ∀ a, off a + S.size a ≤ S.size a) (w : S.Idx → Val e) (L : List (View.Piece Val S e))
include h

theorem cover_whole (y : S.Idx) : ∃ p ∈ (⟨Rect.unit off S.size inb, w⟩ : View.Piece Val S e) :: L, y ∈ p.1.set :=
  ⟨_, .head _, View.mem_set_unit_zero h inb y⟩

theorem read_writes_whole (f : v.ty.Contents Val) : v.read Val (v.writes Val f (⟨Rect.unit off S.size inb, w⟩ :: L)) = w :=
  (View.read_writes_eq_canon v f _ (cover_whole h inb w L)).trans (View.canon_cons_unit_zero h inb w L)

theorem readCov_whole : v.readCov (⟨Rect.unit off S.size inb, w⟩ :: L) (Rect.unit off S.size inb).toLoadRect = w := by
  rw [View.readCov_eq_canon_ld _ _ _ (cover_whole h inb w L), View.canon_cons_unit_zero h, View.ld_unit_zero h]

end Whole

section Region6

variable (V : (c : Dev nD) → (b : Ref sig .tc) → Buf (Elt F) ((c : Thread nD τ).loc b)) (c : Dev nD)

def iblk6 (w : Fin cfg6.W) (t : Fin cfg6.N) : ((cfg6.win w).xblock (cfg6.grid.coords t)).Idx → Elt F (cfg6.win w).elt :=
  ((cfg6.win w).blk t).view.read (Elt F) (V c (Pipeline.arrRef spec6 w))

abbrev scM6 : Memref sig .tc .vmem S512x128 .f32 := Memref.whole cc6_scratch0

abbrev Bid : Vec F S100000x1 .i32 := V c main_v130
abbrev Hft : Vec F S100000x128 .f32 := V c main_v129

-- The scratch before point `n`: anything before the first, then the accumulator after the block before.
def sc6 : ℕ → Vec F S512x128 .f32 → Vec F S512x128 .f32
  | 0, d => d
  | n + 1, _ => Pool.acc (Bid V c) (Hft V c) n

def PhiS6 (n : ℕ) : sProp 𝕄 :=
  iprop(iprop(iprop(∃ d, owns (c : Thread nD τ) scM6 fullShare (sc6 V c n d))
      ∗ Pipeline.scopedRestBut (Ix := Unit) (Name := ℕ) (U := UR sig nD τ) (Lvl := ℕ) (Val := Elt F) spec6 c [cc6_scratch0])
    ∗ (∃ r, prngReg c r))

theorem PhiA6_eq : (Pipeline.ΦA spec6 c : sProp 𝕄) = PhiS6 V c 0 := by
  unfold Pipeline.ΦA PhiS6; rw [scopedRest6_split]; simp only [scM6, owns_whole]; rfl

def dat6 : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => Pool.out (Bid V c) (Hft V c)
  Φ t := PhiS6 V c t.val
  q _ := fullShare
  owed _ := 0

theorem hin6 : Pipeline.ΦA spec6 c ⊢ (dat6 V c).Φ 0 := Entails.of_eq (PhiA6_eq V c)

theorem hout6 : (dat6 V c).Φ (Fin.last cfg6.N) ⊢ Pipeline.ΦA spec6 c := by
  rw [PhiA6_eq V c]; show PhiS6 V c _ ⊢ _; unfold PhiS6
  iintro ⟨⟨⟨%d, HS⟩, HR⟩, Hg⟩
  iframe HR Hg
  iexists _; iexact HS

abbrev cond6_0 (i : grid6.Coords) : Prop :=
  (Scalar.cmpi .ne (Scalar.extui (Scalar.cmpi .eq (BitVec.ofNat 32 (i 0).val) 0#32)) 0#32) = 1#1
abbrev cond6_1 (i : grid6.Coords) : Prop := k6_cond2 i = 1#1

-- The reset is taken at the first point only and the output stored at the last only.
theorem sched6 : ∀ t : Fin cfg6.N, (cond6_0 (grid6.coords t) ↔ t.val = 0) ∧ (cond6_1 (grid6.coords t) ↔ t.val = 19)
    ∧ cfg6.idle 2 (grid6.coords t) = !decide (t.val = 19) ∧ (cfg6.win 2).flush t = decide (t.val = 19) := by decide +kernel

theorem hz6 : (![0, 0] : Fin 2 → Nat) = fun _ => 0 := funext fun a => by fin_cases a <;> rfl

section Run

variable (i : grid6.Coords) (arg1 : Memref sig .tc .vmem S5000x1 .i32) (harg1 : arg1.IsWhole)
  (arg2 : Memref sig .tc .vmem S5000x128 .f32) (harg2 : arg2.IsWhole) (arg3 : Memref sig .tc .vmem S512x128 .f32) (harg3 : arg3.IsWhole)
  (arg4 : Memref sig .tc .vmem S512x128 .f32) (harg4 : arg4.IsWhole)
  (x0 : Vec F S5000x1 .i32) (x1 : Vec F S5000x128 .f32) (x2 xs R : Vec F S512x128 .f32)

-- The body on any whole memrefs: the scratch, reset where the first condition holds, gains the block; the output's buffer takes the scratch where the second holds.
theorem kernelRun6 (hR : k6_pay2 x0 x1 (if cond6_0 i then k6_pay1 else xs) = R) (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare xs
        ∗ (iprop(owns (c : Thread nD τ) arg1 fullShare x0 ∗ owns (c : Thread nD τ) arg2 fullShare x1
            ∗ owns (c : Thread nD τ) arg3 fullShare (if cond6_1 i then R else x2) ∗ owns (c : Thread nD τ) arg4 fullShare R) -∗ K ⟨⟩))
      ⊢ wp frame (wpE (defs₀ (F := F)) Variants.none c none) E (cc6__pool_kernel i arg1 harg1 arg2 harg2 arg3 harg3 arg4 harg4) K := by
  subst hR
  by_cases hc0 : cond6_0 i <;> by_cases hc1 : cond6_1 i <;> (first | rw [if_pos hc0] | rw [if_neg hc0]) <;>
    (first | rw [if_pos hc1] | rw [if_neg hc1])
  all_goals
    simp only [cc6__pool_kernel_eq_skeleton]; unfold cc6__pool_kernel_skel owns
    iintro ⟨⟨%f0, %hf0, H0⟩, ⟨%f1, %hf1, H1⟩, ⟨%f2, %hf2, H2⟩, ⟨%fs, %hfs, HS⟩, Hk⟩
    subst hf0 hf1 hf2 hfs
    sl_exec (disch := first | exact hc0 | exact hc1)
    sl_step
    iapply Hk
    isplitl [H0]
    rotate_left
    isplitl [H1]
    rotate_left
    isplitl [H2]
    all_goals
      iexists _; isplitr; swap; · iassumption
      ipureintro
      first | rfl | (sl_unfold_words; rw [read_writes_whole _ hz6]; simp only [readCov_whole (S := S512x128) _ hz6, View.readAt_eq_ld,
        View.ld_unit_zero (S := S5000x1) hz6, View.ld_unit_zero (S := S5000x128) hz6, View.ld_unit_zero (S := S512x128) hz6])

end Run

theorem index6 : ∀ t : Fin cfg6.N, ((cfg6.win 0).index t 0 = t.val % 20 ∧ (cfg6.win 0).index t 1 = 0)
    ∧ (cfg6.win 1).index t 0 = t.val % 20 ∧ (cfg6.win 1).index t 1 = 0 := by decide +kernel

theorem iblk6_0_eq (t : Fin cfg6.N) : (iblk6 V c 0 t : Vec F S5000x1 .i32) = Pool.bblk (Bid V c) (Pool.pt t.val) := by
  obtain ⟨⟨h0, h1⟩, -⟩ := index6 t
  funext j
  unfold iblk6 Pool.bblk
  rw [View.read_apply]
  show V c main_v130 _ = V c main_v130 _
  congr 1; funext a; apply Fin.ext
  match a with
  | ⟨0, _⟩ => show win6_0.index t 0 * 5000 + 1 * (j 0).val = t.val % 20 * 5000 + (j 0).val; rw [h0, Nat.one_mul]
  | ⟨1, _⟩ => show win6_0.index t 1 * 1 + 1 * (j 1).val = (j 1).val; rw [h1]; omega

theorem iblk6_1_eq (t : Fin cfg6.N) : (iblk6 V c 1 t : Vec F S5000x128 .f32) = Pool.hblk (Hft V c) (Pool.pt t.val) := by
  obtain ⟨-, h0, h1⟩ := index6 t
  funext j
  unfold iblk6 Pool.hblk
  rw [View.read_apply]
  show V c main_v129 _ = V c main_v129 _
  congr 1; funext a; apply Fin.ext
  match a with
  | ⟨0, _⟩ => show win6_1.index t 0 * 5000 + 1 * (j 0).val = t.val % 20 * 5000 + (j 0).val; rw [h0, Nat.one_mul]
  | ⟨1, _⟩ => show win6_1.index t 1 * 128 + 1 * (j 1).val = (j 1).val; rw [h1]; omega

theorem before6_0 (t : Fin cfg6.N) (d) : (dat6 V c).before 0 t d = iblk6 V c 0 t :=
  (dat6 V c).before_in_eq_fetched 0 rfl (fun _ => rfl) (fun _ _ _ => rfl) (fun _ => rfl) t d
theorem before6_1 (t : Fin cfg6.N) (d) : (dat6 V c).before 1 t d = iblk6 V c 1 t :=
  (dat6 V c).before_in_eq_fetched 1 rfl (fun _ => rfl) (fun _ _ _ => rfl) (fun _ => rfl) t d

-- What the body leaves in the scratch at point `t` is the accumulator after block `t`.
theorem step6_eq (t : Fin cfg6.N) (d : Vec F S512x128 .f32) :
    k6_pay2 (iblk6 V c 0 t) (iblk6 V c 1 t) (if cond6_0 (grid6.coords t) then k6_pay1 else sc6 V c t.val d)
      = Pool.acc (Bid V c) (Hft V c) t.val := by
  rw [iblk6_0_eq, iblk6_1_eq]
  cases h : t.val with
  | zero => rw [if_pos ((sched6 t).1.mpr h)]; rfl
  | succ n => rw [if_neg fun h' => by have := (sched6 t).1.mp h'; omega]; rfl

theorem leaves6_2 (t : Fin cfg6.N) (d) :
    owns (c : Thread nD τ) (st6_2 t) fullShare (if cond6_1 (grid6.coords t) then Pool.acc (Bid V c) (Hft V c) t.val else (dat6 V c).before 2 t d)
      ⊢ (dat6 V c).leavesExact 2 t := by
  obtain ⟨-, h1, hi, hf⟩ := sched6 t
  by_cases h : t.val = 19
  · rw [if_pos (h1.mpr h)]; unfold Dat.leavesExact; rw [hi, h]; exact .rfl
  · rw [if_neg (mt h1.mp h), Dat.leavesExact_idle _ 2 t (by rw [hi, decide_eq_false h]; rfl) (by rw [hf, decide_eq_false h])]
    iintro H; iexists _; iexact H

theorem body_obligation6 : BodyObligation (dat6 (F := F) V c) (defs₀ (F := F)) Variants.none () Set.univ := fun t => by
  rw [bigSep_W6, bigSep_W6]
  show _ ⊢ wp _ _ _ (bodyAt6 t) _
  unfold bodyAt6
  simp only [before6_0, before6_1]
  rw [show (dat6 V c).after 0 t = iblk6 V c 0 t from rfl, show (dat6 V c).after 1 t = iblk6 V c 1 t from rfl, show (dat6 V c).owesAt () t.succ = (dat6 V c).owesAt () t.castSucc from rfl,
    show (dat6 V c).Φ t.castSucc = PhiS6 V c t.val from rfl, show (dat6 V c).Φ t.succ = PhiS6 V c (t.val + 1) from rfl]
  unfold PhiS6
  iintro ⟨⟨⟨⟨%d, HS⟩, HR⟩, Hg⟩, Ho, ⟨%d0, H0⟩, ⟨%d1, H1⟩, ⟨%d2, H2⟩⟩
  iapply (kernelRun6 c (grid6.coords t) _ _ _ _ _ _ _ _ _ _ ((dat6 V c).before 2 t d2) _ _ (step6_eq V c t d) Set.univ _)
  iframe H0 H1 H2 HS
  iintro ⟨H0, H1, H2, HS⟩
  ihave H2 := (leaves6_2 V c t d2) $$ H2
  iframe HR Hg Ho H0 H1
  isplitl [HS]
  · iexists d; iexact HS
  iexact H2

abbrev t6_last : Fin cfg6.N := ⟨19, by decide⟩

theorem last6 : ∀ a, win6_2.index t6_last a * win6_2.size a = 0
    ∧ win6_2.xsize (grid6.coords t6_last) a = main_v131.ty.shape.size a := by decide +kernel

theorem flushed6_2 (t : Fin cfg6.N) (hf : (cfg6.win 2).flush t = true) :
    (dat6 V c).flushed 2 t = ((cfg6.win 2).blk t).view.read (Elt F) (Pool.out (Bid V c) (Hft V c)) := by
  obtain rfl : t = t6_last := Fin.ext (by simpa [(sched6 t).2.2.2] using hf)
  have hz : (fun a => win6_2.index t6_last a * main_v131.ty.shape.size a) = fun _ => 0 := funext fun a => (last6 a).1
  exact (Memref.read_access_unit_zero (Elt F) main_v131 hz (fun a => by rw [congrFun hz a]; simp) (Pool.out (Bid V c) (Hft V c))).symm

theorem final6_2 : (dat6 V c).arrAt 2 cfg6.N = Pool.out (V c main_v130) (V c main_v129) :=
  (dat6 V c).arrAt_eq_of_cover 2 (Pool.out (Bid V c) (Hft V c)) (flushed6_2 V c) fun i =>
    ⟨t6_last, (flush6_2 t6_last).mpr rfl, by
      show i ∈ ((View.whole main_v131).slice (win6_2.rect t6_last)).set
      rw [View.set_slice_whole, Rect.mem_set_unit]
      intro a
      show win6_2.index t6_last a * win6_2.size a ≤ (i a : ℕ) ∧ (i a : ℕ) < win6_2.index t6_last a * win6_2.size a + win6_2.xsize (grid6.coords t6_last) a
      rw [(last6 a).1, (last6 a).2, Nat.zero_add]
      exact ⟨Nat.zero_le _, (i a).isLt⟩⟩

theorem kept6 (w : Fin cfg6.W) (hw : w.val < 2) : (dat6 V c).arrAt w cfg6.N = V c (Pipeline.arrRef spec6 w) :=
  match w, hw with
  | ⟨0, _⟩, _ => (dat6 V c).arrAt_in 0 rfl _
  | ⟨1, _⟩, _ => (dat6 V c).arrAt_in 1 rfl _
  | ⟨n + 2, _⟩, h => absurd h (by simp)

end Region6

end Cert.KernelIdeal.Hand

end
-- ==== Proof.SegsBase.lean ====
import proofs.«414687_j59708635349041_1_alg».proof.Proof.RunCond
import proofs.«414687_j59708635349041_1_alg».proof.Proof.MlpRegion0Base
import proofs.«414687_j59708635349041_1_alg».proof.Proof.BnRegion1
import proofs.«414687_j59708635349041_1_alg».proof.Proof.MlpRegion2Base
import proofs.«414687_j59708635349041_1_alg».proof.Proof.BnRegion3
import proofs.«414687_j59708635349041_1_alg».proof.Proof.MlpRegion4Base
import proofs.«414687_j59708635349041_1_alg».proof.Proof.BnRegion5
import proofs.«414687_j59708635349041_1_alg».proof.Proof.PoolRegion6
import Idealize.ShloMosaic.Lib.Pipeline.FrameBody
import Idealize.ShloMosaic.Lib.Pipeline.RegionsLoop
import Idealize.ShloMosaic.Lib.Pipeline.FrameSuffix

noncomputable section

namespace Cert.KernelIdeal.Hand

open Cert.KernelIdeal Cert.KernelIdeal.Gen
open Idealize.ShloMosaic Idealize.ShloMosaic.TcCoe
open Idealize.ShloMosaic.Rounds
open Idealize.ShloMosaic.Pipeline (Dat)

variable {F : FTy → Type} [FloatOps F]

variable (m : (ℓ : Loc nD τ sig) → Buf (Elt F) ℓ)

variable {p : Fin 7} (D : (c : Dev nD) → Dat τ (Elt F) Unit ℕ (UR sig nD τ) ℕ (cfgs p) c)
  (W : Dev nD → Valuation τ sig (Elt F)) (c : Dev nD)

/-- A valuation read at the references of kind `.tc`. -/
abbrev rd : (c : Dev nD) → (b : Ref sig .tc) → Buf (Elt F) ((c : Thread nD τ).loc b) := fun c b => W c b

/-- A region's exit contents: its arrays at their final values, every other buffer as entered. -/
def exitV : Valuation τ sig (Elt F) :=
  Pipeline.withArrays (cfgs p).spec c (W c) fun w => (D c).arrAt w (cfgs p).N

theorem exitV_arr (lf : Pipeline.LaunchFacts (nD := nD) (τ := τ) cfgs p) (w : Fin (cfgs p).W) :
    exitV D W c (Proc.devRef .tc (Pipeline.arrRef (cfgs p).spec w)) = (D c).arrAt w (cfgs p).N :=
  Pipeline.withArrays_arr _ lf.win.arr_inj c _ _ w

theorem exitV_of_ne (b : Ref sig .tc) (hb : ∀ w, Pipeline.arrRef (cfgs p).spec w ≠ b) :
    exitV D W c (Proc.devRef .tc b) = W c (Proc.devRef .tc b) :=
  Pipeline.withArrays_of_ne _ c _ _ b hb

abbrev W1 : Valuation τ sig (Elt F) := Gen.V1 m c
abbrev U1 := rd (W1 m)
def W2 := exitV (p := 0) (dat0 (U1 m)) (W1 m)
theorem W2_arr (w : Fin cfg0.W) :
    W2 m c (Proc.devRef .tc (Pipeline.arrRef spec0 w)) = (dat0 (U1 m) c).arrAt w cfg0.N := exitV_arr _ _ c launch0 w
theorem W2_of_ne (b : Ref sig .tc) (hb : ∀ w, Pipeline.arrRef spec0 w ≠ b) :
    W2 m c (Proc.devRef .tc b) = W1 m c (Proc.devRef .tc b) := exitV_of_ne _ _ c b hb
abbrev W3 : Valuation τ sig (Elt F) := StableHlo.after hostOps1 (W2 m c)
abbrev U3 := rd (W3 m)
def W4 := exitV (p := 1) (dat1 (U3 m)) (W3 m)
theorem W4_arr (w : Fin cfg1.W) :
    W4 m c (Proc.devRef .tc (Pipeline.arrRef spec1 w)) = (dat1 (U3 m) c).arrAt w cfg1.N := exitV_arr _ _ c launch1 w
theorem W4_of_ne (b : Ref sig .tc) (hb : ∀ w, Pipeline.arrRef spec1 w ≠ b) :
    W4 m c (Proc.devRef .tc b) = W3 m c (Proc.devRef .tc b) := exitV_of_ne _ _ c b hb
abbrev W5 : Valuation τ sig (Elt F) := StableHlo.after hostOps2 (W4 m c)
abbrev U5 := rd (W5 m)
def W6 := exitV (p := 2) (dat2 (U5 m)) (W5 m)
theorem W6_arr (w : Fin cfg2.W) :
    W6 m c (Proc.devRef .tc (Pipeline.arrRef spec2 w)) = (dat2 (U5 m) c).arrAt w cfg2.N := exitV_arr _ _ c launch2 w
theorem W6_of_ne (b : Ref sig .tc) (hb : ∀ w, Pipeline.arrRef spec2 w ≠ b) :
    W6 m c (Proc.devRef .tc b) = W5 m c (Proc.devRef .tc b) := exitV_of_ne _ _ c b hb
abbrev W7 : Valuation τ sig (Elt F) := StableHlo.after hostOps3 (W6 m c)
abbrev U7 := rd (W7 m)
def W8 := exitV (p := 3) (dat3 (U7 m)) (W7 m)
theorem W8_arr (w : Fin cfg3.W) :
    W8 m c (Proc.devRef .tc (Pipeline.arrRef spec3 w)) = (dat3 (U7 m) c).arrAt w cfg3.N := exitV_arr _ _ c launch3 w
theorem W8_of_ne (b : Ref sig .tc) (hb : ∀ w, Pipeline.arrRef spec3 w ≠ b) :
    W8 m c (Proc.devRef .tc b) = W7 m c (Proc.devRef .tc b) := exitV_of_ne _ _ c b hb
abbrev W9 : Valuation τ sig (Elt F) := StableHlo.after hostOps4 (W8 m c)
abbrev U9 := rd (W9 m)
def W10 := exitV (p := 4) (dat4 (U9 m)) (W9 m)
theorem W10_arr (w : Fin cfg4.W) :
    W10 m c (Proc.devRef .tc (Pipeline.arrRef spec4 w)) = (dat4 (U9 m) c).arrAt w cfg4.N := exitV_arr _ _ c launch4 w
theorem W10_of_ne (b : Ref sig .tc) (hb : ∀ w, Pipeline.arrRef spec4 w ≠ b) :
    W10 m c (Proc.devRef .tc b) = W9 m c (Proc.devRef .tc b) := exitV_of_ne _ _ c b hb
abbrev W11 : Valuation τ sig (Elt F) := StableHlo.after hostOps5 (W10 m c)
abbrev U11 := rd (W11 m)
def W12 := exitV (p := 5) (dat5 (U11 m)) (W11 m)
theorem W12_arr (w : Fin cfg5.W) :
    W12 m c (Proc.devRef .tc (Pipeline.arrRef spec5 w)) = (dat5 (U11 m) c).arrAt w cfg5.N := exitV_arr _ _ c launch5 w
theorem W12_of_ne (b : Ref sig .tc) (hb : ∀ w, Pipeline.arrRef spec5 w ≠ b) :
    W12 m c (Proc.devRef .tc b) = W11 m c (Proc.devRef .tc b) := exitV_of_ne _ _ c b hb
abbrev W13 : Valuation τ sig (Elt F) := StableHlo.after hostOps6 (W12 m c)
abbrev U13 := rd (W13 m)
def W14 := exitV (p := 6) (dat6 (U13 m)) (W13 m)
theorem W14_arr (w : Fin cfg6.W) :
    W14 m c (Proc.devRef .tc (Pipeline.arrRef spec6 w)) = (dat6 (U13 m) c).arrAt w cfg6.N := exitV_arr _ _ c launch6 w
theorem W14_of_ne (b : Ref sig .tc) (hb : ∀ w, Pipeline.arrRef spec6 w ≠ b) :
    W14 m c (Proc.devRef .tc b) = W13 m c (Proc.devRef .tc b) := exitV_of_ne _ _ c b hb
abbrev U14 := rd (W14 m)

def outs : Outs (F := F) := fun n r c => match n with
  | 2 => W2 m c r | 4 => W4 m c r | 6 => W6 m c r | 8 => W8 m c r | 10 => W10 m c r | 12 => W12 m c r | _ => W14 m c r

end Cert.KernelIdeal.Hand

end
-- ==== Proof.MlpRun0.lean ====
import proofs.«414687_j59708635349041_1_alg».proof.Proof.Gen.KernelIdeal.Skeleton
import proofs.«414687_j59708635349041_1_alg».proof.Proof.MlpRegion0Base
import Idealize.ShloMosaic.Lib.Pipeline.FrameBody
import Idealize.ShloMosaic.Lib.Pipeline.Value
import Idealize.ShloMosaic.Lib.Pipeline.TableIdle
import Idealize.ShloMosaic.Lib.Tactic

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- Owning a whole memref at `X` is holding its elements at the one contents that read `X`. -/
theorem owns_unread0 {c : Dev nD} {sp : Space} {S : Shape} {e : EltTy} {m : Memref sig .tc sp S e} (h : m.IsWhole)
    (q : PosShare TreeShare) (X : S.Idx → Elt F e) : (owns c m q X : sProp 𝕄) = (m.view.loc c ↦[m.view.set]{q} h.unread X) := by
  rw [owns_eq_rep, h.eq_unread (View.read_rep _ X)]

/-- After stores whose LAST covers a whole memref, its contents are the ones that read that store's payload. -/
theorem read_writes_whole0 {κ : Kind} {sp : Space} {S : Shape} {e : EltTy} {m : Memref sig κ sp S e} (h : m.IsWhole)
    {off : Fin S.rank → Nat} (hz : off = fun _ => 0) (f : m.view.ty.Contents (Elt F)) (inb : ∀ a, off a + S.size a ≤ S.size a)
    (w : S.Idx → Elt F e) (L : List (View.Piece (Elt F) S e)) :
    m.view.writes (Elt F) f ((⟨Rect.unit off S.size inb, w⟩ : View.Piece (Elt F) S e) :: L) = h.unread w :=
  h.eq_unread (by rw [View.read_writes_eq_canon _ _ _ (fun y => ⟨_, List.Mem.head _, View.mem_set_unit_zero hz inb y⟩),
    View.canon_cons_unit_zero hz])

variable (c : Dev nD) (E : Set ℕ) (i : grid0.Coords) {arg1 arg6 : Memref sig .tc .vmem S5000x128 .f32}
  {arg2 arg4 : Memref sig .tc .vmem S128x128 .f32} {arg3 arg5 arg7 arg8 arg9 arg10 : Memref sig .tc .vmem S1x128 .f32}
  {harg1 : arg1.IsWhole} {harg2 : arg2.IsWhole} {harg3 : arg3.IsWhole} {harg4 : arg4.IsWhole} {harg5 : arg5.IsWhole}
  {harg6 : arg6.IsWhole} {harg7 : arg7.IsWhole} {harg8 : arg8.IsWhole} {harg9 : arg9.IsWhole} {harg10 : arg10.IsWhole}
  (x0 : Vec F S5000x128 .f32) (w1 : Vec F S128x128 .f32) (b1 : Vec F S1x128 .f32) (w2 : Vec F S128x128 .f32) (b2 s0 s1 r0 r1 : Vec F S1x128 .f32)

set_option maxHeartbeats 1000000 in
/-- One block: the running rows restart from zero at the first block, and the last block also stores them to the two row outputs. -/
theorem sound_kernel0_pt {K : PUnit → sProp 𝕄} (h : cond0_1 i → ¬cond0_2 i) :
    iprop(owns c arg1 fullShare x0 ∗ owns c arg2 fullShare w1 ∗ owns c arg3 fullShare b1 ∗ owns c arg4 fullShare w2 ∗ owns c arg5 fullShare b2
        ∗ (∃ d, owns c arg6 fullShare d) ∗ owns c arg7 fullShare r0 ∗ owns c arg8 fullShare r1 ∗ owns c arg9 fullShare s0 ∗ owns c arg10 fullShare s1
        ∗ (iprop(owns c arg1 fullShare x0 ∗ owns c arg2 fullShare w1 ∗ owns c arg3 fullShare b1 ∗ owns c arg4 fullShare w2 ∗ owns c arg5 fullShare b2
            ∗ owns c arg6 fullShare (k0_pay4 x0 w1 b1 w2 b2)
            ∗ owns c arg7 fullShare (if cond0_2 i then k0_pay5 x0 w1 b1 w2 b2 s0 else r0)
            ∗ owns c arg8 fullShare (if cond0_2 i then k0_pay1 (k0_pay4 x0 w1 b1 w2 b2) s1 else r1)
            ∗ owns c arg9 fullShare (k0_pay5 x0 w1 b1 w2 b2 (if cond0_1 i then k0_pay2 else s0))
            ∗ owns c arg10 fullShare (k0_pay1 (k0_pay4 x0 w1 b1 w2 b2) (if cond0_1 i then k0_pay3 else s1))) -∗ K ⟨⟩))
      ⊢ wp frame (wpE (defs₀ (F := F)) Variants.none c none) E (cc0__mlp_prebn_kernel i arg1 harg1 arg2 harg2 arg3 harg3 arg4 harg4 arg5 harg5 arg6 harg6 arg7 harg7 arg8 harg8 arg9 harg9 arg10 harg10) K := by
  by_cases hc1 : cond0_1 i <;> by_cases hc2 : cond0_2 i <;> [exact absurd hc2 (h hc1); skip; skip; skip] <;>
  · first | simp only [if_neg hc1] | simp only [if_pos hc1]
    first | simp only [if_neg hc2] | simp only [if_pos hc2]
    simp only [cc0__mlp_prebn_kernel_eq_skeleton]; unfold cc0__mlp_prebn_kernel_skel
    simp only [k0_part1_eq_skeleton, owns_unread0, harg1, harg2, harg3, harg4, harg5, harg6, harg7, harg8, harg9, harg10]
    iintro ⟨H1, H2, H3, H4, H5, ⟨%d6, H6⟩, H7, H8, H9, H10, Hk⟩
    sl_exec (disch := first | sl_exact hc1 | sl_exact hc2)
    sl_step
    iapply Hk
    sl_unfold_words
    simp only [View.readCov_unit_zero (S := S1x128) _ hz0, View.readAt_eq_ld, Memref.IsWhole.read_unread, View.ld_unit_zero (S := ⟨2, _⟩) hz0,
      read_writes_whole0 harg6 hz0, read_writes_whole0 harg7 hz0,
      read_writes_whole0 harg8 hz0, read_writes_whole0 harg9 hz0, read_writes_whole0 harg10 hz0]
    iframe

end Cert.KernelIdeal.Hand
-- ==== Proof.MlpBody0.lean ====
import proofs.«414687_j59708635349041_1_alg».proof.Proof.Gen.KernelIdeal.Launch
import proofs.«414687_j59708635349041_1_alg».proof.Proof.Gen.KernelIdeal.Points
import proofs.«414687_j59708635349041_1_alg».proof.Proof.MlpRun0

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

section Region0

variable (V : (c : Dev nD) → (b : Ref sig .tc) → Buf (Elt F) ((c : Thread nD τ).loc b))

theorem liveAt0_lt : ∀ (w : Fin cfg0.W) (t : Fin cfg0.N), w.val < 6 ∨ t.val % 20 = 19 → cfg0.idle w (grid0.coords t) = false := by
  decide +kernel

theorem leaves0_live (c : Dev nD) (w : Fin cfg0.W) (t : Fin cfg0.N) (h : w.val < 6 ∨ t.val % 20 = 19) :
    (dat0 V c).leavesExact w t = owns (c : Thread nD τ) ((cfg0.win w).stage (cfg0.slots t w)) fullShare ((dat0 V c).after w t) := by
  unfold Dat.leavesExact; rw [liveAt0_lt w t h]

set_option maxHeartbeats 1000000 in
/-- The invariant hands the body the two running rows after the blocks before and takes them back advanced by this block. -/
theorem sound_body0 (c : Dev nD) (t : Fin cfg0.N) :
    iprop((dat0 V c).Φ t.castSucc ∗ (dat0 V c).owesAt () t.castSucc
        ∗ bigSep Finset.univ fun w : Fin cfg0.W => iprop(∃ d, owns (c : Thread nD τ) ((cfg0.win w).stage (cfg0.slots t w)) fullShare ((dat0 V c).before w t d)))
      ⊢ wp frame (wpE (defs₀ (F := F)) Variants.none c none) Set.univ (bodyAt0 t) fun _ =>
          iprop((dat0 V c).Φ t.succ ∗ (dat0 V c).owesAt () t.succ ∗ bigSep Finset.univ fun w => (dat0 V c).leavesExact w t) := by
  rw [bigSep_W0, bigSep_W0]
  simp only [before0_0, before0_1, before0_2, before0_3, before0_4]
  rw [show (dat0 V c).owesAt () t.succ = (dat0 V c).owesAt () t.castSucc from rfl, PhiS0_castSucc,
    show (dat0 V c).Φ t.succ = PhiS0 V c (t.val + 1) from rfl, PhiS0_succ,
    leaves0_live V c 0 t (.inl (by decide)), after0_0, leaves0_live V c 1 t (.inl (by decide)), after0_1,
    leaves0_live V c 2 t (.inl (by decide)), after0_2, leaves0_live V c 3 t (.inl (by decide)), after0_3,
    leaves0_live V c 4 t (.inl (by decide)), after0_4, leaves0_live V c 5 t (.inl (by decide)), after0_5,
    iblk0_0_eq V c t, iblk0_1_eq V c t, iblk0_2_eq V c t, iblk0_3_eq V c t, iblk0_4_eq V c t]
  have hN : t.val < 20 := lt_of_lt_of_eq t.isLt (show cfg0.N = 20 from N_0)
  have hx : cond0_1 (grid0.coords t) → ¬cond0_2 (grid0.coords t) := fun a b => by
    have := (hcond0_1 t).mp a; have := (hcond0_2 t).mp b; omega
  by_cases h2 : t.val % 20 = 19
  · have hz : t.val ≠ 0 := by omega
    have h19 : t.val = 19 := by omega
    rw [leaves0_live V c 6 t (.inr h2), after0_6, leaves0_live V c 7 t (.inr h2), after0_7,
      show sumAt0 V c 19 = sumAt0 V c t.val by rw [h19], show sqAt0 V c 19 = sqAt0 V c t.val by rw [h19],
      PhiS0_pos V c _ hz, sumAt0_next V c t.val hz, sqAt0_next V c t.val hz]
    iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (sound_kernel0_pt c Set.univ (grid0.coords t) (Mlp.blk (xArr0 V c) (ptOf0 t)) (w1Arr0 V c) (b1Arr0 V c) (w2Arr0 V c) (b2Arr0 V c) (sumAt0 V c (t.val - 1)) (sqAt0 V c (t.val - 1)) ((dat0 V c).before 6 t d6) ((dat0 V c).before 7 t d7) hx)
    simp only [if_pos ((hcond0_2 t).mpr h2), if_neg (fun a => hx a ((hcond0_2 t).mpr h2))]
    iframe H0 H1 H2 H3 H4 H6 H7 HS0 HS1
    isplitl [H5]; · iexists _; iexact H5
    iintro ⟨H0, H1, H2, H3, H4, H5, H6, H7, HS0, HS1⟩
    iframe
  · rw [Dat.leavesExact_idle (dat0 V c) 6 t (idleAt0_6 t h2) (noFlush0_6 t h2),
      Dat.leavesExact_idle (dat0 V c) 7 t (idleAt0_7 t h2) (noFlush0_7 t h2)]
    have hnc2 : ¬cond0_2 (grid0.coords t) := fun h => h2 ((hcond0_2 t).mp h)
    by_cases h1 : t.val % 20 = 0
    · have hz : t.val = 0 := by omega
      rw [PhiS0_zero V c _ hz, PhiA0_eq, sumAt0_first V c t.val hz, sqAt0_first V c t.val hz]
      iintro ⟨⟨⟨⟨⟨%s0, HS0⟩, ⟨%s1, HS1⟩⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (sound_kernel0_pt c Set.univ (grid0.coords t) (Mlp.blk (xArr0 V c) (ptOf0 t)) (w1Arr0 V c) (b1Arr0 V c) (w2Arr0 V c) (b2Arr0 V c) s0 s1 ((dat0 V c).before 6 t d6) ((dat0 V c).before 7 t d7) hx)
      simp only [if_pos ((hcond0_1 t).mpr h1), if_neg hnc2]
      iframe H0 H1 H2 H3 H4 H6 H7 HS0 HS1
      isplitl [H5]; · iexists _; iexact H5
      iintro ⟨H0, H1, H2, H3, H4, H5, H6, H7, HS0, HS1⟩
      iframe H0 H1 H2 H3 H4 H5 HS0 HS1 HR Hg Ho
      isplitl [H6]; · iexists _; iexact H6
      iexists _; iexact H7
    · have hz : t.val ≠ 0 := by omega
      rw [PhiS0_pos V c _ hz, sumAt0_next V c t.val hz, sqAt0_next V c t.val hz]
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (sound_kernel0_pt c Set.univ (grid0.coords t) (Mlp.blk (xArr0 V c) (ptOf0 t)) (w1Arr0 V c) (b1Arr0 V c) (w2Arr0 V c) (b2Arr0 V c) (sumAt0 V c (t.val - 1)) (sqAt0 V c (t.val - 1)) ((dat0 V c).before 6 t d6) ((dat0 V c).before 7 t d7) hx)
      simp only [if_neg (fun a => h1 ((hcond0_1 t).mp a)), if_neg hnc2]
      iframe H0 H1 H2 H3 H4 H6 H7 HS0 HS1
      isplitl [H5]; · iexists _; iexact H5
      iintro ⟨H0, H1, H2, H3, H4, H5, H6, H7, HS0, HS1⟩
      iframe H0 H1 H2 H3 H4 H5 HS0 HS1 HR Hg Ho
      isplitl [H6]; · iexists _; iexact H6
      iexists _; iexact H7

theorem body_obligation0 (c : Dev nD) : BodyObligation (dat0 (F := F) V c) (defs₀ (F := F)) Variants.none () Set.univ :=
  sound_body0 V c

end Region0

end Cert.KernelIdeal.Hand
-- ==== Proof.MlpRun2.lean ====
import proofs.«414687_j59708635349041_1_alg».proof.Proof.Gen.KernelIdeal.Skeleton
import proofs.«414687_j59708635349041_1_alg».proof.Proof.MlpRegion2Base
import Idealize.ShloMosaic.Lib.Pipeline.FrameBody
import Idealize.ShloMosaic.Lib.Pipeline.Value
import Idealize.ShloMosaic.Lib.Pipeline.TableIdle
import Idealize.ShloMosaic.Lib.Tactic

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- Owning a whole memref at `X` is holding its elements at the one contents that read `X`. -/
theorem owns_unread2 {c : Dev nD} {sp : Space} {S : Shape} {e : EltTy} {m : Memref sig .tc sp S e} (h : m.IsWhole)
    (q : PosShare TreeShare) (X : S.Idx → Elt F e) : (owns c m q X : sProp 𝕄) = (m.view.loc c ↦[m.view.set]{q} h.unread X) := by
  rw [owns_eq_rep, h.eq_unread (View.read_rep _ X)]

/-- After stores whose LAST covers a whole memref, its contents are the ones that read that store's payload. -/
theorem read_writes_whole2 {κ : Kind} {sp : Space} {S : Shape} {e : EltTy} {m : Memref sig κ sp S e} (h : m.IsWhole)
    {off : Fin S.rank → Nat} (hz : off = fun _ => 0) (f : m.view.ty.Contents (Elt F)) (inb : ∀ a, off a + S.size a ≤ S.size a)
    (w : S.Idx → Elt F e) (L : List (View.Piece (Elt F) S e)) :
    m.view.writes (Elt F) f ((⟨Rect.unit off S.size inb, w⟩ : View.Piece (Elt F) S e) :: L) = h.unread w :=
  h.eq_unread (by rw [View.read_writes_eq_canon _ _ _ (fun y => ⟨_, List.Mem.head _, View.mem_set_unit_zero hz inb y⟩),
    View.canon_cons_unit_zero hz])

variable (c : Dev nD) (E : Set ℕ) (i : grid2.Coords) {arg1 arg6 : Memref sig .tc .vmem S5000x128 .f32}
  {arg2 arg4 : Memref sig .tc .vmem S128x128 .f32} {arg3 arg5 arg7 arg8 arg9 arg10 : Memref sig .tc .vmem S1x128 .f32}
  {harg1 : arg1.IsWhole} {harg2 : arg2.IsWhole} {harg3 : arg3.IsWhole} {harg4 : arg4.IsWhole} {harg5 : arg5.IsWhole}
  {harg6 : arg6.IsWhole} {harg7 : arg7.IsWhole} {harg8 : arg8.IsWhole} {harg9 : arg9.IsWhole} {harg10 : arg10.IsWhole}
  (x0 : Vec F S5000x128 .f32) (w1 : Vec F S128x128 .f32) (b1 : Vec F S1x128 .f32) (w2 : Vec F S128x128 .f32) (b2 s0 s1 r0 r1 : Vec F S1x128 .f32)

set_option maxHeartbeats 1000000 in
/-- One block: the running rows restart from zero at the first block, and the last block also stores them to the two row outputs. -/
theorem sound_kernel2_pt {K : PUnit → sProp 𝕄} (h : cond2_1 i → ¬cond2_2 i) :
    iprop(owns c arg1 fullShare x0 ∗ owns c arg2 fullShare w1 ∗ owns c arg3 fullShare b1 ∗ owns c arg4 fullShare w2 ∗ owns c arg5 fullShare b2
        ∗ (∃ d, owns c arg6 fullShare d) ∗ owns c arg7 fullShare r0 ∗ owns c arg8 fullShare r1 ∗ owns c arg9 fullShare s0 ∗ owns c arg10 fullShare s1
        ∗ (iprop(owns c arg1 fullShare x0 ∗ owns c arg2 fullShare w1 ∗ owns c arg3 fullShare b1 ∗ owns c arg4 fullShare w2 ∗ owns c arg5 fullShare b2
            ∗ owns c arg6 fullShare (k2_pay4 x0 w1 b1 w2 b2)
            ∗ owns c arg7 fullShare (if cond2_2 i then k2_pay5 x0 w1 b1 w2 b2 s0 else r0)
            ∗ owns c arg8 fullShare (if cond2_2 i then k2_pay1 (k2_pay4 x0 w1 b1 w2 b2) s1 else r1)
            ∗ owns c arg9 fullShare (k2_pay5 x0 w1 b1 w2 b2 (if cond2_1 i then k2_pay2 else s0))
            ∗ owns c arg10 fullShare (k2_pay1 (k2_pay4 x0 w1 b1 w2 b2) (if cond2_1 i then k2_pay3 else s1))) -∗ K ⟨⟩))
      ⊢ wp frame (wpE (defs₀ (F := F)) Variants.none c none) E (cc2__mlp_prebn_kernel i arg1 harg1 arg2 harg2 arg3 harg3 arg4 harg4 arg5 harg5 arg6 harg6 arg7 harg7 arg8 harg8 arg9 harg9 arg10 harg10) K := by
  by_cases hc1 : cond2_1 i <;> by_cases hc2 : cond2_2 i <;> [exact absurd hc2 (h hc1); skip; skip; skip] <;>
  · first | simp only [if_neg hc1] | simp only [if_pos hc1]
    first | simp only [if_neg hc2] | simp only [if_pos hc2]
    simp only [cc2__mlp_prebn_kernel_eq_skeleton]; unfold cc2__mlp_prebn_kernel_skel
    simp only [k2_part1_eq_skeleton, owns_unread2, harg1, harg2, harg3, harg4, harg5, harg6, harg7, harg8, harg9, harg10]
    iintro ⟨H1, H2, H3, H4, H5, ⟨%d6, H6⟩, H7, H8, H9, H10, Hk⟩
    sl_exec (disch := first | sl_exact hc1 | sl_exact hc2)
    sl_step
    iapply Hk
    sl_unfold_words
    simp only [View.readCov_unit_zero (S := S1x128) _ hz2, View.readAt_eq_ld, Memref.IsWhole.read_unread, View.ld_unit_zero (S := ⟨2, _⟩) hz2,
      read_writes_whole2 harg6 hz2, read_writes_whole2 harg7 hz2,
      read_writes_whole2 harg8 hz2, read_writes_whole2 harg9 hz2, read_writes_whole2 harg10 hz2]
    iframe

end Cert.KernelIdeal.Hand
-- ==== Proof.MlpBody2.lean ====
import proofs.«414687_j59708635349041_1_alg».proof.Proof.Gen.KernelIdeal.Launch
import proofs.«414687_j59708635349041_1_alg».proof.Proof.Gen.KernelIdeal.Points
import proofs.«414687_j59708635349041_1_alg».proof.Proof.MlpRun2

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

section Region2

variable (V : (c : Dev nD) → (b : Ref sig .tc) → Buf (Elt F) ((c : Thread nD τ).loc b))

theorem liveAt2_lt : ∀ (w : Fin cfg2.W) (t : Fin cfg2.N), w.val < 6 ∨ t.val % 20 = 19 → cfg2.idle w (grid2.coords t) = false := by
  decide +kernel

theorem leaves2_live (c : Dev nD) (w : Fin cfg2.W) (t : Fin cfg2.N) (h : w.val < 6 ∨ t.val % 20 = 19) :
    (dat2 V c).leavesExact w t = owns (c : Thread nD τ) ((cfg2.win w).stage (cfg2.slots t w)) fullShare ((dat2 V c).after w t) := by
  unfold Dat.leavesExact; rw [liveAt2_lt w t h]

set_option maxHeartbeats 1000000 in
/-- The invariant hands the body the two running rows after the blocks before and takes them back advanced by this block. -/
theorem sound_body2 (c : Dev nD) (t : Fin cfg2.N) :
    iprop((dat2 V c).Φ t.castSucc ∗ (dat2 V c).owesAt () t.castSucc
        ∗ bigSep Finset.univ fun w : Fin cfg2.W => iprop(∃ d, owns (c : Thread nD τ) ((cfg2.win w).stage (cfg2.slots t w)) fullShare ((dat2 V c).before w t d)))
      ⊢ wp frame (wpE (defs₀ (F := F)) Variants.none c none) Set.univ (bodyAt2 t) fun _ =>
          iprop((dat2 V c).Φ t.succ ∗ (dat2 V c).owesAt () t.succ ∗ bigSep Finset.univ fun w => (dat2 V c).leavesExact w t) := by
  rw [bigSep_W2, bigSep_W2]
  simp only [before2_0, before2_1, before2_2, before2_3, before2_4]
  rw [show (dat2 V c).owesAt () t.succ = (dat2 V c).owesAt () t.castSucc from rfl, PhiS2_castSucc,
    show (dat2 V c).Φ t.succ = PhiS2 V c (t.val + 1) from rfl, PhiS2_succ,
    leaves2_live V c 0 t (.inl (by decide)), after2_0, leaves2_live V c 1 t (.inl (by decide)), after2_1,
    leaves2_live V c 2 t (.inl (by decide)), after2_2, leaves2_live V c 3 t (.inl (by decide)), after2_3,
    leaves2_live V c 4 t (.inl (by decide)), after2_4, leaves2_live V c 5 t (.inl (by decide)), after2_5,
    iblk2_0_eq V c t, iblk2_1_eq V c t, iblk2_2_eq V c t, iblk2_3_eq V c t, iblk2_4_eq V c t]
  have hN : t.val < 20 := lt_of_lt_of_eq t.isLt (show cfg2.N = 20 from N_2)
  have hx : cond2_1 (grid2.coords t) → ¬cond2_2 (grid2.coords t) := fun a b => by
    have := (hcond2_1 t).mp a; have := (hcond2_2 t).mp b; omega
  by_cases h2 : t.val % 20 = 19
  · have hz : t.val ≠ 0 := by omega
    have h19 : t.val = 19 := by omega
    rw [leaves2_live V c 6 t (.inr h2), after2_6, leaves2_live V c 7 t (.inr h2), after2_7,
      show sumAt2 V c 19 = sumAt2 V c t.val by rw [h19], show sqAt2 V c 19 = sqAt2 V c t.val by rw [h19],
      PhiS2_pos V c _ hz, sumAt2_next V c t.val hz, sqAt2_next V c t.val hz]
    iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (sound_kernel2_pt c Set.univ (grid2.coords t) (Mlp2.blk (xArr2 V c) (ptOf2 t)) (w1Arr2 V c) (b1Arr2 V c) (w2Arr2 V c) (b2Arr2 V c) (sumAt2 V c (t.val - 1)) (sqAt2 V c (t.val - 1)) ((dat2 V c).before 6 t d6) ((dat2 V c).before 7 t d7) hx)
    simp only [if_pos ((hcond2_2 t).mpr h2), if_neg (fun a => hx a ((hcond2_2 t).mpr h2))]
    iframe H0 H1 H2 H3 H4 H6 H7 HS0 HS1
    isplitl [H5]; · iexists _; iexact H5
    iintro ⟨H0, H1, H2, H3, H4, H5, H6, H7, HS0, HS1⟩
    iframe
  · rw [Dat.leavesExact_idle (dat2 V c) 6 t (idleAt2_6 t h2) (noFlush2_6 t h2),
      Dat.leavesExact_idle (dat2 V c) 7 t (idleAt2_7 t h2) (noFlush2_7 t h2)]
    have hnc2 : ¬cond2_2 (grid2.coords t) := fun h => h2 ((hcond2_2 t).mp h)
    by_cases h1 : t.val % 20 = 0
    · have hz : t.val = 0 := by omega
      rw [PhiS2_zero V c _ hz, PhiA2_eq, sumAt2_first V c t.val hz, sqAt2_first V c t.val hz]
      iintro ⟨⟨⟨⟨⟨%s0, HS0⟩, ⟨%s1, HS1⟩⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (sound_kernel2_pt c Set.univ (grid2.coords t) (Mlp2.blk (xArr2 V c) (ptOf2 t)) (w1Arr2 V c) (b1Arr2 V c) (w2Arr2 V c) (b2Arr2 V c) s0 s1 ((dat2 V c).before 6 t d6) ((dat2 V c).before 7 t d7) hx)
      simp only [if_pos ((hcond2_1 t).mpr h1), if_neg hnc2]
      iframe H0 H1 H2 H3 H4 H6 H7 HS0 HS1
      isplitl [H5]; · iexists _; iexact H5
      iintro ⟨H0, H1, H2, H3, H4, H5, H6, H7, HS0, HS1⟩
      iframe H0 H1 H2 H3 H4 H5 HS0 HS1 HR Hg Ho
      isplitl [H6]; · iexists _; iexact H6
      iexists _; iexact H7
    · have hz : t.val ≠ 0 := by omega
      rw [PhiS2_pos V c _ hz, sumAt2_next V c t.val hz, sqAt2_next V c t.val hz]
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (sound_kernel2_pt c Set.univ (grid2.coords t) (Mlp2.blk (xArr2 V c) (ptOf2 t)) (w1Arr2 V c) (b1Arr2 V c) (w2Arr2 V c) (b2Arr2 V c) (sumAt2 V c (t.val - 1)) (sqAt2 V c (t.val - 1)) ((dat2 V c).before 6 t d6) ((dat2 V c).before 7 t d7) hx)
      simp only [if_neg (fun a => h1 ((hcond2_1 t).mp a)), if_neg hnc2]
      iframe H0 H1 H2 H3 H4 H6 H7 HS0 HS1
      isplitl [H5]; · iexists _; iexact H5
      iintro ⟨H0, H1, H2, H3, H4, H5, H6, H7, HS0, HS1⟩
      iframe H0 H1 H2 H3 H4 H5 HS0 HS1 HR Hg Ho
      isplitl [H6]; · iexists _; iexact H6
      iexists _; iexact H7

theorem body_obligation2 (c : Dev nD) : BodyObligation (dat2 (F := F) V c) (defs₀ (F := F)) Variants.none () Set.univ :=
  sound_body2 V c

end Region2

end Cert.KernelIdeal.Hand
-- ==== Proof.MlpRun4.lean ====
import proofs.«414687_j59708635349041_1_alg».proof.Proof.Gen.KernelIdeal.Skeleton
import proofs.«414687_j59708635349041_1_alg».proof.Proof.MlpRegion4Base
import Idealize.ShloMosaic.Lib.Pipeline.FrameBody
import Idealize.ShloMosaic.Lib.Pipeline.Value
import Idealize.ShloMosaic.Lib.Pipeline.TableIdle
import Idealize.ShloMosaic.Lib.Tactic

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- Owning a whole memref at `X` is holding its elements at the one contents that read `X`. -/
theorem owns_unread4 {c : Dev nD} {sp : Space} {S : Shape} {e : EltTy} {m : Memref sig .tc sp S e} (h : m.IsWhole)
    (q : PosShare TreeShare) (X : S.Idx → Elt F e) : (owns c m q X : sProp 𝕄) = (m.view.loc c ↦[m.view.set]{q} h.unread X) := by
  rw [owns_eq_rep, h.eq_unread (View.read_rep _ X)]

/-- After stores whose LAST covers a whole memref, its contents are the ones that read that store's payload. -/
theorem read_writes_whole4 {κ : Kind} {sp : Space} {S : Shape} {e : EltTy} {m : Memref sig κ sp S e} (h : m.IsWhole)
    {off : Fin S.rank → Nat} (hz : off = fun _ => 0) (f : m.view.ty.Contents (Elt F)) (inb : ∀ a, off a + S.size a ≤ S.size a)
    (w : S.Idx → Elt F e) (L : List (View.Piece (Elt F) S e)) :
    m.view.writes (Elt F) f ((⟨Rect.unit off S.size inb, w⟩ : View.Piece (Elt F) S e) :: L) = h.unread w :=
  h.eq_unread (by rw [View.read_writes_eq_canon _ _ _ (fun y => ⟨_, List.Mem.head _, View.mem_set_unit_zero hz inb y⟩),
    View.canon_cons_unit_zero hz])

variable (c : Dev nD) (E : Set ℕ) (i : grid4.Coords) {arg1 arg6 : Memref sig .tc .vmem S5000x128 .f32}
  {arg2 arg4 : Memref sig .tc .vmem S128x128 .f32} {arg3 arg5 arg7 arg8 arg9 arg10 : Memref sig .tc .vmem S1x128 .f32}
  {harg1 : arg1.IsWhole} {harg2 : arg2.IsWhole} {harg3 : arg3.IsWhole} {harg4 : arg4.IsWhole} {harg5 : arg5.IsWhole}
  {harg6 : arg6.IsWhole} {harg7 : arg7.IsWhole} {harg8 : arg8.IsWhole} {harg9 : arg9.IsWhole} {harg10 : arg10.IsWhole}
  (x0 : Vec F S5000x128 .f32) (w1 : Vec F S128x128 .f32) (b1 : Vec F S1x128 .f32) (w2 : Vec F S128x128 .f32) (b2 s0 s1 r0 r1 : Vec F S1x128 .f32)

set_option maxHeartbeats 1000000 in
/-- One block: the running rows restart from zero at the first block, and the last block also stores them to the two row outputs. -/
theorem sound_kernel4_pt {K : PUnit → sProp 𝕄} (h : cond4_1 i → ¬cond4_2 i) :
    iprop(owns c arg1 fullShare x0 ∗ owns c arg2 fullShare w1 ∗ owns c arg3 fullShare b1 ∗ owns c arg4 fullShare w2 ∗ owns c arg5 fullShare b2
        ∗ (∃ d, owns c arg6 fullShare d) ∗ owns c arg7 fullShare r0 ∗ owns c arg8 fullShare r1 ∗ owns c arg9 fullShare s0 ∗ owns c arg10 fullShare s1
        ∗ (iprop(owns c arg1 fullShare x0 ∗ owns c arg2 fullShare w1 ∗ owns c arg3 fullShare b1 ∗ owns c arg4 fullShare w2 ∗ owns c arg5 fullShare b2
            ∗ owns c arg6 fullShare (k4_pay4 x0 w1 b1 w2 b2)
            ∗ owns c arg7 fullShare (if cond4_2 i then k4_pay5 x0 w1 b1 w2 b2 s0 else r0)
            ∗ owns c arg8 fullShare (if cond4_2 i then k4_pay1 (k4_pay4 x0 w1 b1 w2 b2) s1 else r1)
            ∗ owns c arg9 fullShare (k4_pay5 x0 w1 b1 w2 b2 (if cond4_1 i then k4_pay2 else s0))
            ∗ owns c arg10 fullShare (k4_pay1 (k4_pay4 x0 w1 b1 w2 b2) (if cond4_1 i then k4_pay3 else s1))) -∗ K ⟨⟩))
      ⊢ wp frame (wpE (defs₀ (F := F)) Variants.none c none) E (cc4__mlp_prebn_kernel i arg1 harg1 arg2 harg2 arg3 harg3 arg4 harg4 arg5 harg5 arg6 harg6 arg7 harg7 arg8 harg8 arg9 harg9 arg10 harg10) K := by
  by_cases hc1 : cond4_1 i <;> by_cases hc2 : cond4_2 i <;> [exact absurd hc2 (h hc1); skip; skip; skip] <;>
  · first | simp only [if_neg hc1] | simp only [if_pos hc1]
    first | simp only [if_neg hc2] | simp only [if_pos hc2]
    simp only [cc4__mlp_prebn_kernel_eq_skeleton]; unfold cc4__mlp_prebn_kernel_skel
    simp only [k4_part1_eq_skeleton, owns_unread4, harg1, harg2, harg3, harg4, harg5, harg6, harg7, harg8, harg9, harg10]
    iintro ⟨H1, H2, H3, H4, H5, ⟨%d6, H6⟩, H7, H8, H9, H10, Hk⟩
    sl_exec (disch := first | sl_exact hc1 | sl_exact hc2)
    sl_step
    iapply Hk
    sl_unfold_words
    simp only [View.readCov_unit_zero (S := S1x128) _ hz4, View.readAt_eq_ld, Memref.IsWhole.read_unread, View.ld_unit_zero (S := ⟨2, _⟩) hz4,
      read_writes_whole4 harg6 hz4, read_writes_whole4 harg7 hz4,
      read_writes_whole4 harg8 hz4, read_writes_whole4 harg9 hz4, read_writes_whole4 harg10 hz4]
    iframe

end Cert.KernelIdeal.Hand
-- ==== Proof.MlpBody4.lean ====
import proofs.«414687_j59708635349041_1_alg».proof.Proof.Gen.KernelIdeal.Launch
import proofs.«414687_j59708635349041_1_alg».proof.Proof.Gen.KernelIdeal.Points
import proofs.«414687_j59708635349041_1_alg».proof.Proof.MlpRun4

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

section Region4

variable (V : (c : Dev nD) → (b : Ref sig .tc) → Buf (Elt F) ((c : Thread nD τ).loc b))

theorem liveAt4_lt : ∀ (w : Fin cfg4.W) (t : Fin cfg4.N), w.val < 6 ∨ t.val % 20 = 19 → cfg4.idle w (grid4.coords t) = false := by
  decide +kernel

theorem leaves4_live (c : Dev nD) (w : Fin cfg4.W) (t : Fin cfg4.N) (h : w.val < 6 ∨ t.val % 20 = 19) :
    (dat4 V c).leavesExact w t = owns (c : Thread nD τ) ((cfg4.win w).stage (cfg4.slots t w)) fullShare ((dat4 V c).after w t) := by
  unfold Dat.leavesExact; rw [liveAt4_lt w t h]

set_option maxHeartbeats 1000000 in
/-- The invariant hands the body the two running rows after the blocks before and takes them back advanced by this block. -/
theorem sound_body4 (c : Dev nD) (t : Fin cfg4.N) :
    iprop((dat4 V c).Φ t.castSucc ∗ (dat4 V c).owesAt () t.castSucc
        ∗ bigSep Finset.univ fun w : Fin cfg4.W => iprop(∃ d, owns (c : Thread nD τ) ((cfg4.win w).stage (cfg4.slots t w)) fullShare ((dat4 V c).before w t d)))
      ⊢ wp frame (wpE (defs₀ (F := F)) Variants.none c none) Set.univ (bodyAt4 t) fun _ =>
          iprop((dat4 V c).Φ t.succ ∗ (dat4 V c).owesAt () t.succ ∗ bigSep Finset.univ fun w => (dat4 V c).leavesExact w t) := by
  rw [bigSep_W4, bigSep_W4]
  simp only [before4_0, before4_1, before4_2, before4_3, before4_4]
  rw [show (dat4 V c).owesAt () t.succ = (dat4 V c).owesAt () t.castSucc from rfl, PhiS4_castSucc,
    show (dat4 V c).Φ t.succ = PhiS4 V c (t.val + 1) from rfl, PhiS4_succ,
    leaves4_live V c 0 t (.inl (by decide)), after4_0, leaves4_live V c 1 t (.inl (by decide)), after4_1,
    leaves4_live V c 2 t (.inl (by decide)), after4_2, leaves4_live V c 3 t (.inl (by decide)), after4_3,
    leaves4_live V c 4 t (.inl (by decide)), after4_4, leaves4_live V c 5 t (.inl (by decide)), after4_5,
    iblk4_0_eq V c t, iblk4_1_eq V c t, iblk4_2_eq V c t, iblk4_3_eq V c t, iblk4_4_eq V c t]
  have hN : t.val < 20 := lt_of_lt_of_eq t.isLt (show cfg4.N = 20 from N_4)
  have hx : cond4_1 (grid4.coords t) → ¬cond4_2 (grid4.coords t) := fun a b => by
    have := (hcond4_1 t).mp a; have := (hcond4_2 t).mp b; omega
  by_cases h2 : t.val % 20 = 19
  · have hz : t.val ≠ 0 := by omega
    have h19 : t.val = 19 := by omega
    rw [leaves4_live V c 6 t (.inr h2), after4_6, leaves4_live V c 7 t (.inr h2), after4_7,
      show sumAt4 V c 19 = sumAt4 V c t.val by rw [h19], show sqAt4 V c 19 = sqAt4 V c t.val by rw [h19],
      PhiS4_pos V c _ hz, sumAt4_next V c t.val hz, sqAt4_next V c t.val hz]
    iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (sound_kernel4_pt c Set.univ (grid4.coords t) (Mlp4.blk (xArr4 V c) (ptOf4 t)) (w1Arr4 V c) (b1Arr4 V c) (w2Arr4 V c) (b2Arr4 V c) (sumAt4 V c (t.val - 1)) (sqAt4 V c (t.val - 1)) ((dat4 V c).before 6 t d6) ((dat4 V c).before 7 t d7) hx)
    simp only [if_pos ((hcond4_2 t).mpr h2), if_neg (fun a => hx a ((hcond4_2 t).mpr h2))]
    iframe H0 H1 H2 H3 H4 H6 H7 HS0 HS1
    isplitl [H5]; · iexists _; iexact H5
    iintro ⟨H0, H1, H2, H3, H4, H5, H6, H7, HS0, HS1⟩
    iframe
  · rw [Dat.leavesExact_idle (dat4 V c) 6 t (idleAt4_6 t h2) (noFlush4_6 t h2),
      Dat.leavesExact_idle (dat4 V c) 7 t (idleAt4_7 t h2) (noFlush4_7 t h2)]
    have hnc2 : ¬cond4_2 (grid4.coords t) := fun h => h2 ((hcond4_2 t).mp h)
    by_cases h1 : t.val % 20 = 0
    · have hz : t.val = 0 := by omega
      rw [PhiS4_zero V c _ hz, PhiA4_eq, sumAt4_first V c t.val hz, sqAt4_first V c t.val hz]
      iintro ⟨⟨⟨⟨⟨%s0, HS0⟩, ⟨%s1, HS1⟩⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (sound_kernel4_pt c Set.univ (grid4.coords t) (Mlp4.blk (xArr4 V c) (ptOf4 t)) (w1Arr4 V c) (b1Arr4 V c) (w2Arr4 V c) (b2Arr4 V c) s0 s1 ((dat4 V c).before 6 t d6) ((dat4 V c).before 7 t d7) hx)
      simp only [if_pos ((hcond4_1 t).mpr h1), if_neg hnc2]
      iframe H0 H1 H2 H3 H4 H6 H7 HS0 HS1
      isplitl [H5]; · iexists _; iexact H5
      iintro ⟨H0, H1, H2, H3, H4, H5, H6, H7, HS0, HS1⟩
      iframe H0 H1 H2 H3 H4 H5 HS0 HS1 HR Hg Ho
      isplitl [H6]; · iexists _; iexact H6
      iexists _; iexact H7
    · have hz : t.val ≠ 0 := by omega
      rw [PhiS4_pos V c _ hz, sumAt4_next V c t.val hz, sqAt4_next V c t.val hz]
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (sound_kernel4_pt c Set.univ (grid4.coords t) (Mlp4.blk (xArr4 V c) (ptOf4 t)) (w1Arr4 V c) (b1Arr4 V c) (w2Arr4 V c) (b2Arr4 V c) (sumAt4 V c (t.val - 1)) (sqAt4 V c (t.val - 1)) ((dat4 V c).before 6 t d6) ((dat4 V c).before 7 t d7) hx)
      simp only [if_neg (fun a => h1 ((hcond4_1 t).mp a)), if_neg hnc2]
      iframe H0 H1 H2 H3 H4 H6 H7 HS0 HS1
      isplitl [H5]; · iexists _; iexact H5
      iintro ⟨H0, H1, H2, H3, H4, H5, H6, H7, HS0, HS1⟩
      iframe H0 H1 H2 H3 H4 H5 HS0 HS1 HR Hg Ho
      isplitl [H6]; · iexists _; iexact H6
      iexists _; iexact H7

theorem body_obligation4 (c : Dev nD) : BodyObligation (dat4 (F := F) V c) (defs₀ (F := F)) Variants.none () Set.univ :=
  sound_body4 V c

end Region4

end Cert.KernelIdeal.Hand
-- ==== Proof.Regs.lean ====
import proofs.«414687_j59708635349041_1_alg».proof.Proof.SegsBase
import proofs.«414687_j59708635349041_1_alg».proof.Proof.MlpBody0
import proofs.«414687_j59708635349041_1_alg».proof.Proof.MlpBody2
import proofs.«414687_j59708635349041_1_alg».proof.Proof.MlpBody4

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (UR sig nD τ) ℕ

variable (m : (ℓ : Loc nD τ sig) → Buf (Elt F) ℓ)

/-- Every pipeline's proof data, each at its region's entry contents. -/
def pdats : (p : Fin 7) → (c : Dev nD) → Dat τ (Elt F) Unit ℕ (UR sig nD τ) ℕ (cfgs p) c
  | ⟨0, _⟩ => dat0 (U1 m)
  | ⟨1, _⟩ => dat1 (U3 m)
  | ⟨2, _⟩ => dat2 (U5 m)
  | ⟨3, _⟩ => dat3 (U7 m)
  | ⟨4, _⟩ => dat4 (U9 m)
  | ⟨5, _⟩ => dat5 (U11 m)
  | ⟨6, _⟩ => dat6 (U13 m)

abbrev Lz : GSem nD τ sig → Finset Unit := fun _ => ∅
abbrev lvz : GSem nD τ sig → Unit → ℕ := fun _ _ => 0
/-- What rides beside the buffers through every segment: the generator register at some state and an empty debt. -/
abbrev Rst (c : Dev nD) : sProp 𝕄 := iprop((∃ r, prngReg c r) ∗ ∃ W, owes (c : Thread nD τ) (0 : CellTallies nD τ sig Unit) W)

set_option backward.isDefEq.respectTransparency.types false in
/-- The segment record of a region entered with the unscoped buffers at `W` and left with them at `exitV`. -/
def regOf {p : Fin 7} (lf : Pipeline.LaunchFacts (nD := nD) (τ := τ) cfgs p)
    (pd : (p : Fin 7) → (c : Dev nD) → Dat τ (Elt F) Unit ℕ (UR sig nD τ) ℕ (cfgs p) c) (W : Dev nD → Valuation τ sig (Elt F))
    (hd : ∀ c, (∀ w, (pd p c).q w = fullShare) ∧ (∀ w, (pd p c).A w = rd W c (Pipeline.arrRef (cfgs p).spec w))
      ∧ (∀ t, (pd p c).owed t = 0) ∧ (pd p c).recorded 0 = Set.univ) (hB : ∀ c, BodyObligation (pd p c) (defs₀ (F := F)) Variants.none () Set.univ)
    (hI : ∀ c, Pipeline.ΦA (cfgs p).spec c ⊢ (pd p c).Φ 0) (hO : ∀ c, (pd p c).Φ (Fin.last (cfgs p).N) ⊢ Pipeline.ΦA (cfgs p).spec c) :
    Pipeline.RegionSeg (pcfgs (F := F)) adm pd () defs₀ Variants.none Lz lvz p where
  win := lf.win.to₀
  block_pos := lf.block_pos
  stage_whole := lf.stage_whole
  K := PEmpty
  osem k := k.elim
  ho := Pipeline.OwnSemFacts.none _
  hbody c := (hB c).loose
  hwaits := Pipeline.hwaits_of_owed_zero _ _ _ _ Lz lvz p fun c => (hd c).2.2.1
  pre c := iprop(StableHlo.held (c : Thread nD τ) (Pipeline.ucRefs τ sig) (W c) ∗ Rst c)
  post c := iprop(StableHlo.held (c : Thread nD τ) (Pipeline.ucRefs τ sig) (exitV (pd p) W c) ∗ Rst c)
  X c := iprop(∃ r, prngReg c r)
  Y c := iprop(∃ r, prngReg c r)
  Z c := Pipeline.unscopedRest (Ix := Unit) (Name := ℕ) (U := UR sig nD τ) (Lvl := ℕ) (cfgs p).spec c (rd W c)
  hentry c := by
    rw [Pipeline.ownSems0_none]
    have hsplit := Pipeline.arrays_of_unscopedBufs (p := p) (pcfgs (F := F)) adm pd lf.win lf.arr_whole c
      ((pd p c).share_full (hd c).1) (rd W c) (hd c).2.1
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin; rw [(hd c).2.2.1]
      icases HO with ⟨%W, HO⟩; iexists W; isplitr; · ipureintro; exact fun _ _ => Or.inl ((hd c).2.2.2 ▸ trivial)
      iexact HO
    isplitl [Hp]; · iexact Hp
    iexact Hrest
  hin c := by
    refine BIBase.Entails.trans ?_ (hI c)
    unfold Pipeline.ΦA
    iintro ⟨Hp, -, Hr⟩
    isplitl [Hr]; · iexact Hr
    iexact Hp
  hout c := by
    rw [Pipeline.ownSems0_none]
    refine BIBase.Entails.trans (hO c) ?_
    unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      lf.win lf.arr_whole c pd ((pd p c).share_full (hd c).1) (rd W c) (rd (exitV (pd p) W) c) ((pd p c).arrAt · (cfgs p).N)
      (fun w => (exitV_arr _ _ c lf w).symm)
      fun b hb => exitV_of_ne _ _ c b fun w e => hb (Finset.mem_image.mpr ⟨w, Finset.mem_univ _, e⟩)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin; rw [(hd c).2.2.1]
    icases HO with ⟨%W, -, HO⟩; iexists W; iexact HO

def reg0 := regOf launch0 (pdats m) (W1 m) (fun _ => ⟨fun _ => rfl, fun _ => rfl, fun _ => rfl, rfl⟩) (body_obligation0 (U1 m)) (hin0 (U1 m)) (hout0 (U1 m))
def reg1 := regOf launch1 (pdats m) (W3 m) (fun _ => ⟨fun _ => rfl, fun _ => rfl, fun _ => rfl, rfl⟩) (body_obligation1 (U3 m)) (hin1 (U3 m)) (hout1 (U3 m))
def reg2 := regOf launch2 (pdats m) (W5 m) (fun _ => ⟨fun _ => rfl, fun _ => rfl, fun _ => rfl, rfl⟩) (body_obligation2 (U5 m)) (hin2 (U5 m)) (hout2 (U5 m))
def reg3 := regOf launch3 (pdats m) (W7 m) (fun _ => ⟨fun _ => rfl, fun _ => rfl, fun _ => rfl, rfl⟩) (body_obligation3 (U7 m)) (hin3 (U7 m)) (hout3 (U7 m))
def reg4 := regOf launch4 (pdats m) (W9 m) (fun _ => ⟨fun _ => rfl, fun _ => rfl, fun _ => rfl, rfl⟩) (body_obligation4 (U9 m)) (hin4 (U9 m)) (hout4 (U9 m))
def reg5 := regOf launch5 (pdats m) (W11 m) (fun _ => ⟨fun _ => rfl, fun _ => rfl, fun _ => rfl, rfl⟩) (body_obligation5 (U11 m)) (hin5 (U11 m)) (hout5 (U11 m))
def reg6 := regOf launch6 (pdats m) (W13 m) (fun _ => ⟨fun _ => rfl, fun _ => rfl, fun _ => rfl, rfl⟩) (body_obligation6 (U13 m)) (hin6 (U13 m)) (hout6 (U13 m))

end Cert.KernelIdeal.Hand

end
-- ==== Proof.MlpFinal0.lean ====
import proofs.«414687_j59708635349041_1_alg».proof.Proof.Gen.KernelIdeal.Skeleton
import proofs.«414687_j59708635349041_1_alg».proof.Proof.Gen.KernelIdeal.Launch
import proofs.«414687_j59708635349041_1_alg».proof.Proof.Gen.KernelIdeal.Points
import proofs.«414687_j59708635349041_1_alg».proof.Proof.MlpSpec
import proofs.«414687_j59708635349041_1_alg».proof.Proof.MlpRegion0Base
import Idealize.ShloMosaic.Lib.Pipeline.Frame
import Idealize.ShloMosaic.Lib.Pipeline.FrameBody
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open Idealize.SL.Sem
open Idealize.ShloMosaic.Rounds
open Idealize.ShloMosaic.Pipeline (Dat Cfg Window)
open Idealize.ShloMosaic.ValueIdx

variable {F : FTy → Type} [FloatOps F]

/-- Dividing a row's number by 5000 gives its block and its place in the block. -/
theorem Final0.h2Arr_at (X : Vec F S100000x128 .f32) (w1 : Vec F S128x128 .f32) (b1 : Vec F S1x128 .f32)
    (w2 : Vec F S128x128 .f32) (b2 : Vec F S1x128 .f32) (k : Fin 20) (j : S5000x128.Idx) (i : S100000x128.Idx)
    (h0 : (i 0).val = k.val * 5000 + (j 0).val) (h1 : (i 1).val = (j 1).val) :
    Mlp.h2Arr X w1 b1 w2 b2 i = k0_pay4 (Mlp.blk X k) w1 b1 w2 b2 j := by
  have hj0 : (j 0).val < 5000 := (j 0).isLt
  have hk : (⟨(i 0).val / 5000, Mlp.row_div_lt (i 0)⟩ : Fin 20) = k := Fin.ext (by show (i 0).val / 5000 = k.val; omega)
  have hj : ix2 (⟨(i 0).val % 5000, Mlp.row_mod_lt (i 0)⟩ : Fin 5000) (i 1) = j := funext fun a => by
    match a with
    | ⟨0, _⟩ => exact Fin.ext (by show (i 0).val % 5000 = (j 0).val; omega)
    | ⟨1, _⟩ => exact Fin.ext h1
  unfold Mlp.h2Arr; rw [hk]; exact congrArg _ hj

section Region0

variable (V : (c : Dev nD) → (b : Ref sig .tc) → Buf (Elt F) ((c : Thread nD τ).loc b)) (c : Dev nD)

/-- Row `r` of the h2 array lies in the block of point `r / 5000`. -/
theorem cover0_5 (i : S100000x128.Idx) : ∃ t : Fin cfg0.N, (cfg0.win 5).flush t = true ∧ i ∈ ((cfg0.win 5).blk t).view.set := by
  have hi0 : (i 0).val < 100000 := (i 0).isLt
  have hi1 : (i 1).val < 128 := (i 1).isLt
  have hN : cfg0.N = 20 := N_0
  let t : Fin cfg0.N := ⟨(i 0).val / 5000, by omega⟩
  have ht : t.val = (i 0).val / 5000 := rfl
  obtain ⟨hz, -, e5, -⟩ := idx_facts0 t
  refine ⟨t, flush0_5 t, ?_⟩
  show i ∈ ((View.whole main_v25_0).slice (win0_5.rect t)).set
  rw [View.set_slice_whole, Rect.mem_set_unit]
  intro a
  match a with
  | ⟨0, _⟩ =>
    show win0_5.index t (0 : Fin 2) * 5000 ≤ (i 0).val ∧ (i 0).val < win0_5.index t (0 : Fin 2) * 5000 + 5000
    omega
  | ⟨1, _⟩ =>
    have h : win0_5.index t (1 : Fin 2) = 0 := hz 5 (1 : Fin 2) (.inr (by decide))
    show win0_5.index t (1 : Fin 2) * 128 ≤ (i 1).val ∧ (i 1).val < win0_5.index t (1 : Fin 2) * 128 + 128
    omega

/-- The points' blocks of rows tile the array, and block `t` holds the h2 of block `t`. -/
theorem final0_5 : (dat0 V c).arrAt 5 cfg0.N = Mlp.h2Arr (V c main_v14) (V c main_v16) (V c main_v23) (V c main_v20) (V c main_v24) :=
  (dat0 V c).arrAt_eq_of_cover 5 _ (fun t _ => funext fun j => by
    obtain ⟨hz, -, e5, hN⟩ := idx_facts0 t
    show _ = Mlp.h2Arr _ _ _ _ _ (((cfg0.win 5).blk t).view.emb j)
    refine (Final0.h2Arr_at _ _ _ _ _ (Mlp.pt t.val) j _ ?_ ?_).symm
    · show win0_5.index t (0 : Fin 2) * 5000 + 1 * (j 0).val = t.val % 20 * 5000 + (j 0).val; omega
    · exact win0_5.rect_emb_val_of_index_zero t 1 (hz 5 (1 : Fin 2) (.inr (by decide))) j) cover0_5

/-- The last point's block of row output 6 is the whole 1x128 array. -/
theorem cover0_6 (i : S1x128.Idx) : ∃ t : Fin cfg0.N, (cfg0.win 6).flush t = true ∧ i ∈ ((cfg0.win 6).blk t).view.set := by
  let t : Fin cfg0.N := ⟨19, by decide⟩
  refine ⟨t, (flush0_6 t).mpr rfl, ?_⟩
  show i ∈ ((View.whole main_v25_1).slice (win0_6.rect t)).set
  rw [View.set_slice_whole, Rect.mem_set_unit]
  intro a
  have h : win0_6.index t a = 0 := (idx_facts0 t).1 6 a (.inl (by decide))
  show win0_6.index t a * _ ≤ _ ∧ _ < win0_6.index t a * _ + _
  rw [h, Nat.zero_mul, Nat.zero_add]; exact ⟨Nat.zero_le _, (i a).isLt⟩

theorem final0_6 : (dat0 V c).arrAt 6 cfg0.N = Mlp.sumRow (V c main_v14) (V c main_v16) (V c main_v23) (V c main_v20) (V c main_v24) :=
  (dat0 V c).arrAt_eq_of_cover 6 _ (fun t _ => funext fun j => congrArg (Mlp.sumRow (V c main_v14) (V c main_v16) (V c main_v23) (V c main_v20) (V c main_v24)) (funext fun a => Fin.ext
    (win0_6.rect_emb_val_of_index_zero t a ((idx_facts0 t).1 6 a (.inl (by decide))) j).symm)) cover0_6

/-- The last point's block of row output 7 is the whole 1x128 array. -/
theorem cover0_7 (i : S1x128.Idx) : ∃ t : Fin cfg0.N, (cfg0.win 7).flush t = true ∧ i ∈ ((cfg0.win 7).blk t).view.set := by
  let t : Fin cfg0.N := ⟨19, by decide⟩
  refine ⟨t, (flush0_7 t).mpr rfl, ?_⟩
  show i ∈ ((View.whole main_v25_2).slice (win0_7.rect t)).set
  rw [View.set_slice_whole, Rect.mem_set_unit]
  intro a
  have h : win0_7.index t a = 0 := (idx_facts0 t).1 7 a (.inl (by decide))
  show win0_7.index t a * _ ≤ _ ∧ _ < win0_7.index t a * _ + _
  rw [h, Nat.zero_mul, Nat.zero_add]; exact ⟨Nat.zero_le _, (i a).isLt⟩

theorem final0_7 : (dat0 V c).arrAt 7 cfg0.N = Mlp.sqRow (V c main_v14) (V c main_v16) (V c main_v23) (V c main_v20) (V c main_v24) :=
  (dat0 V c).arrAt_eq_of_cover 7 _ (fun t _ => funext fun j => congrArg (Mlp.sqRow (V c main_v14) (V c main_v16) (V c main_v23) (V c main_v20) (V c main_v24)) (funext fun a => Fin.ext
    (win0_7.rect_emb_val_of_index_zero t a ((idx_facts0 t).1 7 a (.inl (by decide))) j).symm)) cover0_7

theorem kept0 (w : Fin cfg0.W) (hw : w.val < 5) : (dat0 V c).arrAt w cfg0.N = V c (Pipeline.arrRef spec0 w) :=
  (dat0 V c).arrAt_in w ((by decide : ∀ w : Fin cfg0.W, w.val < 5 → (cfg0.win w).isOut = false) w hw) _

end Region0

end Cert.KernelIdeal.Hand
end
-- ==== Proof.MlpFinal2.lean ====
import proofs.«414687_j59708635349041_1_alg».proof.Proof.Gen.KernelIdeal.Skeleton
import proofs.«414687_j59708635349041_1_alg».proof.Proof.Gen.KernelIdeal.Launch
import proofs.«414687_j59708635349041_1_alg».proof.Proof.Gen.KernelIdeal.Points
import proofs.«414687_j59708635349041_1_alg».proof.Proof.MlpSpec
import proofs.«414687_j59708635349041_1_alg».proof.Proof.MlpRegion2Base
import Idealize.ShloMosaic.Lib.Pipeline.Frame
import Idealize.ShloMosaic.Lib.Pipeline.FrameBody
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open Idealize.SL.Sem
open Idealize.ShloMosaic.Rounds
open Idealize.ShloMosaic.Pipeline (Dat Cfg Window)
open Idealize.ShloMosaic.ValueIdx

variable {F : FTy → Type} [FloatOps F]

/-- Dividing a row's number by 5000 gives its block and its place in the block. -/
theorem Final2.h2Arr_at (X : Vec F S100000x128 .f32) (w1 : Vec F S128x128 .f32) (b1 : Vec F S1x128 .f32)
    (w2 : Vec F S128x128 .f32) (b2 : Vec F S1x128 .f32) (k : Fin 20) (j : S5000x128.Idx) (i : S100000x128.Idx)
    (h0 : (i 0).val = k.val * 5000 + (j 0).val) (h1 : (i 1).val = (j 1).val) :
    Mlp2.h2Arr X w1 b1 w2 b2 i = k2_pay4 (Mlp2.blk X k) w1 b1 w2 b2 j := by
  have hj0 : (j 0).val < 5000 := (j 0).isLt
  have hk : (⟨(i 0).val / 5000, Mlp2.row_div_lt (i 0)⟩ : Fin 20) = k := Fin.ext (by show (i 0).val / 5000 = k.val; omega)
  have hj : ix2 (⟨(i 0).val % 5000, Mlp2.row_mod_lt (i 0)⟩ : Fin 5000) (i 1) = j := funext fun a => by
    match a with
    | ⟨0, _⟩ => exact Fin.ext (by show (i 0).val % 5000 = (j 0).val; omega)
    | ⟨1, _⟩ => exact Fin.ext h1
  unfold Mlp2.h2Arr; rw [hk]; exact congrArg _ hj

section Region2

variable (V : (c : Dev nD) → (b : Ref sig .tc) → Buf (Elt F) ((c : Thread nD τ).loc b)) (c : Dev nD)

/-- Row `r` of the h2 array lies in the block of point `r / 5000`. -/
theorem cover2_5 (i : S100000x128.Idx) : ∃ t : Fin cfg2.N, (cfg2.win 5).flush t = true ∧ i ∈ ((cfg2.win 5).blk t).view.set := by
  have hi0 : (i 0).val < 100000 := (i 0).isLt
  have hi1 : (i 1).val < 128 := (i 1).isLt
  have hN : cfg2.N = 20 := N_2
  let t : Fin cfg2.N := ⟨(i 0).val / 5000, by omega⟩
  have ht : t.val = (i 0).val / 5000 := rfl
  obtain ⟨hz, -, e5, -⟩ := idx_facts2 t
  refine ⟨t, flush2_5 t, ?_⟩
  show i ∈ ((View.whole main_v67_0).slice (win2_5.rect t)).set
  rw [View.set_slice_whole, Rect.mem_set_unit]
  intro a
  match a with
  | ⟨0, _⟩ =>
    show win2_5.index t (0 : Fin 2) * 5000 ≤ (i 0).val ∧ (i 0).val < win2_5.index t (0 : Fin 2) * 5000 + 5000
    omega
  | ⟨1, _⟩ =>
    have h : win2_5.index t (1 : Fin 2) = 0 := hz 5 (1 : Fin 2) (.inr (by decide))
    show win2_5.index t (1 : Fin 2) * 128 ≤ (i 1).val ∧ (i 1).val < win2_5.index t (1 : Fin 2) * 128 + 128
    omega

/-- The points' blocks of rows tile the array, and block `t` holds the h2 of block `t`. -/
theorem final2_5 : (dat2 V c).arrAt 5 cfg2.N = Mlp2.h2Arr (V c main_v56) (V c main_v58) (V c main_v65) (V c main_v62) (V c main_v66) :=
  (dat2 V c).arrAt_eq_of_cover 5 _ (fun t _ => funext fun j => by
    obtain ⟨hz, -, e5, hN⟩ := idx_facts2 t
    show _ = Mlp2.h2Arr _ _ _ _ _ (((cfg2.win 5).blk t).view.emb j)
    refine (Final2.h2Arr_at _ _ _ _ _ (Mlp2.pt t.val) j _ ?_ ?_).symm
    · show win2_5.index t (0 : Fin 2) * 5000 + 1 * (j 0).val = t.val % 20 * 5000 + (j 0).val; omega
    · exact win2_5.rect_emb_val_of_index_zero t 1 (hz 5 (1 : Fin 2) (.inr (by decide))) j) cover2_5

/-- The last point's block of row output 6 is the whole 1x128 array. -/
theorem cover2_6 (i : S1x128.Idx) : ∃ t : Fin cfg2.N, (cfg2.win 6).flush t = true ∧ i ∈ ((cfg2.win 6).blk t).view.set := by
  let t : Fin cfg2.N := ⟨19, by decide⟩
  refine ⟨t, (flush2_6 t).mpr rfl, ?_⟩
  show i ∈ ((View.whole main_v67_1).slice (win2_6.rect t)).set
  rw [View.set_slice_whole, Rect.mem_set_unit]
  intro a
  have h : win2_6.index t a = 0 := (idx_facts2 t).1 6 a (.inl (by decide))
  show win2_6.index t a * _ ≤ _ ∧ _ < win2_6.index t a * _ + _
  rw [h, Nat.zero_mul, Nat.zero_add]; exact ⟨Nat.zero_le _, (i a).isLt⟩

theorem final2_6 : (dat2 V c).arrAt 6 cfg2.N = Mlp2.sumRow (V c main_v56) (V c main_v58) (V c main_v65) (V c main_v62) (V c main_v66) :=
  (dat2 V c).arrAt_eq_of_cover 6 _ (fun t _ => funext fun j => congrArg (Mlp2.sumRow (V c main_v56) (V c main_v58) (V c main_v65) (V c main_v62) (V c main_v66)) (funext fun a => Fin.ext
    (win2_6.rect_emb_val_of_index_zero t a ((idx_facts2 t).1 6 a (.inl (by decide))) j).symm)) cover2_6

/-- The last point's block of row output 7 is the whole 1x128 array. -/
theorem cover2_7 (i : S1x128.Idx) : ∃ t : Fin cfg2.N, (cfg2.win 7).flush t = true ∧ i ∈ ((cfg2.win 7).blk t).view.set := by
  let t : Fin cfg2.N := ⟨19, by decide⟩
  refine ⟨t, (flush2_7 t).mpr rfl, ?_⟩
  show i ∈ ((View.whole main_v67_2).slice (win2_7.rect t)).set
  rw [View.set_slice_whole, Rect.mem_set_unit]
  intro a
  have h : win2_7.index t a = 0 := (idx_facts2 t).1 7 a (.inl (by decide))
  show win2_7.index t a * _ ≤ _ ∧ _ < win2_7.index t a * _ + _
  rw [h, Nat.zero_mul, Nat.zero_add]; exact ⟨Nat.zero_le _, (i a).isLt⟩

theorem final2_7 : (dat2 V c).arrAt 7 cfg2.N = Mlp2.sqRow (V c main_v56) (V c main_v58) (V c main_v65) (V c main_v62) (V c main_v66) :=
  (dat2 V c).arrAt_eq_of_cover 7 _ (fun t _ => funext fun j => congrArg (Mlp2.sqRow (V c main_v56) (V c main_v58) (V c main_v65) (V c main_v62) (V c main_v66)) (funext fun a => Fin.ext
    (win2_7.rect_emb_val_of_index_zero t a ((idx_facts2 t).1 7 a (.inl (by decide))) j).symm)) cover2_7

theorem kept2 (w : Fin cfg2.W) (hw : w.val < 5) : (dat2 V c).arrAt w cfg2.N = V c (Pipeline.arrRef spec2 w) :=
  (dat2 V c).arrAt_in w ((by decide : ∀ w : Fin cfg2.W, w.val < 5 → (cfg2.win w).isOut = false) w hw) _

end Region2

end Cert.KernelIdeal.Hand
end
-- ==== Proof.MlpFinal4.lean ====
import proofs.«414687_j59708635349041_1_alg».proof.Proof.Gen.KernelIdeal.Skeleton
import proofs.«414687_j59708635349041_1_alg».proof.Proof.Gen.KernelIdeal.Launch
import proofs.«414687_j59708635349041_1_alg».proof.Proof.Gen.KernelIdeal.Points
import proofs.«414687_j59708635349041_1_alg».proof.Proof.MlpSpec
import proofs.«414687_j59708635349041_1_alg».proof.Proof.MlpRegion4Base
import Idealize.ShloMosaic.Lib.Pipeline.Frame
import Idealize.ShloMosaic.Lib.Pipeline.FrameBody
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open Idealize.SL.Sem
open Idealize.ShloMosaic.Rounds
open Idealize.ShloMosaic.Pipeline (Dat Cfg Window)
open Idealize.ShloMosaic.ValueIdx

variable {F : FTy → Type} [FloatOps F]

/-- Dividing a row's number by 5000 gives its block and its place in the block. -/
theorem Final4.h2Arr_at (X : Vec F S100000x128 .f32) (w1 : Vec F S128x128 .f32) (b1 : Vec F S1x128 .f32)
    (w2 : Vec F S128x128 .f32) (b2 : Vec F S1x128 .f32) (k : Fin 20) (j : S5000x128.Idx) (i : S100000x128.Idx)
    (h0 : (i 0).val = k.val * 5000 + (j 0).val) (h1 : (i 1).val = (j 1).val) :
    Mlp4.h2Arr X w1 b1 w2 b2 i = k4_pay4 (Mlp4.blk X k) w1 b1 w2 b2 j := by
  have hj0 : (j 0).val < 5000 := (j 0).isLt
  have hk : (⟨(i 0).val / 5000, Mlp4.row_div_lt (i 0)⟩ : Fin 20) = k := Fin.ext (by show (i 0).val / 5000 = k.val; omega)
  have hj : ix2 (⟨(i 0).val % 5000, Mlp4.row_mod_lt (i 0)⟩ : Fin 5000) (i 1) = j := funext fun a => by
    match a with
    | ⟨0, _⟩ => exact Fin.ext (by show (i 0).val % 5000 = (j 0).val; omega)
    | ⟨1, _⟩ => exact Fin.ext h1
  unfold Mlp4.h2Arr; rw [hk]; exact congrArg _ hj

section Region4

variable (V : (c : Dev nD) → (b : Ref sig .tc) → Buf (Elt F) ((c : Thread nD τ).loc b)) (c : Dev nD)

/-- Row `r` of the h2 array lies in the block of point `r / 5000`. -/
theorem cover4_5 (i : S100000x128.Idx) : ∃ t : Fin cfg4.N, (cfg4.win 5).flush t = true ∧ i ∈ ((cfg4.win 5).blk t).view.set := by
  have hi0 : (i 0).val < 100000 := (i 0).isLt
  have hi1 : (i 1).val < 128 := (i 1).isLt
  have hN : cfg4.N = 20 := N_4
  let t : Fin cfg4.N := ⟨(i 0).val / 5000, by omega⟩
  have ht : t.val = (i 0).val / 5000 := rfl
  obtain ⟨hz, -, e5, -⟩ := idx_facts4 t
  refine ⟨t, flush4_5 t, ?_⟩
  show i ∈ ((View.whole main_v109_0).slice (win4_5.rect t)).set
  rw [View.set_slice_whole, Rect.mem_set_unit]
  intro a
  match a with
  | ⟨0, _⟩ =>
    show win4_5.index t (0 : Fin 2) * 5000 ≤ (i 0).val ∧ (i 0).val < win4_5.index t (0 : Fin 2) * 5000 + 5000
    omega
  | ⟨1, _⟩ =>
    have h : win4_5.index t (1 : Fin 2) = 0 := hz 5 (1 : Fin 2) (.inr (by decide))
    show win4_5.index t (1 : Fin 2) * 128 ≤ (i 1).val ∧ (i 1).val < win4_5.index t (1 : Fin 2) * 128 + 128
    omega

/-- The points' blocks of rows tile the array, and block `t` holds the h2 of block `t`. -/
theorem final4_5 : (dat4 V c).arrAt 5 cfg4.N = Mlp4.h2Arr (V c main_v98) (V c main_v100) (V c main_v107) (V c main_v104) (V c main_v108) :=
  (dat4 V c).arrAt_eq_of_cover 5 _ (fun t _ => funext fun j => by
    obtain ⟨hz, -, e5, hN⟩ := idx_facts4 t
    show _ = Mlp4.h2Arr _ _ _ _ _ (((cfg4.win 5).blk t).view.emb j)
    refine (Final4.h2Arr_at _ _ _ _ _ (Mlp4.pt t.val) j _ ?_ ?_).symm
    · show win4_5.index t (0 : Fin 2) * 5000 + 1 * (j 0).val = t.val % 20 * 5000 + (j 0).val; omega
    · exact win4_5.rect_emb_val_of_index_zero t 1 (hz 5 (1 : Fin 2) (.inr (by decide))) j) cover4_5

/-- The last point's block of row output 6 is the whole 1x128 array. -/
theorem cover4_6 (i : S1x128.Idx) : ∃ t : Fin cfg4.N, (cfg4.win 6).flush t = true ∧ i ∈ ((cfg4.win 6).blk t).view.set := by
  let t : Fin cfg4.N := ⟨19, by decide⟩
  refine ⟨t, (flush4_6 t).mpr rfl, ?_⟩
  show i ∈ ((View.whole main_v109_1).slice (win4_6.rect t)).set
  rw [View.set_slice_whole, Rect.mem_set_unit]
  intro a
  have h : win4_6.index t a = 0 := (idx_facts4 t).1 6 a (.inl (by decide))
  show win4_6.index t a * _ ≤ _ ∧ _ < win4_6.index t a * _ + _
  rw [h, Nat.zero_mul, Nat.zero_add]; exact ⟨Nat.zero_le _, (i a).isLt⟩

theorem final4_6 : (dat4 V c).arrAt 6 cfg4.N = Mlp4.sumRow (V c main_v98) (V c main_v100) (V c main_v107) (V c main_v104) (V c main_v108) :=
  (dat4 V c).arrAt_eq_of_cover 6 _ (fun t _ => funext fun j => congrArg (Mlp4.sumRow (V c main_v98) (V c main_v100) (V c main_v107) (V c main_v104) (V c main_v108)) (funext fun a => Fin.ext
    (win4_6.rect_emb_val_of_index_zero t a ((idx_facts4 t).1 6 a (.inl (by decide))) j).symm)) cover4_6

/-- The last point's block of row output 7 is the whole 1x128 array. -/
theorem cover4_7 (i : S1x128.Idx) : ∃ t : Fin cfg4.N, (cfg4.win 7).flush t = true ∧ i ∈ ((cfg4.win 7).blk t).view.set := by
  let t : Fin cfg4.N := ⟨19, by decide⟩
  refine ⟨t, (flush4_7 t).mpr rfl, ?_⟩
  show i ∈ ((View.whole main_v109_2).slice (win4_7.rect t)).set
  rw [View.set_slice_whole, Rect.mem_set_unit]
  intro a
  have h : win4_7.index t a = 0 := (idx_facts4 t).1 7 a (.inl (by decide))
  show win4_7.index t a * _ ≤ _ ∧ _ < win4_7.index t a * _ + _
  rw [h, Nat.zero_mul, Nat.zero_add]; exact ⟨Nat.zero_le _, (i a).isLt⟩

theorem final4_7 : (dat4 V c).arrAt 7 cfg4.N = Mlp4.sqRow (V c main_v98) (V c main_v100) (V c main_v107) (V c main_v104) (V c main_v108) :=
  (dat4 V c).arrAt_eq_of_cover 7 _ (fun t _ => funext fun j => congrArg (Mlp4.sqRow (V c main_v98) (V c main_v100) (V c main_v107) (V c main_v104) (V c main_v108)) (funext fun a => Fin.ext
    (win4_7.rect_emb_val_of_index_zero t a ((idx_facts4 t).1 7 a (.inl (by decide))) j).symm)) cover4_7

theorem kept4 (w : Fin cfg4.W) (hw : w.val < 5) : (dat4 V c).arrAt w cfg4.N = V c (Pipeline.arrRef spec4 w) :=
  (dat4 V c).arrAt_in w ((by decide : ∀ w : Fin cfg4.W, w.val < 5 → (cfg4.win w).isOut = false) w hw) _

end Region4

end Cert.KernelIdeal.Hand
end
-- ==== Proof.Segs.lean ====
import proofs.«414687_j59708635349041_1_alg».proof.Proof.Regs
import proofs.«414687_j59708635349041_1_alg».proof.Proof.MlpFinal0
import proofs.«414687_j59708635349041_1_alg».proof.Proof.MlpFinal2
import proofs.«414687_j59708635349041_1_alg».proof.Proof.MlpFinal4

noncomputable section

namespace Cert.KernelIdeal.Hand

open Cert.KernelIdeal Cert.KernelIdeal.Gen
open Idealize.ShloMosaic Idealize.ShloMosaic.TcCoe
open Idealize.SL Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (UR sig nD τ) ℕ

variable (m : (ℓ : Loc nD τ sig) → Buf (Elt F) ℓ) (c : Dev nD)

/-- Writing `g`'s values over `f` at every point where they may differ gives `g`. -/
theorem upd_all {α : Type} [DecidableEq α] {β : α → Type} (g : ∀ a, β a) :
    ∀ (rs : List α) (f : ∀ a, β a), (∀ x, x ∉ rs → f x = g x) → rs.foldl (fun h r => Function.update h r (g r)) f = g
  | [], f, h => funext fun x => h x List.not_mem_nil
  | r :: rs, f, h => upd_all g rs _ fun x hx => by
      by_cases e : x = r
      · subst e; exact Function.update_self ..
      · exact (Function.update_of_ne e ..).trans (h x (List.not_mem_cons_of_ne_of_not_mem e hx))

/-- The entry contents overwritten with the exit contents at the outputs are the exit contents: inputs end as they began. -/
theorem exit_eq {p : Fin 7} (D : (c : Dev nD) → Dat τ (Elt F) Unit ℕ (UR sig nD τ) ℕ (cfgs p) c) (W : Dev nD → Valuation τ sig (Elt F))
    (lf : Pipeline.LaunchFacts (nD := nD) (τ := τ) cfgs p) {f : Valuation τ sig (Elt F)} (hf : f = W c) {n : ℕ}
    (hk : ∀ w : Fin (cfgs p).W, w.val < n → (D c).arrAt w (cfgs p).N = rd W c (Pipeline.arrRef (cfgs p).spec w))
    (rs : List (Ref sig .tc)) (hrs : ∀ w : Fin (cfgs p).W, n ≤ w.val → Pipeline.arrRef (cfgs p).spec w ∈ rs) :
    (rs.map (Proc.devRef (τ := τ) .tc)).foldl (fun h r => Function.update h r (exitV D W c r)) f = exitV D W c := by
  subst hf
  refine upd_all _ _ _ fun x hx => ?_
  by_cases h : ∃ w, Proc.devRef .tc (Pipeline.arrRef (cfgs p).spec w) = x
  · obtain ⟨w, rfl⟩ := h
    rw [exitV_arr D W c lf w]
    rcases Nat.lt_or_ge w.val n with hw | hw
    · exact (hk w hw).symm
    · exact absurd (List.mem_map_of_mem (hrs w hw)) hx
  · unfold exitV Pipeline.withArrays; rw [dif_neg h]

theorem V2_eq : Gen.V2 m (outs m) c = W2 m c :=
  exit_eq c _ _ launch0 rfl (kept0 (U1 m) c) [main_v25_0, main_v25_1, main_v25_2] (by decide)
theorem V3_eq : Gen.V3 m (outs m) c = W3 m c := congrArg (StableHlo.after hostOps1) (V2_eq m c)
theorem V4_eq : Gen.V4 m (outs m) c = W4 m c :=
  exit_eq c _ _ launch1 (V3_eq m c) (kept1 (U3 m) c) [main_v45] (by decide)
theorem V5_eq : Gen.V5 m (outs m) c = W5 m c := congrArg (StableHlo.after hostOps2) (V4_eq m c)
theorem V6_eq : Gen.V6 m (outs m) c = W6 m c :=
  exit_eq c _ _ launch2 (V5_eq m c) (kept2 (U5 m) c) [main_v67_0, main_v67_1, main_v67_2] (by decide)
theorem V7_eq : Gen.V7 m (outs m) c = W7 m c := congrArg (StableHlo.after hostOps3) (V6_eq m c)
theorem V8_eq : Gen.V8 m (outs m) c = W8 m c :=
  exit_eq c _ _ launch3 (V7_eq m c) (kept3 (U7 m) c) [main_v87] (by decide)
theorem V9_eq : Gen.V9 m (outs m) c = W9 m c := congrArg (StableHlo.after hostOps4) (V8_eq m c)
theorem V10_eq : Gen.V10 m (outs m) c = W10 m c :=
  exit_eq c _ _ launch4 (V9_eq m c) (kept4 (U9 m) c) [main_v109_0, main_v109_1, main_v109_2] (by decide)
theorem V11_eq : Gen.V11 m (outs m) c = W11 m c := congrArg (StableHlo.after hostOps5) (V10_eq m c)
theorem V12_eq : Gen.V12 m (outs m) c = W12 m c :=
  exit_eq c _ _ launch5 (V11_eq m c) (kept5 (U11 m) c) [main_v129] (by decide)
theorem V13_eq : Gen.V13 m (outs m) c = W13 m c := congrArg (StableHlo.after hostOps6) (V12_eq m c)
theorem V14_eq : Gen.V14 m (outs m) c = W14 m c :=
  exit_eq c _ _ launch6 (V13_eq m c) (kept6 (U13 m) c) [main_v131] (by decide)

set_option backward.isDefEq.respectTransparency.types false in
/-- The conditional run at the seven region records, its valuations rewritten to the ones above. -/
theorem run_main (ρ : Dev nD → PrngReg) :
    θ_run defs (onTc (τ := τ) (main (F := F))) ⟨m, fun _ => 0, ρ⟩ (fun r => ∀ c : Dev nD,
      r.2.mem ((c.tc : Thread nD τ).loc main_v129) = U14 m c main_v129
      ∧ r.2.mem ((c.tc : Thread nD τ).loc main_v131) = U14 m c main_v131
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) := by
  have h := run_cond m (Ix := Unit) (U := UR sig nD τ) (Lvl := ℕ) emb₁ () Variants.none Lz lvz (fun _ _ => rfl) ρ (outs m) (pdats m)
      (0 : Dev nD → CellTallies nD τ sig Unit) (fun _ => iprop(emp))
      (initOf (Pipeline.cells cfgs cellOf_inj) (Pipeline.launchToks cfgs cellOf_inj))
      (by
        iintro Hu; imodintro
        isplitl [Hu]
        · iapply (show (ownU (initOf (Pipeline.cells cfgs cellOf_inj) (Pipeline.launchToks cfgs cellOf_inj)) : sProp 𝕄)
              ⊢ BI.own (emb₁ (initOf (Pipeline.cells cfgs cellOf_inj) (Pipeline.launchToks cfgs cellOf_inj))) from .rfl)
          iexact Hu
        iapply (show (BI.emp : sProp 𝕄) ⊢ bigSep Finset.univ (fun _ : Dev nD => (BI.emp : sProp 𝕄)) from by rw [BI.bigSep_emp_const])
        iempintro)
      (fun _ c => Rst c)
      (by
        refine Pipeline.initEach Lz lvz fun c => ?_
        iintro ⟨⟨-, HO, -, Hp, -⟩, -⟩
        imodintro
        isplitl [Hp]; · iexists _; iexact Hp
        iexists ∅; iexact HO)
      (fun c => by iintro ⟨-, HO⟩; iexact HO)
      (reg0 m) (fun c => .rfl) (fun c => V2_eq m c ▸ .rfl)
      (reg1 m) (fun c => V3_eq m c ▸ .rfl) (fun c => V4_eq m c ▸ .rfl)
      (reg2 m) (fun c => V5_eq m c ▸ .rfl) (fun c => V6_eq m c ▸ .rfl)
      (reg3 m) (fun c => V7_eq m c ▸ .rfl) (fun c => V8_eq m c ▸ .rfl)
      (reg4 m) (fun c => V9_eq m c ▸ .rfl) (fun c => V10_eq m c ▸ .rfl)
      (reg5 m) (fun c => V11_eq m c ▸ .rfl) (fun c => V12_eq m c ▸ .rfl)
      (reg6 m) (fun c => V13_eq m c ▸ .rfl) (fun c => V14_eq m c ▸ .rfl)
  simp only [V14_eq m] at h; exact h

end Cert.KernelIdeal.Hand

end
-- ==== Proof.Bits.MlpSpec.lean ====
import proofs.«414687_j59708635349041_1_alg».proof.Proof.Gen.Kernel.Skeleton
import Idealize.ShloMosaic.Lib.ValueIdx

noncomputable section

namespace Cert.Kernel.Hand.Mlp

open Cert.Kernel Cert.Kernel.Gen
open Idealize.ShloMosaic Idealize.ShloMosaic.ValueIdx

variable {F : FTy → Type} [FloatOps F] (X : Vec F S100000x128 .f32) (w1 : Vec F S128x128 .f32) (b1 : Vec F S1x128 .f32)
  (w2 : Vec F S128x128 .f32) (b2 : Vec F S1x128 .f32)

theorem blk_row_lt (t : Fin 20) (p : Fin 5000) : t.val * 5000 + p.val < 100000 := by omega

/-- Rows `5000·t … 5000·t + 4999` of `X`. -/
def blk (t : Fin 20) : Vec F S5000x128 .f32 :=
  fun j => X (ix2 (⟨t.val * 5000 + (j 0).val, blk_row_lt t (j 0)⟩ : Fin 100000) (j 1))

theorem blk_apply (t : Fin 20) (p : Fin 5000) (q : Fin 128) :
    blk X t (ix2 p q) = X (ix2 (⟨t.val * 5000 + p.val, blk_row_lt t p⟩ : Fin 100000) q) := rfl

theorem row_div_lt (r : Fin 100000) : r.val / 5000 < 20 := by omega
theorem row_mod_lt (r : Fin 100000) : r.val % 5000 < 5000 := by omega

/-- The whole h2 array: row `r` is row `r % 5000` of the block's h2 on block `r / 5000`. -/
def h2Arr : Vec F S100000x128 .f32 :=
  fun i => k0_pay4 (blk X ⟨(i 0).val / 5000, row_div_lt (i 0)⟩) w1 b1 w2 b2
    (ix2 (⟨(i 0).val % 5000, row_mod_lt (i 0)⟩ : Fin 5000) (i 1))

abbrev pt (n : ℕ) : Fin 20 := ⟨n % 20, Nat.mod_lt _ (by decide)⟩

def sumAcc : ℕ → Vec F S1x128 .f32
  | 0 => k0_pay5 (blk X 0) w1 b1 w2 b2 k0_pay2
  | n + 1 => k0_pay5 (blk X (pt (n + 1))) w1 b1 w2 b2 (sumAcc n)

def sqAcc : ℕ → Vec F S1x128 .f32
  | 0 => k0_pay1 (k0_pay4 (blk X 0) w1 b1 w2 b2) k0_pay3
  | n + 1 => k0_pay1 (k0_pay4 (blk X (pt (n + 1))) w1 b1 w2 b2) (sqAcc n)

def sumRow : Vec F S1x128 .f32 := sumAcc X w1 b1 w2 b2 19
def sqRow : Vec F S1x128 .f32 := sqAcc X w1 b1 w2 b2 19

theorem sumAcc_zero : sumAcc X w1 b1 w2 b2 0 = k0_pay5 (blk X 0) w1 b1 w2 b2 k0_pay2 := rfl
theorem sumAcc_succ (n : ℕ) :
    sumAcc X w1 b1 w2 b2 (n + 1) = k0_pay5 (blk X (pt (n + 1))) w1 b1 w2 b2 (sumAcc X w1 b1 w2 b2 n) := rfl
theorem sqAcc_zero : sqAcc X w1 b1 w2 b2 0 = k0_pay1 (k0_pay4 (blk X 0) w1 b1 w2 b2) k0_pay3 := rfl
theorem sqAcc_succ (n : ℕ) :
    sqAcc X w1 b1 w2 b2 (n + 1) = k0_pay1 (k0_pay4 (blk X (pt (n + 1))) w1 b1 w2 b2) (sqAcc X w1 b1 w2 b2 n) := rfl

end Cert.Kernel.Hand.Mlp

namespace Cert.Kernel.Hand
namespace Mlp2
export Mlp (blk_row_lt blk blk_apply row_div_lt row_mod_lt h2Arr pt sumAcc sqAcc sumRow sqRow sumAcc_zero sumAcc_succ sqAcc_zero sqAcc_succ)
end Mlp2
namespace Mlp4
export Mlp (blk_row_lt blk blk_apply row_div_lt row_mod_lt h2Arr pt sumAcc sqAcc sumRow sqRow sumAcc_zero sumAcc_succ sqAcc_zero sqAcc_succ)
end Mlp4
end Cert.Kernel.Hand

end
-- ==== Proof.Bits.MlpRegion0Base.lean ====
import proofs.«414687_j59708635349041_1_alg».proof.Proof.Gen.Kernel.Skeleton
import proofs.«414687_j59708635349041_1_alg».proof.Proof.Gen.Kernel.Launch
import proofs.«414687_j59708635349041_1_alg».proof.Proof.Gen.Kernel.Points
import proofs.«414687_j59708635349041_1_alg».proof.Proof.Bits.MlpSpec
import Idealize.ShloMosaic.Lib.Pipeline.Frame
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.ProofMode Idealize.SL.Sem
open Idealize.ShloMosaic.Pipeline (Dat)

variable {F : FTy → Type} [FloatOps F]

local notation "𝕄" => MT nD τ sig Unit (Elt F) ℕ (UR sig nD τ) ℕ

abbrev cond0_1 (i : grid0.Coords) : Prop :=
  (Scalar.cmpi .ne (Scalar.extui (Scalar.cmpi .eq (BitVec.ofNat 32 (i 0).val) 0#32)) 0#32) = 1#1
abbrev cond0_2 (i : grid0.Coords) : Prop := k0_cond2 i = 1#1

theorem hcond0_1 : ∀ t : Fin cfg0.N, cond0_1 (grid0.coords t) ↔ t.val % 20 = 0 := by decide +kernel
theorem hcond0_2 : ∀ t : Fin cfg0.N, cond0_2 (grid0.coords t) ↔ t.val % 20 = 19 := by decide +kernel

theorem idleAt0_6 : ∀ t : Fin cfg0.N, ¬t.val % 20 = 19 → cfg0.idle 6 (grid0.coords t) = true := by decide +kernel
theorem idleAt0_7 : ∀ t : Fin cfg0.N, ¬t.val % 20 = 19 → cfg0.idle 7 (grid0.coords t) = true := by decide +kernel
theorem noFlush0_6 (t : Fin cfg0.N) (h : ¬t.val % 20 = 19) : (cfg0.win 6).flush t = false :=
  Bool.eq_false_iff.mpr (mt (flush0_6 t).mp h)
theorem noFlush0_7 (t : Fin cfg0.N) (h : ¬t.val % 20 = 19) : (cfg0.win 7).flush t = false :=
  Bool.eq_false_iff.mpr (mt (flush0_7 t).mp h)

theorem hz0 : (![0, 0] : Fin 2 → Nat) = fun _ => 0 := funext fun a => by fin_cases a <;> rfl

/-- Where each window's block sits in its array. -/
theorem idx_facts0 : ∀ t : Fin cfg0.N,
    (∀ (w : Fin cfg0.W) (a : Fin (cfg0.win w).shape.rank), w.val % 5 ≠ 0 ∨ a.val ≠ 0 → (cfg0.win w).index t a = 0)
    ∧ win0_0.index t (0 : Fin 2) = t.val ∧ win0_5.index t (0 : Fin 2) = t.val ∧ t.val < 20 := by decide +kernel

section Region0

variable (V : (c : Dev nD) → (b : Ref sig .tc) → Buf (Elt F) ((c : Thread nD τ).loc b)) (c : Dev nD)

/-- Window `w`'s block of its array at point `t`. -/
def iblk0 (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev xArr0 : Vec F S100000x128 .f32 := V c main_v14
abbrev w1Arr0 : Vec F S128x128 .f32 := V c main_v16
abbrev b1Arr0 : Vec F S1x128 .f32 := V c main_v23
abbrev w2Arr0 : Vec F S128x128 .f32 := V c main_v20
abbrev b2Arr0 : Vec F S1x128 .f32 := V c main_v24

abbrev ptOf0 (t : Fin cfg0.N) : Fin 20 := Mlp.pt t.val

variable (t : Fin cfg0.N) (n : ℕ)

theorem iblk0_0_eq : iblk0 V c 0 t = Mlp.blk (xArr0 V c) (ptOf0 t) := by
  obtain ⟨hz, e0, -, hN⟩ := idx_facts0 t
  refine funext fun j => congrArg (V c main_v14) (funext fun a => Fin.ext ?_)
  match a with
  | ⟨0, _⟩ => show win0_0.index t (0 : Fin 2) * 5000 + 1 * (j 0).val = t.val % 20 * 5000 + (j 0).val; omega
  | ⟨1, _⟩ => exact win0_0.rect_emb_val_of_index_zero t 1 (hz 0 (1 : Fin 2) (.inr (by decide))) j

/-- A block at index 0 on every axis that is as large as its array is the array. -/
theorem iblk0_1_eq : iblk0 V c 1 t = w1Arr0 V c :=
  funext fun j => congrArg (V c main_v16) (funext fun a => Fin.ext
    (win0_1.rect_emb_val_of_index_zero t a ((idx_facts0 t).1 1 a (.inl (by decide))) j))
theorem iblk0_2_eq : iblk0 V c 2 t = b1Arr0 V c :=
  funext fun j => congrArg (V c main_v23) (funext fun a => Fin.ext
    (win0_2.rect_emb_val_of_index_zero t a ((idx_facts0 t).1 2 a (.inl (by decide))) j))
theorem iblk0_3_eq : iblk0 V c 3 t = w2Arr0 V c :=
  funext fun j => congrArg (V c main_v20) (funext fun a => Fin.ext
    (win0_3.rect_emb_val_of_index_zero t a ((idx_facts0 t).1 3 a (.inl (by decide))) j))
theorem iblk0_4_eq : iblk0 V c 4 t = b2Arr0 V c :=
  funext fun j => congrArg (V c main_v24) (funext fun a => Fin.ext
    (win0_4.rect_emb_val_of_index_zero t a ((idx_facts0 t).1 4 a (.inl (by decide))) j))

abbrev sumAt0 : Vec F S1x128 .f32 := Mlp.sumAcc (xArr0 V c) (w1Arr0 V c) (b1Arr0 V c) (w2Arr0 V c) (b2Arr0 V c) n
abbrev sqAt0 : Vec F S1x128 .f32 := Mlp.sqAcc (xArr0 V c) (w1Arr0 V c) (b1Arr0 V c) (w2Arr0 V c) (b2Arr0 V c) n
abbrev h2At0 (k : Fin 20) : Vec F S5000x128 .f32 := k0_pay4 (Mlp.blk (xArr0 V c) k) (w1Arr0 V c) (b1Arr0 V c) (w2Arr0 V c) (b2Arr0 V c)

theorem sumAt0_first (hn : n = 0) :
    sumAt0 V c n = k0_pay5 (Mlp.blk (xArr0 V c) (Mlp.pt n)) (w1Arr0 V c) (b1Arr0 V c) (w2Arr0 V c) (b2Arr0 V c) k0_pay2 := by
  subst hn; rfl
theorem sumAt0_next (hn : n ≠ 0) :
    sumAt0 V c n = k0_pay5 (Mlp.blk (xArr0 V c) (Mlp.pt n)) (w1Arr0 V c) (b1Arr0 V c) (w2Arr0 V c) (b2Arr0 V c) (sumAt0 V c (n - 1)) := by
  obtain _ | n := n; exacts [absurd rfl hn, rfl]
theorem sqAt0_first (hn : n = 0) : sqAt0 V c n = k0_pay1 (h2At0 V c (Mlp.pt n)) k0_pay3 := by
  subst hn; rfl
theorem sqAt0_next (hn : n ≠ 0) : sqAt0 V c n = k0_pay1 (h2At0 V c (Mlp.pt n)) (sqAt0 V c (n - 1)) := by
  obtain _ | n := n; exacts [absurd rfl hn, rfl]

abbrev scM0_0 : Memref sig .tc .vmem S1x128 .f32 := Memref.whole cc0_scratch0
abbrev scM0_1 : Memref sig .tc .vmem S1x128 .f32 := Memref.whole cc0_scratch1

theorem PhiA0_eq :
    (Pipeline.ΦA spec0 c : sProp 𝕄)
      = iprop(iprop(iprop((∃ d, owns (c : Thread nD τ) scM0_0 fullShare d) ∗ (∃ d, owns (c : Thread nD τ) scM0_1 fullShare d))
          ∗ Pipeline.scopedRestBut spec0 c [cc0_scratch0, cc0_scratch1])
          ∗ (∃ r, prngReg c r)) := by
  unfold Pipeline.ΦA; rw [scopedRest0_split]; simp only [scM0_0, scM0_1, owns_whole]; try rfl

/-- The invariant before point `n + 1`: the two scratch rows hold the running sums after blocks `0 … n`. -/
def PhiS0 : ℕ → sProp 𝕄
  | 0 => Pipeline.ΦA spec0 c
  | n + 1 => iprop(iprop(iprop(owns (c : Thread nD τ) scM0_0 fullShare (sumAt0 V c n) ∗ owns (c : Thread nD τ) scM0_1 fullShare (sqAt0 V c n))
          ∗ Pipeline.scopedRestBut spec0 c [cc0_scratch0, cc0_scratch1])
          ∗ (∃ r, prngReg c r))

theorem PhiS0_zero (hz : n = 0) : PhiS0 V c n = Pipeline.ΦA spec0 c := by subst hz; rfl
theorem PhiS0_succ :
    PhiS0 V c (n + 1) = iprop(iprop(iprop(owns (c : Thread nD τ) scM0_0 fullShare (sumAt0 V c n) ∗ owns (c : Thread nD τ) scM0_1 fullShare (sqAt0 V c n))
          ∗ Pipeline.scopedRestBut spec0 c [cc0_scratch0, cc0_scratch1])
          ∗ (∃ r, prngReg c r)) := rfl
theorem PhiS0_pos (hz : n ≠ 0) :
    PhiS0 V c n = iprop(iprop(iprop(owns (c : Thread nD τ) scM0_0 fullShare (sumAt0 V c (n - 1)) ∗ owns (c : Thread nD τ) scM0_1 fullShare (sqAt0 V c (n - 1)))
          ∗ Pipeline.scopedRestBut spec0 c [cc0_scratch0, cc0_scratch1])
          ∗ (∃ r, prngReg c r)) := by
  obtain _ | n := n; exacts [absurd rfl hz, rfl]

/-- What the body leaves at point `t`: each input's block, the block's h2, and the sums over all blocks. -/
def dat0 : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => h2At0 V c (ptOf0 t)
    | ⟨6, _⟩ => sumAt0 V c 19
    | ⟨7, _⟩ => sqAt0 V c 19
  Φ t := PhiS0 V c t.val
  q _ := fullShare
  owed _ := 0

theorem after0_0 : (dat0 V c).after 0 t = iblk0 V c 0 t := rfl
theorem after0_1 : (dat0 V c).after 1 t = iblk0 V c 1 t := rfl
theorem after0_2 : (dat0 V c).after 2 t = iblk0 V c 2 t := rfl
theorem after0_3 : (dat0 V c).after 3 t = iblk0 V c 3 t := rfl
theorem after0_4 : (dat0 V c).after 4 t = iblk0 V c 4 t := rfl
theorem after0_5 : (dat0 V c).after 5 t = h2At0 V c (ptOf0 t) := rfl
theorem after0_6 : (dat0 V c).after 6 t = sumAt0 V c 19 := rfl
theorem after0_7 : (dat0 V c).after 7 t = sqAt0 V c 19 := rfl

theorem before0_0 (d) : (dat0 V c).before 0 t d = iblk0 V c 0 t :=
  (dat0 V c).before_in_eq_fetched 0 rfl (fun _ => rfl) (fun _ _ _ => rfl) (fun _ => rfl) t d
theorem before0_1 (d) : (dat0 V c).before 1 t d = iblk0 V c 1 t :=
  (dat0 V c).before_in_eq_fetched 1 rfl (fun _ => rfl) (fun _ _ _ => rfl) (fun _ => rfl) t d
theorem before0_2 (d) : (dat0 V c).before 2 t d = iblk0 V c 2 t :=
  (dat0 V c).before_in_eq_fetched 2 rfl (fun _ => rfl) (fun _ _ _ => rfl) (fun _ => rfl) t d
theorem before0_3 (d) : (dat0 V c).before 3 t d = iblk0 V c 3 t :=
  (dat0 V c).before_in_eq_fetched 3 rfl (fun _ => rfl) (fun _ _ _ => rfl) (fun _ => rfl) t d
theorem before0_4 (d) : (dat0 V c).before 4 t d = iblk0 V c 4 t :=
  (dat0 V c).before_in_eq_fetched 4 rfl (fun _ => rfl) (fun _ _ _ => rfl) (fun _ => rfl) t d

theorem PhiS0_castSucc : (dat0 V c).Φ t.castSucc = PhiS0 V c t.val := rfl

theorem hin0 : Pipeline.ΦA spec0 c ⊢ (dat0 V c).Φ 0 := Idealize.SL.BI.Entails.refl _

/-- After the last point the invariant gives the launch's form back: the rows' values are forgotten. -/
theorem hout0 : (dat0 V c).Φ (Fin.last cfg0.N) ⊢ Pipeline.ΦA spec0 c := by
  rw [show (dat0 V c).Φ (Fin.last cfg0.N) = PhiS0 V c (19 + 1) from rfl, PhiS0_succ, PhiA0_eq]
  iintro ⟨⟨⟨HS0, HS1⟩, HR⟩, Hg⟩
  isplitr [Hg]
  · isplitr [HR]
    · isplitl [HS0]
      · iexists _; iexact HS0
      · iexists _; iexact HS1
    · iexact HR
  · iexact Hg

end Region0

end Cert.Kernel.Hand
end
-- ==== Proof.Bits.BnSpec.lean ====
import proofs.«414687_j59708635349041_1_alg».proof.Proof.Gen.Kernel.Skeleton
import Idealize.ShloMosaic.Lib.ValueIdx

noncomputable section

namespace Cert.Kernel.Hand.Bn

open Cert.Kernel Cert.Kernel.Gen
open Idealize.ShloMosaic Idealize.ShloMosaic.ValueIdx

variable {F : FTy → Type} [FloatOps F] (X : Vec F S100000x128 .f32) (t : Fin 20)

/-- Block `t` of the twenty blocks of 5000 rows: its row `r` is row `5000 * t + r` of the array. -/
def blk : Vec F S5000x128 .f32 :=
  fun j => X (ix2 (n0 := 100000) (n1 := 128)
    ⟨5000 * t.val + (j 0).val, by have h := idx2_lt0 j; have ht := t.isLt; omega⟩ ⟨(j 1).val, idx2_lt1 j⟩)

theorem blk_apply (p : Fin 5000) (q : Fin 128) :
    blk X t (ix2 p q) = X (ix2 (n0 := 100000) (n1 := 128) ⟨5000 * t.val + p.val, by have ht := t.isLt; omega⟩ q) := rfl

/-- Row `r` of the result is computed in block `r / 5000`, at that block's row `r % 5000`. -/
def outArr (H2 : Vec F S100000x128 .f32) (mean inv g be : Vec F S1x128 .f32) : Vec F S100000x128 .f32 :=
  fun i => k1_pay1 (blk H2 ⟨(i 0).val / 5000, by have h := idx2_lt0 i; omega⟩) mean inv g be
    (ix2 (n0 := 5000) (n1 := 128) ⟨(i 0).val % 5000, Nat.mod_lt _ (by decide)⟩ ⟨(i 1).val, idx2_lt1 i⟩)

end Cert.Kernel.Hand.Bn

namespace Cert.Kernel.Hand
namespace Bn3
export Bn (blk blk_apply outArr)
end Bn3
namespace Bn5
export Bn (blk blk_apply outArr)
end Bn5
end Cert.Kernel.Hand

end
-- ==== Proof.Bits.BnRegion1.lean ====
import proofs.«414687_j59708635349041_1_alg».proof.Proof.Gen.Kernel.Launch
import proofs.«414687_j59708635349041_1_alg».proof.Proof.Gen.Kernel.Points
import proofs.«414687_j59708635349041_1_alg».proof.Proof.Bits.BnSpec
import Idealize.ShloMosaic.Lib.Pipeline.Value
import Idealize.ShloMosaic.Lib.Ring

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)
open Idealize.ShloMosaic.ValueIdx

variable {F : FTy → Type} [FloatOps F]

variable (V : (c : Dev nD) → (b : Ref sig .tc) → Buf (Elt F) ((c : Thread nD τ).loc b)) (c : Dev nD) (t : Fin cfg1.N)

def inBlk1 (w : Fin cfg1.W) : ((cfg1.win w).xblock (cfg1.grid.coords t)).Idx → Elt F (cfg1.win w).elt :=
  ((cfg1.win w).blk t).view.read (Elt F) (V c (Pipeline.arrRef spec1 w))

abbrev rBlk1 : Rect S5000x128 := Rect.unit (s := S5000x128) ![0, 0] S5000x128.size inb_S5000x128_S5000x128_0_0
abbrev rRow1 : Rect S1x128 := Rect.unit (s := S1x128) ![0, 0] S1x128.size inb_S1x128_S1x128_0_0

/-- What the body's one store, over the whole buffer, leaves there: a function of the five inputs' contents alone. -/
def out1_5 (x0 : Vec F S5000x128 .f32) (x1 x2 x3 x4 : Vec F S1x128 .f32) : Vec F S5000x128 .f32 :=
  View.canon [⟨rBlk1, k1_pay1 (View.ld x0 rBlk1) (View.ld x1 rRow1) (View.ld x2 rRow1) (View.ld x3 rRow1) (View.ld x4 rRow1)⟩]

/-- The body on whole memrefs: the inputs are read and kept, the output is overwritten with `out1_5` of the inputs. -/
theorem sound_kernel1 (E : Set ℕ) (i : grid1.Coords) {m0 m5 : Memref sig .tc .vmem S5000x128 .f32} {m1 m2 m3 m4 : Memref sig .tc .vmem S1x128 .f32}
    (h0 : m0.IsWhole) (h1 : m1.IsWhole) (h2 : m2.IsWhole) (h3 : m3.IsWhole) (h4 : m4.IsWhole) (h5 : m5.IsWhole)
    (x0 : Vec F S5000x128 .f32) (x1 x2 x3 x4 : Vec F S1x128 .f32) (K : PUnit → sProp (MT nD τ sig Unit (Elt F) ℕ (UR sig nD τ) ℕ)) :
    iprop(owns c.tc m0 fullShare x0 ∗ owns c.tc m1 fullShare x1 ∗ owns c.tc m2 fullShare x2
        ∗ owns c.tc m3 fullShare x3 ∗ owns c.tc m4 fullShare x4 ∗ (∃ d, owns c.tc m5 fullShare d)
        ∗ (iprop(owns c.tc m0 fullShare x0 ∗ owns c.tc m1 fullShare x1 ∗ owns c.tc m2 fullShare x2
            ∗ owns c.tc m3 fullShare x3 ∗ owns c.tc m4 fullShare x4
            ∗ owns c.tc m5 fullShare (out1_5 x0 x1 x2 x3 x4)) -∗ K ⟨⟩))
      ⊢ wp frame (wpE (defs₀ (F := F)) Variants.none c none) E (cc1__bn_relu_kernel i m0 h0 m1 h1 m2 h2 m3 h3 m4 h4 m5 h5) K := by
  simp only [cc1__bn_relu_kernel_eq_skeleton]; unfold cc1__bn_relu_kernel_skel owns
  iintro ⟨⟨%f0, %e0, H0⟩, ⟨%f1, %e1, H1⟩, ⟨%f2, %e2, H2⟩, ⟨%f3, %e3, H3⟩, ⟨%f4, %e4, H4⟩, ⟨%d, %f5, -, H5⟩, Hk⟩
  subst e0 e1 e2 e3 e4
  sl_exec
  sl_step
  iapply Hk
  isplitl [H0]; · iexists f0; iframe H0; ipureintro; rfl
  isplitl [H1]; · iexists f1; iframe H1; ipureintro; rfl
  isplitl [H2]; · iexists f2; iframe H2; ipureintro; rfl
  isplitl [H3]; · iexists f3; iframe H3; ipureintro; rfl
  isplitl [H4]; · iexists f4; iframe H4; ipureintro; rfl
  iexists _; iframe H5
  ipureintro
  exact View.read_writes_eq_canon _ _ _ (View.cover_of_tiled _ S5000x128.size (by rfl))

/-- The proof data of the region on core `c`: the arrays as found; after the body each input's buffer at its block and the output's at `out1_5` of the input blocks. -/
def dat1 : Dat τ (Elt F) Unit ℕ (UR sig nD τ) ℕ cfg1 c where
  A w := V c (Pipeline.arrRef spec1 w)
  after w t := match w with
    | ⟨0, _⟩ => inBlk1 V c t 0
    | ⟨1, _⟩ => inBlk1 V c t 1
    | ⟨2, _⟩ => inBlk1 V c t 2
    | ⟨3, _⟩ => inBlk1 V c t 3
    | ⟨4, _⟩ => inBlk1 V c t 4
    | ⟨5, _⟩ => out1_5 (inBlk1 V c t 0) (inBlk1 V c t 1) (inBlk1 V c t 2) (inBlk1 V c t 3) (inBlk1 V c t 4)
  Φ _ := Pipeline.ΦA spec1 c
  q _ := fullShare
  owed _ := 0

theorem hin1 : Pipeline.ΦA spec1 c ⊢ (dat1 V c).Φ 0 := Entails.refl _

theorem hout1 : (dat1 V c).Φ (Fin.last cfg1.N) ⊢ Pipeline.ΦA spec1 c := Entails.refl _

/-- Before the body, as after it, an input's buffer holds its block. -/
theorem before1 : ∀ w : Fin cfg1.W, w.val < 5 → ∀ d, (dat1 V c).before w t d = (dat1 V c).after w t
  | ⟨0, _⟩, _ | ⟨1, _⟩, _ | ⟨2, _⟩, _ | ⟨3, _⟩, _ | ⟨4, _⟩, _ =>
    (dat1 V c).before_in_eq_fetched _ rfl (fun _ => rfl) (fun _ _ _ => rfl) (fun _ => rfl) t

/-- The body at any point: each input's memref holds its block, so the body's triple applies; the invariant and what the core owes pass through unread. -/
theorem body_obligation1 : BodyObligation (dat1 (F := F) V c) (defs₀ (F := F)) Variants.none () Set.univ := fun t => by
  rw [bigSep_W1, bigSep_W1]
  simp +decide only [before1 V c t]
  dsimp only [dat1, Dat.owesAt, Dat.bound]
  change _ ⊢ wp _ _ _ (bodyAt1 t) _
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ (inBlk1 V c t 0) (inBlk1 V c t 1) (inBlk1 V c t 2) (inBlk1 V c t 3) (inBlk1 V c t 4) _)
  iframe H0 H1 H2 H3 H4
  isplitl [H5]; · iexists _; iexact H5
  iintro ⟨H0, H1, H2, H3, H4, H5⟩
  iframe

theorem kept1 (w : Fin cfg1.W) (hw : w.val < 5) : (dat1 V c).arrAt w cfg1.N = V c (Pipeline.arrRef spec1 w) :=
  match w, hw with
  | ⟨0, _⟩, _ | ⟨1, _⟩, _ | ⟨2, _⟩, _ | ⟨3, _⟩, _ | ⟨4, _⟩, _ => (dat1 V c).arrAt_in _ rfl _

theorem hz1 : (![0, 0] : Fin 2 → Nat) = fun _ => 0 := funext fun a => by fin_cases a <;> rfl

theorem lt20_1 : t.val < 20 := Nat.lt_of_lt_of_eq t.isLt N_1

/-- The printed index maps, decided over the grid: the two blocked windows are at block row `t`, column block 0; the four row windows are at block (0, 0). -/
theorem idx_facts1 : ∀ t : Fin cfg1.N, (win1_0.index t (0 : Fin 2) = t.val ∧ win1_0.index t (1 : Fin 2) = 0)
    ∧ (win1_5.index t (0 : Fin 2) = t.val ∧ win1_5.index t (1 : Fin 2) = 0)
    ∧ (∀ a, win1_1.index t a = 0) ∧ (∀ a, win1_2.index t a = 0) ∧ (∀ a, win1_3.index t a = 0) ∧ ∀ a, win1_4.index t a = 0 :=
  (by decide +kernel : ∀ t : Fin grid1.N, _)

/-- The output array at row `5000 tt + p` is the payload of block `tt` at its row `p`: quotient and remainder by 5000. -/
theorem outArr_at1 (H2 : Vec F S100000x128 .f32) (mean inv g be : Vec F S1x128 .f32) (tt : Fin 20) (j : S5000x128.Idx) (i : S100000x128.Idx)
    (h0 : (i 0).val = 5000 * tt.val + (j 0).val) (h1 : (i 1).val = (j 1).val) :
    Bn.outArr H2 mean inv g be i = k1_pay1 (Bn.blk H2 tt) mean inv g be j := by
  have hj := idx2_lt0 j
  exact congrArg₂ (fun a b => k1_pay1 (Bn.blk H2 a) mean inv g be b) (Fin.ext (by show (i 0).val / 5000 = tt.val; omega))
    ((congrArg₂ ix2 (Fin.ext (by show (i 0).val % 5000 = (j 0).val; omega)) (Fin.ext h1)).trans (eq_ix2 j).symm)

theorem inBlk1_0_eq : inBlk1 V c t 0 = Bn.blk (V c main_v25_0) ⟨t.val, lt20_1 t⟩ := by
  obtain ⟨⟨e0, e1⟩, -⟩ := idx_facts1 t
  funext y
  refine congrArg (V c main_v25_0) (funext fun a => Fin.ext ?_)
  match a with
  | ⟨0, _⟩ => show win1_0.index t (0 : Fin 2) * 5000 + 1 * (y 0).val = 5000 * t.val + (y 0).val; omega
  | ⟨1, _⟩ => show win1_0.index t (1 : Fin 2) * 128 + 1 * (y 1).val = (y 1).val; omega

/-- Each row window's block at every point is its whole array: its block index is 0 on both axes. -/
theorem inBlk1_row : inBlk1 V c t 1 = V c main_v41 ∧ inBlk1 V c t 2 = V c main_v42 ∧ inBlk1 V c t 3 = V c main_v43 ∧ inBlk1 V c t 4 = V c main_v44 := by
  obtain ⟨-, -, h1, h2, h3, h4⟩ := idx_facts1 t
  refine ⟨?_, ?_, ?_, ?_⟩ <;> funext y <;> refine congrArg (V c _) (funext fun a => Fin.ext ?_)
  exacts [(cfg1.win 1).rect_emb_val_of_index_zero t a (h1 a) y, (cfg1.win 2).rect_emb_val_of_index_zero t a (h2 a) y,
    (cfg1.win 3).rect_emb_val_of_index_zero t a (h3 a) y, (cfg1.win 4).rect_emb_val_of_index_zero t a (h4 a) y]

/-- Point `t`'s contribution to the output array is block `t` of the normalised array. -/
theorem flushed1_5_eq : (dat1 V c).flushed 5 t = ((cfg1.win 5).blk t).view.read (Elt F)
    (Bn.outArr (V c main_v25_0) (V c main_v41) (V c main_v42) (V c main_v43) (V c main_v44)) := by
  obtain ⟨-, ⟨e0, e1⟩, -⟩ := idx_facts1 t
  obtain ⟨r1, r2, r3, r4⟩ := inBlk1_row V c t
  show (cfg1.win 5).cut (grid1.coords t) ((dat1 V c).after 5 t) = _
  dsimp only [dat1]
  rw [out1_5, View.canon_unit_zero hz1]
  simp only [View.ld_unit_zero (S := S5000x128) hz1, View.ld_unit_zero (S := S1x128) hz1, inBlk1_0_eq V c t, r1, r2, r3, r4]
  funext j
  refine (outArr_at1 _ _ _ _ _ ⟨t.val, lt20_1 t⟩ j _ ?_ ?_).symm
  · show win1_5.index t (0 : Fin 2) * 5000 + 1 * (j 0).val = 5000 * t.val + (j 0).val; omega
  · show win1_5.index t (1 : Fin 2) * 128 + 1 * (j 1).val = (j 1).val; omega

theorem cover1_5_arr (i : S100000x128.Idx) : ∃ s : Fin cfg1.N, (cfg1.win 5).flush s = true ∧ i ∈ ((cfg1.win 5).blk s).view.set := by
  have hi0 := idx2_lt0 i
  have hi1 := idx2_lt1 i
  let s : Fin cfg1.N := ⟨(i 0).val / 5000, by rw [show cfg1.N = 20 from N_1]; omega⟩
  obtain ⟨-, ⟨e0, e1⟩, -⟩ := idx_facts1 s
  have hs : s.val = (i 0).val / 5000 := rfl
  refine ⟨s, flush1_5 s, ?_⟩
  show i ∈ ((View.whole main_v45).slice (win1_5.rect s)).set
  rw [View.set_slice_whole, Rect.mem_set_unit]
  intro a
  match a with
  | ⟨0, _⟩ => show win1_5.index s (0 : Fin 2) * 5000 ≤ (i 0).val ∧ (i 0).val < win1_5.index s (0 : Fin 2) * 5000 + 5000; omega
  | ⟨1, _⟩ => show win1_5.index s (1 : Fin 2) * 128 ≤ (i 1).val ∧ (i 1).val < win1_5.index s (1 : Fin 2) * 128 + 128; omega

theorem final1_5 : (dat1 V c).arrAt 5 cfg1.N = Bn.outArr (V c main_v25_0) (V c main_v41) (V c main_v42) (V c main_v43) (V c main_v44) :=
  (dat1 V c).arrAt_eq_of_cover 5 _ (fun t _ => flushed1_5_eq V c t) cover1_5_arr

end Cert.Kernel.Hand

end
-- ==== Proof.Bits.MlpRegion2Base.lean ====
import proofs.«414687_j59708635349041_1_alg».proof.Proof.Gen.Kernel.Skeleton
import proofs.«414687_j59708635349041_1_alg».proof.Proof.Gen.Kernel.Launch
import proofs.«414687_j59708635349041_1_alg».proof.Proof.Gen.Kernel.Points
import proofs.«414687_j59708635349041_1_alg».proof.Proof.Bits.MlpSpec
import Idealize.ShloMosaic.Lib.Pipeline.Frame
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.ProofMode Idealize.SL.Sem
open Idealize.ShloMosaic.Pipeline (Dat)

variable {F : FTy → Type} [FloatOps F]

local notation "𝕄" => MT nD τ sig Unit (Elt F) ℕ (UR sig nD τ) ℕ

abbrev cond2_1 (i : grid2.Coords) : Prop :=
  (Scalar.cmpi .ne (Scalar.extui (Scalar.cmpi .eq (BitVec.ofNat 32 (i 0).val) 0#32)) 0#32) = 1#1
abbrev cond2_2 (i : grid2.Coords) : Prop := k2_cond2 i = 1#1

theorem hcond2_1 : ∀ t : Fin cfg2.N, cond2_1 (grid2.coords t) ↔ t.val % 20 = 0 := by decide +kernel
theorem hcond2_2 : ∀ t : Fin cfg2.N, cond2_2 (grid2.coords t) ↔ t.val % 20 = 19 := by decide +kernel

theorem idleAt2_6 : ∀ t : Fin cfg2.N, ¬t.val % 20 = 19 → cfg2.idle 6 (grid2.coords t) = true := by decide +kernel
theorem idleAt2_7 : ∀ t : Fin cfg2.N, ¬t.val % 20 = 19 → cfg2.idle 7 (grid2.coords t) = true := by decide +kernel
theorem noFlush2_6 (t : Fin cfg2.N) (h : ¬t.val % 20 = 19) : (cfg2.win 6).flush t = false :=
  Bool.eq_false_iff.mpr (mt (flush2_6 t).mp h)
theorem noFlush2_7 (t : Fin cfg2.N) (h : ¬t.val % 20 = 19) : (cfg2.win 7).flush t = false :=
  Bool.eq_false_iff.mpr (mt (flush2_7 t).mp h)

theorem hz2 : (![0, 0] : Fin 2 → Nat) = fun _ => 0 := funext fun a => by fin_cases a <;> rfl

/-- Where each window's block sits in its array. -/
theorem idx_facts2 : ∀ t : Fin cfg2.N,
    (∀ (w : Fin cfg2.W) (a : Fin (cfg2.win w).shape.rank), w.val % 5 ≠ 0 ∨ a.val ≠ 0 → (cfg2.win w).index t a = 0)
    ∧ win2_0.index t (0 : Fin 2) = t.val ∧ win2_5.index t (0 : Fin 2) = t.val ∧ t.val < 20 := by decide +kernel

section Region2

variable (V : (c : Dev nD) → (b : Ref sig .tc) → Buf (Elt F) ((c : Thread nD τ).loc b)) (c : Dev nD)

/-- Window `w`'s block of its array at point `t`. -/
def iblk2 (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev xArr2 : Vec F S100000x128 .f32 := V c main_v56
abbrev w1Arr2 : Vec F S128x128 .f32 := V c main_v58
abbrev b1Arr2 : Vec F S1x128 .f32 := V c main_v65
abbrev w2Arr2 : Vec F S128x128 .f32 := V c main_v62
abbrev b2Arr2 : Vec F S1x128 .f32 := V c main_v66

abbrev ptOf2 (t : Fin cfg2.N) : Fin 20 := Mlp2.pt t.val

variable (t : Fin cfg2.N) (n : ℕ)

theorem iblk2_0_eq : iblk2 V c 0 t = Mlp2.blk (xArr2 V c) (ptOf2 t) := by
  obtain ⟨hz, e0, -, hN⟩ := idx_facts2 t
  refine funext fun j => congrArg (V c main_v56) (funext fun a => Fin.ext ?_)
  match a with
  | ⟨0, _⟩ => show win2_0.index t (0 : Fin 2) * 5000 + 1 * (j 0).val = t.val % 20 * 5000 + (j 0).val; omega
  | ⟨1, _⟩ => exact win2_0.rect_emb_val_of_index_zero t 1 (hz 0 (1 : Fin 2) (.inr (by decide))) j

/-- A block at index 0 on every axis that is as large as its array is the array. -/
theorem iblk2_1_eq : iblk2 V c 1 t = w1Arr2 V c :=
  funext fun j => congrArg (V c main_v58) (funext fun a => Fin.ext
    (win2_1.rect_emb_val_of_index_zero t a ((idx_facts2 t).1 1 a (.inl (by decide))) j))
theorem iblk2_2_eq : iblk2 V c 2 t = b1Arr2 V c :=
  funext fun j => congrArg (V c main_v65) (funext fun a => Fin.ext
    (win2_2.rect_emb_val_of_index_zero t a ((idx_facts2 t).1 2 a (.inl (by decide))) j))
theorem iblk2_3_eq : iblk2 V c 3 t = w2Arr2 V c :=
  funext fun j => congrArg (V c main_v62) (funext fun a => Fin.ext
    (win2_3.rect_emb_val_of_index_zero t a ((idx_facts2 t).1 3 a (.inl (by decide))) j))
theorem iblk2_4_eq : iblk2 V c 4 t = b2Arr2 V c :=
  funext fun j => congrArg (V c main_v66) (funext fun a => Fin.ext
    (win2_4.rect_emb_val_of_index_zero t a ((idx_facts2 t).1 4 a (.inl (by decide))) j))

abbrev sumAt2 : Vec F S1x128 .f32 := Mlp2.sumAcc (xArr2 V c) (w1Arr2 V c) (b1Arr2 V c) (w2Arr2 V c) (b2Arr2 V c) n
abbrev sqAt2 : Vec F S1x128 .f32 := Mlp2.sqAcc (xArr2 V c) (w1Arr2 V c) (b1Arr2 V c) (w2Arr2 V c) (b2Arr2 V c) n
abbrev h2At2 (k : Fin 20) : Vec F S5000x128 .f32 := k2_pay4 (Mlp2.blk (xArr2 V c) k) (w1Arr2 V c) (b1Arr2 V c) (w2Arr2 V c) (b2Arr2 V c)

theorem sumAt2_first (hn : n = 0) :
    sumAt2 V c n = k2_pay5 (Mlp2.blk (xArr2 V c) (Mlp2.pt n)) (w1Arr2 V c) (b1Arr2 V c) (w2Arr2 V c) (b2Arr2 V c) k2_pay2 := by
  subst hn; rfl
theorem sumAt2_next (hn : n ≠ 0) :
    sumAt2 V c n = k2_pay5 (Mlp2.blk (xArr2 V c) (Mlp2.pt n)) (w1Arr2 V c) (b1Arr2 V c) (w2Arr2 V c) (b2Arr2 V c) (sumAt2 V c (n - 1)) := by
  obtain _ | n := n; exacts [absurd rfl hn, rfl]
theorem sqAt2_first (hn : n = 0) : sqAt2 V c n = k2_pay1 (h2At2 V c (Mlp2.pt n)) k2_pay3 := by
  subst hn; rfl
theorem sqAt2_next (hn : n ≠ 0) : sqAt2 V c n = k2_pay1 (h2At2 V c (Mlp2.pt n)) (sqAt2 V c (n - 1)) := by
  obtain _ | n := n; exacts [absurd rfl hn, rfl]

abbrev scM2_0 : Memref sig .tc .vmem S1x128 .f32 := Memref.whole cc2_scratch0
abbrev scM2_1 : Memref sig .tc .vmem S1x128 .f32 := Memref.whole cc2_scratch1

theorem PhiA2_eq :
    (Pipeline.ΦA spec2 c : sProp 𝕄)
      = iprop(iprop(iprop((∃ d, owns (c : Thread nD τ) scM2_0 fullShare d) ∗ (∃ d, owns (c : Thread nD τ) scM2_1 fullShare d))
          ∗ Pipeline.scopedRestBut spec2 c [cc2_scratch0, cc2_scratch1])
          ∗ (∃ r, prngReg c r)) := by
  unfold Pipeline.ΦA; rw [scopedRest2_split]; simp only [scM2_0, scM2_1, owns_whole]; try rfl

/-- The invariant before point `n + 1`: the two scratch rows hold the running sums after blocks `0 … n`. -/
def PhiS2 : ℕ → sProp 𝕄
  | 0 => Pipeline.ΦA spec2 c
  | n + 1 => iprop(iprop(iprop(owns (c : Thread nD τ) scM2_0 fullShare (sumAt2 V c n) ∗ owns (c : Thread nD τ) scM2_1 fullShare (sqAt2 V c n))
          ∗ Pipeline.scopedRestBut spec2 c [cc2_scratch0, cc2_scratch1])
          ∗ (∃ r, prngReg c r))

theorem PhiS2_zero (hz : n = 0) : PhiS2 V c n = Pipeline.ΦA spec2 c := by subst hz; rfl
theorem PhiS2_succ :
    PhiS2 V c (n + 1) = iprop(iprop(iprop(owns (c : Thread nD τ) scM2_0 fullShare (sumAt2 V c n) ∗ owns (c : Thread nD τ) scM2_1 fullShare (sqAt2 V c n))
          ∗ Pipeline.scopedRestBut spec2 c [cc2_scratch0, cc2_scratch1])
          ∗ (∃ r, prngReg c r)) := rfl
theorem PhiS2_pos (hz : n ≠ 0) :
    PhiS2 V c n = iprop(iprop(iprop(owns (c : Thread nD τ) scM2_0 fullShare (sumAt2 V c (n - 1)) ∗ owns (c : Thread nD τ) scM2_1 fullShare (sqAt2 V c (n - 1)))
          ∗ Pipeline.scopedRestBut spec2 c [cc2_scratch0, cc2_scratch1])
          ∗ (∃ r, prngReg c r)) := by
  obtain _ | n := n; exacts [absurd rfl hz, rfl]

/-- What the body leaves at point `t`: each input's block, the block's h2, and the sums over all blocks. -/
def dat2 : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => h2At2 V c (ptOf2 t)
    | ⟨6, _⟩ => sumAt2 V c 19
    | ⟨7, _⟩ => sqAt2 V c 19
  Φ t := PhiS2 V c t.val
  q _ := fullShare
  owed _ := 0

theorem after2_0 : (dat2 V c).after 0 t = iblk2 V c 0 t := rfl
theorem after2_1 : (dat2 V c).after 1 t = iblk2 V c 1 t := rfl
theorem after2_2 : (dat2 V c).after 2 t = iblk2 V c 2 t := rfl
theorem after2_3 : (dat2 V c).after 3 t = iblk2 V c 3 t := rfl
theorem after2_4 : (dat2 V c).after 4 t = iblk2 V c 4 t := rfl
theorem after2_5 : (dat2 V c).after 5 t = h2At2 V c (ptOf2 t) := rfl
theorem after2_6 : (dat2 V c).after 6 t = sumAt2 V c 19 := rfl
theorem after2_7 : (dat2 V c).after 7 t = sqAt2 V c 19 := rfl

theorem before2_0 (d) : (dat2 V c).before 0 t d = iblk2 V c 0 t :=
  (dat2 V c).before_in_eq_fetched 0 rfl (fun _ => rfl) (fun _ _ _ => rfl) (fun _ => rfl) t d
theorem before2_1 (d) : (dat2 V c).before 1 t d = iblk2 V c 1 t :=
  (dat2 V c).before_in_eq_fetched 1 rfl (fun _ => rfl) (fun _ _ _ => rfl) (fun _ => rfl) t d
theorem before2_2 (d) : (dat2 V c).before 2 t d = iblk2 V c 2 t :=
  (dat2 V c).before_in_eq_fetched 2 rfl (fun _ => rfl) (fun _ _ _ => rfl) (fun _ => rfl) t d
theorem before2_3 (d) : (dat2 V c).before 3 t d = iblk2 V c 3 t :=
  (dat2 V c).before_in_eq_fetched 3 rfl (fun _ => rfl) (fun _ _ _ => rfl) (fun _ => rfl) t d
theorem before2_4 (d) : (dat2 V c).before 4 t d = iblk2 V c 4 t :=
  (dat2 V c).before_in_eq_fetched 4 rfl (fun _ => rfl) (fun _ _ _ => rfl) (fun _ => rfl) t d

theorem PhiS2_castSucc : (dat2 V c).Φ t.castSucc = PhiS2 V c t.val := rfl

theorem hin2 : Pipeline.ΦA spec2 c ⊢ (dat2 V c).Φ 0 := Idealize.SL.BI.Entails.refl _

/-- After the last point the invariant gives the launch's form back: the rows' values are forgotten. -/
theorem hout2 : (dat2 V c).Φ (Fin.last cfg2.N) ⊢ Pipeline.ΦA spec2 c := by
  rw [show (dat2 V c).Φ (Fin.last cfg2.N) = PhiS2 V c (19 + 1) from rfl, PhiS2_succ, PhiA2_eq]
  iintro ⟨⟨⟨HS0, HS1⟩, HR⟩, Hg⟩
  isplitr [Hg]
  · isplitr [HR]
    · isplitl [HS0]
      · iexists _; iexact HS0
      · iexists _; iexact HS1
    · iexact HR
  · iexact Hg

end Region2

end Cert.Kernel.Hand
end
-- ==== Proof.Bits.BnRegion3.lean ====
import proofs.«414687_j59708635349041_1_alg».proof.Proof.Gen.Kernel.Launch
import proofs.«414687_j59708635349041_1_alg».proof.Proof.Gen.Kernel.Points
import proofs.«414687_j59708635349041_1_alg».proof.Proof.Bits.BnSpec
import Idealize.ShloMosaic.Lib.Pipeline.Value
import Idealize.ShloMosaic.Lib.Ring

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)
open Idealize.ShloMosaic.ValueIdx

variable {F : FTy → Type} [FloatOps F]

variable (V : (c : Dev nD) → (b : Ref sig .tc) → Buf (Elt F) ((c : Thread nD τ).loc b)) (c : Dev nD) (t : Fin cfg3.N)

def inBlk3 (w : Fin cfg3.W) : ((cfg3.win w).xblock (cfg3.grid.coords t)).Idx → Elt F (cfg3.win w).elt :=
  ((cfg3.win w).blk t).view.read (Elt F) (V c (Pipeline.arrRef spec3 w))

abbrev rBlk3 : Rect S5000x128 := Rect.unit (s := S5000x128) ![0, 0] S5000x128.size inb_S5000x128_S5000x128_0_0
abbrev rRow3 : Rect S1x128 := Rect.unit (s := S1x128) ![0, 0] S1x128.size inb_S1x128_S1x128_0_0

/-- What the body's one store, over the whole buffer, leaves there: a function of the five inputs' contents alone. -/
def out3_5 (x0 : Vec F S5000x128 .f32) (x1 x2 x3 x4 : Vec F S1x128 .f32) : Vec F S5000x128 .f32 :=
  View.canon [⟨rBlk3, k3_pay1 (View.ld x0 rBlk3) (View.ld x1 rRow3) (View.ld x2 rRow3) (View.ld x3 rRow3) (View.ld x4 rRow3)⟩]

/-- The body on whole memrefs: the inputs are read and kept, the output is overwritten with `out3_5` of the inputs. -/
theorem sound_kernel3 (E : Set ℕ) (i : grid3.Coords) {m0 m5 : Memref sig .tc .vmem S5000x128 .f32} {m1 m2 m3 m4 : Memref sig .tc .vmem S1x128 .f32}
    (h0 : m0.IsWhole) (h1 : m1.IsWhole) (h2 : m2.IsWhole) (h3 : m3.IsWhole) (h4 : m4.IsWhole) (h5 : m5.IsWhole)
    (x0 : Vec F S5000x128 .f32) (x1 x2 x3 x4 : Vec F S1x128 .f32) (K : PUnit → sProp (MT nD τ sig Unit (Elt F) ℕ (UR sig nD τ) ℕ)) :
    iprop(owns c.tc m0 fullShare x0 ∗ owns c.tc m1 fullShare x1 ∗ owns c.tc m2 fullShare x2
        ∗ owns c.tc m3 fullShare x3 ∗ owns c.tc m4 fullShare x4 ∗ (∃ d, owns c.tc m5 fullShare d)
        ∗ (iprop(owns c.tc m0 fullShare x0 ∗ owns c.tc m1 fullShare x1 ∗ owns c.tc m2 fullShare x2
            ∗ owns c.tc m3 fullShare x3 ∗ owns c.tc m4 fullShare x4
            ∗ owns c.tc m5 fullShare (out3_5 x0 x1 x2 x3 x4)) -∗ K ⟨⟩))
      ⊢ wp frame (wpE (defs₀ (F := F)) Variants.none c none) E (cc3__bn_relu_kernel i m0 h0 m1 h1 m2 h2 m3 h3 m4 h4 m5 h5) K := by
  simp only [cc3__bn_relu_kernel_eq_skeleton]; unfold cc3__bn_relu_kernel_skel owns
  iintro ⟨⟨%f0, %e0, H0⟩, ⟨%f1, %e1, H1⟩, ⟨%f2, %e2, H2⟩, ⟨%f3, %e3, H3⟩, ⟨%f4, %e4, H4⟩, ⟨%d, %f5, -, H5⟩, Hk⟩
  subst e0 e1 e2 e3 e4
  sl_exec
  sl_step
  iapply Hk
  isplitl [H0]; · iexists f0; iframe H0; ipureintro; rfl
  isplitl [H1]; · iexists f1; iframe H1; ipureintro; rfl
  isplitl [H2]; · iexists f2; iframe H2; ipureintro; rfl
  isplitl [H3]; · iexists f3; iframe H3; ipureintro; rfl
  isplitl [H4]; · iexists f4; iframe H4; ipureintro; rfl
  iexists _; iframe H5
  ipureintro
  exact View.read_writes_eq_canon _ _ _ (View.cover_of_tiled _ S5000x128.size (by rfl))

/-- The proof data of the region on core `c`: the arrays as found; after the body each input's buffer at its block and the output's at `out3_5` of the input blocks. -/
def dat3 : Dat τ (Elt F) Unit ℕ (UR sig nD τ) ℕ cfg3 c where
  A w := V c (Pipeline.arrRef spec3 w)
  after w t := match w with
    | ⟨0, _⟩ => inBlk3 V c t 0
    | ⟨1, _⟩ => inBlk3 V c t 1
    | ⟨2, _⟩ => inBlk3 V c t 2
    | ⟨3, _⟩ => inBlk3 V c t 3
    | ⟨4, _⟩ => inBlk3 V c t 4
    | ⟨5, _⟩ => out3_5 (inBlk3 V c t 0) (inBlk3 V c t 1) (inBlk3 V c t 2) (inBlk3 V c t 3) (inBlk3 V c t 4)
  Φ _ := Pipeline.ΦA spec3 c
  q _ := fullShare
  owed _ := 0

theorem hin3 : Pipeline.ΦA spec3 c ⊢ (dat3 V c).Φ 0 := Entails.refl _

theorem hout3 : (dat3 V c).Φ (Fin.last cfg3.N) ⊢ Pipeline.ΦA spec3 c := Entails.refl _

/-- Before the body, as after it, an input's buffer holds its block. -/
theorem before3 : ∀ w : Fin cfg3.W, w.val < 5 → ∀ d, (dat3 V c).before w t d = (dat3 V c).after w t
  | ⟨0, _⟩, _ | ⟨1, _⟩, _ | ⟨2, _⟩, _ | ⟨3, _⟩, _ | ⟨4, _⟩, _ =>
    (dat3 V c).before_in_eq_fetched _ rfl (fun _ => rfl) (fun _ _ _ => rfl) (fun _ => rfl) t

/-- The body at any point: each input's memref holds its block, so the body's triple applies; the invariant and what the core owes pass through unread. -/
theorem body_obligation3 : BodyObligation (dat3 (F := F) V c) (defs₀ (F := F)) Variants.none () Set.univ := fun t => by
  rw [bigSep_W3, bigSep_W3]
  simp +decide only [before3 V c t]
  dsimp only [dat3, Dat.owesAt, Dat.bound]
  change _ ⊢ wp _ _ _ (bodyAt3 t) _
  iintro ⟨HΦ, Ho, ⟨%d0, H0⟩, ⟨%d1, H1⟩, ⟨%d2, H2⟩, ⟨%d3, H3⟩, ⟨%d4, H4⟩, ⟨%d5, H5⟩⟩
  iapply (sound_kernel3 c Set.univ _ _ _ _ _ _ _ (inBlk3 V c t 0) (inBlk3 V c t 1) (inBlk3 V c t 2) (inBlk3 V c t 3) (inBlk3 V c t 4) _)
  iframe H0 H1 H2 H3 H4
  isplitl [H5]; · iexists _; iexact H5
  iintro ⟨H0, H1, H2, H3, H4, H5⟩
  iframe

theorem kept3 (w : Fin cfg3.W) (hw : w.val < 5) : (dat3 V c).arrAt w cfg3.N = V c (Pipeline.arrRef spec3 w) :=
  match w, hw with
  | ⟨0, _⟩, _ | ⟨1, _⟩, _ | ⟨2, _⟩, _ | ⟨3, _⟩, _ | ⟨4, _⟩, _ => (dat3 V c).arrAt_in _ rfl _

theorem hz3 : (![0, 0] : Fin 2 → Nat) = fun _ => 0 := funext fun a => by fin_cases a <;> rfl

theorem lt20_3 : t.val < 20 := Nat.lt_of_lt_of_eq t.isLt N_3

/-- The printed index maps, decided over the grid: the two blocked windows are at block row `t`, column block 0; the four row windows are at block (0, 0). -/
theorem idx_facts3 : ∀ t : Fin cfg3.N, (win3_0.index t (0 : Fin 2) = t.val ∧ win3_0.index t (1 : Fin 2) = 0)
    ∧ (win3_5.index t (0 : Fin 2) = t.val ∧ win3_5.index t (1 : Fin 2) = 0)
    ∧ (∀ a, win3_1.index t a = 0) ∧ (∀ a, win3_2.index t a = 0) ∧ (∀ a, win3_3.index t a = 0) ∧ ∀ a, win3_4.index t a = 0 :=
  (by decide +kernel : ∀ t : Fin grid3.N, _)

/-- The output array at row `5000 tt + p` is the payload of block `tt` at its row `p`: quotient and remainder by 5000. -/
theorem outArr_at3 (H2 : Vec F S100000x128 .f32) (mean inv g be : Vec F S1x128 .f32) (tt : Fin 20) (j : S5000x128.Idx) (i : S100000x128.Idx)
    (h0 : (i 0).val = 5000 * tt.val + (j 0).val) (h1 : (i 1).val = (j 1).val) :
    Bn3.outArr H2 mean inv g be i = k3_pay1 (Bn3.blk H2 tt) mean inv g be j := by
  have hj := idx2_lt0 j
  exact congrArg₂ (fun a b => k3_pay1 (Bn3.blk H2 a) mean inv g be b) (Fin.ext (by show (i 0).val / 5000 = tt.val; omega))
    ((congrArg₂ ix2 (Fin.ext (by show (i 0).val % 5000 = (j 0).val; omega)) (Fin.ext h1)).trans (eq_ix2 j).symm)

theorem inBlk3_0_eq : inBlk3 V c t 0 = Bn3.blk (V c main_v67_0) ⟨t.val, lt20_3 t⟩ := by
  obtain ⟨⟨e0, e1⟩, -⟩ := idx_facts3 t
  funext y
  refine congrArg (V c main_v67_0) (funext fun a => Fin.ext ?_)
  match a with
  | ⟨0, _⟩ => show win3_0.index t (0 : Fin 2) * 5000 + 1 * (y 0).val = 5000 * t.val + (y 0).val; omega
  | ⟨1, _⟩ => show win3_0.index t (1 : Fin 2) * 128 + 1 * (y 1).val = (y 1).val; omega

/-- Each row window's block at every point is its whole array: its block index is 0 on both axes. -/
theorem inBlk3_row : inBlk3 V c t 1 = V c main_v83 ∧ inBlk3 V c t 2 = V c main_v84 ∧ inBlk3 V c t 3 = V c main_v85 ∧ inBlk3 V c t 4 = V c main_v86 := by
  obtain ⟨-, -, h1, h2, h3, h4⟩ := idx_facts3 t
  refine ⟨?_, ?_, ?_, ?_⟩ <;> funext y <;> refine congrArg (V c _) (funext fun a => Fin.ext ?_)
  exacts [(cfg3.win 1).rect_emb_val_of_index_zero t a (h1 a) y, (cfg3.win 2).rect_emb_val_of_index_zero t a (h2 a) y,
    (cfg3.win 3).rect_emb_val_of_index_zero t a (h3 a) y, (cfg3.win 4).rect_emb_val_of_index_zero t a (h4 a) y]

/-- Point `t`'s contribution to the output array is block `t` of the normalised array. -/
theorem flushed3_5_eq : (dat3 V c).flushed 5 t = ((cfg3.win 5).blk t).view.read (Elt F)
    (Bn3.outArr (V c main_v67_0) (V c main_v83) (V c main_v84) (V c main_v85) (V c main_v86)) := by
  obtain ⟨-, ⟨e0, e1⟩, -⟩ := idx_facts3 t
  obtain ⟨r1, r2, r3, r4⟩ := inBlk3_row V c t
  show (cfg3.win 5).cut (grid3.coords t) ((dat3 V c).after 5 t) = _
  dsimp only [dat3]
  rw [out3_5, View.canon_unit_zero hz3]
  simp only [View.ld_unit_zero (S := S5000x128) hz3, View.ld_unit_zero (S := S1x128) hz3, inBlk3_0_eq V c t, r1, r2, r3, r4]
  funext j
  refine (outArr_at3 _ _ _ _ _ ⟨t.val, lt20_3 t⟩ j _ ?_ ?_).symm
  · show win3_5.index t (0 : Fin 2) * 5000 + 1 * (j 0).val = 5000 * t.val + (j 0).val; omega
  · show win3_5.index t (1 : Fin 2) * 128 + 1 * (j 1).val = (j 1).val; omega

theorem cover3_5_arr (i : S100000x128.Idx) : ∃ s : Fin cfg3.N, (cfg3.win 5).flush s = true ∧ i ∈ ((cfg3.win 5).blk s).view.set := by
  have hi0 := idx2_lt0 i
  have hi1 := idx2_lt1 i
  let s : Fin cfg3.N := ⟨(i 0).val / 5000, by rw [show cfg3.N = 20 from N_3]; omega⟩
  obtain ⟨-, ⟨e0, e1⟩, -⟩ := idx_facts3 s
  have hs : s.val = (i 0).val / 5000 := rfl
  refine ⟨s, flush3_5 s, ?_⟩
  show i ∈ ((View.whole main_v87).slice (win3_5.rect s)).set
  rw [View.set_slice_whole, Rect.mem_set_unit]
  intro a
  match a with
  | ⟨0, _⟩ => show win3_5.index s (0 : Fin 2) * 5000 ≤ (i 0).val ∧ (i 0).val < win3_5.index s (0 : Fin 2) * 5000 + 5000; omega
  | ⟨1, _⟩ => show win3_5.index s (1 : Fin 2) * 128 ≤ (i 1).val ∧ (i 1).val < win3_5.index s (1 : Fin 2) * 128 + 128; omega

theorem final3_5 : (dat3 V c).arrAt 5 cfg3.N = Bn3.outArr (V c main_v67_0) (V c main_v83) (V c main_v84) (V c main_v85) (V c main_v86) :=
  (dat3 V c).arrAt_eq_of_cover 5 _ (fun t _ => flushed3_5_eq V c t) cover3_5_arr

end Cert.Kernel.Hand

end
-- ==== Proof.Bits.MlpRegion4Base.lean ====
import proofs.«414687_j59708635349041_1_alg».proof.Proof.Gen.Kernel.Skeleton
import proofs.«414687_j59708635349041_1_alg».proof.Proof.Gen.Kernel.Launch
import proofs.«414687_j59708635349041_1_alg».proof.Proof.Gen.Kernel.Points
import proofs.«414687_j59708635349041_1_alg».proof.Proof.Bits.MlpSpec
import Idealize.ShloMosaic.Lib.Pipeline.Frame
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.ProofMode Idealize.SL.Sem
open Idealize.ShloMosaic.Pipeline (Dat)

variable {F : FTy → Type} [FloatOps F]

local notation "𝕄" => MT nD τ sig Unit (Elt F) ℕ (UR sig nD τ) ℕ

abbrev cond4_1 (i : grid4.Coords) : Prop :=
  (Scalar.cmpi .ne (Scalar.extui (Scalar.cmpi .eq (BitVec.ofNat 32 (i 0).val) 0#32)) 0#32) = 1#1
abbrev cond4_2 (i : grid4.Coords) : Prop := k4_cond2 i = 1#1

theorem hcond4_1 : ∀ t : Fin cfg4.N, cond4_1 (grid4.coords t) ↔ t.val % 20 = 0 := by decide +kernel
theorem hcond4_2 : ∀ t : Fin cfg4.N, cond4_2 (grid4.coords t) ↔ t.val % 20 = 19 := by decide +kernel

theorem idleAt4_6 : ∀ t : Fin cfg4.N, ¬t.val % 20 = 19 → cfg4.idle 6 (grid4.coords t) = true := by decide +kernel
theorem idleAt4_7 : ∀ t : Fin cfg4.N, ¬t.val % 20 = 19 → cfg4.idle 7 (grid4.coords t) = true := by decide +kernel
theorem noFlush4_6 (t : Fin cfg4.N) (h : ¬t.val % 20 = 19) : (cfg4.win 6).flush t = false :=
  Bool.eq_false_iff.mpr (mt (flush4_6 t).mp h)
theorem noFlush4_7 (t : Fin cfg4.N) (h : ¬t.val % 20 = 19) : (cfg4.win 7).flush t = false :=
  Bool.eq_false_iff.mpr (mt (flush4_7 t).mp h)

theorem hz4 : (![0, 0] : Fin 2 → Nat) = fun _ => 0 := funext fun a => by fin_cases a <;> rfl

/-- Where each window's block sits in its array. -/
theorem idx_facts4 : ∀ t : Fin cfg4.N,
    (∀ (w : Fin cfg4.W) (a : Fin (cfg4.win w).shape.rank), w.val % 5 ≠ 0 ∨ a.val ≠ 0 → (cfg4.win w).index t a = 0)
    ∧ win4_0.index t (0 : Fin 2) = t.val ∧ win4_5.index t (0 : Fin 2) = t.val ∧ t.val < 20 := by decide +kernel

section Region4

variable (V : (c : Dev nD) → (b : Ref sig .tc) → Buf (Elt F) ((c : Thread nD τ).loc b)) (c : Dev nD)

/-- Window `w`'s block of its array at point `t`. -/
def iblk4 (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev xArr4 : Vec F S100000x128 .f32 := V c main_v98
abbrev w1Arr4 : Vec F S128x128 .f32 := V c main_v100
abbrev b1Arr4 : Vec F S1x128 .f32 := V c main_v107
abbrev w2Arr4 : Vec F S128x128 .f32 := V c main_v104
abbrev b2Arr4 : Vec F S1x128 .f32 := V c main_v108

abbrev ptOf4 (t : Fin cfg4.N) : Fin 20 := Mlp4.pt t.val

variable (t : Fin cfg4.N) (n : ℕ)

theorem iblk4_0_eq : iblk4 V c 0 t = Mlp4.blk (xArr4 V c) (ptOf4 t) := by
  obtain ⟨hz, e0, -, hN⟩ := idx_facts4 t
  refine funext fun j => congrArg (V c main_v98) (funext fun a => Fin.ext ?_)
  match a with
  | ⟨0, _⟩ => show win4_0.index t (0 : Fin 2) * 5000 + 1 * (j 0).val = t.val % 20 * 5000 + (j 0).val; omega
  | ⟨1, _⟩ => exact win4_0.rect_emb_val_of_index_zero t 1 (hz 0 (1 : Fin 2) (.inr (by decide))) j

/-- A block at index 0 on every axis that is as large as its array is the array. -/
theorem iblk4_1_eq : iblk4 V c 1 t = w1Arr4 V c :=
  funext fun j => congrArg (V c main_v100) (funext fun a => Fin.ext
    (win4_1.rect_emb_val_of_index_zero t a ((idx_facts4 t).1 1 a (.inl (by decide))) j))
theorem iblk4_2_eq : iblk4 V c 2 t = b1Arr4 V c :=
  funext fun j => congrArg (V c main_v107) (funext fun a => Fin.ext
    (win4_2.rect_emb_val_of_index_zero t a ((idx_facts4 t).1 2 a (.inl (by decide))) j))
theorem iblk4_3_eq : iblk4 V c 3 t = w2Arr4 V c :=
  funext fun j => congrArg (V c main_v104) (funext fun a => Fin.ext
    (win4_3.rect_emb_val_of_index_zero t a ((idx_facts4 t).1 3 a (.inl (by decide))) j))
theorem iblk4_4_eq : iblk4 V c 4 t = b2Arr4 V c :=
  funext fun j => congrArg (V c main_v108) (funext fun a => Fin.ext
    (win4_4.rect_emb_val_of_index_zero t a ((idx_facts4 t).1 4 a (.inl (by decide))) j))

abbrev sumAt4 : Vec F S1x128 .f32 := Mlp4.sumAcc (xArr4 V c) (w1Arr4 V c) (b1Arr4 V c) (w2Arr4 V c) (b2Arr4 V c) n
abbrev sqAt4 : Vec F S1x128 .f32 := Mlp4.sqAcc (xArr4 V c) (w1Arr4 V c) (b1Arr4 V c) (w2Arr4 V c) (b2Arr4 V c) n
abbrev h2At4 (k : Fin 20) : Vec F S5000x128 .f32 := k4_pay4 (Mlp4.blk (xArr4 V c) k) (w1Arr4 V c) (b1Arr4 V c) (w2Arr4 V c) (b2Arr4 V c)

theorem sumAt4_first (hn : n = 0) :
    sumAt4 V c n = k4_pay5 (Mlp4.blk (xArr4 V c) (Mlp4.pt n)) (w1Arr4 V c) (b1Arr4 V c) (w2Arr4 V c) (b2Arr4 V c) k4_pay2 := by
  subst hn; rfl
theorem sumAt4_next (hn : n ≠ 0) :
    sumAt4 V c n = k4_pay5 (Mlp4.blk (xArr4 V c) (Mlp4.pt n)) (w1Arr4 V c) (b1Arr4 V c) (w2Arr4 V c) (b2Arr4 V c) (sumAt4 V c (n - 1)) := by
  obtain _ | n := n; exacts [absurd rfl hn, rfl]
theorem sqAt4_first (hn : n = 0) : sqAt4 V c n = k4_pay1 (h2At4 V c (Mlp4.pt n)) k4_pay3 := by
  subst hn; rfl
theorem sqAt4_next (hn : n ≠ 0) : sqAt4 V c n = k4_pay1 (h2At4 V c (Mlp4.pt n)) (sqAt4 V c (n - 1)) := by
  obtain _ | n := n; exacts [absurd rfl hn, rfl]

abbrev scM4_0 : Memref sig .tc .vmem S1x128 .f32 := Memref.whole cc4_scratch0
abbrev scM4_1 : Memref sig .tc .vmem S1x128 .f32 := Memref.whole cc4_scratch1

theorem PhiA4_eq :
    (Pipeline.ΦA spec4 c : sProp 𝕄)
      = iprop(iprop(iprop((∃ d, owns (c : Thread nD τ) scM4_0 fullShare d) ∗ (∃ d, owns (c : Thread nD τ) scM4_1 fullShare d))
          ∗ Pipeline.scopedRestBut spec4 c [cc4_scratch0, cc4_scratch1])
          ∗ (∃ r, prngReg c r)) := by
  unfold Pipeline.ΦA; rw [scopedRest4_split]; simp only [scM4_0, scM4_1, owns_whole]; try rfl

/-- The invariant before point `n + 1`: the two scratch rows hold the running sums after blocks `0 … n`. -/
def PhiS4 : ℕ → sProp 𝕄
  | 0 => Pipeline.ΦA spec4 c
  | n + 1 => iprop(iprop(iprop(owns (c : Thread nD τ) scM4_0 fullShare (sumAt4 V c n) ∗ owns (c : Thread nD τ) scM4_1 fullShare (sqAt4 V c n))
          ∗ Pipeline.scopedRestBut spec4 c [cc4_scratch0, cc4_scratch1])
          ∗ (∃ r, prngReg c r))

theorem PhiS4_zero (hz : n = 0) : PhiS4 V c n = Pipeline.ΦA spec4 c := by subst hz; rfl
theorem PhiS4_succ :
    PhiS4 V c (n + 1) = iprop(iprop(iprop(owns (c : Thread nD τ) scM4_0 fullShare (sumAt4 V c n) ∗ owns (c : Thread nD τ) scM4_1 fullShare (sqAt4 V c n))
          ∗ Pipeline.scopedRestBut spec4 c [cc4_scratch0, cc4_scratch1])
          ∗ (∃ r, prngReg c r)) := rfl
theorem PhiS4_pos (hz : n ≠ 0) :
    PhiS4 V c n = iprop(iprop(iprop(owns (c : Thread nD τ) scM4_0 fullShare (sumAt4 V c (n - 1)) ∗ owns (c : Thread nD τ) scM4_1 fullShare (sqAt4 V c (n - 1)))
          ∗ Pipeline.scopedRestBut spec4 c [cc4_scratch0, cc4_scratch1])
          ∗ (∃ r, prngReg c r)) := by
  obtain _ | n := n; exacts [absurd rfl hz, rfl]

/-- What the body leaves at point `t`: each input's block, the block's h2, and the sums over all blocks. -/
def dat4 : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => h2At4 V c (ptOf4 t)
    | ⟨6, _⟩ => sumAt4 V c 19
    | ⟨7, _⟩ => sqAt4 V c 19
  Φ t := PhiS4 V c t.val
  q _ := fullShare
  owed _ := 0

theorem after4_0 : (dat4 V c).after 0 t = iblk4 V c 0 t := rfl
theorem after4_1 : (dat4 V c).after 1 t = iblk4 V c 1 t := rfl
theorem after4_2 : (dat4 V c).after 2 t = iblk4 V c 2 t := rfl
theorem after4_3 : (dat4 V c).after 3 t = iblk4 V c 3 t := rfl
theorem after4_4 : (dat4 V c).after 4 t = iblk4 V c 4 t := rfl
theorem after4_5 : (dat4 V c).after 5 t = h2At4 V c (ptOf4 t) := rfl
theorem after4_6 : (dat4 V c).after 6 t = sumAt4 V c 19 := rfl
theorem after4_7 : (dat4 V c).after 7 t = sqAt4 V c 19 := rfl

theorem before4_0 (d) : (dat4 V c).before 0 t d = iblk4 V c 0 t :=
  (dat4 V c).before_in_eq_fetched 0 rfl (fun _ => rfl) (fun _ _ _ => rfl) (fun _ => rfl) t d
theorem before4_1 (d) : (dat4 V c).before 1 t d = iblk4 V c 1 t :=
  (dat4 V c).before_in_eq_fetched 1 rfl (fun _ => rfl) (fun _ _ _ => rfl) (fun _ => rfl) t d
theorem before4_2 (d) : (dat4 V c).before 2 t d = iblk4 V c 2 t :=
  (dat4 V c).before_in_eq_fetched 2 rfl (fun _ => rfl) (fun _ _ _ => rfl) (fun _ => rfl) t d
theorem before4_3 (d) : (dat4 V c).before 3 t d = iblk4 V c 3 t :=
  (dat4 V c).before_in_eq_fetched 3 rfl (fun _ => rfl) (fun _ _ _ => rfl) (fun _ => rfl) t d
theorem before4_4 (d) : (dat4 V c).before 4 t d = iblk4 V c 4 t :=
  (dat4 V c).before_in_eq_fetched 4 rfl (fun _ => rfl) (fun _ _ _ => rfl) (fun _ => rfl) t d

theorem PhiS4_castSucc : (dat4 V c).Φ t.castSucc = PhiS4 V c t.val := rfl

theorem hin4 : Pipeline.ΦA spec4 c ⊢ (dat4 V c).Φ 0 := Idealize.SL.BI.Entails.refl _

/-- After the last point the invariant gives the launch's form back: the rows' values are forgotten. -/
theorem hout4 : (dat4 V c).Φ (Fin.last cfg4.N) ⊢ Pipeline.ΦA spec4 c := by
  rw [show (dat4 V c).Φ (Fin.last cfg4.N) = PhiS4 V c (19 + 1) from rfl, PhiS4_succ, PhiA4_eq]
  iintro ⟨⟨⟨HS0, HS1⟩, HR⟩, Hg⟩
  isplitr [Hg]
  · isplitr [HR]
    · isplitl [HS0]
      · iexists _; iexact HS0
      · iexists _; iexact HS1
    · iexact HR
  · iexact Hg

end Region4

end Cert.Kernel.Hand
end
-- ==== Proof.Bits.BnRegion5.lean ====
import proofs.«414687_j59708635349041_1_alg».proof.Proof.Gen.Kernel.Launch
import proofs.«414687_j59708635349041_1_alg».proof.Proof.Gen.Kernel.Points
import proofs.«414687_j59708635349041_1_alg».proof.Proof.Bits.BnSpec
import Idealize.ShloMosaic.Lib.Pipeline.Value
import Idealize.ShloMosaic.Lib.Ring

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)
open Idealize.ShloMosaic.ValueIdx

variable {F : FTy → Type} [FloatOps F]

variable (V : (c : Dev nD) → (b : Ref sig .tc) → Buf (Elt F) ((c : Thread nD τ).loc b)) (c : Dev nD) (t : Fin cfg5.N)

def inBlk5 (w : Fin cfg5.W) : ((cfg5.win w).xblock (cfg5.grid.coords t)).Idx → Elt F (cfg5.win w).elt :=
  ((cfg5.win w).blk t).view.read (Elt F) (V c (Pipeline.arrRef spec5 w))

abbrev rBlk5 : Rect S5000x128 := Rect.unit (s := S5000x128) ![0, 0] S5000x128.size inb_S5000x128_S5000x128_0_0
abbrev rRow5 : Rect S1x128 := Rect.unit (s := S1x128) ![0, 0] S1x128.size inb_S1x128_S1x128_0_0

/-- What the body's one store, over the whole buffer, leaves there: a function of the five inputs' contents alone. -/
def out5_5 (x0 : Vec F S5000x128 .f32) (x1 x2 x3 x4 : Vec F S1x128 .f32) : Vec F S5000x128 .f32 :=
  View.canon [⟨rBlk5, k5_pay1 (View.ld x0 rBlk5) (View.ld x1 rRow5) (View.ld x2 rRow5) (View.ld x3 rRow5) (View.ld x4 rRow5)⟩]

/-- The body on whole memrefs: the inputs are read and kept, the output is overwritten with `out5_5` of the inputs. -/
theorem sound_kernel5 (E : Set ℕ) (i : grid5.Coords) {m0 m5 : Memref sig .tc .vmem S5000x128 .f32} {m1 m2 m3 m4 : Memref sig .tc .vmem S1x128 .f32}
    (h0 : m0.IsWhole) (h1 : m1.IsWhole) (h2 : m2.IsWhole) (h3 : m3.IsWhole) (h4 : m4.IsWhole) (h5 : m5.IsWhole)
    (x0 : Vec F S5000x128 .f32) (x1 x2 x3 x4 : Vec F S1x128 .f32) (K : PUnit → sProp (MT nD τ sig Unit (Elt F) ℕ (UR sig nD τ) ℕ)) :
    iprop(owns c.tc m0 fullShare x0 ∗ owns c.tc m1 fullShare x1 ∗ owns c.tc m2 fullShare x2
        ∗ owns c.tc m3 fullShare x3 ∗ owns c.tc m4 fullShare x4 ∗ (∃ d, owns c.tc m5 fullShare d)
        ∗ (iprop(owns c.tc m0 fullShare x0 ∗ owns c.tc m1 fullShare x1 ∗ owns c.tc m2 fullShare x2
            ∗ owns c.tc m3 fullShare x3 ∗ owns c.tc m4 fullShare x4
            ∗ owns c.tc m5 fullShare (out5_5 x0 x1 x2 x3 x4)) -∗ K ⟨⟩))
      ⊢ wp frame (wpE (defs₀ (F := F)) Variants.none c none) E (cc5__bn_relu_kernel i m0 h0 m1 h1 m2 h2 m3 h3 m4 h4 m5 h5) K := by
  simp only [cc5__bn_relu_kernel_eq_skeleton]; unfold cc5__bn_relu_kernel_skel owns
  iintro ⟨⟨%f0, %e0, H0⟩, ⟨%f1, %e1, H1⟩, ⟨%f2, %e2, H2⟩, ⟨%f3, %e3, H3⟩, ⟨%f4, %e4, H4⟩, ⟨%d, %f5, -, H5⟩, Hk⟩
  subst e0 e1 e2 e3 e4
  sl_exec
  sl_step
  iapply Hk
  isplitl [H0]; · iexists f0; iframe H0; ipureintro; rfl
  isplitl [H1]; · iexists f1; iframe H1; ipureintro; rfl
  isplitl [H2]; · iexists f2; iframe H2; ipureintro; rfl
  isplitl [H3]; · iexists f3; iframe H3; ipureintro; rfl
  isplitl [H4]; · iexists f4; iframe H4; ipureintro; rfl
  iexists _; iframe H5
  ipureintro
  exact View.read_writes_eq_canon _ _ _ (View.cover_of_tiled _ S5000x128.size (by rfl))

/-- The proof data of the region on core `c`: the arrays as found; after the body each input's buffer at its block and the output's at `out5_5` of the input blocks. -/
def dat5 : Dat τ (Elt F) Unit ℕ (UR sig nD τ) ℕ cfg5 c where
  A w := V c (Pipeline.arrRef spec5 w)
  after w t := match w with
    | ⟨0, _⟩ => inBlk5 V c t 0
    | ⟨1, _⟩ => inBlk5 V c t 1
    | ⟨2, _⟩ => inBlk5 V c t 2
    | ⟨3, _⟩ => inBlk5 V c t 3
    | ⟨4, _⟩ => inBlk5 V c t 4
    | ⟨5, _⟩ => out5_5 (inBlk5 V c t 0) (inBlk5 V c t 1) (inBlk5 V c t 2) (inBlk5 V c t 3) (inBlk5 V c t 4)
  Φ _ := Pipeline.ΦA spec5 c
  q _ := fullShare
  owed _ := 0

theorem hin5 : Pipeline.ΦA spec5 c ⊢ (dat5 V c).Φ 0 := Entails.refl _

theorem hout5 : (dat5 V c).Φ (Fin.last cfg5.N) ⊢ Pipeline.ΦA spec5 c := Entails.refl _

/-- Before the body, as after it, an input's buffer holds its block. -/
theorem before5 : ∀ w : Fin cfg5.W, w.val < 5 → ∀ d, (dat5 V c).before w t d = (dat5 V c).after w t
  | ⟨0, _⟩, _ | ⟨1, _⟩, _ | ⟨2, _⟩, _ | ⟨3, _⟩, _ | ⟨4, _⟩, _ =>
    (dat5 V c).before_in_eq_fetched _ rfl (fun _ => rfl) (fun _ _ _ => rfl) (fun _ => rfl) t

/-- The body at any point: each input's memref holds its block, so the body's triple applies; the invariant and what the core owes pass through unread. -/
theorem body_obligation5 : BodyObligation (dat5 (F := F) V c) (defs₀ (F := F)) Variants.none () Set.univ := fun t => by
  rw [bigSep_W5, bigSep_W5]
  simp +decide only [before5 V c t]
  dsimp only [dat5, Dat.owesAt, Dat.bound]
  change _ ⊢ wp _ _ _ (bodyAt5 t) _
  iintro ⟨HΦ, Ho, ⟨%d0, H0⟩, ⟨%d1, H1⟩, ⟨%d2, H2⟩, ⟨%d3, H3⟩, ⟨%d4, H4⟩, ⟨%d5, H5⟩⟩
  iapply (sound_kernel5 c Set.univ _ _ _ _ _ _ _ (inBlk5 V c t 0) (inBlk5 V c t 1) (inBlk5 V c t 2) (inBlk5 V c t 3) (inBlk5 V c t 4) _)
  iframe H0 H1 H2 H3 H4
  isplitl [H5]; · iexists _; iexact H5
  iintro ⟨H0, H1, H2, H3, H4, H5⟩
  iframe

theorem kept5 (w : Fin cfg5.W) (hw : w.val < 5) : (dat5 V c).arrAt w cfg5.N = V c (Pipeline.arrRef spec5 w) :=
  match w, hw with
  | ⟨0, _⟩, _ | ⟨1, _⟩, _ | ⟨2, _⟩, _ | ⟨3, _⟩, _ | ⟨4, _⟩, _ => (dat5 V c).arrAt_in _ rfl _

theorem hz5 : (![0, 0] : Fin 2 → Nat) = fun _ => 0 := funext fun a => by fin_cases a <;> rfl

theorem lt20_5 : t.val < 20 := Nat.lt_of_lt_of_eq t.isLt N_5

/-- The printed index maps, decided over the grid: the two blocked windows are at block row `t`, column block 0; the four row windows are at block (0, 0). -/
theorem idx_facts5 : ∀ t : Fin cfg5.N, (win5_0.index t (0 : Fin 2) = t.val ∧ win5_0.index t (1 : Fin 2) = 0)
    ∧ (win5_5.index t (0 : Fin 2) = t.val ∧ win5_5.index t (1 : Fin 2) = 0)
    ∧ (∀ a, win5_1.index t a = 0) ∧ (∀ a, win5_2.index t a = 0) ∧ (∀ a, win5_3.index t a = 0) ∧ ∀ a, win5_4.index t a = 0 :=
  (by decide +kernel : ∀ t : Fin grid5.N, _)

/-- The output array at row `5000 tt + p` is the payload of block `tt` at its row `p`: quotient and remainder by 5000. -/
theorem outArr_at5 (H2 : Vec F S100000x128 .f32) (mean inv g be : Vec F S1x128 .f32) (tt : Fin 20) (j : S5000x128.Idx) (i : S100000x128.Idx)
    (h0 : (i 0).val = 5000 * tt.val + (j 0).val) (h1 : (i 1).val = (j 1).val) :
    Bn5.outArr H2 mean inv g be i = k5_pay1 (Bn5.blk H2 tt) mean inv g be j := by
  have hj := idx2_lt0 j
  exact congrArg₂ (fun a b => k5_pay1 (Bn5.blk H2 a) mean inv g be b) (Fin.ext (by show (i 0).val / 5000 = tt.val; omega))
    ((congrArg₂ ix2 (Fin.ext (by show (i 0).val % 5000 = (j 0).val; omega)) (Fin.ext h1)).trans (eq_ix2 j).symm)

theorem inBlk5_0_eq : inBlk5 V c t 0 = Bn5.blk (V c main_v109_0) ⟨t.val, lt20_5 t⟩ := by
  obtain ⟨⟨e0, e1⟩, -⟩ := idx_facts5 t
  funext y
  refine congrArg (V c main_v109_0) (funext fun a => Fin.ext ?_)
  match a with
  | ⟨0, _⟩ => show win5_0.index t (0 : Fin 2) * 5000 + 1 * (y 0).val = 5000 * t.val + (y 0).val; omega
  | ⟨1, _⟩ => show win5_0.index t (1 : Fin 2) * 128 + 1 * (y 1).val = (y 1).val; omega

/-- Each row window's block at every point is its whole array: its block index is 0 on both axes. -/
theorem inBlk5_row : inBlk5 V c t 1 = V c main_v125 ∧ inBlk5 V c t 2 = V c main_v126 ∧ inBlk5 V c t 3 = V c main_v127 ∧ inBlk5 V c t 4 = V c main_v128 := by
  obtain ⟨-, -, h1, h2, h3, h4⟩ := idx_facts5 t
  refine ⟨?_, ?_, ?_, ?_⟩ <;> funext y <;> refine congrArg (V c _) (funext fun a => Fin.ext ?_)
  exacts [(cfg5.win 1).rect_emb_val_of_index_zero t a (h1 a) y, (cfg5.win 2).rect_emb_val_of_index_zero t a (h2 a) y,
    (cfg5.win 3).rect_emb_val_of_index_zero t a (h3 a) y, (cfg5.win 4).rect_emb_val_of_index_zero t a (h4 a) y]

/-- Point `t`'s contribution to the output array is block `t` of the normalised array. -/
theorem flushed5_5_eq : (dat5 V c).flushed 5 t = ((cfg5.win 5).blk t).view.read (Elt F)
    (Bn5.outArr (V c main_v109_0) (V c main_v125) (V c main_v126) (V c main_v127) (V c main_v128)) := by
  obtain ⟨-, ⟨e0, e1⟩, -⟩ := idx_facts5 t
  obtain ⟨r1, r2, r3, r4⟩ := inBlk5_row V c t
  show (cfg5.win 5).cut (grid5.coords t) ((dat5 V c).after 5 t) = _
  dsimp only [dat5]
  rw [out5_5, View.canon_unit_zero hz5]
  simp only [View.ld_unit_zero (S := S5000x128) hz5, View.ld_unit_zero (S := S1x128) hz5, inBlk5_0_eq V c t, r1, r2, r3, r4]
  funext j
  refine (outArr_at5 _ _ _ _ _ ⟨t.val, lt20_5 t⟩ j _ ?_ ?_).symm
  · show win5_5.index t (0 : Fin 2) * 5000 + 1 * (j 0).val = 5000 * t.val + (j 0).val; omega
  · show win5_5.index t (1 : Fin 2) * 128 + 1 * (j 1).val = (j 1).val; omega

theorem cover5_5_arr (i : S100000x128.Idx) : ∃ s : Fin cfg5.N, (cfg5.win 5).flush s = true ∧ i ∈ ((cfg5.win 5).blk s).view.set := by
  have hi0 := idx2_lt0 i
  have hi1 := idx2_lt1 i
  let s : Fin cfg5.N := ⟨(i 0).val / 5000, by rw [show cfg5.N = 20 from N_5]; omega⟩
  obtain ⟨-, ⟨e0, e1⟩, -⟩ := idx_facts5 s
  have hs : s.val = (i 0).val / 5000 := rfl
  refine ⟨s, flush5_5 s, ?_⟩
  show i ∈ ((View.whole main_v129).slice (win5_5.rect s)).set
  rw [View.set_slice_whole, Rect.mem_set_unit]
  intro a
  match a with
  | ⟨0, _⟩ => show win5_5.index s (0 : Fin 2) * 5000 ≤ (i 0).val ∧ (i 0).val < win5_5.index s (0 : Fin 2) * 5000 + 5000; omega
  | ⟨1, _⟩ => show win5_5.index s (1 : Fin 2) * 128 ≤ (i 1).val ∧ (i 1).val < win5_5.index s (1 : Fin 2) * 128 + 128; omega

theorem final5_5 : (dat5 V c).arrAt 5 cfg5.N = Bn5.outArr (V c main_v109_0) (V c main_v125) (V c main_v126) (V c main_v127) (V c main_v128) :=
  (dat5 V c).arrAt_eq_of_cover 5 _ (fun t _ => flushed5_5_eq V c t) cover5_5_arr

end Cert.Kernel.Hand

end
-- ==== Proof.Bits.PoolSpec.lean ====
import proofs.«414687_j59708635349041_1_alg».proof.Proof.Gen.Kernel.Skeleton
import Idealize.ShloMosaic.Lib.ValueIdx

noncomputable section

namespace Cert.Kernel.Hand.Pool

open Idealize.ShloMosaic Idealize.ShloMosaic.ValueIdx
open Cert.Kernel Cert.Kernel.Gen

variable {F : FTy → Type} [FloatOps F]

-- Row `r` of block `t`, of twenty blocks of 5000 rows.
def blkRow (t : Fin 20) (r : Fin 5000) : Fin 100000 :=
  ⟨t.val * 5000 + r.val, by have := t.isLt; have := r.isLt; omega⟩

def bblk (B : Vec F S100000x1 .i32) (t : Fin 20) : Vec F S5000x1 .i32 := fun j => B (ix2 (blkRow t (j 0)) (j 1))

def hblk (H : Vec F S100000x128 .f32) (t : Fin 20) : Vec F S5000x128 .f32 := fun j => H (ix2 (blkRow t (j 0)) (j 1))

def pt (n : ℕ) : Fin 20 := ⟨n % 20, Nat.mod_lt _ (by decide)⟩

-- The accumulator after block `n`: the reset value with the blocks `0` to `n` accumulated into it in order.
def acc (B : Vec F S100000x1 .i32) (H : Vec F S100000x128 .f32) : ℕ → Vec F S512x128 .f32
  | 0 => k6_pay2 (bblk B (pt 0)) (hblk H (pt 0)) (k6_pay1 (F := F))
  | n + 1 => k6_pay2 (bblk B (pt (n + 1))) (hblk H (pt (n + 1))) (acc B H n)

def out (B : Vec F S100000x1 .i32) (H : Vec F S100000x128 .f32) : Vec F S512x128 .f32 := acc B H 19

end Cert.Kernel.Hand.Pool

end
-- ==== Proof.Bits.PoolRegion6.lean ====
import proofs.«414687_j59708635349041_1_alg».proof.Proof.Gen.Kernel.Skeleton
import proofs.«414687_j59708635349041_1_alg».proof.Proof.Gen.Kernel.Launch
import proofs.«414687_j59708635349041_1_alg».proof.Proof.Gen.Kernel.Points
import proofs.«414687_j59708635349041_1_alg».proof.Proof.Bits.PoolSpec
import Idealize.ShloMosaic.Lib.Pipeline.Frame
import Idealize.ShloMosaic.Lib.Pipeline.FrameBody
import Idealize.ShloMosaic.Lib.Pipeline.Value
import Idealize.ShloMosaic.Lib.Ring
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Whole

variable {Val : EltTy → Type} [∀ e, Nonempty (Val e)] {κ : Kind} {sp : Space} {S : Shape} {e : EltTy} (v : View sig κ sp S e)
  {off : Fin S.rank → ℕ} (h : off = fun _ => 0) (inb : ∀ a, off a + S.size a ≤ S.size a) (w : S.Idx → Val e) (L : List (View.Piece Val S e))
include h

theorem cover_whole (y : S.Idx) : ∃ p ∈ (⟨Rect.unit off S.size inb, w⟩ : View.Piece Val S e) :: L, y ∈ p.1.set :=
  ⟨_, .head _, View.mem_set_unit_zero h inb y⟩

theorem read_writes_whole (f : v.ty.Contents Val) : v.read Val (v.writes Val f (⟨Rect.unit off S.size inb, w⟩ :: L)) = w :=
  (View.read_writes_eq_canon v f _ (cover_whole h inb w L)).trans (View.canon_cons_unit_zero h inb w L)

theorem readCov_whole : v.readCov (⟨Rect.unit off S.size inb, w⟩ :: L) (Rect.unit off S.size inb).toLoadRect = w := by
  rw [View.readCov_eq_canon_ld _ _ _ (cover_whole h inb w L), View.canon_cons_unit_zero h, View.ld_unit_zero h]

end Whole

section Region6

variable (V : (c : Dev nD) → (b : Ref sig .tc) → Buf (Elt F) ((c : Thread nD τ).loc b)) (c : Dev nD)

def iblk6 (w : Fin cfg6.W) (t : Fin cfg6.N) : ((cfg6.win w).xblock (cfg6.grid.coords t)).Idx → Elt F (cfg6.win w).elt :=
  ((cfg6.win w).blk t).view.read (Elt F) (V c (Pipeline.arrRef spec6 w))

abbrev scM6 : Memref sig .tc .vmem S512x128 .f32 := Memref.whole cc6_scratch0

abbrev Bid : Vec F S100000x1 .i32 := V c main_v130
abbrev Hft : Vec F S100000x128 .f32 := V c main_v129

-- The scratch before point `n`: anything before the first, then the accumulator after the block before.
def sc6 : ℕ → Vec F S512x128 .f32 → Vec F S512x128 .f32
  | 0, d => d
  | n + 1, _ => Pool.acc (Bid V c) (Hft V c) n

def PhiS6 (n : ℕ) : sProp 𝕄 :=
  iprop(iprop(iprop(∃ d, owns (c : Thread nD τ) scM6 fullShare (sc6 V c n d))
      ∗ Pipeline.scopedRestBut (Ix := Unit) (Name := ℕ) (U := UR sig nD τ) (Lvl := ℕ) (Val := Elt F) spec6 c [cc6_scratch0])
    ∗ (∃ r, prngReg c r))

theorem PhiA6_eq : (Pipeline.ΦA spec6 c : sProp 𝕄) = PhiS6 V c 0 := by
  unfold Pipeline.ΦA PhiS6; rw [scopedRest6_split]; simp only [scM6, owns_whole]; rfl

def dat6 : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => Pool.out (Bid V c) (Hft V c)
  Φ t := PhiS6 V c t.val
  q _ := fullShare
  owed _ := 0

theorem hin6 : Pipeline.ΦA spec6 c ⊢ (dat6 V c).Φ 0 := Entails.of_eq (PhiA6_eq V c)

theorem hout6 : (dat6 V c).Φ (Fin.last cfg6.N) ⊢ Pipeline.ΦA spec6 c := by
  rw [PhiA6_eq V c]; show PhiS6 V c _ ⊢ _; unfold PhiS6
  iintro ⟨⟨⟨%d, HS⟩, HR⟩, Hg⟩
  iframe HR Hg
  iexists _; iexact HS

abbrev cond6_0 (i : grid6.Coords) : Prop :=
  (Scalar.cmpi .ne (Scalar.extui (Scalar.cmpi .eq (BitVec.ofNat 32 (i 0).val) 0#32)) 0#32) = 1#1
abbrev cond6_1 (i : grid6.Coords) : Prop := k6_cond2 i = 1#1

-- The reset is taken at the first point only and the output stored at the last only.
theorem sched6 : ∀ t : Fin cfg6.N, (cond6_0 (grid6.coords t) ↔ t.val = 0) ∧ (cond6_1 (grid6.coords t) ↔ t.val = 19)
    ∧ cfg6.idle 2 (grid6.coords t) = !decide (t.val = 19) ∧ (cfg6.win 2).flush t = decide (t.val = 19) := by decide +kernel

theorem hz6 : (![0, 0] : Fin 2 → Nat) = fun _ => 0 := funext fun a => by fin_cases a <;> rfl

section Run

variable (i : grid6.Coords) (arg1 : Memref sig .tc .vmem S5000x1 .i32) (harg1 : arg1.IsWhole)
  (arg2 : Memref sig .tc .vmem S5000x128 .f32) (harg2 : arg2.IsWhole) (arg3 : Memref sig .tc .vmem S512x128 .f32) (harg3 : arg3.IsWhole)
  (arg4 : Memref sig .tc .vmem S512x128 .f32) (harg4 : arg4.IsWhole)
  (x0 : Vec F S5000x1 .i32) (x1 : Vec F S5000x128 .f32) (x2 xs R : Vec F S512x128 .f32)

-- The body on any whole memrefs: the scratch, reset where the first condition holds, gains the block; the output's buffer takes the scratch where the second holds.
theorem kernelRun6 (hR : k6_pay2 x0 x1 (if cond6_0 i then k6_pay1 else xs) = R) (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare xs
        ∗ (iprop(owns (c : Thread nD τ) arg1 fullShare x0 ∗ owns (c : Thread nD τ) arg2 fullShare x1
            ∗ owns (c : Thread nD τ) arg3 fullShare (if cond6_1 i then R else x2) ∗ owns (c : Thread nD τ) arg4 fullShare R) -∗ K ⟨⟩))
      ⊢ wp frame (wpE (defs₀ (F := F)) Variants.none c none) E (cc6__pool_kernel i arg1 harg1 arg2 harg2 arg3 harg3 arg4 harg4) K := by
  subst hR
  by_cases hc0 : cond6_0 i <;> by_cases hc1 : cond6_1 i <;> (first | rw [if_pos hc0] | rw [if_neg hc0]) <;>
    (first | rw [if_pos hc1] | rw [if_neg hc1])
  all_goals
    simp only [cc6__pool_kernel_eq_skeleton]; unfold cc6__pool_kernel_skel owns
    iintro ⟨⟨%f0, %hf0, H0⟩, ⟨%f1, %hf1, H1⟩, ⟨%f2, %hf2, H2⟩, ⟨%fs, %hfs, HS⟩, Hk⟩
    subst hf0 hf1 hf2 hfs
    sl_exec (disch := first | exact hc0 | exact hc1)
    sl_step
    iapply Hk
    isplitl [H0]
    rotate_left
    isplitl [H1]
    rotate_left
    isplitl [H2]
    all_goals
      iexists _; isplitr; swap; · iassumption
      ipureintro
      first | rfl | (sl_unfold_words; rw [read_writes_whole _ hz6]; simp only [readCov_whole (S := S512x128) _ hz6, View.readAt_eq_ld,
        View.ld_unit_zero (S := S5000x1) hz6, View.ld_unit_zero (S := S5000x128) hz6, View.ld_unit_zero (S := S512x128) hz6])

end Run

theorem index6 : ∀ t : Fin cfg6.N, ((cfg6.win 0).index t 0 = t.val % 20 ∧ (cfg6.win 0).index t 1 = 0)
    ∧ (cfg6.win 1).index t 0 = t.val % 20 ∧ (cfg6.win 1).index t 1 = 0 := by decide +kernel

theorem iblk6_0_eq (t : Fin cfg6.N) : (iblk6 V c 0 t : Vec F S5000x1 .i32) = Pool.bblk (Bid V c) (Pool.pt t.val) := by
  obtain ⟨⟨h0, h1⟩, -⟩ := index6 t
  funext j
  unfold iblk6 Pool.bblk
  rw [View.read_apply]
  show V c main_v130 _ = V c main_v130 _
  congr 1; funext a; apply Fin.ext
  match a with
  | ⟨0, _⟩ => show win6_0.index t 0 * 5000 + 1 * (j 0).val = t.val % 20 * 5000 + (j 0).val; rw [h0, Nat.one_mul]
  | ⟨1, _⟩ => show win6_0.index t 1 * 1 + 1 * (j 1).val = (j 1).val; rw [h1]; omega

theorem iblk6_1_eq (t : Fin cfg6.N) : (iblk6 V c 1 t : Vec F S5000x128 .f32) = Pool.hblk (Hft V c) (Pool.pt t.val) := by
  obtain ⟨-, h0, h1⟩ := index6 t
  funext j
  unfold iblk6 Pool.hblk
  rw [View.read_apply]
  show V c main_v129 _ = V c main_v129 _
  congr 1; funext a; apply Fin.ext
  match a with
  | ⟨0, _⟩ => show win6_1.index t 0 * 5000 + 1 * (j 0).val = t.val % 20 * 5000 + (j 0).val; rw [h0, Nat.one_mul]
  | ⟨1, _⟩ => show win6_1.index t 1 * 128 + 1 * (j 1).val = (j 1).val; rw [h1]; omega

theorem before6_0 (t : Fin cfg6.N) (d) : (dat6 V c).before 0 t d = iblk6 V c 0 t :=
  (dat6 V c).before_in_eq_fetched 0 rfl (fun _ => rfl) (fun _ _ _ => rfl) (fun _ => rfl) t d
theorem before6_1 (t : Fin cfg6.N) (d) : (dat6 V c).before 1 t d = iblk6 V c 1 t :=
  (dat6 V c).before_in_eq_fetched 1 rfl (fun _ => rfl) (fun _ _ _ => rfl) (fun _ => rfl) t d

-- What the body leaves in the scratch at point `t` is the accumulator after block `t`.
theorem step6_eq (t : Fin cfg6.N) (d : Vec F S512x128 .f32) :
    k6_pay2 (iblk6 V c 0 t) (iblk6 V c 1 t) (if cond6_0 (grid6.coords t) then k6_pay1 else sc6 V c t.val d)
      = Pool.acc (Bid V c) (Hft V c) t.val := by
  rw [iblk6_0_eq, iblk6_1_eq]
  cases h : t.val with
  | zero => rw [if_pos ((sched6 t).1.mpr h)]; rfl
  | succ n => rw [if_neg fun h' => by have := (sched6 t).1.mp h'; omega]; rfl

theorem leaves6_2 (t : Fin cfg6.N) (d) :
    owns (c : Thread nD τ) (st6_2 t) fullShare (if cond6_1 (grid6.coords t) then Pool.acc (Bid V c) (Hft V c) t.val else (dat6 V c).before 2 t d)
      ⊢ (dat6 V c).leavesExact 2 t := by
  obtain ⟨-, h1, hi, hf⟩ := sched6 t
  by_cases h : t.val = 19
  · rw [if_pos (h1.mpr h)]; unfold Dat.leavesExact; rw [hi, h]; exact .rfl
  · rw [if_neg (mt h1.mp h), Dat.leavesExact_idle _ 2 t (by rw [hi, decide_eq_false h]; rfl) (by rw [hf, decide_eq_false h])]
    iintro H; iexists _; iexact H

theorem body_obligation6 : BodyObligation (dat6 (F := F) V c) (defs₀ (F := F)) Variants.none () Set.univ := fun t => by
  rw [bigSep_W6, bigSep_W6]
  show _ ⊢ wp _ _ _ (bodyAt6 t) _
  unfold bodyAt6
  simp only [before6_0, before6_1]
  rw [show (dat6 V c).after 0 t = iblk6 V c 0 t from rfl, show (dat6 V c).after 1 t = iblk6 V c 1 t from rfl, show (dat6 V c).owesAt () t.succ = (dat6 V c).owesAt () t.castSucc from rfl,
    show (dat6 V c).Φ t.castSucc = PhiS6 V c t.val from rfl, show (dat6 V c).Φ t.succ = PhiS6 V c (t.val + 1) from rfl]
  unfold PhiS6
  iintro ⟨⟨⟨⟨%d, HS⟩, HR⟩, Hg⟩, Ho, ⟨%d0, H0⟩, ⟨%d1, H1⟩, ⟨%d2, H2⟩⟩
  iapply (kernelRun6 c (grid6.coords t) _ _ _ _ _ _ _ _ _ _ ((dat6 V c).before 2 t d2) _ _ (step6_eq V c t d) Set.univ _)
  iframe H0 H1 H2 HS
  iintro ⟨H0, H1, H2, HS⟩
  ihave H2 := (leaves6_2 V c t d2) $$ H2
  iframe HR Hg Ho H0 H1
  isplitl [HS]
  · iexists d; iexact HS
  iexact H2

abbrev t6_last : Fin cfg6.N := ⟨19, by decide⟩

theorem last6 : ∀ a, win6_2.index t6_last a * win6_2.size a = 0
    ∧ win6_2.xsize (grid6.coords t6_last) a = main_v131.ty.shape.size a := by decide +kernel

theorem flushed6_2 (t : Fin cfg6.N) (hf : (cfg6.win 2).flush t = true) :
    (dat6 V c).flushed 2 t = ((cfg6.win 2).blk t).view.read (Elt F) (Pool.out (Bid V c) (Hft V c)) := by
  obtain rfl : t = t6_last := Fin.ext (by simpa [(sched6 t).2.2.2] using hf)
  have hz : (fun a => win6_2.index t6_last a * main_v131.ty.shape.size a) = fun _ => 0 := funext fun a => (last6 a).1
  exact (Memref.read_access_unit_zero (Elt F) main_v131 hz (fun a => by rw [congrFun hz a]; simp) (Pool.out (Bid V c) (Hft V c))).symm

theorem final6_2 : (dat6 V c).arrAt 2 cfg6.N = Pool.out (V c main_v130) (V c main_v129) :=
  (dat6 V c).arrAt_eq_of_cover 2 (Pool.out (Bid V c) (Hft V c)) (flushed6_2 V c) fun i =>
    ⟨t6_last, (flush6_2 t6_last).mpr rfl, by
      show i ∈ ((View.whole main_v131).slice (win6_2.rect t6_last)).set
      rw [View.set_slice_whole, Rect.mem_set_unit]
      intro a
      show win6_2.index t6_last a * win6_2.size a ≤ (i a : ℕ) ∧ (i a : ℕ) < win6_2.index t6_last a * win6_2.size a + win6_2.xsize (grid6.coords t6_last) a
      rw [(last6 a).1, (last6 a).2, Nat.zero_add]
      exact ⟨Nat.zero_le _, (i a).isLt⟩⟩

theorem kept6 (w : Fin cfg6.W) (hw : w.val < 2) : (dat6 V c).arrAt w cfg6.N = V c (Pipeline.arrRef spec6 w) :=
  match w, hw with
  | ⟨0, _⟩, _ => (dat6 V c).arrAt_in 0 rfl _
  | ⟨1, _⟩, _ => (dat6 V c).arrAt_in 1 rfl _
  | ⟨n + 2, _⟩, h => absurd h (by simp)

end Region6

end Cert.Kernel.Hand

end
-- ==== Proof.Bits.SegsBase.lean ====
import proofs.«414687_j59708635349041_1_alg».proof.Proof.Bits.RunCond
import proofs.«414687_j59708635349041_1_alg».proof.Proof.Bits.MlpRegion0Base
import proofs.«414687_j59708635349041_1_alg».proof.Proof.Bits.BnRegion1
import proofs.«414687_j59708635349041_1_alg».proof.Proof.Bits.MlpRegion2Base
import proofs.«414687_j59708635349041_1_alg».proof.Proof.Bits.BnRegion3
import proofs.«414687_j59708635349041_1_alg».proof.Proof.Bits.MlpRegion4Base
import proofs.«414687_j59708635349041_1_alg».proof.Proof.Bits.BnRegion5
import proofs.«414687_j59708635349041_1_alg».proof.Proof.Bits.PoolRegion6
import Idealize.ShloMosaic.Lib.Pipeline.FrameBody
import Idealize.ShloMosaic.Lib.Pipeline.RegionsLoop
import Idealize.ShloMosaic.Lib.Pipeline.FrameSuffix

noncomputable section

namespace Cert.Kernel.Hand

open Cert.Kernel Cert.Kernel.Gen
open Idealize.ShloMosaic Idealize.ShloMosaic.TcCoe
open Idealize.ShloMosaic.Rounds
open Idealize.ShloMosaic.Pipeline (Dat)

variable {F : FTy → Type} [FloatOps F]

variable (m : (ℓ : Loc nD τ sig) → Buf (Elt F) ℓ)

variable {p : Fin 7} (D : (c : Dev nD) → Dat τ (Elt F) Unit ℕ (UR sig nD τ) ℕ (cfgs p) c)
  (W : Dev nD → Valuation τ sig (Elt F)) (c : Dev nD)

/-- A valuation read at the references of kind `.tc`. -/
abbrev rd : (c : Dev nD) → (b : Ref sig .tc) → Buf (Elt F) ((c : Thread nD τ).loc b) := fun c b => W c b

/-- A region's exit contents: its arrays at their final values, every other buffer as entered. -/
def exitV : Valuation τ sig (Elt F) :=
  Pipeline.withArrays (cfgs p).spec c (W c) fun w => (D c).arrAt w (cfgs p).N

theorem exitV_arr (lf : Pipeline.LaunchFacts (nD := nD) (τ := τ) cfgs p) (w : Fin (cfgs p).W) :
    exitV D W c (Proc.devRef .tc (Pipeline.arrRef (cfgs p).spec w)) = (D c).arrAt w (cfgs p).N :=
  Pipeline.withArrays_arr _ lf.win.arr_inj c _ _ w

theorem exitV_of_ne (b : Ref sig .tc) (hb : ∀ w, Pipeline.arrRef (cfgs p).spec w ≠ b) :
    exitV D W c (Proc.devRef .tc b) = W c (Proc.devRef .tc b) :=
  Pipeline.withArrays_of_ne _ c _ _ b hb

abbrev W1 : Valuation τ sig (Elt F) := Gen.V1 m c
abbrev U1 := rd (W1 m)
def W2 := exitV (p := 0) (dat0 (U1 m)) (W1 m)
theorem W2_arr (w : Fin cfg0.W) :
    W2 m c (Proc.devRef .tc (Pipeline.arrRef spec0 w)) = (dat0 (U1 m) c).arrAt w cfg0.N := exitV_arr _ _ c launch0 w
theorem W2_of_ne (b : Ref sig .tc) (hb : ∀ w, Pipeline.arrRef spec0 w ≠ b) :
    W2 m c (Proc.devRef .tc b) = W1 m c (Proc.devRef .tc b) := exitV_of_ne _ _ c b hb
abbrev W3 : Valuation τ sig (Elt F) := StableHlo.after hostOps1 (W2 m c)
abbrev U3 := rd (W3 m)
def W4 := exitV (p := 1) (dat1 (U3 m)) (W3 m)
theorem W4_arr (w : Fin cfg1.W) :
    W4 m c (Proc.devRef .tc (Pipeline.arrRef spec1 w)) = (dat1 (U3 m) c).arrAt w cfg1.N := exitV_arr _ _ c launch1 w
theorem W4_of_ne (b : Ref sig .tc) (hb : ∀ w, Pipeline.arrRef spec1 w ≠ b) :
    W4 m c (Proc.devRef .tc b) = W3 m c (Proc.devRef .tc b) := exitV_of_ne _ _ c b hb
abbrev W5 : Valuation τ sig (Elt F) := StableHlo.after hostOps2 (W4 m c)
abbrev U5 := rd (W5 m)
def W6 := exitV (p := 2) (dat2 (U5 m)) (W5 m)
theorem W6_arr (w : Fin cfg2.W) :
    W6 m c (Proc.devRef .tc (Pipeline.arrRef spec2 w)) = (dat2 (U5 m) c).arrAt w cfg2.N := exitV_arr _ _ c launch2 w
theorem W6_of_ne (b : Ref sig .tc) (hb : ∀ w, Pipeline.arrRef spec2 w ≠ b) :
    W6 m c (Proc.devRef .tc b) = W5 m c (Proc.devRef .tc b) := exitV_of_ne _ _ c b hb
abbrev W7 : Valuation τ sig (Elt F) := StableHlo.after hostOps3 (W6 m c)
abbrev U7 := rd (W7 m)
def W8 := exitV (p := 3) (dat3 (U7 m)) (W7 m)
theorem W8_arr (w : Fin cfg3.W) :
    W8 m c (Proc.devRef .tc (Pipeline.arrRef spec3 w)) = (dat3 (U7 m) c).arrAt w cfg3.N := exitV_arr _ _ c launch3 w
theorem W8_of_ne (b : Ref sig .tc) (hb : ∀ w, Pipeline.arrRef spec3 w ≠ b) :
    W8 m c (Proc.devRef .tc b) = W7 m c (Proc.devRef .tc b) := exitV_of_ne _ _ c b hb
abbrev W9 : Valuation τ sig (Elt F) := StableHlo.after hostOps4 (W8 m c)
abbrev U9 := rd (W9 m)
def W10 := exitV (p := 4) (dat4 (U9 m)) (W9 m)
theorem W10_arr (w : Fin cfg4.W) :
    W10 m c (Proc.devRef .tc (Pipeline.arrRef spec4 w)) = (dat4 (U9 m) c).arrAt w cfg4.N := exitV_arr _ _ c launch4 w
theorem W10_of_ne (b : Ref sig .tc) (hb : ∀ w, Pipeline.arrRef spec4 w ≠ b) :
    W10 m c (Proc.devRef .tc b) = W9 m c (Proc.devRef .tc b) := exitV_of_ne _ _ c b hb
abbrev W11 : Valuation τ sig (Elt F) := StableHlo.after hostOps5 (W10 m c)
abbrev U11 := rd (W11 m)
def W12 := exitV (p := 5) (dat5 (U11 m)) (W11 m)
theorem W12_arr (w : Fin cfg5.W) :
    W12 m c (Proc.devRef .tc (Pipeline.arrRef spec5 w)) = (dat5 (U11 m) c).arrAt w cfg5.N := exitV_arr _ _ c launch5 w
theorem W12_of_ne (b : Ref sig .tc) (hb : ∀ w, Pipeline.arrRef spec5 w ≠ b) :
    W12 m c (Proc.devRef .tc b) = W11 m c (Proc.devRef .tc b) := exitV_of_ne _ _ c b hb
abbrev W13 : Valuation τ sig (Elt F) := StableHlo.after hostOps6 (W12 m c)
abbrev U13 := rd (W13 m)
def W14 := exitV (p := 6) (dat6 (U13 m)) (W13 m)
theorem W14_arr (w : Fin cfg6.W) :
    W14 m c (Proc.devRef .tc (Pipeline.arrRef spec6 w)) = (dat6 (U13 m) c).arrAt w cfg6.N := exitV_arr _ _ c launch6 w
theorem W14_of_ne (b : Ref sig .tc) (hb : ∀ w, Pipeline.arrRef spec6 w ≠ b) :
    W14 m c (Proc.devRef .tc b) = W13 m c (Proc.devRef .tc b) := exitV_of_ne _ _ c b hb
abbrev U14 := rd (W14 m)

def outs : Outs (F := F) := fun n r c => match n with
  | 2 => W2 m c r | 4 => W4 m c r | 6 => W6 m c r | 8 => W8 m c r | 10 => W10 m c r | 12 => W12 m c r | _ => W14 m c r

end Cert.Kernel.Hand

end
-- ==== Proof.Bits.MlpRun0.lean ====
import proofs.«414687_j59708635349041_1_alg».proof.Proof.Gen.Kernel.Skeleton
import proofs.«414687_j59708635349041_1_alg».proof.Proof.Bits.MlpRegion0Base
import Idealize.ShloMosaic.Lib.Pipeline.FrameBody
import Idealize.ShloMosaic.Lib.Pipeline.Value
import Idealize.ShloMosaic.Lib.Pipeline.TableIdle
import Idealize.ShloMosaic.Lib.Tactic

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- Owning a whole memref at `X` is holding its elements at the one contents that read `X`. -/
theorem owns_unread0 {c : Dev nD} {sp : Space} {S : Shape} {e : EltTy} {m : Memref sig .tc sp S e} (h : m.IsWhole)
    (q : PosShare TreeShare) (X : S.Idx → Elt F e) : (owns c m q X : sProp 𝕄) = (m.view.loc c ↦[m.view.set]{q} h.unread X) := by
  rw [owns_eq_rep, h.eq_unread (View.read_rep _ X)]

/-- After stores whose LAST covers a whole memref, its contents are the ones that read that store's payload. -/
theorem read_writes_whole0 {κ : Kind} {sp : Space} {S : Shape} {e : EltTy} {m : Memref sig κ sp S e} (h : m.IsWhole)
    {off : Fin S.rank → Nat} (hz : off = fun _ => 0) (f : m.view.ty.Contents (Elt F)) (inb : ∀ a, off a + S.size a ≤ S.size a)
    (w : S.Idx → Elt F e) (L : List (View.Piece (Elt F) S e)) :
    m.view.writes (Elt F) f ((⟨Rect.unit off S.size inb, w⟩ : View.Piece (Elt F) S e) :: L) = h.unread w :=
  h.eq_unread (by rw [View.read_writes_eq_canon _ _ _ (fun y => ⟨_, List.Mem.head _, View.mem_set_unit_zero hz inb y⟩),
    View.canon_cons_unit_zero hz])

variable (c : Dev nD) (E : Set ℕ) (i : grid0.Coords) {arg1 arg6 : Memref sig .tc .vmem S5000x128 .f32}
  {arg2 arg4 : Memref sig .tc .vmem S128x128 .f32} {arg3 arg5 arg7 arg8 arg9 arg10 : Memref sig .tc .vmem S1x128 .f32}
  {harg1 : arg1.IsWhole} {harg2 : arg2.IsWhole} {harg3 : arg3.IsWhole} {harg4 : arg4.IsWhole} {harg5 : arg5.IsWhole}
  {harg6 : arg6.IsWhole} {harg7 : arg7.IsWhole} {harg8 : arg8.IsWhole} {harg9 : arg9.IsWhole} {harg10 : arg10.IsWhole}
  (x0 : Vec F S5000x128 .f32) (w1 : Vec F S128x128 .f32) (b1 : Vec F S1x128 .f32) (w2 : Vec F S128x128 .f32) (b2 s0 s1 r0 r1 : Vec F S1x128 .f32)

set_option maxHeartbeats 1000000 in
/-- One block: the running rows restart from zero at the first block, and the last block also stores them to the two row outputs. -/
theorem sound_kernel0_pt {K : PUnit → sProp 𝕄} (h : cond0_1 i → ¬cond0_2 i) :
    iprop(owns c arg1 fullShare x0 ∗ owns c arg2 fullShare w1 ∗ owns c arg3 fullShare b1 ∗ owns c arg4 fullShare w2 ∗ owns c arg5 fullShare b2
        ∗ (∃ d, owns c arg6 fullShare d) ∗ owns c arg7 fullShare r0 ∗ owns c arg8 fullShare r1 ∗ owns c arg9 fullShare s0 ∗ owns c arg10 fullShare s1
        ∗ (iprop(owns c arg1 fullShare x0 ∗ owns c arg2 fullShare w1 ∗ owns c arg3 fullShare b1 ∗ owns c arg4 fullShare w2 ∗ owns c arg5 fullShare b2
            ∗ owns c arg6 fullShare (k0_pay4 x0 w1 b1 w2 b2)
            ∗ owns c arg7 fullShare (if cond0_2 i then k0_pay5 x0 w1 b1 w2 b2 s0 else r0)
            ∗ owns c arg8 fullShare (if cond0_2 i then k0_pay1 (k0_pay4 x0 w1 b1 w2 b2) s1 else r1)
            ∗ owns c arg9 fullShare (k0_pay5 x0 w1 b1 w2 b2 (if cond0_1 i then k0_pay2 else s0))
            ∗ owns c arg10 fullShare (k0_pay1 (k0_pay4 x0 w1 b1 w2 b2) (if cond0_1 i then k0_pay3 else s1))) -∗ K ⟨⟩))
      ⊢ wp frame (wpE (defs₀ (F := F)) Variants.none c none) E (cc0__mlp_prebn_kernel i arg1 harg1 arg2 harg2 arg3 harg3 arg4 harg4 arg5 harg5 arg6 harg6 arg7 harg7 arg8 harg8 arg9 harg9 arg10 harg10) K := by
  by_cases hc1 : cond0_1 i <;> by_cases hc2 : cond0_2 i <;> [exact absurd hc2 (h hc1); skip; skip; skip] <;>
  · first | simp only [if_neg hc1] | simp only [if_pos hc1]
    first | simp only [if_neg hc2] | simp only [if_pos hc2]
    simp only [cc0__mlp_prebn_kernel_eq_skeleton]; unfold cc0__mlp_prebn_kernel_skel
    simp only [k0_part1_eq_skeleton, owns_unread0, harg1, harg2, harg3, harg4, harg5, harg6, harg7, harg8, harg9, harg10]
    iintro ⟨H1, H2, H3, H4, H5, ⟨%d6, H6⟩, H7, H8, H9, H10, Hk⟩
    sl_exec (disch := first | sl_exact hc1 | sl_exact hc2)
    sl_step
    iapply Hk
    sl_unfold_words
    simp only [View.readCov_unit_zero (S := S1x128) _ hz0, View.readAt_eq_ld, Memref.IsWhole.read_unread, View.ld_unit_zero (S := ⟨2, _⟩) hz0,
      read_writes_whole0 harg6 hz0, read_writes_whole0 harg7 hz0,
      read_writes_whole0 harg8 hz0, read_writes_whole0 harg9 hz0, read_writes_whole0 harg10 hz0]
    iframe

end Cert.Kernel.Hand
-- ==== Proof.Bits.MlpBody0.lean ====
import proofs.«414687_j59708635349041_1_alg».proof.Proof.Gen.Kernel.Launch
import proofs.«414687_j59708635349041_1_alg».proof.Proof.Gen.Kernel.Points
import proofs.«414687_j59708635349041_1_alg».proof.Proof.Bits.MlpRun0

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

section Region0

variable (V : (c : Dev nD) → (b : Ref sig .tc) → Buf (Elt F) ((c : Thread nD τ).loc b))

theorem liveAt0_lt : ∀ (w : Fin cfg0.W) (t : Fin cfg0.N), w.val < 6 ∨ t.val % 20 = 19 → cfg0.idle w (grid0.coords t) = false := by
  decide +kernel

theorem leaves0_live (c : Dev nD) (w : Fin cfg0.W) (t : Fin cfg0.N) (h : w.val < 6 ∨ t.val % 20 = 19) :
    (dat0 V c).leavesExact w t = owns (c : Thread nD τ) ((cfg0.win w).stage (cfg0.slots t w)) fullShare ((dat0 V c).after w t) := by
  unfold Dat.leavesExact; rw [liveAt0_lt w t h]

set_option maxHeartbeats 1000000 in
/-- The invariant hands the body the two running rows after the blocks before and takes them back advanced by this block. -/
theorem sound_body0 (c : Dev nD) (t : Fin cfg0.N) :
    iprop((dat0 V c).Φ t.castSucc ∗ (dat0 V c).owesAt () t.castSucc
        ∗ bigSep Finset.univ fun w : Fin cfg0.W => iprop(∃ d, owns (c : Thread nD τ) ((cfg0.win w).stage (cfg0.slots t w)) fullShare ((dat0 V c).before w t d)))
      ⊢ wp frame (wpE (defs₀ (F := F)) Variants.none c none) Set.univ (bodyAt0 t) fun _ =>
          iprop((dat0 V c).Φ t.succ ∗ (dat0 V c).owesAt () t.succ ∗ bigSep Finset.univ fun w => (dat0 V c).leavesExact w t) := by
  rw [bigSep_W0, bigSep_W0]
  simp only [before0_0, before0_1, before0_2, before0_3, before0_4]
  rw [show (dat0 V c).owesAt () t.succ = (dat0 V c).owesAt () t.castSucc from rfl, PhiS0_castSucc,
    show (dat0 V c).Φ t.succ = PhiS0 V c (t.val + 1) from rfl, PhiS0_succ,
    leaves0_live V c 0 t (.inl (by decide)), after0_0, leaves0_live V c 1 t (.inl (by decide)), after0_1,
    leaves0_live V c 2 t (.inl (by decide)), after0_2, leaves0_live V c 3 t (.inl (by decide)), after0_3,
    leaves0_live V c 4 t (.inl (by decide)), after0_4, leaves0_live V c 5 t (.inl (by decide)), after0_5,
    iblk0_0_eq V c t, iblk0_1_eq V c t, iblk0_2_eq V c t, iblk0_3_eq V c t, iblk0_4_eq V c t]
  have hN : t.val < 20 := lt_of_lt_of_eq t.isLt (show cfg0.N = 20 from N_0)
  have hx : cond0_1 (grid0.coords t) → ¬cond0_2 (grid0.coords t) := fun a b => by
    have := (hcond0_1 t).mp a; have := (hcond0_2 t).mp b; omega
  by_cases h2 : t.val % 20 = 19
  · have hz : t.val ≠ 0 := by omega
    have h19 : t.val = 19 := by omega
    rw [leaves0_live V c 6 t (.inr h2), after0_6, leaves0_live V c 7 t (.inr h2), after0_7,
      show sumAt0 V c 19 = sumAt0 V c t.val by rw [h19], show sqAt0 V c 19 = sqAt0 V c t.val by rw [h19],
      PhiS0_pos V c _ hz, sumAt0_next V c t.val hz, sqAt0_next V c t.val hz]
    iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (sound_kernel0_pt c Set.univ (grid0.coords t) (Mlp.blk (xArr0 V c) (ptOf0 t)) (w1Arr0 V c) (b1Arr0 V c) (w2Arr0 V c) (b2Arr0 V c) (sumAt0 V c (t.val - 1)) (sqAt0 V c (t.val - 1)) ((dat0 V c).before 6 t d6) ((dat0 V c).before 7 t d7) hx)
    simp only [if_pos ((hcond0_2 t).mpr h2), if_neg (fun a => hx a ((hcond0_2 t).mpr h2))]
    iframe H0 H1 H2 H3 H4 H6 H7 HS0 HS1
    isplitl [H5]; · iexists _; iexact H5
    iintro ⟨H0, H1, H2, H3, H4, H5, H6, H7, HS0, HS1⟩
    iframe
  · rw [Dat.leavesExact_idle (dat0 V c) 6 t (idleAt0_6 t h2) (noFlush0_6 t h2),
      Dat.leavesExact_idle (dat0 V c) 7 t (idleAt0_7 t h2) (noFlush0_7 t h2)]
    have hnc2 : ¬cond0_2 (grid0.coords t) := fun h => h2 ((hcond0_2 t).mp h)
    by_cases h1 : t.val % 20 = 0
    · have hz : t.val = 0 := by omega
      rw [PhiS0_zero V c _ hz, PhiA0_eq, sumAt0_first V c t.val hz, sqAt0_first V c t.val hz]
      iintro ⟨⟨⟨⟨⟨%s0, HS0⟩, ⟨%s1, HS1⟩⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (sound_kernel0_pt c Set.univ (grid0.coords t) (Mlp.blk (xArr0 V c) (ptOf0 t)) (w1Arr0 V c) (b1Arr0 V c) (w2Arr0 V c) (b2Arr0 V c) s0 s1 ((dat0 V c).before 6 t d6) ((dat0 V c).before 7 t d7) hx)
      simp only [if_pos ((hcond0_1 t).mpr h1), if_neg hnc2]
      iframe H0 H1 H2 H3 H4 H6 H7 HS0 HS1
      isplitl [H5]; · iexists _; iexact H5
      iintro ⟨H0, H1, H2, H3, H4, H5, H6, H7, HS0, HS1⟩
      iframe H0 H1 H2 H3 H4 H5 HS0 HS1 HR Hg Ho
      isplitl [H6]; · iexists _; iexact H6
      iexists _; iexact H7
    · have hz : t.val ≠ 0 := by omega
      rw [PhiS0_pos V c _ hz, sumAt0_next V c t.val hz, sqAt0_next V c t.val hz]
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (sound_kernel0_pt c Set.univ (grid0.coords t) (Mlp.blk (xArr0 V c) (ptOf0 t)) (w1Arr0 V c) (b1Arr0 V c) (w2Arr0 V c) (b2Arr0 V c) (sumAt0 V c (t.val - 1)) (sqAt0 V c (t.val - 1)) ((dat0 V c).before 6 t d6) ((dat0 V c).before 7 t d7) hx)
      simp only [if_neg (fun a => h1 ((hcond0_1 t).mp a)), if_neg hnc2]
      iframe H0 H1 H2 H3 H4 H6 H7 HS0 HS1
      isplitl [H5]; · iexists _; iexact H5
      iintro ⟨H0, H1, H2, H3, H4, H5, H6, H7, HS0, HS1⟩
      iframe H0 H1 H2 H3 H4 H5 HS0 HS1 HR Hg Ho
      isplitl [H6]; · iexists _; iexact H6
      iexists _; iexact H7

theorem body_obligation0 (c : Dev nD) : BodyObligation (dat0 (F := F) V c) (defs₀ (F := F)) Variants.none () Set.univ :=
  sound_body0 V c

end Region0

end Cert.Kernel.Hand
-- ==== Proof.Bits.MlpRun2.lean ====
import proofs.«414687_j59708635349041_1_alg».proof.Proof.Gen.Kernel.Skeleton
import proofs.«414687_j59708635349041_1_alg».proof.Proof.Bits.MlpRegion2Base
import Idealize.ShloMosaic.Lib.Pipeline.FrameBody
import Idealize.ShloMosaic.Lib.Pipeline.Value
import Idealize.ShloMosaic.Lib.Pipeline.TableIdle
import Idealize.ShloMosaic.Lib.Tactic

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- Owning a whole memref at `X` is holding its elements at the one contents that read `X`. -/
theorem owns_unread2 {c : Dev nD} {sp : Space} {S : Shape} {e : EltTy} {m : Memref sig .tc sp S e} (h : m.IsWhole)
    (q : PosShare TreeShare) (X : S.Idx → Elt F e) : (owns c m q X : sProp 𝕄) = (m.view.loc c ↦[m.view.set]{q} h.unread X) := by
  rw [owns_eq_rep, h.eq_unread (View.read_rep _ X)]

/-- After stores whose LAST covers a whole memref, its contents are the ones that read that store's payload. -/
theorem read_writes_whole2 {κ : Kind} {sp : Space} {S : Shape} {e : EltTy} {m : Memref sig κ sp S e} (h : m.IsWhole)
    {off : Fin S.rank → Nat} (hz : off = fun _ => 0) (f : m.view.ty.Contents (Elt F)) (inb : ∀ a, off a + S.size a ≤ S.size a)
    (w : S.Idx → Elt F e) (L : List (View.Piece (Elt F) S e)) :
    m.view.writes (Elt F) f ((⟨Rect.unit off S.size inb, w⟩ : View.Piece (Elt F) S e) :: L) = h.unread w :=
  h.eq_unread (by rw [View.read_writes_eq_canon _ _ _ (fun y => ⟨_, List.Mem.head _, View.mem_set_unit_zero hz inb y⟩),
    View.canon_cons_unit_zero hz])

variable (c : Dev nD) (E : Set ℕ) (i : grid2.Coords) {arg1 arg6 : Memref sig .tc .vmem S5000x128 .f32}
  {arg2 arg4 : Memref sig .tc .vmem S128x128 .f32} {arg3 arg5 arg7 arg8 arg9 arg10 : Memref sig .tc .vmem S1x128 .f32}
  {harg1 : arg1.IsWhole} {harg2 : arg2.IsWhole} {harg3 : arg3.IsWhole} {harg4 : arg4.IsWhole} {harg5 : arg5.IsWhole}
  {harg6 : arg6.IsWhole} {harg7 : arg7.IsWhole} {harg8 : arg8.IsWhole} {harg9 : arg9.IsWhole} {harg10 : arg10.IsWhole}
  (x0 : Vec F S5000x128 .f32) (w1 : Vec F S128x128 .f32) (b1 : Vec F S1x128 .f32) (w2 : Vec F S128x128 .f32) (b2 s0 s1 r0 r1 : Vec F S1x128 .f32)

set_option maxHeartbeats 1000000 in
/-- One block: the running rows restart from zero at the first block, and the last block also stores them to the two row outputs. -/
theorem sound_kernel2_pt {K : PUnit → sProp 𝕄} (h : cond2_1 i → ¬cond2_2 i) :
    iprop(owns c arg1 fullShare x0 ∗ owns c arg2 fullShare w1 ∗ owns c arg3 fullShare b1 ∗ owns c arg4 fullShare w2 ∗ owns c arg5 fullShare b2
        ∗ (∃ d, owns c arg6 fullShare d) ∗ owns c arg7 fullShare r0 ∗ owns c arg8 fullShare r1 ∗ owns c arg9 fullShare s0 ∗ owns c arg10 fullShare s1
        ∗ (iprop(owns c arg1 fullShare x0 ∗ owns c arg2 fullShare w1 ∗ owns c arg3 fullShare b1 ∗ owns c arg4 fullShare w2 ∗ owns c arg5 fullShare b2
            ∗ owns c arg6 fullShare (k2_pay4 x0 w1 b1 w2 b2)
            ∗ owns c arg7 fullShare (if cond2_2 i then k2_pay5 x0 w1 b1 w2 b2 s0 else r0)
            ∗ owns c arg8 fullShare (if cond2_2 i then k2_pay1 (k2_pay4 x0 w1 b1 w2 b2) s1 else r1)
            ∗ owns c arg9 fullShare (k2_pay5 x0 w1 b1 w2 b2 (if cond2_1 i then k2_pay2 else s0))
            ∗ owns c arg10 fullShare (k2_pay1 (k2_pay4 x0 w1 b1 w2 b2) (if cond2_1 i then k2_pay3 else s1))) -∗ K ⟨⟩))
      ⊢ wp frame (wpE (defs₀ (F := F)) Variants.none c none) E (cc2__mlp_prebn_kernel i arg1 harg1 arg2 harg2 arg3 harg3 arg4 harg4 arg5 harg5 arg6 harg6 arg7 harg7 arg8 harg8 arg9 harg9 arg10 harg10) K := by
  by_cases hc1 : cond2_1 i <;> by_cases hc2 : cond2_2 i <;> [exact absurd hc2 (h hc1); skip; skip; skip] <;>
  · first | simp only [if_neg hc1] | simp only [if_pos hc1]
    first | simp only [if_neg hc2] | simp only [if_pos hc2]
    simp only [cc2__mlp_prebn_kernel_eq_skeleton]; unfold cc2__mlp_prebn_kernel_skel
    simp only [k2_part1_eq_skeleton, owns_unread2, harg1, harg2, harg3, harg4, harg5, harg6, harg7, harg8, harg9, harg10]
    iintro ⟨H1, H2, H3, H4, H5, ⟨%d6, H6⟩, H7, H8, H9, H10, Hk⟩
    sl_exec (disch := first | sl_exact hc1 | sl_exact hc2)
    sl_step
    iapply Hk
    sl_unfold_words
    simp only [View.readCov_unit_zero (S := S1x128) _ hz2, View.readAt_eq_ld, Memref.IsWhole.read_unread, View.ld_unit_zero (S := ⟨2, _⟩) hz2,
      read_writes_whole2 harg6 hz2, read_writes_whole2 harg7 hz2,
      read_writes_whole2 harg8 hz2, read_writes_whole2 harg9 hz2, read_writes_whole2 harg10 hz2]
    iframe

end Cert.Kernel.Hand
-- ==== Proof.Bits.MlpBody2.lean ====
import proofs.«414687_j59708635349041_1_alg».proof.Proof.Gen.Kernel.Launch
import proofs.«414687_j59708635349041_1_alg».proof.Proof.Gen.Kernel.Points
import proofs.«414687_j59708635349041_1_alg».proof.Proof.Bits.MlpRun2

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

section Region2

variable (V : (c : Dev nD) → (b : Ref sig .tc) → Buf (Elt F) ((c : Thread nD τ).loc b))

theorem liveAt2_lt : ∀ (w : Fin cfg2.W) (t : Fin cfg2.N), w.val < 6 ∨ t.val % 20 = 19 → cfg2.idle w (grid2.coords t) = false := by
  decide +kernel

theorem leaves2_live (c : Dev nD) (w : Fin cfg2.W) (t : Fin cfg2.N) (h : w.val < 6 ∨ t.val % 20 = 19) :
    (dat2 V c).leavesExact w t = owns (c : Thread nD τ) ((cfg2.win w).stage (cfg2.slots t w)) fullShare ((dat2 V c).after w t) := by
  unfold Dat.leavesExact; rw [liveAt2_lt w t h]

set_option maxHeartbeats 1000000 in
/-- The invariant hands the body the two running rows after the blocks before and takes them back advanced by this block. -/
theorem sound_body2 (c : Dev nD) (t : Fin cfg2.N) :
    iprop((dat2 V c).Φ t.castSucc ∗ (dat2 V c).owesAt () t.castSucc
        ∗ bigSep Finset.univ fun w : Fin cfg2.W => iprop(∃ d, owns (c : Thread nD τ) ((cfg2.win w).stage (cfg2.slots t w)) fullShare ((dat2 V c).before w t d)))
      ⊢ wp frame (wpE (defs₀ (F := F)) Variants.none c none) Set.univ (bodyAt2 t) fun _ =>
          iprop((dat2 V c).Φ t.succ ∗ (dat2 V c).owesAt () t.succ ∗ bigSep Finset.univ fun w => (dat2 V c).leavesExact w t) := by
  rw [bigSep_W2, bigSep_W2]
  simp only [before2_0, before2_1, before2_2, before2_3, before2_4]
  rw [show (dat2 V c).owesAt () t.succ = (dat2 V c).owesAt () t.castSucc from rfl, PhiS2_castSucc,
    show (dat2 V c).Φ t.succ = PhiS2 V c (t.val + 1) from rfl, PhiS2_succ,
    leaves2_live V c 0 t (.inl (by decide)), after2_0, leaves2_live V c 1 t (.inl (by decide)), after2_1,
    leaves2_live V c 2 t (.inl (by decide)), after2_2, leaves2_live V c 3 t (.inl (by decide)), after2_3,
    leaves2_live V c 4 t (.inl (by decide)), after2_4, leaves2_live V c 5 t (.inl (by decide)), after2_5,
    iblk2_0_eq V c t, iblk2_1_eq V c t, iblk2_2_eq V c t, iblk2_3_eq V c t, iblk2_4_eq V c t]
  have hN : t.val < 20 := lt_of_lt_of_eq t.isLt (show cfg2.N = 20 from N_2)
  have hx : cond2_1 (grid2.coords t) → ¬cond2_2 (grid2.coords t) := fun a b => by
    have := (hcond2_1 t).mp a; have := (hcond2_2 t).mp b; omega
  by_cases h2 : t.val % 20 = 19
  · have hz : t.val ≠ 0 := by omega
    have h19 : t.val = 19 := by omega
    rw [leaves2_live V c 6 t (.inr h2), after2_6, leaves2_live V c 7 t (.inr h2), after2_7,
      show sumAt2 V c 19 = sumAt2 V c t.val by rw [h19], show sqAt2 V c 19 = sqAt2 V c t.val by rw [h19],
      PhiS2_pos V c _ hz, sumAt2_next V c t.val hz, sqAt2_next V c t.val hz]
    iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (sound_kernel2_pt c Set.univ (grid2.coords t) (Mlp2.blk (xArr2 V c) (ptOf2 t)) (w1Arr2 V c) (b1Arr2 V c) (w2Arr2 V c) (b2Arr2 V c) (sumAt2 V c (t.val - 1)) (sqAt2 V c (t.val - 1)) ((dat2 V c).before 6 t d6) ((dat2 V c).before 7 t d7) hx)
    simp only [if_pos ((hcond2_2 t).mpr h2), if_neg (fun a => hx a ((hcond2_2 t).mpr h2))]
    iframe H0 H1 H2 H3 H4 H6 H7 HS0 HS1
    isplitl [H5]; · iexists _; iexact H5
    iintro ⟨H0, H1, H2, H3, H4, H5, H6, H7, HS0, HS1⟩
    iframe
  · rw [Dat.leavesExact_idle (dat2 V c) 6 t (idleAt2_6 t h2) (noFlush2_6 t h2),
      Dat.leavesExact_idle (dat2 V c) 7 t (idleAt2_7 t h2) (noFlush2_7 t h2)]
    have hnc2 : ¬cond2_2 (grid2.coords t) := fun h => h2 ((hcond2_2 t).mp h)
    by_cases h1 : t.val % 20 = 0
    · have hz : t.val = 0 := by omega
      rw [PhiS2_zero V c _ hz, PhiA2_eq, sumAt2_first V c t.val hz, sqAt2_first V c t.val hz]
      iintro ⟨⟨⟨⟨⟨%s0, HS0⟩, ⟨%s1, HS1⟩⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (sound_kernel2_pt c Set.univ (grid2.coords t) (Mlp2.blk (xArr2 V c) (ptOf2 t)) (w1Arr2 V c) (b1Arr2 V c) (w2Arr2 V c) (b2Arr2 V c) s0 s1 ((dat2 V c).before 6 t d6) ((dat2 V c).before 7 t d7) hx)
      simp only [if_pos ((hcond2_1 t).mpr h1), if_neg hnc2]
      iframe H0 H1 H2 H3 H4 H6 H7 HS0 HS1
      isplitl [H5]; · iexists _; iexact H5
      iintro ⟨H0, H1, H2, H3, H4, H5, H6, H7, HS0, HS1⟩
      iframe H0 H1 H2 H3 H4 H5 HS0 HS1 HR Hg Ho
      isplitl [H6]; · iexists _; iexact H6
      iexists _; iexact H7
    · have hz : t.val ≠ 0 := by omega
      rw [PhiS2_pos V c _ hz, sumAt2_next V c t.val hz, sqAt2_next V c t.val hz]
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (sound_kernel2_pt c Set.univ (grid2.coords t) (Mlp2.blk (xArr2 V c) (ptOf2 t)) (w1Arr2 V c) (b1Arr2 V c) (w2Arr2 V c) (b2Arr2 V c) (sumAt2 V c (t.val - 1)) (sqAt2 V c (t.val - 1)) ((dat2 V c).before 6 t d6) ((dat2 V c).before 7 t d7) hx)
      simp only [if_neg (fun a => h1 ((hcond2_1 t).mp a)), if_neg hnc2]
      iframe H0 H1 H2 H3 H4 H6 H7 HS0 HS1
      isplitl [H5]; · iexists _; iexact H5
      iintro ⟨H0, H1, H2, H3, H4, H5, H6, H7, HS0, HS1⟩
      iframe H0 H1 H2 H3 H4 H5 HS0 HS1 HR Hg Ho
      isplitl [H6]; · iexists _; iexact H6
      iexists _; iexact H7

theorem body_obligation2 (c : Dev nD) : BodyObligation (dat2 (F := F) V c) (defs₀ (F := F)) Variants.none () Set.univ :=
  sound_body2 V c

end Region2

end Cert.Kernel.Hand
-- ==== Proof.Bits.MlpRun4.lean ====
import proofs.«414687_j59708635349041_1_alg».proof.Proof.Gen.Kernel.Skeleton
import proofs.«414687_j59708635349041_1_alg».proof.Proof.Bits.MlpRegion4Base
import Idealize.ShloMosaic.Lib.Pipeline.FrameBody
import Idealize.ShloMosaic.Lib.Pipeline.Value
import Idealize.ShloMosaic.Lib.Pipeline.TableIdle
import Idealize.ShloMosaic.Lib.Tactic

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- Owning a whole memref at `X` is holding its elements at the one contents that read `X`. -/
theorem owns_unread4 {c : Dev nD} {sp : Space} {S : Shape} {e : EltTy} {m : Memref sig .tc sp S e} (h : m.IsWhole)
    (q : PosShare TreeShare) (X : S.Idx → Elt F e) : (owns c m q X : sProp 𝕄) = (m.view.loc c ↦[m.view.set]{q} h.unread X) := by
  rw [owns_eq_rep, h.eq_unread (View.read_rep _ X)]

/-- After stores whose LAST covers a whole memref, its contents are the ones that read that store's payload. -/
theorem read_writes_whole4 {κ : Kind} {sp : Space} {S : Shape} {e : EltTy} {m : Memref sig κ sp S e} (h : m.IsWhole)
    {off : Fin S.rank → Nat} (hz : off = fun _ => 0) (f : m.view.ty.Contents (Elt F)) (inb : ∀ a, off a + S.size a ≤ S.size a)
    (w : S.Idx → Elt F e) (L : List (View.Piece (Elt F) S e)) :
    m.view.writes (Elt F) f ((⟨Rect.unit off S.size inb, w⟩ : View.Piece (Elt F) S e) :: L) = h.unread w :=
  h.eq_unread (by rw [View.read_writes_eq_canon _ _ _ (fun y => ⟨_, List.Mem.head _, View.mem_set_unit_zero hz inb y⟩),
    View.canon_cons_unit_zero hz])

variable (c : Dev nD) (E : Set ℕ) (i : grid4.Coords) {arg1 arg6 : Memref sig .tc .vmem S5000x128 .f32}
  {arg2 arg4 : Memref sig .tc .vmem S128x128 .f32} {arg3 arg5 arg7 arg8 arg9 arg10 : Memref sig .tc .vmem S1x128 .f32}
  {harg1 : arg1.IsWhole} {harg2 : arg2.IsWhole} {harg3 : arg3.IsWhole} {harg4 : arg4.IsWhole} {harg5 : arg5.IsWhole}
  {harg6 : arg6.IsWhole} {harg7 : arg7.IsWhole} {harg8 : arg8.IsWhole} {harg9 : arg9.IsWhole} {harg10 : arg10.IsWhole}
  (x0 : Vec F S5000x128 .f32) (w1 : Vec F S128x128 .f32) (b1 : Vec F S1x128 .f32) (w2 : Vec F S128x128 .f32) (b2 s0 s1 r0 r1 : Vec F S1x128 .f32)

set_option maxHeartbeats 1000000 in
/-- One block: the running rows restart from zero at the first block, and the last block also stores them to the two row outputs. -/
theorem sound_kernel4_pt {K : PUnit → sProp 𝕄} (h : cond4_1 i → ¬cond4_2 i) :
    iprop(owns c arg1 fullShare x0 ∗ owns c arg2 fullShare w1 ∗ owns c arg3 fullShare b1 ∗ owns c arg4 fullShare w2 ∗ owns c arg5 fullShare b2
        ∗ (∃ d, owns c arg6 fullShare d) ∗ owns c arg7 fullShare r0 ∗ owns c arg8 fullShare r1 ∗ owns c arg9 fullShare s0 ∗ owns c arg10 fullShare s1
        ∗ (iprop(owns c arg1 fullShare x0 ∗ owns c arg2 fullShare w1 ∗ owns c arg3 fullShare b1 ∗ owns c arg4 fullShare w2 ∗ owns c arg5 fullShare b2
            ∗ owns c arg6 fullShare (k4_pay4 x0 w1 b1 w2 b2)
            ∗ owns c arg7 fullShare (if cond4_2 i then k4_pay5 x0 w1 b1 w2 b2 s0 else r0)
            ∗ owns c arg8 fullShare (if cond4_2 i then k4_pay1 (k4_pay4 x0 w1 b1 w2 b2) s1 else r1)
            ∗ owns c arg9 fullShare (k4_pay5 x0 w1 b1 w2 b2 (if cond4_1 i then k4_pay2 else s0))
            ∗ owns c arg10 fullShare (k4_pay1 (k4_pay4 x0 w1 b1 w2 b2) (if cond4_1 i then k4_pay3 else s1))) -∗ K ⟨⟩))
      ⊢ wp frame (wpE (defs₀ (F := F)) Variants.none c none) E (cc4__mlp_prebn_kernel i arg1 harg1 arg2 harg2 arg3 harg3 arg4 harg4 arg5 harg5 arg6 harg6 arg7 harg7 arg8 harg8 arg9 harg9 arg10 harg10) K := by
  by_cases hc1 : cond4_1 i <;> by_cases hc2 : cond4_2 i <;> [exact absurd hc2 (h hc1); skip; skip; skip] <;>
  · first | simp only [if_neg hc1] | simp only [if_pos hc1]
    first | simp only [if_neg hc2] | simp only [if_pos hc2]
    simp only [cc4__mlp_prebn_kernel_eq_skeleton]; unfold cc4__mlp_prebn_kernel_skel
    simp only [k4_part1_eq_skeleton, owns_unread4, harg1, harg2, harg3, harg4, harg5, harg6, harg7, harg8, harg9, harg10]
    iintro ⟨H1, H2, H3, H4, H5, ⟨%d6, H6⟩, H7, H8, H9, H10, Hk⟩
    sl_exec (disch := first | sl_exact hc1 | sl_exact hc2)
    sl_step
    iapply Hk
    sl_unfold_words
    simp only [View.readCov_unit_zero (S := S1x128) _ hz4, View.readAt_eq_ld, Memref.IsWhole.read_unread, View.ld_unit_zero (S := ⟨2, _⟩) hz4,
      read_writes_whole4 harg6 hz4, read_writes_whole4 harg7 hz4,
      read_writes_whole4 harg8 hz4, read_writes_whole4 harg9 hz4, read_writes_whole4 harg10 hz4]
    iframe

end Cert.Kernel.Hand
-- ==== Proof.Bits.MlpBody4.lean ====
import proofs.«414687_j59708635349041_1_alg».proof.Proof.Gen.Kernel.Launch
import proofs.«414687_j59708635349041_1_alg».proof.Proof.Gen.Kernel.Points
import proofs.«414687_j59708635349041_1_alg».proof.Proof.Bits.MlpRun4

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

section Region4

variable (V : (c : Dev nD) → (b : Ref sig .tc) → Buf (Elt F) ((c : Thread nD τ).loc b))

theorem liveAt4_lt : ∀ (w : Fin cfg4.W) (t : Fin cfg4.N), w.val < 6 ∨ t.val % 20 = 19 → cfg4.idle w (grid4.coords t) = false := by
  decide +kernel

theorem leaves4_live (c : Dev nD) (w : Fin cfg4.W) (t : Fin cfg4.N) (h : w.val < 6 ∨ t.val % 20 = 19) :
    (dat4 V c).leavesExact w t = owns (c : Thread nD τ) ((cfg4.win w).stage (cfg4.slots t w)) fullShare ((dat4 V c).after w t) := by
  unfold Dat.leavesExact; rw [liveAt4_lt w t h]

set_option maxHeartbeats 1000000 in
/-- The invariant hands the body the two running rows after the blocks before and takes them back advanced by this block. -/
theorem sound_body4 (c : Dev nD) (t : Fin cfg4.N) :
    iprop((dat4 V c).Φ t.castSucc ∗ (dat4 V c).owesAt () t.castSucc
        ∗ bigSep Finset.univ fun w : Fin cfg4.W => iprop(∃ d, owns (c : Thread nD τ) ((cfg4.win w).stage (cfg4.slots t w)) fullShare ((dat4 V c).before w t d)))
      ⊢ wp frame (wpE (defs₀ (F := F)) Variants.none c none) Set.univ (bodyAt4 t) fun _ =>
          iprop((dat4 V c).Φ t.succ ∗ (dat4 V c).owesAt () t.succ ∗ bigSep Finset.univ fun w => (dat4 V c).leavesExact w t) := by
  rw [bigSep_W4, bigSep_W4]
  simp only [before4_0, before4_1, before4_2, before4_3, before4_4]
  rw [show (dat4 V c).owesAt () t.succ = (dat4 V c).owesAt () t.castSucc from rfl, PhiS4_castSucc,
    show (dat4 V c).Φ t.succ = PhiS4 V c (t.val + 1) from rfl, PhiS4_succ,
    leaves4_live V c 0 t (.inl (by decide)), after4_0, leaves4_live V c 1 t (.inl (by decide)), after4_1,
    leaves4_live V c 2 t (.inl (by decide)), after4_2, leaves4_live V c 3 t (.inl (by decide)), after4_3,
    leaves4_live V c 4 t (.inl (by decide)), after4_4, leaves4_live V c 5 t (.inl (by decide)), after4_5,
    iblk4_0_eq V c t, iblk4_1_eq V c t, iblk4_2_eq V c t, iblk4_3_eq V c t, iblk4_4_eq V c t]
  have hN : t.val < 20 := lt_of_lt_of_eq t.isLt (show cfg4.N = 20 from N_4)
  have hx : cond4_1 (grid4.coords t) → ¬cond4_2 (grid4.coords t) := fun a b => by
    have := (hcond4_1 t).mp a; have := (hcond4_2 t).mp b; omega
  by_cases h2 : t.val % 20 = 19
  · have hz : t.val ≠ 0 := by omega
    have h19 : t.val = 19 := by omega
    rw [leaves4_live V c 6 t (.inr h2), after4_6, leaves4_live V c 7 t (.inr h2), after4_7,
      show sumAt4 V c 19 = sumAt4 V c t.val by rw [h19], show sqAt4 V c 19 = sqAt4 V c t.val by rw [h19],
      PhiS4_pos V c _ hz, sumAt4_next V c t.val hz, sqAt4_next V c t.val hz]
    iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (sound_kernel4_pt c Set.univ (grid4.coords t) (Mlp4.blk (xArr4 V c) (ptOf4 t)) (w1Arr4 V c) (b1Arr4 V c) (w2Arr4 V c) (b2Arr4 V c) (sumAt4 V c (t.val - 1)) (sqAt4 V c (t.val - 1)) ((dat4 V c).before 6 t d6) ((dat4 V c).before 7 t d7) hx)
    simp only [if_pos ((hcond4_2 t).mpr h2), if_neg (fun a => hx a ((hcond4_2 t).mpr h2))]
    iframe H0 H1 H2 H3 H4 H6 H7 HS0 HS1
    isplitl [H5]; · iexists _; iexact H5
    iintro ⟨H0, H1, H2, H3, H4, H5, H6, H7, HS0, HS1⟩
    iframe
  · rw [Dat.leavesExact_idle (dat4 V c) 6 t (idleAt4_6 t h2) (noFlush4_6 t h2),
      Dat.leavesExact_idle (dat4 V c) 7 t (idleAt4_7 t h2) (noFlush4_7 t h2)]
    have hnc2 : ¬cond4_2 (grid4.coords t) := fun h => h2 ((hcond4_2 t).mp h)
    by_cases h1 : t.val % 20 = 0
    · have hz : t.val = 0 := by omega
      rw [PhiS4_zero V c _ hz, PhiA4_eq, sumAt4_first V c t.val hz, sqAt4_first V c t.val hz]
      iintro ⟨⟨⟨⟨⟨%s0, HS0⟩, ⟨%s1, HS1⟩⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (sound_kernel4_pt c Set.univ (grid4.coords t) (Mlp4.blk (xArr4 V c) (ptOf4 t)) (w1Arr4 V c) (b1Arr4 V c) (w2Arr4 V c) (b2Arr4 V c) s0 s1 ((dat4 V c).before 6 t d6) ((dat4 V c).before 7 t d7) hx)
      simp only [if_pos ((hcond4_1 t).mpr h1), if_neg hnc2]
      iframe H0 H1 H2 H3 H4 H6 H7 HS0 HS1
      isplitl [H5]; · iexists _; iexact H5
      iintro ⟨H0, H1, H2, H3, H4, H5, H6, H7, HS0, HS1⟩
      iframe H0 H1 H2 H3 H4 H5 HS0 HS1 HR Hg Ho
      isplitl [H6]; · iexists _; iexact H6
      iexists _; iexact H7
    · have hz : t.val ≠ 0 := by omega
      rw [PhiS4_pos V c _ hz, sumAt4_next V c t.val hz, sqAt4_next V c t.val hz]
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (sound_kernel4_pt c Set.univ (grid4.coords t) (Mlp4.blk (xArr4 V c) (ptOf4 t)) (w1Arr4 V c) (b1Arr4 V c) (w2Arr4 V c) (b2Arr4 V c) (sumAt4 V c (t.val - 1)) (sqAt4 V c (t.val - 1)) ((dat4 V c).before 6 t d6) ((dat4 V c).before 7 t d7) hx)
      simp only [if_neg (fun a => h1 ((hcond4_1 t).mp a)), if_neg hnc2]
      iframe H0 H1 H2 H3 H4 H6 H7 HS0 HS1
      isplitl [H5]; · iexists _; iexact H5
      iintro ⟨H0, H1, H2, H3, H4, H5, H6, H7, HS0, HS1⟩
      iframe H0 H1 H2 H3 H4 H5 HS0 HS1 HR Hg Ho
      isplitl [H6]; · iexists _; iexact H6
      iexists _; iexact H7

theorem body_obligation4 (c : Dev nD) : BodyObligation (dat4 (F := F) V c) (defs₀ (F := F)) Variants.none () Set.univ :=
  sound_body4 V c

end Region4

end Cert.Kernel.Hand
-- ==== Proof.Bits.Regs.lean ====
import proofs.«414687_j59708635349041_1_alg».proof.Proof.Bits.SegsBase
import proofs.«414687_j59708635349041_1_alg».proof.Proof.Bits.MlpBody0
import proofs.«414687_j59708635349041_1_alg».proof.Proof.Bits.MlpBody2
import proofs.«414687_j59708635349041_1_alg».proof.Proof.Bits.MlpBody4

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (UR sig nD τ) ℕ

variable (m : (ℓ : Loc nD τ sig) → Buf (Elt F) ℓ)

/-- Every pipeline's proof data, each at its region's entry contents. -/
def pdats : (p : Fin 7) → (c : Dev nD) → Dat τ (Elt F) Unit ℕ (UR sig nD τ) ℕ (cfgs p) c
  | ⟨0, _⟩ => dat0 (U1 m)
  | ⟨1, _⟩ => dat1 (U3 m)
  | ⟨2, _⟩ => dat2 (U5 m)
  | ⟨3, _⟩ => dat3 (U7 m)
  | ⟨4, _⟩ => dat4 (U9 m)
  | ⟨5, _⟩ => dat5 (U11 m)
  | ⟨6, _⟩ => dat6 (U13 m)

abbrev Lz : GSem nD τ sig → Finset Unit := fun _ => ∅
abbrev lvz : GSem nD τ sig → Unit → ℕ := fun _ _ => 0
/-- What rides beside the buffers through every segment: the generator register at some state and an empty debt. -/
abbrev Rst (c : Dev nD) : sProp 𝕄 := iprop((∃ r, prngReg c r) ∗ ∃ W, owes (c : Thread nD τ) (0 : CellTallies nD τ sig Unit) W)

set_option backward.isDefEq.respectTransparency.types false in
/-- The segment record of a region entered with the unscoped buffers at `W` and left with them at `exitV`. -/
def regOf {p : Fin 7} (lf : Pipeline.LaunchFacts (nD := nD) (τ := τ) cfgs p)
    (pd : (p : Fin 7) → (c : Dev nD) → Dat τ (Elt F) Unit ℕ (UR sig nD τ) ℕ (cfgs p) c) (W : Dev nD → Valuation τ sig (Elt F))
    (hd : ∀ c, (∀ w, (pd p c).q w = fullShare) ∧ (∀ w, (pd p c).A w = rd W c (Pipeline.arrRef (cfgs p).spec w))
      ∧ (∀ t, (pd p c).owed t = 0) ∧ (pd p c).recorded 0 = Set.univ) (hB : ∀ c, BodyObligation (pd p c) (defs₀ (F := F)) Variants.none () Set.univ)
    (hI : ∀ c, Pipeline.ΦA (cfgs p).spec c ⊢ (pd p c).Φ 0) (hO : ∀ c, (pd p c).Φ (Fin.last (cfgs p).N) ⊢ Pipeline.ΦA (cfgs p).spec c) :
    Pipeline.RegionSeg (pcfgs (F := F)) adm pd () defs₀ Variants.none Lz lvz p where
  win := lf.win.to₀
  block_pos := lf.block_pos
  stage_whole := lf.stage_whole
  K := PEmpty
  osem k := k.elim
  ho := Pipeline.OwnSemFacts.none _
  hbody c := (hB c).loose
  hwaits := Pipeline.hwaits_of_owed_zero _ _ _ _ Lz lvz p fun c => (hd c).2.2.1
  pre c := iprop(StableHlo.held (c : Thread nD τ) (Pipeline.ucRefs τ sig) (W c) ∗ Rst c)
  post c := iprop(StableHlo.held (c : Thread nD τ) (Pipeline.ucRefs τ sig) (exitV (pd p) W c) ∗ Rst c)
  X c := iprop(∃ r, prngReg c r)
  Y c := iprop(∃ r, prngReg c r)
  Z c := Pipeline.unscopedRest (Ix := Unit) (Name := ℕ) (U := UR sig nD τ) (Lvl := ℕ) (cfgs p).spec c (rd W c)
  hentry c := by
    rw [Pipeline.ownSems0_none]
    have hsplit := Pipeline.arrays_of_unscopedBufs (p := p) (pcfgs (F := F)) adm pd lf.win lf.arr_whole c
      ((pd p c).share_full (hd c).1) (rd W c) (hd c).2.1
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin; rw [(hd c).2.2.1]
      icases HO with ⟨%W, HO⟩; iexists W; isplitr; · ipureintro; exact fun _ _ => Or.inl ((hd c).2.2.2 ▸ trivial)
      iexact HO
    isplitl [Hp]; · iexact Hp
    iexact Hrest
  hin c := by
    refine BIBase.Entails.trans ?_ (hI c)
    unfold Pipeline.ΦA
    iintro ⟨Hp, -, Hr⟩
    isplitl [Hr]; · iexact Hr
    iexact Hp
  hout c := by
    rw [Pipeline.ownSems0_none]
    refine BIBase.Entails.trans (hO c) ?_
    unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      lf.win lf.arr_whole c pd ((pd p c).share_full (hd c).1) (rd W c) (rd (exitV (pd p) W) c) ((pd p c).arrAt · (cfgs p).N)
      (fun w => (exitV_arr _ _ c lf w).symm)
      fun b hb => exitV_of_ne _ _ c b fun w e => hb (Finset.mem_image.mpr ⟨w, Finset.mem_univ _, e⟩)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin; rw [(hd c).2.2.1]
    icases HO with ⟨%W, -, HO⟩; iexists W; iexact HO

def reg0 := regOf launch0 (pdats m) (W1 m) (fun _ => ⟨fun _ => rfl, fun _ => rfl, fun _ => rfl, rfl⟩) (body_obligation0 (U1 m)) (hin0 (U1 m)) (hout0 (U1 m))
def reg1 := regOf launch1 (pdats m) (W3 m) (fun _ => ⟨fun _ => rfl, fun _ => rfl, fun _ => rfl, rfl⟩) (body_obligation1 (U3 m)) (hin1 (U3 m)) (hout1 (U3 m))
def reg2 := regOf launch2 (pdats m) (W5 m) (fun _ => ⟨fun _ => rfl, fun _ => rfl, fun _ => rfl, rfl⟩) (body_obligation2 (U5 m)) (hin2 (U5 m)) (hout2 (U5 m))
def reg3 := regOf launch3 (pdats m) (W7 m) (fun _ => ⟨fun _ => rfl, fun _ => rfl, fun _ => rfl, rfl⟩) (body_obligation3 (U7 m)) (hin3 (U7 m)) (hout3 (U7 m))
def reg4 := regOf launch4 (pdats m) (W9 m) (fun _ => ⟨fun _ => rfl, fun _ => rfl, fun _ => rfl, rfl⟩) (body_obligation4 (U9 m)) (hin4 (U9 m)) (hout4 (U9 m))
def reg5 := regOf launch5 (pdats m) (W11 m) (fun _ => ⟨fun _ => rfl, fun _ => rfl, fun _ => rfl, rfl⟩) (body_obligation5 (U11 m)) (hin5 (U11 m)) (hout5 (U11 m))
def reg6 := regOf launch6 (pdats m) (W13 m) (fun _ => ⟨fun _ => rfl, fun _ => rfl, fun _ => rfl, rfl⟩) (body_obligation6 (U13 m)) (hin6 (U13 m)) (hout6 (U13 m))

end Cert.Kernel.Hand

end
-- ==== Proof.Bits.MlpFinal0.lean ====
import proofs.«414687_j59708635349041_1_alg».proof.Proof.Gen.Kernel.Skeleton
import proofs.«414687_j59708635349041_1_alg».proof.Proof.Gen.Kernel.Launch
import proofs.«414687_j59708635349041_1_alg».proof.Proof.Gen.Kernel.Points
import proofs.«414687_j59708635349041_1_alg».proof.Proof.Bits.MlpSpec
import proofs.«414687_j59708635349041_1_alg».proof.Proof.Bits.MlpRegion0Base
import Idealize.ShloMosaic.Lib.Pipeline.Frame
import Idealize.ShloMosaic.Lib.Pipeline.FrameBody
import Idealize.ShloMosaic.Lib.Pipeline.Value
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open Idealize.SL.Sem
open Idealize.ShloMosaic.Rounds
open Idealize.ShloMosaic.Pipeline (Dat Cfg Window)
open Idealize.ShloMosaic.ValueIdx

variable {F : FTy → Type} [FloatOps F]

/-- Dividing a row's number by 5000 gives its block and its place in the block. -/
theorem Final0.h2Arr_at (X : Vec F S100000x128 .f32) (w1 : Vec F S128x128 .f32) (b1 : Vec F S1x128 .f32)
    (w2 : Vec F S128x128 .f32) (b2 : Vec F S1x128 .f32) (k : Fin 20) (j : S5000x128.Idx) (i : S100000x128.Idx)
    (h0 : (i 0).val = k.val * 5000 + (j 0).val) (h1 : (i 1).val = (j 1).val) :
    Mlp.h2Arr X w1 b1 w2 b2 i = k0_pay4 (Mlp.blk X k) w1 b1 w2 b2 j := by
  have hj0 : (j 0).val < 5000 := (j 0).isLt
  have hk : (⟨(i 0).val / 5000, Mlp.row_div_lt (i 0)⟩ : Fin 20) = k := Fin.ext (by show (i 0).val / 5000 = k.val; omega)
  have hj : ix2 (⟨(i 0).val % 5000, Mlp.row_mod_lt (i 0)⟩ : Fin 5000) (i 1) = j := funext fun a => by
    match a with
    | ⟨0, _⟩ => exact Fin.ext (by show (i 0).val % 5000 = (j 0).val; omega)
    | ⟨1, _⟩ => exact Fin.ext h1
  unfold Mlp.h2Arr; rw [hk]; exact congrArg _ hj

section Region0

variable (V : (c : Dev nD) → (b : Ref sig .tc) → Buf (Elt F) ((c : Thread nD τ).loc b)) (c : Dev nD)

/-- Row `r` of the h2 array lies in the block of point `r / 5000`. -/
theorem cover0_5 (i : S100000x128.Idx) : ∃ t : Fin cfg0.N, (cfg0.win 5).flush t = true ∧ i ∈ ((cfg0.win 5).blk t).view.set := by
  have hi0 : (i 0).val < 100000 := (i 0).isLt
  have hi1 : (i 1).val < 128 := (i 1).isLt
  have hN : cfg0.N = 20 := N_0
  let t : Fin cfg0.N := ⟨(i 0).val / 5000, by omega⟩
  have ht : t.val = (i 0).val / 5000 := rfl
  obtain ⟨hz, -, e5, -⟩ := idx_facts0 t
  refine ⟨t, flush0_5 t, ?_⟩
  show i ∈ ((View.whole main_v25_0).slice (win0_5.rect t)).set
  rw [View.set_slice_whole, Rect.mem_set_unit]
  intro a
  match a with
  | ⟨0, _⟩ =>
    show win0_5.index t (0 : Fin 2) * 5000 ≤ (i 0).val ∧ (i 0).val < win0_5.index t (0 : Fin 2) * 5000 + 5000
    omega
  | ⟨1, _⟩ =>
    have h : win0_5.index t (1 : Fin 2) = 0 := hz 5 (1 : Fin 2) (.inr (by decide))
    show win0_5.index t (1 : Fin 2) * 128 ≤ (i 1).val ∧ (i 1).val < win0_5.index t (1 : Fin 2) * 128 + 128
    omega

/-- The points' blocks of rows tile the array, and block `t` holds the h2 of block `t`. -/
theorem final0_5 : (dat0 V c).arrAt 5 cfg0.N = Mlp.h2Arr (V c main_v14) (V c main_v16) (V c main_v23) (V c main_v20) (V c main_v24) :=
  (dat0 V c).arrAt_eq_of_cover 5 _ (fun t _ => funext fun j => by
    obtain ⟨hz, -, e5, hN⟩ := idx_facts0 t
    show _ = Mlp.h2Arr _ _ _ _ _ (((cfg0.win 5).blk t).view.emb j)
    refine (Final0.h2Arr_at _ _ _ _ _ (Mlp.pt t.val) j _ ?_ ?_).symm
    · show win0_5.index t (0 : Fin 2) * 5000 + 1 * (j 0).val = t.val % 20 * 5000 + (j 0).val; omega
    · exact win0_5.rect_emb_val_of_index_zero t 1 (hz 5 (1 : Fin 2) (.inr (by decide))) j) cover0_5

/-- The last point's block of row output 6 is the whole 1x128 array. -/
theorem cover0_6 (i : S1x128.Idx) : ∃ t : Fin cfg0.N, (cfg0.win 6).flush t = true ∧ i ∈ ((cfg0.win 6).blk t).view.set := by
  let t : Fin cfg0.N := ⟨19, by decide⟩
  refine ⟨t, (flush0_6 t).mpr rfl, ?_⟩
  show i ∈ ((View.whole main_v25_1).slice (win0_6.rect t)).set
  rw [View.set_slice_whole, Rect.mem_set_unit]
  intro a
  have h : win0_6.index t a = 0 := (idx_facts0 t).1 6 a (.inl (by decide))
  show win0_6.index t a * _ ≤ _ ∧ _ < win0_6.index t a * _ + _
  rw [h, Nat.zero_mul, Nat.zero_add]; exact ⟨Nat.zero_le _, (i a).isLt⟩

theorem final0_6 : (dat0 V c).arrAt 6 cfg0.N = Mlp.sumRow (V c main_v14) (V c main_v16) (V c main_v23) (V c main_v20) (V c main_v24) :=
  (dat0 V c).arrAt_eq_of_cover 6 _ (fun t _ => funext fun j => congrArg (Mlp.sumRow (V c main_v14) (V c main_v16) (V c main_v23) (V c main_v20) (V c main_v24)) (funext fun a => Fin.ext
    (win0_6.rect_emb_val_of_index_zero t a ((idx_facts0 t).1 6 a (.inl (by decide))) j).symm)) cover0_6

/-- The last point's block of row output 7 is the whole 1x128 array. -/
theorem cover0_7 (i : S1x128.Idx) : ∃ t : Fin cfg0.N, (cfg0.win 7).flush t = true ∧ i ∈ ((cfg0.win 7).blk t).view.set := by
  let t : Fin cfg0.N := ⟨19, by decide⟩
  refine ⟨t, (flush0_7 t).mpr rfl, ?_⟩
  show i ∈ ((View.whole main_v25_2).slice (win0_7.rect t)).set
  rw [View.set_slice_whole, Rect.mem_set_unit]
  intro a
  have h : win0_7.index t a = 0 := (idx_facts0 t).1 7 a (.inl (by decide))
  show win0_7.index t a * _ ≤ _ ∧ _ < win0_7.index t a * _ + _
  rw [h, Nat.zero_mul, Nat.zero_add]; exact ⟨Nat.zero_le _, (i a).isLt⟩

theorem final0_7 : (dat0 V c).arrAt 7 cfg0.N = Mlp.sqRow (V c main_v14) (V c main_v16) (V c main_v23) (V c main_v20) (V c main_v24) :=
  (dat0 V c).arrAt_eq_of_cover 7 _ (fun t _ => funext fun j => congrArg (Mlp.sqRow (V c main_v14) (V c main_v16) (V c main_v23) (V c main_v20) (V c main_v24)) (funext fun a => Fin.ext
    (win0_7.rect_emb_val_of_index_zero t a ((idx_facts0 t).1 7 a (.inl (by decide))) j).symm)) cover0_7

theorem kept0 (w : Fin cfg0.W) (hw : w.val < 5) : (dat0 V c).arrAt w cfg0.N = V c (Pipeline.arrRef spec0 w) :=
  (dat0 V c).arrAt_in w ((by decide : ∀ w : Fin cfg0.W, w.val < 5 → (cfg0.win w).isOut = false) w hw) _

end Region0

end Cert.Kernel.Hand
end
-- ==== Proof.Bits.MlpFinal2.lean ====
import proofs.«414687_j59708635349041_1_alg».proof.Proof.Gen.Kernel.Skeleton
import proofs.«414687_j59708635349041_1_alg».proof.Proof.Gen.Kernel.Launch
import proofs.«414687_j59708635349041_1_alg».proof.Proof.Gen.Kernel.Points
import proofs.«414687_j59708635349041_1_alg».proof.Proof.Bits.MlpSpec
import proofs.«414687_j59708635349041_1_alg».proof.Proof.Bits.MlpRegion2Base
import Idealize.ShloMosaic.Lib.Pipeline.Frame
import Idealize.ShloMosaic.Lib.Pipeline.FrameBody
import Idealize.ShloMosaic.Lib.Pipeline.Value
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open Idealize.SL.Sem
open Idealize.ShloMosaic.Rounds
open Idealize.ShloMosaic.Pipeline (Dat Cfg Window)
open Idealize.ShloMosaic.ValueIdx

variable {F : FTy → Type} [FloatOps F]

/-- Dividing a row's number by 5000 gives its block and its place in the block. -/
theorem Final2.h2Arr_at (X : Vec F S100000x128 .f32) (w1 : Vec F S128x128 .f32) (b1 : Vec F S1x128 .f32)
    (w2 : Vec F S128x128 .f32) (b2 : Vec F S1x128 .f32) (k : Fin 20) (j : S5000x128.Idx) (i : S100000x128.Idx)
    (h0 : (i 0).val = k.val * 5000 + (j 0).val) (h1 : (i 1).val = (j 1).val) :
    Mlp2.h2Arr X w1 b1 w2 b2 i = k2_pay4 (Mlp2.blk X k) w1 b1 w2 b2 j := by
  have hj0 : (j 0).val < 5000 := (j 0).isLt
  have hk : (⟨(i 0).val / 5000, Mlp2.row_div_lt (i 0)⟩ : Fin 20) = k := Fin.ext (by show (i 0).val / 5000 = k.val; omega)
  have hj : ix2 (⟨(i 0).val % 5000, Mlp2.row_mod_lt (i 0)⟩ : Fin 5000) (i 1) = j := funext fun a => by
    match a with
    | ⟨0, _⟩ => exact Fin.ext (by show (i 0).val % 5000 = (j 0).val; omega)
    | ⟨1, _⟩ => exact Fin.ext h1
  unfold Mlp2.h2Arr; rw [hk]; exact congrArg _ hj

section Region2

variable (V : (c : Dev nD) → (b : Ref sig .tc) → Buf (Elt F) ((c : Thread nD τ).loc b)) (c : Dev nD)

/-- Row `r` of the h2 array lies in the block of point `r / 5000`. -/
theorem cover2_5 (i : S100000x128.Idx) : ∃ t : Fin cfg2.N, (cfg2.win 5).flush t = true ∧ i ∈ ((cfg2.win 5).blk t).view.set := by
  have hi0 : (i 0).val < 100000 := (i 0).isLt
  have hi1 : (i 1).val < 128 := (i 1).isLt
  have hN : cfg2.N = 20 := N_2
  let t : Fin cfg2.N := ⟨(i 0).val / 5000, by omega⟩
  have ht : t.val = (i 0).val / 5000 := rfl
  obtain ⟨hz, -, e5, -⟩ := idx_facts2 t
  refine ⟨t, flush2_5 t, ?_⟩
  show i ∈ ((View.whole main_v67_0).slice (win2_5.rect t)).set
  rw [View.set_slice_whole, Rect.mem_set_unit]
  intro a
  match a with
  | ⟨0, _⟩ =>
    show win2_5.index t (0 : Fin 2) * 5000 ≤ (i 0).val ∧ (i 0).val < win2_5.index t (0 : Fin 2) * 5000 + 5000
    omega
  | ⟨1, _⟩ =>
    have h : win2_5.index t (1 : Fin 2) = 0 := hz 5 (1 : Fin 2) (.inr (by decide))
    show win2_5.index t (1 : Fin 2) * 128 ≤ (i 1).val ∧ (i 1).val < win2_5.index t (1 : Fin 2) * 128 + 128
    omega

/-- The points' blocks of rows tile the array, and block `t` holds the h2 of block `t`. -/
theorem final2_5 : (dat2 V c).arrAt 5 cfg2.N = Mlp2.h2Arr (V c main_v56) (V c main_v58) (V c main_v65) (V c main_v62) (V c main_v66) :=
  (dat2 V c).arrAt_eq_of_cover 5 _ (fun t _ => funext fun j => by
    obtain ⟨hz, -, e5, hN⟩ := idx_facts2 t
    show _ = Mlp2.h2Arr _ _ _ _ _ (((cfg2.win 5).blk t).view.emb j)
    refine (Final2.h2Arr_at _ _ _ _ _ (Mlp2.pt t.val) j _ ?_ ?_).symm
    · show win2_5.index t (0 : Fin 2) * 5000 + 1 * (j 0).val = t.val % 20 * 5000 + (j 0).val; omega
    · exact win2_5.rect_emb_val_of_index_zero t 1 (hz 5 (1 : Fin 2) (.inr (by decide))) j) cover2_5

/-- The last point's block of row output 6 is the whole 1x128 array. -/
theorem cover2_6 (i : S1x128.Idx) : ∃ t : Fin cfg2.N, (cfg2.win 6).flush t = true ∧ i ∈ ((cfg2.win 6).blk t).view.set := by
  let t : Fin cfg2.N := ⟨19, by decide⟩
  refine ⟨t, (flush2_6 t).mpr rfl, ?_⟩
  show i ∈ ((View.whole main_v67_1).slice (win2_6.rect t)).set
  rw [View.set_slice_whole, Rect.mem_set_unit]
  intro a
  have h : win2_6.index t a = 0 := (idx_facts2 t).1 6 a (.inl (by decide))
  show win2_6.index t a * _ ≤ _ ∧ _ < win2_6.index t a * _ + _
  rw [h, Nat.zero_mul, Nat.zero_add]; exact ⟨Nat.zero_le _, (i a).isLt⟩

theorem final2_6 : (dat2 V c).arrAt 6 cfg2.N = Mlp2.sumRow (V c main_v56) (V c main_v58) (V c main_v65) (V c main_v62) (V c main_v66) :=
  (dat2 V c).arrAt_eq_of_cover 6 _ (fun t _ => funext fun j => congrArg (Mlp2.sumRow (V c main_v56) (V c main_v58) (V c main_v65) (V c main_v62) (V c main_v66)) (funext fun a => Fin.ext
    (win2_6.rect_emb_val_of_index_zero t a ((idx_facts2 t).1 6 a (.inl (by decide))) j).symm)) cover2_6

/-- The last point's block of row output 7 is the whole 1x128 array. -/
theorem cover2_7 (i : S1x128.Idx) : ∃ t : Fin cfg2.N, (cfg2.win 7).flush t = true ∧ i ∈ ((cfg2.win 7).blk t).view.set := by
  let t : Fin cfg2.N := ⟨19, by decide⟩
  refine ⟨t, (flush2_7 t).mpr rfl, ?_⟩
  show i ∈ ((View.whole main_v67_2).slice (win2_7.rect t)).set
  rw [View.set_slice_whole, Rect.mem_set_unit]
  intro a
  have h : win2_7.index t a = 0 := (idx_facts2 t).1 7 a (.inl (by decide))
  show win2_7.index t a * _ ≤ _ ∧ _ < win2_7.index t a * _ + _
  rw [h, Nat.zero_mul, Nat.zero_add]; exact ⟨Nat.zero_le _, (i a).isLt⟩

theorem final2_7 : (dat2 V c).arrAt 7 cfg2.N = Mlp2.sqRow (V c main_v56) (V c main_v58) (V c main_v65) (V c main_v62) (V c main_v66) :=
  (dat2 V c).arrAt_eq_of_cover 7 _ (fun t _ => funext fun j => congrArg (Mlp2.sqRow (V c main_v56) (V c main_v58) (V c main_v65) (V c main_v62) (V c main_v66)) (funext fun a => Fin.ext
    (win2_7.rect_emb_val_of_index_zero t a ((idx_facts2 t).1 7 a (.inl (by decide))) j).symm)) cover2_7

theorem kept2 (w : Fin cfg2.W) (hw : w.val < 5) : (dat2 V c).arrAt w cfg2.N = V c (Pipeline.arrRef spec2 w) :=
  (dat2 V c).arrAt_in w ((by decide : ∀ w : Fin cfg2.W, w.val < 5 → (cfg2.win w).isOut = false) w hw) _

end Region2

end Cert.Kernel.Hand
end
-- ==== Proof.Bits.MlpFinal4.lean ====
import proofs.«414687_j59708635349041_1_alg».proof.Proof.Gen.Kernel.Skeleton
import proofs.«414687_j59708635349041_1_alg».proof.Proof.Gen.Kernel.Launch
import proofs.«414687_j59708635349041_1_alg».proof.Proof.Gen.Kernel.Points
import proofs.«414687_j59708635349041_1_alg».proof.Proof.Bits.MlpSpec
import proofs.«414687_j59708635349041_1_alg».proof.Proof.Bits.MlpRegion4Base
import Idealize.ShloMosaic.Lib.Pipeline.Frame
import Idealize.ShloMosaic.Lib.Pipeline.FrameBody
import Idealize.ShloMosaic.Lib.Pipeline.Value
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open Idealize.SL.Sem
open Idealize.ShloMosaic.Rounds
open Idealize.ShloMosaic.Pipeline (Dat Cfg Window)
open Idealize.ShloMosaic.ValueIdx

variable {F : FTy → Type} [FloatOps F]

/-- Dividing a row's number by 5000 gives its block and its place in the block. -/
theorem Final4.h2Arr_at (X : Vec F S100000x128 .f32) (w1 : Vec F S128x128 .f32) (b1 : Vec F S1x128 .f32)
    (w2 : Vec F S128x128 .f32) (b2 : Vec F S1x128 .f32) (k : Fin 20) (j : S5000x128.Idx) (i : S100000x128.Idx)
    (h0 : (i 0).val = k.val * 5000 + (j 0).val) (h1 : (i 1).val = (j 1).val) :
    Mlp4.h2Arr X w1 b1 w2 b2 i = k4_pay4 (Mlp4.blk X k) w1 b1 w2 b2 j := by
  have hj0 : (j 0).val < 5000 := (j 0).isLt
  have hk : (⟨(i 0).val / 5000, Mlp4.row_div_lt (i 0)⟩ : Fin 20) = k := Fin.ext (by show (i 0).val / 5000 = k.val; omega)
  have hj : ix2 (⟨(i 0).val % 5000, Mlp4.row_mod_lt (i 0)⟩ : Fin 5000) (i 1) = j := funext fun a => by
    match a with
    | ⟨0, _⟩ => exact Fin.ext (by show (i 0).val % 5000 = (j 0).val; omega)
    | ⟨1, _⟩ => exact Fin.ext h1
  unfold Mlp4.h2Arr; rw [hk]; exact congrArg _ hj

section Region4

variable (V : (c : Dev nD) → (b : Ref sig .tc) → Buf (Elt F) ((c : Thread nD τ).loc b)) (c : Dev nD)

/-- Row `r` of the h2 array lies in the block of point `r / 5000`. -/
theorem cover4_5 (i : S100000x128.Idx) : ∃ t : Fin cfg4.N, (cfg4.win 5).flush t = true ∧ i ∈ ((cfg4.win 5).blk t).view.set := by
  have hi0 : (i 0).val < 100000 := (i 0).isLt
  have hi1 : (i 1).val < 128 := (i 1).isLt
  have hN : cfg4.N = 20 := N_4
  let t : Fin cfg4.N := ⟨(i 0).val / 5000, by omega⟩
  have ht : t.val = (i 0).val / 5000 := rfl
  obtain ⟨hz, -, e5, -⟩ := idx_facts4 t
  refine ⟨t, flush4_5 t, ?_⟩
  show i ∈ ((View.whole main_v109_0).slice (win4_5.rect t)).set
  rw [View.set_slice_whole, Rect.mem_set_unit]
  intro a
  match a with
  | ⟨0, _⟩ =>
    show win4_5.index t (0 : Fin 2) * 5000 ≤ (i 0).val ∧ (i 0).val < win4_5.index t (0 : Fin 2) * 5000 + 5000
    omega
  | ⟨1, _⟩ =>
    have h : win4_5.index t (1 : Fin 2) = 0 := hz 5 (1 : Fin 2) (.inr (by decide))
    show win4_5.index t (1 : Fin 2) * 128 ≤ (i 1).val ∧ (i 1).val < win4_5.index t (1 : Fin 2) * 128 + 128
    omega

/-- The points' blocks of rows tile the array, and block `t` holds the h2 of block `t`. -/
theorem final4_5 : (dat4 V c).arrAt 5 cfg4.N = Mlp4.h2Arr (V c main_v98) (V c main_v100) (V c main_v107) (V c main_v104) (V c main_v108) :=
  (dat4 V c).arrAt_eq_of_cover 5 _ (fun t _ => funext fun j => by
    obtain ⟨hz, -, e5, hN⟩ := idx_facts4 t
    show _ = Mlp4.h2Arr _ _ _ _ _ (((cfg4.win 5).blk t).view.emb j)
    refine (Final4.h2Arr_at _ _ _ _ _ (Mlp4.pt t.val) j _ ?_ ?_).symm
    · show win4_5.index t (0 : Fin 2) * 5000 + 1 * (j 0).val = t.val % 20 * 5000 + (j 0).val; omega
    · exact win4_5.rect_emb_val_of_index_zero t 1 (hz 5 (1 : Fin 2) (.inr (by decide))) j) cover4_5

/-- The last point's block of row output 6 is the whole 1x128 array. -/
theorem cover4_6 (i : S1x128.Idx) : ∃ t : Fin cfg4.N, (cfg4.win 6).flush t = true ∧ i ∈ ((cfg4.win 6).blk t).view.set := by
  let t : Fin cfg4.N := ⟨19, by decide⟩
  refine ⟨t, (flush4_6 t).mpr rfl, ?_⟩
  show i ∈ ((View.whole main_v109_1).slice (win4_6.rect t)).set
  rw [View.set_slice_whole, Rect.mem_set_unit]
  intro a
  have h : win4_6.index t a = 0 := (idx_facts4 t).1 6 a (.inl (by decide))
  show win4_6.index t a * _ ≤ _ ∧ _ < win4_6.index t a * _ + _
  rw [h, Nat.zero_mul, Nat.zero_add]; exact ⟨Nat.zero_le _, (i a).isLt⟩

theorem final4_6 : (dat4 V c).arrAt 6 cfg4.N = Mlp4.sumRow (V c main_v98) (V c main_v100) (V c main_v107) (V c main_v104) (V c main_v108) :=
  (dat4 V c).arrAt_eq_of_cover 6 _ (fun t _ => funext fun j => congrArg (Mlp4.sumRow (V c main_v98) (V c main_v100) (V c main_v107) (V c main_v104) (V c main_v108)) (funext fun a => Fin.ext
    (win4_6.rect_emb_val_of_index_zero t a ((idx_facts4 t).1 6 a (.inl (by decide))) j).symm)) cover4_6

/-- The last point's block of row output 7 is the whole 1x128 array. -/
theorem cover4_7 (i : S1x128.Idx) : ∃ t : Fin cfg4.N, (cfg4.win 7).flush t = true ∧ i ∈ ((cfg4.win 7).blk t).view.set := by
  let t : Fin cfg4.N := ⟨19, by decide⟩
  refine ⟨t, (flush4_7 t).mpr rfl, ?_⟩
  show i ∈ ((View.whole main_v109_2).slice (win4_7.rect t)).set
  rw [View.set_slice_whole, Rect.mem_set_unit]
  intro a
  have h : win4_7.index t a = 0 := (idx_facts4 t).1 7 a (.inl (by decide))
  show win4_7.index t a * _ ≤ _ ∧ _ < win4_7.index t a * _ + _
  rw [h, Nat.zero_mul, Nat.zero_add]; exact ⟨Nat.zero_le _, (i a).isLt⟩

theorem final4_7 : (dat4 V c).arrAt 7 cfg4.N = Mlp4.sqRow (V c main_v98) (V c main_v100) (V c main_v107) (V c main_v104) (V c main_v108) :=
  (dat4 V c).arrAt_eq_of_cover 7 _ (fun t _ => funext fun j => congrArg (Mlp4.sqRow (V c main_v98) (V c main_v100) (V c main_v107) (V c main_v104) (V c main_v108)) (funext fun a => Fin.ext
    (win4_7.rect_emb_val_of_index_zero t a ((idx_facts4 t).1 7 a (.inl (by decide))) j).symm)) cover4_7

theorem kept4 (w : Fin cfg4.W) (hw : w.val < 5) : (dat4 V c).arrAt w cfg4.N = V c (Pipeline.arrRef spec4 w) :=
  (dat4 V c).arrAt_in w ((by decide : ∀ w : Fin cfg4.W, w.val < 5 → (cfg4.win w).isOut = false) w hw) _

end Region4

end Cert.Kernel.Hand
end
-- ==== Proof.Bits.Segs.lean ====
import proofs.«414687_j59708635349041_1_alg».proof.Proof.Bits.Regs
import proofs.«414687_j59708635349041_1_alg».proof.Proof.Bits.MlpFinal0
import proofs.«414687_j59708635349041_1_alg».proof.Proof.Bits.MlpFinal2
import proofs.«414687_j59708635349041_1_alg».proof.Proof.Bits.MlpFinal4

noncomputable section

namespace Cert.Kernel.Hand

open Cert.Kernel Cert.Kernel.Gen
open Idealize.ShloMosaic Idealize.ShloMosaic.TcCoe
open Idealize.SL Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (UR sig nD τ) ℕ

variable (m : (ℓ : Loc nD τ sig) → Buf (Elt F) ℓ) (c : Dev nD)

/-- Writing `g`'s values over `f` at every point where they may differ gives `g`. -/
theorem upd_all {α : Type} [DecidableEq α] {β : α → Type} (g : ∀ a, β a) :
    ∀ (rs : List α) (f : ∀ a, β a), (∀ x, x ∉ rs → f x = g x) → rs.foldl (fun h r => Function.update h r (g r)) f = g
  | [], f, h => funext fun x => h x List.not_mem_nil
  | r :: rs, f, h => upd_all g rs _ fun x hx => by
      by_cases e : x = r
      · subst e; exact Function.update_self ..
      · exact (Function.update_of_ne e ..).trans (h x (List.not_mem_cons_of_ne_of_not_mem e hx))

/-- The entry contents overwritten with the exit contents at the outputs are the exit contents: inputs end as they began. -/
theorem exit_eq {p : Fin 7} (D : (c : Dev nD) → Dat τ (Elt F) Unit ℕ (UR sig nD τ) ℕ (cfgs p) c) (W : Dev nD → Valuation τ sig (Elt F))
    (lf : Pipeline.LaunchFacts (nD := nD) (τ := τ) cfgs p) {f : Valuation τ sig (Elt F)} (hf : f = W c) {n : ℕ}
    (hk : ∀ w : Fin (cfgs p).W, w.val < n → (D c).arrAt w (cfgs p).N = rd W c (Pipeline.arrRef (cfgs p).spec w))
    (rs : List (Ref sig .tc)) (hrs : ∀ w : Fin (cfgs p).W, n ≤ w.val → Pipeline.arrRef (cfgs p).spec w ∈ rs) :
    (rs.map (Proc.devRef (τ := τ) .tc)).foldl (fun h r => Function.update h r (exitV D W c r)) f = exitV D W c := by
  subst hf
  refine upd_all _ _ _ fun x hx => ?_
  by_cases h : ∃ w, Proc.devRef .tc (Pipeline.arrRef (cfgs p).spec w) = x
  · obtain ⟨w, rfl⟩ := h
    rw [exitV_arr D W c lf w]
    rcases Nat.lt_or_ge w.val n with hw | hw
    · exact (hk w hw).symm
    · exact absurd (List.mem_map_of_mem (hrs w hw)) hx
  · unfold exitV Pipeline.withArrays; rw [dif_neg h]

theorem V2_eq : Gen.V2 m (outs m) c = W2 m c :=
  exit_eq c _ _ launch0 rfl (kept0 (U1 m) c) [main_v25_0, main_v25_1, main_v25_2] (by decide)
theorem V3_eq : Gen.V3 m (outs m) c = W3 m c := congrArg (StableHlo.after hostOps1) (V2_eq m c)
theorem V4_eq : Gen.V4 m (outs m) c = W4 m c :=
  exit_eq c _ _ launch1 (V3_eq m c) (kept1 (U3 m) c) [main_v45] (by decide)
theorem V5_eq : Gen.V5 m (outs m) c = W5 m c := congrArg (StableHlo.after hostOps2) (V4_eq m c)
theorem V6_eq : Gen.V6 m (outs m) c = W6 m c :=
  exit_eq c _ _ launch2 (V5_eq m c) (kept2 (U5 m) c) [main_v67_0, main_v67_1, main_v67_2] (by decide)
theorem V7_eq : Gen.V7 m (outs m) c = W7 m c := congrArg (StableHlo.after hostOps3) (V6_eq m c)
theorem V8_eq : Gen.V8 m (outs m) c = W8 m c :=
  exit_eq c _ _ launch3 (V7_eq m c) (kept3 (U7 m) c) [main_v87] (by decide)
theorem V9_eq : Gen.V9 m (outs m) c = W9 m c := congrArg (StableHlo.after hostOps4) (V8_eq m c)
theorem V10_eq : Gen.V10 m (outs m) c = W10 m c :=
  exit_eq c _ _ launch4 (V9_eq m c) (kept4 (U9 m) c) [main_v109_0, main_v109_1, main_v109_2] (by decide)
theorem V11_eq : Gen.V11 m (outs m) c = W11 m c := congrArg (StableHlo.after hostOps5) (V10_eq m c)
theorem V12_eq : Gen.V12 m (outs m) c = W12 m c :=
  exit_eq c _ _ launch5 (V11_eq m c) (kept5 (U11 m) c) [main_v129] (by decide)
theorem V13_eq : Gen.V13 m (outs m) c = W13 m c := congrArg (StableHlo.after hostOps6) (V12_eq m c)
theorem V14_eq : Gen.V14 m (outs m) c = W14 m c :=
  exit_eq c _ _ launch6 (V13_eq m c) (kept6 (U13 m) c) [main_v131] (by decide)

set_option backward.isDefEq.respectTransparency.types false in
/-- The conditional run at the seven region records, its valuations rewritten to the ones above. -/
theorem run_main (ρ : Dev nD → PrngReg) :
    θ_run defs (onTc (τ := τ) (main (F := F))) ⟨m, fun _ => 0, ρ⟩ (fun r => ∀ c : Dev nD,
      r.2.mem ((c.tc : Thread nD τ).loc main_v129) = U14 m c main_v129
      ∧ r.2.mem ((c.tc : Thread nD τ).loc main_v131) = U14 m c main_v131
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) := by
  have h := run_cond m (Ix := Unit) (U := UR sig nD τ) (Lvl := ℕ) emb₁ () Variants.none Lz lvz (fun _ _ => rfl) ρ (outs m) (pdats m)
      (0 : Dev nD → CellTallies nD τ sig Unit) (fun _ => iprop(emp))
      (initOf (Pipeline.cells cfgs cellOf_inj) (Pipeline.launchToks cfgs cellOf_inj))
      (by
        iintro Hu; imodintro
        isplitl [Hu]
        · iapply (show (ownU (initOf (Pipeline.cells cfgs cellOf_inj) (Pipeline.launchToks cfgs cellOf_inj)) : sProp 𝕄)
              ⊢ BI.own (emb₁ (initOf (Pipeline.cells cfgs cellOf_inj) (Pipeline.launchToks cfgs cellOf_inj))) from .rfl)
          iexact Hu
        iapply (show (BI.emp : sProp 𝕄) ⊢ bigSep Finset.univ (fun _ : Dev nD => (BI.emp : sProp 𝕄)) from by rw [BI.bigSep_emp_const])
        iempintro)
      (fun _ c => Rst c)
      (by
        refine Pipeline.initEach Lz lvz fun c => ?_
        iintro ⟨⟨-, HO, -, Hp, -⟩, -⟩
        imodintro
        isplitl [Hp]; · iexists _; iexact Hp
        iexists ∅; iexact HO)
      (fun c => by iintro ⟨-, HO⟩; iexact HO)
      (reg0 m) (fun c => .rfl) (fun c => V2_eq m c ▸ .rfl)
      (reg1 m) (fun c => V3_eq m c ▸ .rfl) (fun c => V4_eq m c ▸ .rfl)
      (reg2 m) (fun c => V5_eq m c ▸ .rfl) (fun c => V6_eq m c ▸ .rfl)
      (reg3 m) (fun c => V7_eq m c ▸ .rfl) (fun c => V8_eq m c ▸ .rfl)
      (reg4 m) (fun c => V9_eq m c ▸ .rfl) (fun c => V10_eq m c ▸ .rfl)
      (reg5 m) (fun c => V11_eq m c ▸ .rfl) (fun c => V12_eq m c ▸ .rfl)
      (reg6 m) (fun c => V13_eq m c ▸ .rfl) (fun c => V14_eq m c ▸ .rfl)
  simp only [V14_eq m] at h; exact h

end Cert.Kernel.Hand

end
-- ==== Proof.HostSpec.lean ====
import proofs.«414687_j59708635349041_1_alg».proof.KernelIdeal

noncomputable section

namespace Cert.KernelIdeal.Hand.Host

open Idealize.ShloMosaic
open Cert.KernelIdeal Cert.KernelIdeal.Facts₀ Cert.KernelIdeal.Facts

variable {F : FTy → Type} [FloatOps F] [Cert.KernelIdeal.Facts]

-- The two rows of the edge list, sources and destinations, as vectors of indices.
def srcRow (ei : Vec F S2x1600000 .i32) : Vec F S1600000 .i32 :=
  shapeCast S1600000 (extractStridedSlice S1x1600000 ![0, 0] ei slices_S2x1600000_S1x1600000_0_0)
    shapeCasts_S1x1600000_S1600000

def dstRow (ei : Vec F S2x1600000 .i32) : Vec F S1600000 .i32 :=
  shapeCast S1600000 (extractStridedSlice S1x1600000 ![1, 0] ei slices_S2x1600000_S1x1600000_1_0)
    shapeCasts_S1x1600000_S1600000

-- The sources with a negative index wrapped once, as a column.
def srcCol (src : Vec F S1600000 .i32) : Vec F S1600000x1 .i32 :=
  broadcastInDim S1600000x1 ![0] bcast_S1600000_S1600000x1_0
    (select (cmpi .slt src (broadcastInDim S1600000 ![] bcast_S_S1600000 (constantI S_ 32 0#32)))
      (addi src (broadcastInDim S1600000 ![] bcast_S_S1600000 (constantI S_ 32 100000#32)))
      src)

-- Every node's features plus the sum of its in-neighbours': h + scatterAdd(0, dst, gather(h, src)).
def haggOf (h : Vec F S100000x128 .f32) (src dst : Vec F S1600000 .i32) : Vec F S100000x128 .f32 :=
  addf h
    (Host.scatterAdd scatter_S100000x128_S1600000x1_S1600000x128_1_0_0_1
      (broadcastInDim S100000x128 ![] bcast_S_S100000x128 (constant (F := F) S_ .f32 0x00000000#32))
      (broadcastInDim S1600000x1 ![0] bcast_S1600000_S1600000x1_0 dst)
      (Host.gather gather_S100000x128_S1600000x1_S1600000x128_1_0_n_n_0_1_1128 h (srcCol (F := F) src)))

def hagg (x : Vec F S100000x128 .f32) (ei : Vec F S2x1600000 .i32) : Vec F S100000x128 .f32 :=
  haggOf x (srcRow (F := F) ei) (dstRow (F := F) ei)

-- Layer l's matrix of a stack of three, and its row of a stack of three rows as a 1x128 block.
def w1At0 (W : Vec F S3x128x128 .f32) : Vec F S128x128 .f32 :=
  shapeCast S128x128 (extractStridedSlice S1x128x128 ![0, 0, 0] W slices_S3x128x128_S1x128x128_0_0_0)
    shapeCasts_S1x128x128_S128x128
def w1At1 (W : Vec F S3x128x128 .f32) : Vec F S128x128 .f32 :=
  shapeCast S128x128 (extractStridedSlice S1x128x128 ![1, 0, 0] W slices_S3x128x128_S1x128x128_1_0_0)
    shapeCasts_S1x128x128_S128x128
def w1At2 (W : Vec F S3x128x128 .f32) : Vec F S128x128 .f32 :=
  shapeCast S128x128 (extractStridedSlice S1x128x128 ![2, 0, 0] W slices_S3x128x128_S1x128x128_2_0_0)
    shapeCasts_S1x128x128_S128x128

def rowAt0 (b : Vec F S3x128 .f32) : Vec F S1x128 .f32 :=
  shapeCast S1x128
    (shapeCast S128 (extractStridedSlice S1x128 ![0, 0] b slices_S3x128_S1x128_0_0) shapeCasts_S1x128_S128)
    shapeCasts_S128_S1x128
def rowAt1 (b : Vec F S3x128 .f32) : Vec F S1x128 .f32 :=
  shapeCast S1x128
    (shapeCast S128 (extractStridedSlice S1x128 ![1, 0] b slices_S3x128_S1x128_1_0) shapeCasts_S1x128_S128)
    shapeCasts_S128_S1x128
def rowAt2 (b : Vec F S3x128 .f32) : Vec F S1x128 .f32 :=
  shapeCast S1x128
    (shapeCast S128 (extractStridedSlice S1x128 ![2, 0] b slices_S3x128_S1x128_2_0) shapeCasts_S1x128_S128)
    shapeCasts_S128_S1x128

-- The column sums divided by 100000, and rsqrt(ss/100000 − mean·mean + eps), as vectors and as 1x128 blocks.
def meanVec (s : Vec F S1x128 .f32) : Vec F S128 .f32 :=
  Host.divf (shapeCast S128 s shapeCasts_S1x128_S128)
    (broadcastInDim S128 ![] bcast_S_S128 (constant (F := F) S_ .f32 0x47C35000#32))

def meanRow (s : Vec F S1x128 .f32) : Vec F S1x128 .f32 :=
  shapeCast S1x128 (meanVec (F := F) s) shapeCasts_S128_S1x128

def invVec (s ss : Vec F S1x128 .f32) : Vec F S128 .f32 :=
  Host.rsqrt
    (addf
      (subf
        (Host.divf (shapeCast S128 ss shapeCasts_S1x128_S128)
          (broadcastInDim S128 ![] bcast_S_S128 (constant (F := F) S_ .f32 0x47C35000#32)))
        (mulf (meanVec (F := F) s) (meanVec (F := F) s)))
      (broadcastInDim S128 ![] bcast_S_S128 (constant (F := F) S_ .f32 0x3727C5AC#32)))

def invRow (s ss : Vec F S1x128 .f32) : Vec F S1x128 .f32 :=
  shapeCast S1x128 (invVec (F := F) s ss) shapeCasts_S128_S1x128

-- The graph id of every node, as a column.
def batchCol (b : Vec F S100000 .i32) : Vec F S100000x1 .i32 :=
  shapeCast S100000x1 b shapeCasts_S100000_S100000x1

end Cert.KernelIdeal.Hand.Host
-- ==== Proof.HostK.lean ====
import proofs.«414687_j59708635349041_1_alg».proof.Proof.HostSpec
import proofs.«414687_j59708635349041_1_alg».proof.Proof.Gen.KernelIdeal.Regions

set_option maxRecDepth 1436

noncomputable section

namespace Cert.KernelIdeal.Hand

open Idealize.ShloMosaic Idealize.ShloMosaic.TcCoe
open Cert.KernelIdeal Cert.KernelIdeal.Gen

variable {F : FTy → Type} [FloatOps F] (W : Valuation τ sig (Elt F))

theorem after0_v1 : StableHlo.after hostOps0 W main_v1 = Host.srcRow (F := F) (W main_arg1) := by
  unfold Host.srcRow; after_results; rfl

theorem after0_v3 : StableHlo.after hostOps0 W main_v3 = Host.dstRow (F := F) (W main_arg1) := by
  unfold Host.dstRow; after_results; rfl

theorem after0_v14 : StableHlo.after hostOps0 W main_v14 = Host.hagg (F := F) (W main_arg0) (W main_arg1) := by
  unfold Host.hagg Host.haggOf Host.srcCol Host.srcRow Host.dstRow; after_results_simp; rfl

theorem after0_v16 : StableHlo.after hostOps0 W main_v16 = Host.w1At0 (F := F) (W main_arg3) := by
  unfold Host.w1At0; after_results; rfl

theorem after0_v23 : StableHlo.after hostOps0 W main_v23 = Host.rowAt0 (F := F) (W main_arg4) := by
  unfold Host.rowAt0; after_results; rfl

theorem after0_v20 : StableHlo.after hostOps0 W main_v20 = Host.w1At0 (F := F) (W main_arg5) := by
  unfold Host.w1At0; after_results; rfl

theorem after0_v24 : StableHlo.after hostOps0 W main_v24 = Host.rowAt0 (F := F) (W main_arg6) := by
  unfold Host.rowAt0; after_results; rfl

theorem after1_v41 : StableHlo.after hostOps1 W main_v41 = Host.meanRow (F := F) (W main_v25_1) := by
  unfold Host.meanRow Host.meanVec; after_results; rfl

theorem after1_v42 : StableHlo.after hostOps1 W main_v42 = Host.invRow (F := F) (W main_v25_1) (W main_v25_2) := by
  unfold Host.invRow Host.invVec Host.meanVec; after_results_simp; rfl

theorem after1_v43 : StableHlo.after hostOps1 W main_v43 = Host.rowAt0 (F := F) (W main_arg7) := by
  unfold Host.rowAt0; after_results; rfl

theorem after1_v44 : StableHlo.after hostOps1 W main_v44 = Host.rowAt0 (F := F) (W main_arg8) := by
  unfold Host.rowAt0; after_results; rfl

theorem after2_v56 : StableHlo.after hostOps2 W main_v56 = Host.haggOf (F := F) (W main_v45) (W main_v1) (W main_v3) := by
  unfold Host.haggOf Host.srcCol; after_results_simp

theorem after2_v58 : StableHlo.after hostOps2 W main_v58 = Host.w1At1 (F := F) (W main_arg3) := by
  unfold Host.w1At1; after_results; rfl

theorem after2_v65 : StableHlo.after hostOps2 W main_v65 = Host.rowAt1 (F := F) (W main_arg4) := by
  unfold Host.rowAt1; after_results; rfl

theorem after2_v62 : StableHlo.after hostOps2 W main_v62 = Host.w1At1 (F := F) (W main_arg5) := by
  unfold Host.w1At1; after_results; rfl

theorem after2_v66 : StableHlo.after hostOps2 W main_v66 = Host.rowAt1 (F := F) (W main_arg6) := by
  unfold Host.rowAt1; after_results; rfl

theorem after3_v83 : StableHlo.after hostOps3 W main_v83 = Host.meanRow (F := F) (W main_v67_1) := by
  unfold Host.meanRow Host.meanVec; after_results; rfl

theorem after3_v84 : StableHlo.after hostOps3 W main_v84 = Host.invRow (F := F) (W main_v67_1) (W main_v67_2) := by
  unfold Host.invRow Host.invVec Host.meanVec; after_results_simp; rfl

theorem after3_v85 : StableHlo.after hostOps3 W main_v85 = Host.rowAt1 (F := F) (W main_arg7) := by
  unfold Host.rowAt1; after_results; rfl

theorem after3_v86 : StableHlo.after hostOps3 W main_v86 = Host.rowAt1 (F := F) (W main_arg8) := by
  unfold Host.rowAt1; after_results; rfl

theorem after4_v98 : StableHlo.after hostOps4 W main_v98 = Host.haggOf (F := F) (W main_v87) (W main_v1) (W main_v3) := by
  unfold Host.haggOf Host.srcCol; after_results_simp

theorem after4_v100 : StableHlo.after hostOps4 W main_v100 = Host.w1At2 (F := F) (W main_arg3) := by
  unfold Host.w1At2; after_results; rfl

theorem after4_v107 : StableHlo.after hostOps4 W main_v107 = Host.rowAt2 (F := F) (W main_arg4) := by
  unfold Host.rowAt2; after_results; rfl

theorem after4_v104 : StableHlo.after hostOps4 W main_v104 = Host.w1At2 (F := F) (W main_arg5) := by
  unfold Host.w1At2; after_results; rfl

theorem after4_v108 : StableHlo.after hostOps4 W main_v108 = Host.rowAt2 (F := F) (W main_arg6) := by
  unfold Host.rowAt2; after_results; rfl

theorem after5_v125 : StableHlo.after hostOps5 W main_v125 = Host.meanRow (F := F) (W main_v109_1) := by
  unfold Host.meanRow Host.meanVec; after_results; rfl

theorem after5_v126 : StableHlo.after hostOps5 W main_v126 = Host.invRow (F := F) (W main_v109_1) (W main_v109_2) := by
  unfold Host.invRow Host.invVec Host.meanVec; after_results_simp; rfl

theorem after5_v127 : StableHlo.after hostOps5 W main_v127 = Host.rowAt2 (F := F) (W main_arg7) := by
  unfold Host.rowAt2; after_results; rfl

theorem after5_v128 : StableHlo.after hostOps5 W main_v128 = Host.rowAt2 (F := F) (W main_arg8) := by
  unfold Host.rowAt2; after_results; rfl

theorem after6_v130 : StableHlo.after hostOps6 W main_v130 = Host.batchCol (F := F) (W main_arg2) := by
  unfold Host.batchCol; after_results; rfl

end Cert.KernelIdeal.Hand
-- ==== Proof.KValSpec.lean ====
import proofs.«414687_j59708635349041_1_alg».proof.Proof.MlpSpec
import proofs.«414687_j59708635349041_1_alg».proof.Proof.BnSpec
import proofs.«414687_j59708635349041_1_alg».proof.Proof.PoolSpec
import proofs.«414687_j59708635349041_1_alg».proof.Proof.HostSpec

noncomputable section

namespace Cert.KernelIdeal.Hand

open Idealize.ShloMosaic
open Cert.KernelIdeal

variable {F : FTy → Type} [FloatOps F] [Cert.KernelIdeal.Facts]

-- One layer over the two rows of the edge array: the normalisation of the perceptron's array by its column statistics.
def kLayerOf (h : Vec F S100000x128 .f32) (src dst : Vec F S1600000 .i32) (w1 : Vec F S128x128 .f32) (b1 : Vec F S1x128 .f32)
    (w2 : Vec F S128x128 .f32) (b2 g be : Vec F S1x128 .f32) : Vec F S100000x128 .f32 :=
  Bn.outArr (Mlp.h2Arr (Host.haggOf h src dst) w1 b1 w2 b2)
    (Host.meanRow (Mlp.sumRow (Host.haggOf h src dst) w1 b1 w2 b2))
    (Host.invRow (Mlp.sumRow (Host.haggOf h src dst) w1 b1 w2 b2) (Mlp.sqRow (Host.haggOf h src dst) w1 b1 w2 b2)) g be

-- The features after the three layers, each with its own slice of the parameter arrays, and their per-graph sums.
def kH (x : Vec F S100000x128 .f32) (ei : Vec F S2x1600000 .i32) (W1 : Vec F S3x128x128 .f32) (b1 : Vec F S3x128 .f32)
    (W2 : Vec F S3x128x128 .f32) (b2 g be : Vec F S3x128 .f32) : Vec F S100000x128 .f32 :=
  kLayerOf
    (kLayerOf
      (kLayerOf x (Host.srcRow ei) (Host.dstRow ei) (Host.w1At0 W1) (Host.rowAt0 b1) (Host.w1At0 W2) (Host.rowAt0 b2)
        (Host.rowAt0 g) (Host.rowAt0 be))
      (Host.srcRow ei) (Host.dstRow ei) (Host.w1At1 W1) (Host.rowAt1 b1) (Host.w1At1 W2) (Host.rowAt1 b2)
      (Host.rowAt1 g) (Host.rowAt1 be))
    (Host.srcRow ei) (Host.dstRow ei) (Host.w1At2 W1) (Host.rowAt2 b1) (Host.w1At2 W2) (Host.rowAt2 b2)
    (Host.rowAt2 g) (Host.rowAt2 be)

def kP (x : Vec F S100000x128 .f32) (ei : Vec F S2x1600000 .i32) (batch : Vec F S100000 .i32) (W1 : Vec F S3x128x128 .f32)
    (b1 : Vec F S3x128 .f32) (W2 : Vec F S3x128x128 .f32) (b2 g be : Vec F S3x128 .f32) : Vec F S512x128 .f32 :=
  Pool.out (Host.batchCol batch) (kH x ei W1 b1 W2 b2 g be)

end Cert.KernelIdeal.Hand

end
-- ==== Proof.KVal.lean ====
import proofs.«414687_j59708635349041_1_alg».proof.Proof.SegsBase
import proofs.«414687_j59708635349041_1_alg».proof.Proof.MlpFinal0
import proofs.«414687_j59708635349041_1_alg».proof.Proof.MlpFinal2
import proofs.«414687_j59708635349041_1_alg».proof.Proof.MlpFinal4
import proofs.«414687_j59708635349041_1_alg».proof.Proof.HostK
import proofs.«414687_j59708635349041_1_alg».proof.Proof.KValSpec

set_option maxRecDepth 16384

noncomputable section

namespace Cert.KernelIdeal.Hand

open Cert.KernelIdeal Cert.KernelIdeal.Gen
open Idealize.ShloMosaic Idealize.ShloMosaic.TcCoe

variable {F : FTy → Type} [FloatOps F]

theorem app5 {α β γ δ ε ζ : Type} (f : α → β → γ → δ → ε → ζ) {a a' : α} {b b' : β} {c c' : γ} {d d' : δ} {e e' : ε}
    (ha : a = a') (hb : b = b') (hc : c = c') (hd : d = d') (he : e = e') : f a b c d e = f a' b' c' d' e' := by
  subst ha hb hc hd he; rfl

variable (m : (ℓ : Loc nD τ sig) → Buf (Elt F) ℓ) (c : Dev nD)

abbrev arg (r : Ref sig .tc) := m ((c : Thread nD τ).loc r)
abbrev srcOf : Vec F S1600000 .i32 := Host.srcRow (F := F) (arg m c main_arg1)
abbrev dstOf : Vec F S1600000 .i32 := Host.dstRow (F := F) (arg m c main_arg1)

-- A function of a perceptron region's five operands, at a layer's neighbour sum and its slices of the parameter stacks.
abbrev atMlp {ζ : Type} (f : Vec F S100000x128 .f32 → Vec F S128x128 .f32 → Vec F S1x128 .f32 → Vec F S128x128 .f32 →
    Vec F S1x128 .f32 → ζ) (h : Vec F S100000x128 .f32) (sw : Vec F S3x128x128 .f32 → Vec F S128x128 .f32)
    (sr : Vec F S3x128 .f32 → Vec F S1x128 .f32) : ζ :=
  f (Host.haggOf h (srcOf m c) (dstOf m c)) (sw (arg m c main_arg3)) (sr (arg m c main_arg4)) (sw (arg m c main_arg5))
    (sr (arg m c main_arg6))

-- One layer over the features h, with the slices sw and sr of the parameter stacks.
def hOut (h : Vec F S100000x128 .f32) (sw : Vec F S3x128x128 .f32 → Vec F S128x128 .f32)
    (sr : Vec F S3x128 .f32 → Vec F S1x128 .f32) : Vec F S100000x128 .f32 :=
  kLayerOf h (srcOf m c) (dstOf m c) (sw (arg m c main_arg3)) (sr (arg m c main_arg4)) (sw (arg m c main_arg5))
    (sr (arg m c main_arg6)) (sr (arg m c main_arg7)) (sr (arg m c main_arg8))
def hOut0 := hOut m c (arg m c main_arg0) Host.w1At0 Host.rowAt0
def hOut1 := hOut m c (hOut0 m c) Host.w1At1 Host.rowAt1
def hOut2 := hOut m c (hOut1 m c) Host.w1At2 Host.rowAt2

abbrev argRefs : List (Ref sig .tc) := [main_arg2, main_arg3, main_arg4, main_arg5, main_arg6, main_arg7, main_arg8]
abbrev heldRefs : List (Ref sig .tc) := main_v1 :: main_v3 :: argRefs

-- W has the seven arguments the later stretches read as launched, and the two rows of the edge list.
def Held (W : Valuation τ sig (Elt F)) : Prop :=
  (∀ r ∈ argRefs, W r = arg m c r) ∧ W main_v1 = srcOf m c ∧ W main_v3 = dstOf m c

variable {m c} in
theorem Held.step {W W' : Valuation τ sig (Elt F)} (h : Held m c W) (k : ∀ r ∈ heldRefs, W' r = W r) : Held m c W' :=
  ⟨fun r hr => (k r (List.mem_cons_of_mem _ (List.mem_cons_of_mem _ hr))).trans (h.1 r hr),
    (k _ (by decide)).trans h.2.1, (k _ (by decide)).trans h.2.2⟩

-- No region and no later stretch writes one of these nine buffers.
theorem held_regions : ∀ r ∈ heldRefs, (∀ w, Pipeline.arrRef spec0 w ≠ r) ∧ (∀ w, Pipeline.arrRef spec1 w ≠ r)
    ∧ (∀ w, Pipeline.arrRef spec2 w ≠ r) ∧ (∀ w, Pipeline.arrRef spec3 w ≠ r) ∧ (∀ w, Pipeline.arrRef spec4 w ≠ r)
    ∧ ∀ w, Pipeline.arrRef spec5 w ≠ r := by decide
theorem held_hosts : ∀ r ∈ heldRefs, r ∉ hostOps1_W ∧ r ∉ hostOps2_W ∧ r ∉ hostOps3_W ∧ r ∉ hostOps4_W ∧ r ∉ hostOps5_W := by
  decide

theorem held1 : Held m c (W1 m c) :=
  ⟨fun r hr => StableHlo.after_of_writes_sub _ _ hostOps0_writes ((by decide : ∀ r ∈ argRefs, r ∉ hostOps0_W) r hr), after0_v1 _, after0_v3 _⟩
theorem held2 : Held m c (W2 m c) := (held1 m c).step fun r hr => W2_of_ne m c r (held_regions r hr).1
theorem held3 : Held m c (W3 m c) := (held2 m c).step fun r hr => StableHlo.after_of_writes_sub _ _ hostOps1_writes (held_hosts r hr).1
theorem held4 : Held m c (W4 m c) := (held3 m c).step fun r hr => W4_of_ne m c r (held_regions r hr).2.1
theorem held5 : Held m c (W5 m c) := (held4 m c).step fun r hr => StableHlo.after_of_writes_sub _ _ hostOps2_writes (held_hosts r hr).2.1
theorem held6 : Held m c (W6 m c) := (held5 m c).step fun r hr => W6_of_ne m c r (held_regions r hr).2.2.1
theorem held7 : Held m c (W7 m c) := (held6 m c).step fun r hr => StableHlo.after_of_writes_sub _ _ hostOps3_writes (held_hosts r hr).2.2.1
theorem held8 : Held m c (W8 m c) := (held7 m c).step fun r hr => W8_of_ne m c r (held_regions r hr).2.2.2.1
theorem held9 : Held m c (W9 m c) := (held8 m c).step fun r hr => StableHlo.after_of_writes_sub _ _ hostOps4_writes (held_hosts r hr).2.2.2.1
theorem held10 : Held m c (W10 m c) := (held9 m c).step fun r hr => W10_of_ne m c r (held_regions r hr).2.2.2.2.1
theorem held11 : Held m c (W11 m c) := (held10 m c).step fun r hr => StableHlo.after_of_writes_sub _ _ hostOps5_writes (held_hosts r hr).2.2.2.2
theorem held12 : Held m c (W12 m c) := (held11 m c).step fun r hr => W12_of_ne m c r (held_regions r hr).2.2.2.2.2

variable {ζ : Type} (f : Vec F S100000x128 .f32 → Vec F S128x128 .f32 → Vec F S1x128 .f32 → Vec F S128x128 .f32 →
  Vec F S1x128 .f32 → ζ)

-- The five operands of each perceptron region, as the stretch before it leaves them.
theorem in0 : f (W1 m c main_v14) (W1 m c main_v16) (W1 m c main_v23) (W1 m c main_v20) (W1 m c main_v24)
    = atMlp m c f (arg m c main_arg0) Host.w1At0 Host.rowAt0 :=
  app5 f (after0_v14 _) (after0_v16 _) (after0_v23 _) (after0_v20 _) (after0_v24 _)

theorem W4_v45 : W4 m c main_v45 = hOut0 m c :=
  have s := (W2_arr m c 6).trans ((final0_6 (U1 m) c).trans (in0 m c _))
  (W4_arr m c 5).trans <| (final1_5 (U3 m) c).trans <| app5 (Bn.outArr (F := F))
    ((StableHlo.after_of_writes_sub _ _ hostOps1_writes (by decide)).trans <| (W2_arr m c 5).trans <| (final0_5 (U1 m) c).trans (in0 m c _))
    ((after1_v41 _).trans (congrArg _ s))
    ((after1_v42 _).trans (congrArg₂ _ s <| (W2_arr m c 7).trans <| (final0_7 (U1 m) c).trans (in0 m c _)))
    ((after1_v43 _).trans (congrArg _ ((held2 m c).1 _ (by decide))))
    ((after1_v44 _).trans (congrArg _ ((held2 m c).1 _ (by decide))))

theorem in1 : f (W5 m c main_v56) (W5 m c main_v58) (W5 m c main_v65) (W5 m c main_v62) (W5 m c main_v66)
    = atMlp m c f (hOut0 m c) Host.w1At1 Host.rowAt1 :=
  app5 f ((after2_v56 _).trans (congr (congrArg₂ _ (W4_v45 m c) (held4 m c).2.1) (held4 m c).2.2))
    ((after2_v58 _).trans (congrArg _ ((held4 m c).1 _ (by decide))))
    ((after2_v65 _).trans (congrArg _ ((held4 m c).1 _ (by decide))))
    ((after2_v62 _).trans (congrArg _ ((held4 m c).1 _ (by decide))))
    ((after2_v66 _).trans (congrArg _ ((held4 m c).1 _ (by decide))))

theorem W8_v87 : W8 m c main_v87 = hOut1 m c :=
  have s := (W6_arr m c 6).trans ((final2_6 (U5 m) c).trans (in1 m c _))
  (W8_arr m c 5).trans <| (final3_5 (U7 m) c).trans <| app5 (Bn.outArr (F := F))
    ((StableHlo.after_of_writes_sub _ _ hostOps3_writes (by decide)).trans <| (W6_arr m c 5).trans <| (final2_5 (U5 m) c).trans (in1 m c _))
    ((after3_v83 _).trans (congrArg _ s))
    ((after3_v84 _).trans (congrArg₂ _ s <| (W6_arr m c 7).trans <| (final2_7 (U5 m) c).trans (in1 m c _)))
    ((after3_v85 _).trans (congrArg _ ((held6 m c).1 _ (by decide))))
    ((after3_v86 _).trans (congrArg _ ((held6 m c).1 _ (by decide))))

theorem in2 : f (W9 m c main_v98) (W9 m c main_v100) (W9 m c main_v107) (W9 m c main_v104) (W9 m c main_v108)
    = atMlp m c f (hOut1 m c) Host.w1At2 Host.rowAt2 :=
  app5 f ((after4_v98 _).trans (congr (congrArg₂ _ (W8_v87 m c) (held8 m c).2.1) (held8 m c).2.2))
    ((after4_v100 _).trans (congrArg _ ((held8 m c).1 _ (by decide))))
    ((after4_v107 _).trans (congrArg _ ((held8 m c).1 _ (by decide))))
    ((after4_v104 _).trans (congrArg _ ((held8 m c).1 _ (by decide))))
    ((after4_v108 _).trans (congrArg _ ((held8 m c).1 _ (by decide))))

theorem W12_v129 : W12 m c main_v129 = hOut2 m c :=
  have s := (W10_arr m c 6).trans ((final4_6 (U9 m) c).trans (in2 m c _))
  (W12_arr m c 5).trans <| (final5_5 (U11 m) c).trans <| app5 (Bn.outArr (F := F))
    ((StableHlo.after_of_writes_sub _ _ hostOps5_writes (by decide)).trans <| (W10_arr m c 5).trans <| (final4_5 (U9 m) c).trans (in2 m c _))
    ((after5_v125 _).trans (congrArg _ s))
    ((after5_v126 _).trans (congrArg₂ _ s <| (W10_arr m c 7).trans <| (final4_7 (U9 m) c).trans (in2 m c _)))
    ((after5_v127 _).trans (congrArg _ ((held10 m c).1 _ (by decide))))
    ((after5_v128 _).trans (congrArg _ ((held10 m c).1 _ (by decide))))

theorem W13_v129 : W13 m c main_v129 = hOut2 m c := (StableHlo.after_of_writes_sub _ _ hostOps6_writes (by decide)).trans (W12_v129 m c)

theorem kval_H : U14 m c main_v129 =
    kH (m ((c : Thread nD τ).loc main_arg0)) (m ((c : Thread nD τ).loc main_arg1)) (m ((c : Thread nD τ).loc main_arg3))
      (m ((c : Thread nD τ).loc main_arg4)) (m ((c : Thread nD τ).loc main_arg5)) (m ((c : Thread nD τ).loc main_arg6))
      (m ((c : Thread nD τ).loc main_arg7)) (m ((c : Thread nD τ).loc main_arg8)) :=
  (W14_arr m c 1).trans ((kept6 (U13 m) c 1 (by decide)).trans (W13_v129 m c))

theorem kval_P : U14 m c main_v131 =
    kP (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) (m ((c : Thread nD τ).loc main_arg7)) (m ((c : Thread nD τ).loc main_arg8)) :=
  (W14_arr m c 2).trans <| (final6_2 (U13 m) c).trans <| congrArg₂ (Pool.out (F := F))
    ((after6_v130 _).trans (congrArg _ ((held12 m c).1 _ (by decide)))) (W13_v129 m c)

end Cert.KernelIdeal.Hand

end
-- ==== Proof.RefOps.lean ====
import proofs.«414687_j59708635349041_1_alg».proof.ReferenceIdeal
import Idealize.ShloMosaic.Lib.StableHlo.Run
import Idealize.ShloMosaic.Lib.Pipeline.Frame

noncomputable section

namespace Cert.ReferenceIdeal.Hand

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F] [Cert.ReferenceIdeal.Facts]

/-- Stretch 0: the two edge rows, h + A·h, the two-matrix perceptron, the column statistics and the normalisation. -/
abbrev opsL0 : List (HloOp τ sig (Elt F)) :=
  [ unary main_arg1 main_v0 (extractStridedSlice S1x1600000 ![0, 0] · slices_S2x1600000_S1x1600000_0_0),
    reshape main_v0 main_v1 rfl shapeCasts_S1x1600000_S1600000,
    unary main_arg1 main_v2 (extractStridedSlice S1x1600000 ![1, 0] · slices_S2x1600000_S1x1600000_1_0),
    reshape main_v2 main_v3 rfl shapeCasts_S1x1600000_S1600000,
    nullary main_c (constantI S_ 32 0#32),
    unary main_c main_v4 (broadcastInDim S1600000 ![] bcast_S_S1600000),
    binary main_v1 main_v4 main_v5 (cmpi .slt),
    nullary main_c_0 (constantI S_ 32 100000#32),
    unary main_c_0 main_v6 (broadcastInDim S1600000 ![] bcast_S_S1600000),
    binary main_v1 main_v6 main_v7 addi,
    ternary main_v5 main_v7 main_v1 main_v8 select,
    unary main_v8 main_v9 (broadcastInDim S1600000x1 ![0] bcast_S1600000_S1600000x1_0),
    binary main_arg0 main_v9 main_v10 (fun x i => Host.gather gather_S100000x128_S1600000x1_S1600000x128_1_0_n_n_0_1_1128 x i),
    nullary main_cst (constant S_ .f32 0x00000000#32),
    unary main_cst main_v11 (broadcastInDim S100000x128 ![] bcast_S_S100000x128),
    unary main_v3 main_v12 (broadcastInDim S1600000x1 ![0] bcast_S1600000_S1600000x1_0),
    ternary main_v11 main_v12 main_v10 main_v13 (fun x i u => Host.scatterAdd scatter_S100000x128_S1600000x1_S1600000x128_1_0_0_1 x i u),
    binary main_arg0 main_v13 main_v14 addf,
    unary main_arg3 main_v15 (extractStridedSlice S1x128x128 ![0, 0, 0] · slices_S3x128x128_S1x128x128_0_0_0),
    reshape main_v15 main_v16 rfl shapeCasts_S1x128x128_S128x128,
    binary main_v14 main_v16 main_v17 (fun l r => Host.dotGeneral dot_S100000x128_S128x128_S100000x128_1_0_0_1_n_n none l r),
    unary main_arg4 main_v18 (extractStridedSlice S1x128 ![0, 0] · slices_S3x128_S1x128_0_0),
    reshape main_v18 main_v19 rfl shapeCasts_S1x128_S128,
    unary main_v19 main_v20 (broadcastInDim S1x128 ![1] bcast_S128_S1x128_1),
    unary main_v20 main_v21 (broadcastInDim S100000x128 ![0, 1] bcast_S1x128_S100000x128_0_1),
    binary main_v17 main_v21 main_v22 addf,
    TRef.nullary main_call0.cst (constant S_ .f32 0x00000000#32),
    TRef.unary main_call0.cst main_call0.v0 (broadcastInDim S100000x128 ![] bcast_S_S100000x128),
    TRef.binary (.of main_v22) main_call0.v0 main_call0.v1 maximumf,
    unary main_arg5 main_v24 (extractStridedSlice S1x128x128 ![0, 0, 0] · slices_S3x128x128_S1x128x128_0_0_0),
    reshape main_v24 main_v25 rfl shapeCasts_S1x128x128_S128x128,
    binary main_v23 main_v25 main_v26 (fun l r => Host.dotGeneral dot_S100000x128_S128x128_S100000x128_1_0_0_1_n_n none l r),
    unary main_arg6 main_v27 (extractStridedSlice S1x128 ![0, 0] · slices_S3x128_S1x128_0_0),
    reshape main_v27 main_v28 rfl shapeCasts_S1x128_S128,
    unary main_v28 main_v29 (broadcastInDim S1x128 ![1] bcast_S128_S1x128_1),
    unary main_v29 main_v30 (broadcastInDim S100000x128 ![0, 1] bcast_S1x128_S100000x128_0_1),
    binary main_v26 main_v30 main_v31 addf,
    unary main_arg7 main_v32 (extractStridedSlice S1x128 ![0, 0] · slices_S3x128_S1x128_0_0),
    reshape main_v32 main_v33 rfl shapeCasts_S1x128_S128,
    unary main_arg8 main_v34 (extractStridedSlice S1x128 ![0, 0] · slices_S3x128_S1x128_0_0),
    reshape main_v34 main_v35 rfl shapeCasts_S1x128_S128,
    nullary main_cst_1 (constant S_ .f32 0x00000000#32),
    binary main_v31 main_cst_1 main_v36 (fun x v => Host.reduceAdd x v reducesTo_S100000x128_S128_d0 h_S_),
    nullary main_cst_2 (constant S_ .f32 0x47C35000#32),
    unary main_cst_2 main_v37 (broadcastInDim S128 ![] bcast_S_S128),
    binary main_v36 main_v37 main_v38 Host.divf,
    nullary main_c_3 (constantI S_ 32 0#32),
    TRef.nullary main_call1.cst (constant S_ .f32 0x00000000#32),
    TRef.binary (.of main_v31) main_call1.cst main_call1.v0 (fun x v => Host.reduceAdd x v reducesTo_S100000x128_S128_d0 h_S_),
    TRef.unary main_call1.v0 main_call1.v1 (broadcastInDim S1x128 ![1] bcast_S128_S1x128_1),
    TRef.nullary main_call1.cst_0 (constant S_ .f32 0x47C35000#32),
    TRef.unary main_call1.cst_0 main_call1.v2 (broadcastInDim S1x128 ![] bcast_S_S1x128),
    TRef.binary main_call1.v1 main_call1.v2 main_call1.v3 Host.divf,
    TRef.unary main_call1.v3 main_call1.v4 (broadcastInDim S100000x128 ![0, 1] bcast_S1x128_S100000x128_0_1),
    TRef.binary (.of main_v31) main_call1.v4 main_call1.v5 subf,
    TRef.binary main_call1.v5 main_call1.v5 main_call1.v6 mulf,
    TRef.unary (.of main_c_3) main_call1.v7 (sitofp .f32),
    TRef.nullary main_call1.cst_1 (constant S_ .f32 0x47C35000#32),
    TRef.binary main_call1.cst_1 main_call1.v7 main_call1.v8 subf,
    TRef.nullary main_call1.cst_2 (constant S_ .f32 0x00000000#32),
    TRef.binary main_call1.v6 main_call1.cst_2 main_call1.v9 (fun x v => Host.reduceAdd x v reducesTo_S100000x128_S128_d0 h_S_),
    TRef.unary main_call1.v8 main_call1.v10 (broadcastInDim S128 ![] bcast_S_S128),
    TRef.binary main_call1.v9 main_call1.v10 main_call1.v11 Host.divf,
    TRef.nullary main_call1.cst_3 (constant S_ .f32 0x00000000#32),
    TRef.binary main_call1.v8 main_call1.cst_3 main_call1.v12 (cmpf .ogt),
    TRef.nullary main_call1.cst_4 (constant S_ .f32 0x7FC00000#32),
    TRef.unary main_call1.cst_4 main_call1.call0.v0 id,
    TRef.unary main_call1.call0.v0 main_call1.call0.v1 (broadcastInDim S128 ![] bcast_S_S128),
    TRef.ternary main_call1.v12 main_call1.v11 main_call1.call0.v1 main_call1.call0.v2 (fun p a b => select (broadcastInDim S128 ![] bcast_S_S128 p) a b),
    unary main_v38 main_v40 (broadcastInDim S1x128 ![1] bcast_S128_S1x128_1),
    unary main_v40 main_v41 (broadcastInDim S100000x128 ![0, 1] bcast_S1x128_S100000x128_0_1),
    binary main_v31 main_v41 main_v42 subf,
    nullary main_cst_4 (constant S_ .f32 0x3727C5AC#32),
    unary main_cst_4 main_v43 (broadcastInDim S128 ![] bcast_S_S128),
    binary main_v39 main_v43 main_v44 addf,
    unary main_v44 main_v45 Host.rsqrt,
    unary main_v45 main_v46 (broadcastInDim S1x128 ![1] bcast_S128_S1x128_1),
    unary main_v46 main_v47 (broadcastInDim S100000x128 ![0, 1] bcast_S1x128_S100000x128_0_1),
    binary main_v42 main_v47 main_v48 mulf,
    unary main_v33 main_v49 (broadcastInDim S1x128 ![1] bcast_S128_S1x128_1),
    unary main_v49 main_v50 (broadcastInDim S100000x128 ![0, 1] bcast_S1x128_S100000x128_0_1),
    binary main_v48 main_v50 main_v51 mulf,
    unary main_v35 main_v52 (broadcastInDim S1x128 ![1] bcast_S128_S1x128_1),
    unary main_v52 main_v53 (broadcastInDim S100000x128 ![0, 1] bcast_S1x128_S100000x128_0_1),
    binary main_v51 main_v53 main_v54 addf,
    TRef.nullary main_call2.cst (constant S_ .f32 0x00000000#32),
    TRef.unary main_call2.cst main_call2.v0 (broadcastInDim S100000x128 ![] bcast_S_S100000x128),
    TRef.binary (.of main_v54) main_call2.v0 main_call2.v1 maximumf ]

/-- Stretch 1: the same over stretch 0's output and slice 1 of the parameters. -/
abbrev opsL1 : List (HloOp τ sig (Elt F)) :=
  [ nullary main_c_5 (constantI S_ 32 0#32),
    unary main_c_5 main_v56 (broadcastInDim S1600000 ![] bcast_S_S1600000),
    binary main_v1 main_v56 main_v57 (cmpi .slt),
    nullary main_c_6 (constantI S_ 32 100000#32),
    unary main_c_6 main_v58 (broadcastInDim S1600000 ![] bcast_S_S1600000),
    binary main_v1 main_v58 main_v59 addi,
    ternary main_v57 main_v59 main_v1 main_v60 select,
    unary main_v60 main_v61 (broadcastInDim S1600000x1 ![0] bcast_S1600000_S1600000x1_0),
    binary main_v55 main_v61 main_v62 (fun x i => Host.gather gather_S100000x128_S1600000x1_S1600000x128_1_0_n_n_0_1_1128 x i),
    nullary main_cst_7 (constant S_ .f32 0x00000000#32),
    unary main_cst_7 main_v63 (broadcastInDim S100000x128 ![] bcast_S_S100000x128),
    unary main_v3 main_v64 (broadcastInDim S1600000x1 ![0] bcast_S1600000_S1600000x1_0),
    ternary main_v63 main_v64 main_v62 main_v65 (fun x i u => Host.scatterAdd scatter_S100000x128_S1600000x1_S1600000x128_1_0_0_1 x i u),
    binary main_v55 main_v65 main_v66 addf,
    unary main_arg3 main_v67 (extractStridedSlice S1x128x128 ![1, 0, 0] · slices_S3x128x128_S1x128x128_1_0_0),
    reshape main_v67 main_v68 rfl shapeCasts_S1x128x128_S128x128,
    binary main_v66 main_v68 main_v69 (fun l r => Host.dotGeneral dot_S100000x128_S128x128_S100000x128_1_0_0_1_n_n none l r),
    unary main_arg4 main_v70 (extractStridedSlice S1x128 ![1, 0] · slices_S3x128_S1x128_1_0),
    reshape main_v70 main_v71 rfl shapeCasts_S1x128_S128,
    unary main_v71 main_v72 (broadcastInDim S1x128 ![1] bcast_S128_S1x128_1),
    unary main_v72 main_v73 (broadcastInDim S100000x128 ![0, 1] bcast_S1x128_S100000x128_0_1),
    binary main_v69 main_v73 main_v74 addf,
    TRef.nullary main_call3.cst (constant S_ .f32 0x00000000#32),
    TRef.unary main_call3.cst main_call3.v0 (broadcastInDim S100000x128 ![] bcast_S_S100000x128),
    TRef.binary (.of main_v74) main_call3.v0 main_call3.v1 maximumf,
    unary main_arg5 main_v76 (extractStridedSlice S1x128x128 ![1, 0, 0] · slices_S3x128x128_S1x128x128_1_0_0),
    reshape main_v76 main_v77 rfl shapeCasts_S1x128x128_S128x128,
    binary main_v75 main_v77 main_v78 (fun l r => Host.dotGeneral dot_S100000x128_S128x128_S100000x128_1_0_0_1_n_n none l r),
    unary main_arg6 main_v79 (extractStridedSlice S1x128 ![1, 0] · slices_S3x128_S1x128_1_0),
    reshape main_v79 main_v80 rfl shapeCasts_S1x128_S128,
    unary main_v80 main_v81 (broadcastInDim S1x128 ![1] bcast_S128_S1x128_1),
    unary main_v81 main_v82 (broadcastInDim S100000x128 ![0, 1] bcast_S1x128_S100000x128_0_1),
    binary main_v78 main_v82 main_v83 addf,
    unary main_arg7 main_v84 (extractStridedSlice S1x128 ![1, 0] · slices_S3x128_S1x128_1_0),
    reshape main_v84 main_v85 rfl shapeCasts_S1x128_S128,
    unary main_arg8 main_v86 (extractStridedSlice S1x128 ![1, 0] · slices_S3x128_S1x128_1_0),
    reshape main_v86 main_v87 rfl shapeCasts_S1x128_S128,
    nullary main_cst_8 (constant S_ .f32 0x00000000#32),
    binary main_v83 main_cst_8 main_v88 (fun x v => Host.reduceAdd x v reducesTo_S100000x128_S128_d0 h_S_),
    nullary main_cst_9 (constant S_ .f32 0x47C35000#32),
    unary main_cst_9 main_v89 (broadcastInDim S128 ![] bcast_S_S128),
    binary main_v88 main_v89 main_v90 Host.divf,
    nullary main_c_10 (constantI S_ 32 0#32),
    TRef.nullary main_call4.cst (constant S_ .f32 0x00000000#32),
    TRef.binary (.of main_v83) main_call4.cst main_call4.v0 (fun x v => Host.reduceAdd x v reducesTo_S100000x128_S128_d0 h_S_),
    TRef.unary main_call4.v0 main_call4.v1 (broadcastInDim S1x128 ![1] bcast_S128_S1x128_1),
    TRef.nullary main_call4.cst_0 (constant S_ .f32 0x47C35000#32),
    TRef.unary main_call4.cst_0 main_call4.v2 (broadcastInDim S1x128 ![] bcast_S_S1x128),
    TRef.binary main_call4.v1 main_call4.v2 main_call4.v3 Host.divf,
    TRef.unary main_call4.v3 main_call4.v4 (broadcastInDim S100000x128 ![0, 1] bcast_S1x128_S100000x128_0_1),
    TRef.binary (.of main_v83) main_call4.v4 main_call4.v5 subf,
    TRef.binary main_call4.v5 main_call4.v5 main_call4.v6 mulf,
    TRef.unary (.of main_c_10) main_call4.v7 (sitofp .f32),
    TRef.nullary main_call4.cst_1 (constant S_ .f32 0x47C35000#32),
    TRef.binary main_call4.cst_1 main_call4.v7 main_call4.v8 subf,
    TRef.nullary main_call4.cst_2 (constant S_ .f32 0x00000000#32),
    TRef.binary main_call4.v6 main_call4.cst_2 main_call4.v9 (fun x v => Host.reduceAdd x v reducesTo_S100000x128_S128_d0 h_S_),
    TRef.unary main_call4.v8 main_call4.v10 (broadcastInDim S128 ![] bcast_S_S128),
    TRef.binary main_call4.v9 main_call4.v10 main_call4.v11 Host.divf,
    TRef.nullary main_call4.cst_3 (constant S_ .f32 0x00000000#32),
    TRef.binary main_call4.v8 main_call4.cst_3 main_call4.v12 (cmpf .ogt),
    TRef.nullary main_call4.cst_4 (constant S_ .f32 0x7FC00000#32),
    TRef.unary main_call4.cst_4 main_call4.call0.v0 id,
    TRef.unary main_call4.call0.v0 main_call4.call0.v1 (broadcastInDim S128 ![] bcast_S_S128),
    TRef.ternary main_call4.v12 main_call4.v11 main_call4.call0.v1 main_call4.call0.v2 (fun p a b => select (broadcastInDim S128 ![] bcast_S_S128 p) a b),
    unary main_v90 main_v92 (broadcastInDim S1x128 ![1] bcast_S128_S1x128_1),
    unary main_v92 main_v93 (broadcastInDim S100000x128 ![0, 1] bcast_S1x128_S100000x128_0_1),
    binary main_v83 main_v93 main_v94 subf,
    nullary main_cst_11 (constant S_ .f32 0x3727C5AC#32),
    unary main_cst_11 main_v95 (broadcastInDim S128 ![] bcast_S_S128),
    binary main_v91 main_v95 main_v96 addf,
    unary main_v96 main_v97 Host.rsqrt,
    unary main_v97 main_v98 (broadcastInDim S1x128 ![1] bcast_S128_S1x128_1),
    unary main_v98 main_v99 (broadcastInDim S100000x128 ![0, 1] bcast_S1x128_S100000x128_0_1),
    binary main_v94 main_v99 main_v100 mulf,
    unary main_v85 main_v101 (broadcastInDim S1x128 ![1] bcast_S128_S1x128_1),
    unary main_v101 main_v102 (broadcastInDim S100000x128 ![0, 1] bcast_S1x128_S100000x128_0_1),
    binary main_v100 main_v102 main_v103 mulf,
    unary main_v87 main_v104 (broadcastInDim S1x128 ![1] bcast_S128_S1x128_1),
    unary main_v104 main_v105 (broadcastInDim S100000x128 ![0, 1] bcast_S1x128_S100000x128_0_1),
    binary main_v103 main_v105 main_v106 addf,
    TRef.nullary main_call5.cst (constant S_ .f32 0x00000000#32),
    TRef.unary main_call5.cst main_call5.v0 (broadcastInDim S100000x128 ![] bcast_S_S100000x128),
    TRef.binary (.of main_v106) main_call5.v0 main_call5.v1 maximumf ]

/-- Stretch 2: the same over stretch 1's output and slice 2 of the parameters. -/
abbrev opsL2 : List (HloOp τ sig (Elt F)) :=
  [ nullary main_c_12 (constantI S_ 32 0#32),
    unary main_c_12 main_v108 (broadcastInDim S1600000 ![] bcast_S_S1600000),
    binary main_v1 main_v108 main_v109 (cmpi .slt),
    nullary main_c_13 (constantI S_ 32 100000#32),
    unary main_c_13 main_v110 (broadcastInDim S1600000 ![] bcast_S_S1600000),
    binary main_v1 main_v110 main_v111 addi,
    ternary main_v109 main_v111 main_v1 main_v112 select,
    unary main_v112 main_v113 (broadcastInDim S1600000x1 ![0] bcast_S1600000_S1600000x1_0),
    binary main_v107 main_v113 main_v114 (fun x i => Host.gather gather_S100000x128_S1600000x1_S1600000x128_1_0_n_n_0_1_1128 x i),
    nullary main_cst_14 (constant S_ .f32 0x00000000#32),
    unary main_cst_14 main_v115 (broadcastInDim S100000x128 ![] bcast_S_S100000x128),
    unary main_v3 main_v116 (broadcastInDim S1600000x1 ![0] bcast_S1600000_S1600000x1_0),
    ternary main_v115 main_v116 main_v114 main_v117 (fun x i u => Host.scatterAdd scatter_S100000x128_S1600000x1_S1600000x128_1_0_0_1 x i u),
    binary main_v107 main_v117 main_v118 addf,
    unary main_arg3 main_v119 (extractStridedSlice S1x128x128 ![2, 0, 0] · slices_S3x128x128_S1x128x128_2_0_0),
    reshape main_v119 main_v120 rfl shapeCasts_S1x128x128_S128x128,
    binary main_v118 main_v120 main_v121 (fun l r => Host.dotGeneral dot_S100000x128_S128x128_S100000x128_1_0_0_1_n_n none l r),
    unary main_arg4 main_v122 (extractStridedSlice S1x128 ![2, 0] · slices_S3x128_S1x128_2_0),
    reshape main_v122 main_v123 rfl shapeCasts_S1x128_S128,
    unary main_v123 main_v124 (broadcastInDim S1x128 ![1] bcast_S128_S1x128_1),
    unary main_v124 main_v125 (broadcastInDim S100000x128 ![0, 1] bcast_S1x128_S100000x128_0_1),
    binary main_v121 main_v125 main_v126 addf,
    TRef.nullary main_call6.cst (constant S_ .f32 0x00000000#32),
    TRef.unary main_call6.cst main_call6.v0 (broadcastInDim S100000x128 ![] bcast_S_S100000x128),
    TRef.binary (.of main_v126) main_call6.v0 main_call6.v1 maximumf,
    unary main_arg5 main_v128 (extractStridedSlice S1x128x128 ![2, 0, 0] · slices_S3x128x128_S1x128x128_2_0_0),
    reshape main_v128 main_v129 rfl shapeCasts_S1x128x128_S128x128,
    binary main_v127 main_v129 main_v130 (fun l r => Host.dotGeneral dot_S100000x128_S128x128_S100000x128_1_0_0_1_n_n none l r),
    unary main_arg6 main_v131 (extractStridedSlice S1x128 ![2, 0] · slices_S3x128_S1x128_2_0),
    reshape main_v131 main_v132 rfl shapeCasts_S1x128_S128,
    unary main_v132 main_v133 (broadcastInDim S1x128 ![1] bcast_S128_S1x128_1),
    unary main_v133 main_v134 (broadcastInDim S100000x128 ![0, 1] bcast_S1x128_S100000x128_0_1),
    binary main_v130 main_v134 main_v135 addf,
    unary main_arg7 main_v136 (extractStridedSlice S1x128 ![2, 0] · slices_S3x128_S1x128_2_0),
    reshape main_v136 main_v137 rfl shapeCasts_S1x128_S128,
    unary main_arg8 main_v138 (extractStridedSlice S1x128 ![2, 0] · slices_S3x128_S1x128_2_0),
    reshape main_v138 main_v139 rfl shapeCasts_S1x128_S128,
    nullary main_cst_15 (constant S_ .f32 0x00000000#32),
    binary main_v135 main_cst_15 main_v140 (fun x v => Host.reduceAdd x v reducesTo_S100000x128_S128_d0 h_S_),
    nullary main_cst_16 (constant S_ .f32 0x47C35000#32),
    unary main_cst_16 main_v141 (broadcastInDim S128 ![] bcast_S_S128),
    binary main_v140 main_v141 main_v142 Host.divf,
    nullary main_c_17 (constantI S_ 32 0#32),
    TRef.nullary main_call7.cst (constant S_ .f32 0x00000000#32),
    TRef.binary (.of main_v135) main_call7.cst main_call7.v0 (fun x v => Host.reduceAdd x v reducesTo_S100000x128_S128_d0 h_S_),
    TRef.unary main_call7.v0 main_call7.v1 (broadcastInDim S1x128 ![1] bcast_S128_S1x128_1),
    TRef.nullary main_call7.cst_0 (constant S_ .f32 0x47C35000#32),
    TRef.unary main_call7.cst_0 main_call7.v2 (broadcastInDim S1x128 ![] bcast_S_S1x128),
    TRef.binary main_call7.v1 main_call7.v2 main_call7.v3 Host.divf,
    TRef.unary main_call7.v3 main_call7.v4 (broadcastInDim S100000x128 ![0, 1] bcast_S1x128_S100000x128_0_1),
    TRef.binary (.of main_v135) main_call7.v4 main_call7.v5 subf,
    TRef.binary main_call7.v5 main_call7.v5 main_call7.v6 mulf,
    TRef.unary (.of main_c_17) main_call7.v7 (sitofp .f32),
    TRef.nullary main_call7.cst_1 (constant S_ .f32 0x47C35000#32),
    TRef.binary main_call7.cst_1 main_call7.v7 main_call7.v8 subf,
    TRef.nullary main_call7.cst_2 (constant S_ .f32 0x00000000#32),
    TRef.binary main_call7.v6 main_call7.cst_2 main_call7.v9 (fun x v => Host.reduceAdd x v reducesTo_S100000x128_S128_d0 h_S_),
    TRef.unary main_call7.v8 main_call7.v10 (broadcastInDim S128 ![] bcast_S_S128),
    TRef.binary main_call7.v9 main_call7.v10 main_call7.v11 Host.divf,
    TRef.nullary main_call7.cst_3 (constant S_ .f32 0x00000000#32),
    TRef.binary main_call7.v8 main_call7.cst_3 main_call7.v12 (cmpf .ogt),
    TRef.nullary main_call7.cst_4 (constant S_ .f32 0x7FC00000#32),
    TRef.unary main_call7.cst_4 main_call7.call0.v0 id,
    TRef.unary main_call7.call0.v0 main_call7.call0.v1 (broadcastInDim S128 ![] bcast_S_S128),
    TRef.ternary main_call7.v12 main_call7.v11 main_call7.call0.v1 main_call7.call0.v2 (fun p a b => select (broadcastInDim S128 ![] bcast_S_S128 p) a b),
    unary main_v142 main_v144 (broadcastInDim S1x128 ![1] bcast_S128_S1x128_1),
    unary main_v144 main_v145 (broadcastInDim S100000x128 ![0, 1] bcast_S1x128_S100000x128_0_1),
    binary main_v135 main_v145 main_v146 subf,
    nullary main_cst_18 (constant S_ .f32 0x3727C5AC#32),
    unary main_cst_18 main_v147 (broadcastInDim S128 ![] bcast_S_S128),
    binary main_v143 main_v147 main_v148 addf,
    unary main_v148 main_v149 Host.rsqrt,
    unary main_v149 main_v150 (broadcastInDim S1x128 ![1] bcast_S128_S1x128_1),
    unary main_v150 main_v151 (broadcastInDim S100000x128 ![0, 1] bcast_S1x128_S100000x128_0_1),
    binary main_v146 main_v151 main_v152 mulf,
    unary main_v137 main_v153 (broadcastInDim S1x128 ![1] bcast_S128_S1x128_1),
    unary main_v153 main_v154 (broadcastInDim S100000x128 ![0, 1] bcast_S1x128_S100000x128_0_1),
    binary main_v152 main_v154 main_v155 mulf,
    unary main_v139 main_v156 (broadcastInDim S1x128 ![1] bcast_S128_S1x128_1),
    unary main_v156 main_v157 (broadcastInDim S100000x128 ![0, 1] bcast_S1x128_S100000x128_0_1),
    binary main_v155 main_v157 main_v158 addf,
    TRef.nullary main_call8.cst (constant S_ .f32 0x00000000#32),
    TRef.unary main_call8.cst main_call8.v0 (broadcastInDim S100000x128 ![] bcast_S_S100000x128),
    TRef.binary (.of main_v158) main_call8.v0 main_call8.v1 maximumf ]

/-- Stretch 3: the per-graph sums of stretch 2's rows. -/
abbrev opsP : List (HloOp τ sig (Elt F)) :=
  [ nullary main_cst_19 (constant S_ .f32 0x00000000#32),
    unary main_cst_19 main_v160 (broadcastInDim S512x128 ![] bcast_S_S512x128),
    unary main_arg2 main_v161 (broadcastInDim S100000x1 ![0] bcast_S100000_S100000x1_0),
    ternary main_v160 main_v161 main_v159 main_v162 (fun x i u => Host.scatterAdd scatter_S512x128_S100000x1_S100000x128_1_0_0_1 x i u) ]

abbrev ops : List (HloOp τ sig (Elt F)) := opsL0 ++ opsL1 ++ opsL2 ++ opsP

-- Running the concatenation is running the four stretches one after the other.
theorem after_ops (W : Valuation τ sig (Elt F)) :
    StableHlo.after (ops (F := F)) W
      = StableHlo.after opsP (StableHlo.after opsL2 (StableHlo.after opsL1 (StableHlo.after opsL0 W))) := by
  simp only [ops, after_append]

end Cert.ReferenceIdeal.Hand

end
-- ==== Proof.RefKeep.lean ====
import proofs.«414687_j59708635349041_1_alg».proof.Proof.RefOps

noncomputable section

namespace Cert.ReferenceIdeal.Hand

open Cert.ReferenceIdeal Idealize.ShloMosaic Idealize.ShloMosaic.TcCoe Idealize.SL.Sem Idealize.ShloMosaic.StableHlo

variable {F : FTy → Type} [FloatOps F] [Cert.ReferenceIdeal.Facts]

abbrev argRefs : List (Ref sig .tc) :=
  [main_arg0, main_arg1, main_arg2, main_arg3, main_arg4, main_arg5, main_arg6, main_arg7, main_arg8]

/-- No operation of the list `l` writes a reference of `K`. -/
def Keeps (l : List (HloOp τ sig (Elt F))) (K : List (Ref sig .tc)) : Prop :=
  ∀ r ∈ K, l.Forall fun op => (Proc.devRef .tc r : DevRef τ sig) ∉ op.writes

-- Every operation writes one literal reference, and that one is not in the list.
theorem keeps : Keeps (F := F) opsL0 argRefs ∧ Keeps (F := F) opsL1 (main_v1 :: main_v3 :: argRefs)
    ∧ Keeps (F := F) opsL2 argRefs ∧ Keeps (F := F) opsP (main_v159 :: argRefs) := by
  refine ⟨?_, ?_, ?_, ?_⟩ <;> intro r hr <;>
    simp only [List.Forall, nullary_writes, unary_writes, binary_writes, ternary_writes, reshape_writes,
      Finset.mem_singleton] <;>
    (repeat' apply And.intro) <;> exact fun e => absurd (Proc.devRef_injective _ e ▸ hr) (by decide)

-- A reference no operation writes holds after the list what it held before.
theorem Keeps.after {l : List (HloOp τ sig (Elt F))} {K : List (Ref sig .tc)} (h : Keeps l K) (r : Ref sig .tc)
    (hr : r ∈ K := by decide) {W : Valuation τ sig (Elt F)} :
    StableHlo.after l W (Proc.devRef .tc r) = W (Proc.devRef .tc r) :=
  after_of_forall_not_mem _ W (List.forall_iff_forall_mem.mp (h r hr))

theorem after_ops_arg (r : Ref sig .tc) (hr : r ∈ argRefs := by decide) {W : Valuation τ sig (Elt F)} :
    StableHlo.after (ops (F := F)) W (Proc.devRef .tc r) = W (Proc.devRef .tc r) := by
  rw [after_ops, keeps.2.2.2.after r (List.mem_cons_of_mem _ hr), keeps.2.2.1.after r hr,
    keeps.2.1.after r (List.mem_cons_of_mem _ (List.mem_cons_of_mem _ hr)), keeps.1.after r hr]

end Cert.ReferenceIdeal.Hand

end
-- ==== Proof.RefRun.lean ====
import proofs.«414687_j59708635349041_1_alg».proof.Proof.RefKeep
import proofs.«414687_j59708635349041_1_alg».proof.Proof.Gen.ReferenceIdeal

noncomputable section

namespace Cert.ReferenceIdeal.Hand

open Cert.ReferenceIdeal Idealize.ShloMosaic Idealize.ShloMosaic.TcCoe Idealize.SL.Sem Idealize.ShloMosaic.StableHlo

variable {F : FTy → Type} [FloatOps F] [Cert.ReferenceIdeal.Facts]

-- @main unfolds, by computation alone, to the listed operations run in order.
theorem main_eq (c : Dev nD) : main (F := F) c = seq (ops (F := F)) := rfl

theorem ops_sub : (ops (F := F)).Forall fun op => op.bufs ⊆ tcRefs τ sig := by
  simp only [ops, List.forall_append, List.Forall, nullary_bufs_sub, unary_bufs_sub, binary_bufs_sub, ternary_bufs_sub,
    reshape_bufs_sub, and_self]

theorem ops_fresh : (ops (F := F)).Forall fun op => op.fresh = ∅ := by
  simp only [ops, List.forall_append, List.Forall]
  repeat' constructor

-- Every buffer ends at the fold of the operations over its launch contents, and no operation writes an argument.
theorem run (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v159) = after (ops (F := F)) (launchContents m c) (Proc.devRef .tc main_v159)
      ∧ r.2.mem ((c.tc : Thread nD τ).loc main_v162) = after (ops (F := F)) (launchContents m c) (Proc.devRef .tc main_v162)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨h c _, h c _,
      (h c _).trans (after_ops_arg main_arg0), (h c _).trans (after_ops_arg main_arg1), (h c _).trans (after_ops_arg main_arg2), (h c _).trans (after_ops_arg main_arg3), (h c _).trans (after_ops_arg main_arg4), (h c _).trans (after_ops_arg main_arg5), (h c _).trans (after_ops_arg main_arg6), (h c _).trans (after_ops_arg main_arg7), (h c _).trans (after_ops_arg main_arg8)⟩)
    (run_seq (by decide) (by decide) defs main (fun _ => ops) main_eq (fun _ => ops_sub) m ρ
      (fun _ => List.forall_iff_forall_mem.mp ops_fresh))

end Cert.ReferenceIdeal.Hand

end
-- ==== Proof.RefSpec.lean ====
import proofs.«414687_j59708635349041_1_alg».proof.ReferenceIdeal

noncomputable section

namespace Cert.ReferenceIdeal.Hand.Ref

open Idealize.ShloMosaic
open Cert.ReferenceIdeal Cert.ReferenceIdeal.Facts₀

variable {F : FTy → Type} [FloatOps F] [Cert.ReferenceIdeal.Facts]
  (h : Vec F S100000x128 .f32) (ei : Vec F S2x1600000 .i32) (src dst : Vec F S1600000 .i32)
  (W : Vec F S3x128x128 .f32) (b : Vec F S3x128 .f32)
  (w1 : Vec F S128x128 .f32) (b1 : Vec F S128 .f32) (w2 : Vec F S128x128 .f32) (b2 g be : Vec F S128 .f32)

/-- The sources: the edge array's first row, flattened. -/
def srcRow : Vec F S1600000 .i32 :=
  shapeCast S1600000 (extractStridedSlice S1x1600000 ![0, 0] ei slices_S2x1600000_S1x1600000_0_0)
    shapeCasts_S1x1600000_S1600000

/-- The targets: the edge array's second row, flattened. -/
def dstRow : Vec F S1600000 .i32 :=
  shapeCast S1600000 (extractStridedSlice S1x1600000 ![1, 0] ei slices_S2x1600000_S1x1600000_1_0)
    shapeCasts_S1x1600000_S1600000

/-- The sources as gather indices: a negative one shifted up by the node count, all as one column. -/
def srcCol : Vec F S1600000x1 .i32 :=
  broadcastInDim S1600000x1 ![0] bcast_S1600000_S1600000x1_0
    (select (cmpi .slt src (broadcastInDim S1600000 ![] bcast_S_S1600000 (constantI S_ 32 0#32)))
      (addi src (broadcastInDim S1600000 ![] bcast_S_S1600000 (constantI S_ 32 100000#32)))
      src)

/-- h + A·h: every node's features plus the sum of its in-neighbours' (gathered at the sources, added at the targets). -/
def haggOf : Vec F S100000x128 .f32 :=
  addf h
    (Host.scatterAdd (F := F) scatter_S100000x128_S1600000x1_S1600000x128_1_0_0_1
      (broadcastInDim S100000x128 ![] bcast_S_S100000x128 (constant S_ .f32 0x00000000#32))
      (broadcastInDim S1600000x1 ![0] bcast_S1600000_S1600000x1_0 dst)
      (Host.gather gather_S100000x128_S1600000x1_S1600000x128_1_0_n_n_0_1_1128 h (srcCol src)))

def hagg : Vec F S100000x128 .f32 := haggOf h (srcRow ei) (dstRow ei)

/-- Slice k of a stack of three matrices. -/
def matAt0 : Vec F S128x128 .f32 :=
  shapeCast S128x128 (extractStridedSlice S1x128x128 ![0, 0, 0] W slices_S3x128x128_S1x128x128_0_0_0)
    shapeCasts_S1x128x128_S128x128
def matAt1 : Vec F S128x128 .f32 :=
  shapeCast S128x128 (extractStridedSlice S1x128x128 ![1, 0, 0] W slices_S3x128x128_S1x128x128_1_0_0)
    shapeCasts_S1x128x128_S128x128
def matAt2 : Vec F S128x128 .f32 :=
  shapeCast S128x128 (extractStridedSlice S1x128x128 ![2, 0, 0] W slices_S3x128x128_S1x128x128_2_0_0)
    shapeCasts_S1x128x128_S128x128

/-- Slice k of a stack of three vectors. -/
def vecAt0 : Vec F S128 .f32 :=
  shapeCast S128 (extractStridedSlice S1x128 ![0, 0] b slices_S3x128_S1x128_0_0) shapeCasts_S1x128_S128
def vecAt1 : Vec F S128 .f32 :=
  shapeCast S128 (extractStridedSlice S1x128 ![1, 0] b slices_S3x128_S1x128_1_0) shapeCasts_S1x128_S128
def vecAt2 : Vec F S128 .f32 :=
  shapeCast S128 (extractStridedSlice S1x128 ![2, 0] b slices_S3x128_S1x128_2_0) shapeCasts_S1x128_S128

/-- v[None, :] over the 100000 rows. -/
def rows (v : Vec F S128 .f32) : Vec F S100000x128 .f32 :=
  broadcastInDim S100000x128 ![0, 1] bcast_S1x128_S100000x128_0_1 (broadcastInDim S1x128 ![1] bcast_S128_S1x128_1 v)

/-- max(·, 0) at every entry. -/
def relu : Vec F S100000x128 .f32 :=
  maximumf h (broadcastInDim S100000x128 ![] bcast_S_S100000x128 (constant S_ .f32 0x00000000#32))

/-- relu(h·w1 + b1)·w2 + b2. -/
def mlp : Vec F S100000x128 .f32 :=
  addf
    (Host.dotGeneral (F := F) dot_S100000x128_S128x128_S100000x128_1_0_0_1_n_n none
      (relu (addf (Host.dotGeneral (F := F) dot_S100000x128_S128x128_S100000x128_1_0_0_1_n_n none h w1) (rows b1)))
      w2)
    (rows b2)

/-- Per column, the sum over the rows divided by 100000. -/
def mean : Vec F S128 .f32 :=
  Host.divf (Host.reduceAdd (F := F) h (constant S_ .f32 0x00000000#32) reducesTo_S100000x128_S128_d0 h_S_)
    (broadcastInDim S128 ![] bcast_S_S128 (constant S_ .f32 0x47C35000#32))

/-- The same mean formed as a row and repeated over the rows: what the variance subtracts. -/
def meanRows : Vec F S100000x128 .f32 :=
  broadcastInDim S100000x128 ![0, 1] bcast_S1x128_S100000x128_0_1
    (Host.divf
      (broadcastInDim S1x128 ![1] bcast_S128_S1x128_1
        (Host.reduceAdd (F := F) h (constant S_ .f32 0x00000000#32) reducesTo_S100000x128_S128_d0 h_S_))
      (broadcastInDim S1x128 ![] bcast_S_S1x128 (constant S_ .f32 0x47C35000#32)))

/-- 100000 − 0: the variance's divisor, its correction term being zero. -/
def varDenom : Vec F S_ .f32 :=
  subf (constant S_ .f32 0x47C35000#32) (sitofp (F := F) .f32 (constantI S_ 32 0#32))

/-- E[(h − E h)²] per column where the divisor is positive, not-a-number otherwise. -/
def var : Vec F S128 .f32 :=
  select
    (broadcastInDim S128 ![] bcast_S_S128
      (cmpf .ogt (varDenom (F := F)) (constant S_ .f32 0x00000000#32)))
    (Host.divf
      (Host.reduceAdd (F := F) (mulf (subf h (meanRows h)) (subf h (meanRows h)))
        (constant S_ .f32 0x00000000#32) reducesTo_S100000x128_S128_d0 h_S_)
      (broadcastInDim S128 ![] bcast_S_S128 (varDenom (F := F))))
    (broadcastInDim S128 ![] bcast_S_S128 (id (constant S_ .f32 0x7FC00000#32)))

/-- relu((h − mean)·rsqrt(var + ε)·g + be). -/
def bn : Vec F S100000x128 .f32 :=
  relu
    (addf
      (mulf
        (mulf (subf h (rows (mean h)))
          (rows (Host.rsqrt (addf (var h) (broadcastInDim S128 ![] bcast_S_S128 (constant S_ .f32 0x3727C5AC#32))))))
        (rows g))
      (rows be))

/-- bn(mlp(h + A·h)), the edges given as sources and targets. -/
def layerOf : Vec F S100000x128 .f32 := bn (mlp (haggOf h src dst) w1 b1 w2 b2) g be

/-- The same, the edges given as the edge array. -/
def layer : Vec F S100000x128 .f32 := bn (mlp (hagg h ei) w1 b1 w2 b2) g be

theorem layer_eq : layer h ei w1 b1 w2 b2 g be = layerOf h (srcRow ei) (dstRow ei) w1 b1 w2 b2 g be := rfl

/-- Per graph number, the sum of the rows carrying it, into 512 rows. -/
def pool (h : Vec F S100000x128 .f32) (b : Vec F S100000 .i32) : Vec F S512x128 .f32 :=
  Host.scatterAdd (F := F) scatter_S512x128_S100000x1_S100000x128_1_0_0_1
    (broadcastInDim S512x128 ![] bcast_S_S512x128 (constant S_ .f32 0x00000000#32))
    (broadcastInDim S100000x1 ![0] bcast_S100000_S100000x1_0 b)
    h

end Cert.ReferenceIdeal.Hand.Ref

end
-- ==== Proof.RValSpec.lean ====
import proofs.«414687_j59708635349041_1_alg».proof.Proof.RefSpec

noncomputable section

namespace Cert.ReferenceIdeal.Hand

open Idealize.ShloMosaic
open Cert.ReferenceIdeal

variable {F : FTy → Type} [FloatOps F] [Cert.ReferenceIdeal.Facts]

/-- layer₂ ∘ layer₁ ∘ layer₀ applied to x, layer k using slice k of every parameter stack. -/
def rH (x : Vec F S100000x128 .f32) (ei : Vec F S2x1600000 .i32)
    (W1 : Vec F S3x128x128 .f32) (b1 : Vec F S3x128 .f32) (W2 : Vec F S3x128x128 .f32) (b2 : Vec F S3x128 .f32)
    (g be : Vec F S3x128 .f32) : Vec F S100000x128 .f32 :=
  Ref.layerOf
    (Ref.layerOf
      (Ref.layerOf x (Ref.srcRow ei) (Ref.dstRow ei) (Ref.matAt0 W1) (Ref.vecAt0 b1) (Ref.matAt0 W2) (Ref.vecAt0 b2)
        (Ref.vecAt0 g) (Ref.vecAt0 be))
      (Ref.srcRow ei) (Ref.dstRow ei) (Ref.matAt1 W1) (Ref.vecAt1 b1) (Ref.matAt1 W2) (Ref.vecAt1 b2)
      (Ref.vecAt1 g) (Ref.vecAt1 be))
    (Ref.srcRow ei) (Ref.dstRow ei) (Ref.matAt2 W1) (Ref.vecAt2 b1) (Ref.matAt2 W2) (Ref.vecAt2 b2)
    (Ref.vecAt2 g) (Ref.vecAt2 be)

/-- pool(rH …) by the batch vector. -/
def rP (x : Vec F S100000x128 .f32) (ei : Vec F S2x1600000 .i32) (batch : Vec F S100000 .i32)
    (W1 : Vec F S3x128x128 .f32) (b1 : Vec F S3x128 .f32) (W2 : Vec F S3x128x128 .f32) (b2 : Vec F S3x128 .f32)
    (g be : Vec F S3x128 .f32) : Vec F S512x128 .f32 :=
  Ref.pool (rH x ei W1 b1 W2 b2 g be) batch

end Cert.ReferenceIdeal.Hand
-- ==== Proof.RefRead.lean ====
import proofs.«414687_j59708635349041_1_alg».proof.Proof.RefSpec
import proofs.«414687_j59708635349041_1_alg».proof.Proof.RefOps

noncomputable section

namespace Cert.ReferenceIdeal.Hand

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F] [Cert.ReferenceIdeal.Facts] (W : Valuation τ sig (Elt F))

-- After a list of operations the last result holds the composed function of the list's inputs.

theorem read_P : StableHlo.after opsP W main_v162 = Ref.pool (W main_v159) (W main_arg2) := by
  unfold Ref.pool
  after_results_simp

theorem src_L0 : StableHlo.after opsL0 W main_v1 = Ref.srcRow (W main_arg1) := by
  after_results_simp
  rfl

theorem dst_L0 : StableHlo.after opsL0 W main_v3 = Ref.dstRow (W main_arg1) := by
  after_results_simp
  rfl

theorem read_L0 :
    StableHlo.after opsL0 W main_v55
      = Ref.layer (W main_arg0) (W main_arg1) (Ref.matAt0 (W main_arg3)) (Ref.vecAt0 (W main_arg4))
          (Ref.matAt0 (W main_arg5)) (Ref.vecAt0 (W main_arg6)) (Ref.vecAt0 (W main_arg7)) (Ref.vecAt0 (W main_arg8)) := by
  after_results_simp
  simp only [TRef.ofBuf, TRef.toBuf, cast_eq]
  rfl

theorem read_L1 :
    StableHlo.after opsL1 W main_v107
      = Ref.layerOf (W main_v55) (W main_v1) (W main_v3) (Ref.matAt1 (W main_arg3)) (Ref.vecAt1 (W main_arg4))
          (Ref.matAt1 (W main_arg5)) (Ref.vecAt1 (W main_arg6)) (Ref.vecAt1 (W main_arg7)) (Ref.vecAt1 (W main_arg8)) := by
  after_results_simp
  simp only [TRef.ofBuf, TRef.toBuf, cast_eq]
  rfl

theorem read_L2 :
    StableHlo.after opsL2 W main_v159
      = Ref.layerOf (W main_v107) (W main_v1) (W main_v3) (Ref.matAt2 (W main_arg3)) (Ref.vecAt2 (W main_arg4))
          (Ref.matAt2 (W main_arg5)) (Ref.vecAt2 (W main_arg6)) (Ref.vecAt2 (W main_arg7)) (Ref.vecAt2 (W main_arg8)) := by
  after_results_simp
  simp only [TRef.ofBuf, TRef.toBuf, cast_eq]
  rfl

end Cert.ReferenceIdeal.Hand

end
-- ==== Proof.RVal.lean ====
import proofs.«414687_j59708635349041_1_alg».proof.Proof.RValSpec
import proofs.«414687_j59708635349041_1_alg».proof.Proof.RefOps
import proofs.«414687_j59708635349041_1_alg».proof.Proof.RefRead
import proofs.«414687_j59708635349041_1_alg».proof.Proof.RefKeep

noncomputable section

namespace Cert.ReferenceIdeal.Hand

open Cert.ReferenceIdeal Idealize.ShloMosaic Idealize.ShloMosaic.TcCoe

variable {F : FTy → Type} [FloatOps F] [Cert.ReferenceIdeal.Facts]

-- The line is its four stretches in turn; each reads only what the stretches in between leave alone.
theorem rval_H (W : Valuation τ sig (Elt F)) :
    StableHlo.after (ops (F := F)) W main_v159
      = rH (F := F) (W main_arg0) (W main_arg1) (W main_arg3) (W main_arg4) (W main_arg5) (W main_arg6)
          (W main_arg7) (W main_arg8) := by
  have k := keeps (F := F)
  rw [after_ops, k.2.2.2.after main_v159, read_L2, read_L1, k.2.1.after main_v1, k.2.1.after main_v3,
    k.2.1.after main_arg3, k.2.1.after main_arg4, k.2.1.after main_arg5, k.2.1.after main_arg6, k.2.1.after main_arg7, k.2.1.after main_arg8,
    read_L0, Ref.layer_eq, src_L0, dst_L0,
    k.1.after main_arg3, k.1.after main_arg4, k.1.after main_arg5, k.1.after main_arg6, k.1.after main_arg7, k.1.after main_arg8]
  rfl

theorem rval_P (W : Valuation τ sig (Elt F)) :
    StableHlo.after (ops (F := F)) W main_v162
      = rP (F := F) (W main_arg0) (W main_arg1) (W main_arg2) (W main_arg3) (W main_arg4) (W main_arg5) (W main_arg6)
          (W main_arg7) (W main_arg8) := by
  have hH := rval_H (F := F) W
  have k := keeps (F := F)
  rw [after_ops] at hH ⊢
  rw [k.2.2.2.after main_v159] at hH
  rw [read_P, hH, k.2.2.1.after main_arg2, k.2.1.after main_arg2, k.1.after main_arg2]
  rfl

end Cert.ReferenceIdeal.Hand
-- ==== Proof.MathSpec.lean ====
import Idealize.ShloMosaic.PureOps.Ideal
import Idealize.ShloMosaic.PureOps.Ideal.Laws

noncomputable section

namespace Cert.Hand.M

open Idealize.ShloMosaic
open scoped BigOperators

-- The literals 100000.0 and 9.99999974E-6.
def cN : EReal := Ideal.ofBits .f32 0x47C35000#32

def eps : EReal := Ideal.ofBits .f32 0x3727C5AC#32

def mlp {n : ℕ} (A : Fin n → Fin 128 → EReal) (w1 : Fin 128 → Fin 128 → EReal) (b1 : Fin 128 → EReal)
    (w2 : Fin 128 → Fin 128 → EReal) (b2 : Fin 128 → EReal) : Fin n → Fin 128 → EReal :=
  fun r j => (∑ k, max ((∑ l, A r l * w1 l k) + b1 k) 0 * w2 k j) + b2 j

-- The sum, and the sum of squares, of every column; a row of column sums divided by the number of rows.
def colSum {n : ℕ} (H : Fin n → Fin 128 → EReal) : Fin 128 → EReal := fun j => ∑ r, H r j

def colSq {n : ℕ} (H : Fin n → Fin 128 → EReal) : Fin 128 → EReal := fun j => ∑ r, H r j * H r j

def meanOf (s : Fin 128 → EReal) : Fin 128 → EReal := fun j => Ideal.div (s j) cN

-- The variance as E[h²] − E[h]², and as E[(h − E h)²].
def varK (s ss : Fin 128 → EReal) : Fin 128 → EReal :=
  fun j => Ideal.div (ss j) cN - meanOf s j * meanOf s j

def varR {n : ℕ} (H : Fin n → Fin 128 → EReal) : Fin 128 → EReal :=
  fun j => Ideal.div (∑ r, (H r j - meanOf (colSum H) j) * (H r j - meanOf (colSum H) j)) cN

-- rsqrt(var + eps), and max((h − mean)·inv·gamma + beta, 0).
def invOf (v : Fin 128 → EReal) : Fin 128 → EReal := fun j => Ideal.rsqrt (v j + eps)

def bn {n : ℕ} (H : Fin n → Fin 128 → EReal) (mean inv g be : Fin 128 → EReal) : Fin n → Fin 128 → EReal :=
  fun r j => max ((H r j - mean j) * inv j * g j + be j) 0

-- One layer with either variance.
def layerK {n : ℕ} (A : Fin n → Fin 128 → EReal) (w1 : Fin 128 → Fin 128 → EReal) (b1 : Fin 128 → EReal)
    (w2 : Fin 128 → Fin 128 → EReal) (b2 : Fin 128 → EReal) (g be : Fin 128 → EReal) : Fin n → Fin 128 → EReal :=
  let H := mlp A w1 b1 w2 b2
  bn H (meanOf (colSum H)) (invOf (varK (colSum H) (colSq H))) g be

def layerR {n : ℕ} (A : Fin n → Fin 128 → EReal) (w1 : Fin 128 → Fin 128 → EReal) (b1 : Fin 128 → EReal)
    (w2 : Fin 128 → Fin 128 → EReal) (b2 : Fin 128 → EReal) (g be : Fin 128 → EReal) : Fin n → Fin 128 → EReal :=
  let H := mlp A w1 b1 w2 b2
  bn H (meanOf (colSum H)) (invOf (varR H)) g be

def poolSum {n : ℕ} (B : Fin n → BitVec 32) (H : Fin n → Fin 128 → EReal) : Fin 512 → Fin 128 → EReal :=
  fun g j => ∑ r, if (B r).toInt = (g.val : Int) then H r j else 0

-- Every entry of a family is a real number.
def IsReal {ι κ : Type*} (H : ι → κ → EReal) : Prop := ∀ r j, ∃ x : ℝ, H r j = (x : EReal)

def IsReal₁ {ι : Type*} (v : ι → EReal) : Prop := ∀ j, ∃ x : ℝ, v j = (x : EReal)

end Cert.Hand.M

end
-- ==== Proof.LibEReal.lean ====
import Idealize.ShloMosaic.PureOps.Ideal
import Idealize.ShloMosaic.PureOps.Ideal.Laws

noncomputable section

open scoped BigOperators

namespace Cert.LibEReal

open Idealize.ShloMosaic

-- ℝ → EReal is additive, so finite sums of reals embed.
theorem coe_sum {ι : Type} (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

-- ℝ → EReal preserves order, hence max.
theorem max_coe (a b : ℝ) : max ((a : ℝ) : EReal) ((b : ℝ) : EReal) = ((max a b : ℝ) : EReal) :=
  (EReal.coe_strictMono.monotone.map_max (a := a) (b := b)).symm

-- For b ≠ 0, a / b is a · b⁻¹ computed among the reals.
theorem div_coe_coe (a : ℝ) {b : ℝ} (h : b ≠ 0) :
    Ideal.div ((a : ℝ) : EReal) ((b : ℝ) : EReal) = ((a / b : ℝ) : EReal) := by
  rw [Ideal.div_coe h, ← EReal.coe_mul, mul_one_div]

end Cert.LibEReal

end
-- ==== Proof.BridgeLaw.lean ====
import Idealize.ShloMosaic.PureOps.Ideal
import Idealize.ShloMosaic.PureOps.Ideal.Laws
import proofs.«414687_j59708635349041_1_alg».proof.Proof.LibEReal
import proofs.«414687_j59708635349041_1_alg».proof.Proof.MathSpec

noncomputable section

open scoped BigOperators

namespace Cert.Hand.Law

open Idealize.ShloMosaic
open Cert.Hand

variable {n : ℕ}

-- Σ (h − m)² = Σ h² − 2 m Σ h + n m²: expand each square and count the n copies of m².
theorem sum_sq_dev (h : Fin n → ℝ) (m : ℝ) :
    (∑ r, (h r - m) * (h r - m)) = (∑ r, h r * h r) - 2 * m * (∑ r, h r) + (n : ℝ) * (m * m) := by
  have e : ∀ r, (h r - m) * (h r - m) = h r * h r - 2 * m * h r + m * m := fun r => by ring
  simp only [e]
  rw [Finset.sum_add_distrib, Finset.sum_sub_distrib, ← Finset.mul_sum, Finset.sum_const, Finset.card_univ,
    Fintype.card_fin, nsmul_eq_mul]

-- The two variances agree over ℝ: with m = S/N the right side is (Σh² − S²/N)/N.
theorem var_real (hn : (n : ℝ) = 100000) (h : Fin n → ℝ) :
    (∑ r, h r * h r) / 100000 - (∑ r, h r) / 100000 * ((∑ r, h r) / 100000)
      = (∑ r, (h r - (∑ r, h r) / 100000) * (h r - (∑ r, h r) / 100000)) / 100000 := by
  rw [sum_sq_dev, hn]
  field_simp
  ring

section Closed
variable {a b : EReal} (ha : ∃ x : ℝ, a = (x : EReal)) (hb : ∃ y : ℝ, b = (y : EReal))
include ha

-- The real numbers among the extended reals are closed under the operations a layer uses.
theorem real_max_zero : ∃ z : ℝ, max a 0 = (z : EReal) := by
  obtain ⟨x, rfl⟩ := ha
  exact ⟨max x 0, by rw [← EReal.coe_zero, Cert.LibEReal.max_coe]⟩

include hb

theorem real_add : ∃ z : ℝ, a + b = (z : EReal) := by
  obtain ⟨x, rfl⟩ := ha; obtain ⟨y, rfl⟩ := hb
  exact ⟨x + y, (EReal.coe_add x y).symm⟩

theorem real_sub : ∃ z : ℝ, a - b = (z : EReal) := by
  obtain ⟨x, rfl⟩ := ha; obtain ⟨y, rfl⟩ := hb
  exact ⟨x - y, (EReal.coe_sub x y).symm⟩

theorem real_mul : ∃ z : ℝ, a * b = (z : EReal) := by
  obtain ⟨x, rfl⟩ := ha; obtain ⟨y, rfl⟩ := hb
  exact ⟨x * y, (EReal.coe_mul x y).symm⟩

end Closed

theorem real_sum {ι : Type} [Fintype ι] {f : ι → EReal} (hf : ∀ i, ∃ x : ℝ, f i = (x : EReal)) :
    ∃ z : ℝ, (∑ i, f i) = (z : EReal) := by
  choose g hg using hf
  exact ⟨∑ i, g i, by simp only [hg]; exact Cert.LibEReal.coe_sum _ _⟩

-- The pattern 0x47C35000 is 100000: (2^23 + 4411392) · 2^(143 − 127 − 23) = 12800000 / 128.
theorem cN_val : M.cN = ((100000 : ℝ) : EReal) := by
  simp [M.cN, Ideal.ofBits, Ideal.ieee]
  rw [← EReal.coe_mul, EReal.coe_eq_coe_iff]
  norm_num

-- The pattern 0x3727C5AC is the positive number (2^23 + 2606508) · 2^(110 − 127 − 23).
theorem eps_pos : ∃ e : ℝ, 0 < e ∧ M.eps = (e : EReal) := by
  refine ⟨(10995116 : ℝ) * (2 : ℝ) ^ (-40 : Int), by positivity, ?_⟩
  simp [M.eps, Ideal.ofBits, Ideal.ieee]

theorem div_cN (x : ℝ) : Ideal.div (x : EReal) M.cN = ((x / 100000 : ℝ) : EReal) := by
  rw [cN_val, Cert.LibEReal.div_coe_coe x (by norm_num)]

variable {A H : Fin n → Fin 128 → EReal} {w1 w2 : Fin 128 → Fin 128 → EReal} {b1 b2 g be s mean inv : Fin 128 → EReal}

theorem mlp_real (hA : M.IsReal A) (hw1 : M.IsReal w1) (hb1 : M.IsReal₁ b1) (hw2 : M.IsReal w2) (hb2 : M.IsReal₁ b2) :
    M.IsReal (M.mlp A w1 b1 w2 b2) := fun r j =>
  real_add (real_sum fun k => real_mul (real_max_zero (real_add (real_sum fun l => real_mul (hA r l) (hw1 l k))
    (hb1 k))) (hw2 k j)) (hb2 j)

theorem colSum_real (hH : M.IsReal H) : M.IsReal₁ (M.colSum H) := fun j => real_sum fun r => hH r j

theorem meanOf_real (hs : M.IsReal₁ s) : M.IsReal₁ (M.meanOf s) := fun j => by
  obtain ⟨x, hx⟩ := hs j
  exact ⟨x / 100000, by rw [M.meanOf, hx, div_cN]⟩

theorem bn_real (hH : M.IsReal H) (hm : M.IsReal₁ mean) (hi : M.IsReal₁ inv) (hg : M.IsReal₁ g) (hb : M.IsReal₁ be) :
    M.IsReal (M.bn H mean inv g be) := fun r j =>
  real_max_zero (real_add (real_mul (real_mul (real_sub (hH r j) (hm j)) (hi j)) (hg j)) (hb j))

section Values
variable (h : Fin n → Fin 128 → ℝ) (hh : ∀ r j, H r j = ((h r j : ℝ) : EReal)) (j : Fin 128)
include hh

-- The statistics of a real array, as real numbers.
theorem colSum_val : M.colSum H j = ((∑ r, h r j : ℝ) : EReal) := by
  simp only [M.colSum, hh]
  exact Cert.LibEReal.coe_sum _ _

theorem colSq_val : M.colSq H j = ((∑ r, h r j * h r j : ℝ) : EReal) := by
  simp only [M.colSq, hh, ← EReal.coe_mul]
  exact Cert.LibEReal.coe_sum _ _

theorem mean_val : M.meanOf (M.colSum H) j = (((∑ r, h r j) / 100000 : ℝ) : EReal) := by
  show Ideal.div (M.colSum H j) M.cN = _
  rw [colSum_val h hh, div_cN]

theorem varK_val : M.varK (M.colSum H) (M.colSq H) j
    = (((∑ r, h r j * h r j) / 100000 - (∑ r, h r j) / 100000 * ((∑ r, h r j) / 100000) : ℝ) : EReal) := by
  show Ideal.div (M.colSq H j) M.cN - M.meanOf (M.colSum H) j * M.meanOf (M.colSum H) j = _
  rw [colSq_val h hh, mean_val h hh, div_cN, ← EReal.coe_mul, ← EReal.coe_sub]

theorem varR_val : M.varR H j
    = (((∑ r, (h r j - (∑ r, h r j) / 100000) * (h r j - (∑ r, h r j) / 100000)) / 100000 : ℝ) : EReal) := by
  show Ideal.div (∑ r, (H r j - M.meanOf (M.colSum H) j) * (H r j - M.meanOf (M.colSum H) j)) M.cN = _
  have hD : (∑ r, (H r j - M.meanOf (M.colSum H) j) * (H r j - M.meanOf (M.colSum H) j))
      = ((∑ r, (h r j - (∑ r, h r j) / 100000) * (h r j - (∑ r, h r j) / 100000) : ℝ) : EReal) := by
    simp only [mean_val h hh, hh, ← EReal.coe_sub, ← EReal.coe_mul]
    exact Cert.LibEReal.coe_sum _ _
  rw [hD, div_cN]

end Values

-- Both variances of a real array are real numbers, and over ℝ the identity is var_real.
theorem varK_eq_varR (hn : (n : ℝ) = 100000) (hH : M.IsReal H) : M.varK (M.colSum H) (M.colSq H) = M.varR H := by
  choose h hh using hH
  funext j
  rw [varK_val h hh, varR_val h hh, EReal.coe_eq_coe_iff]
  exact var_real hn fun r => h r j

-- rsqrt(v + eps) is real: the variance v is a sum of squares over a positive number, so v + eps is positive.
theorem invOf_varR_real (hH : M.IsReal H) : M.IsReal₁ (M.invOf (M.varR H)) := by
  choose h hh using hH
  intro j
  obtain ⟨e, he0, he⟩ := eps_pos
  have hpos := add_pos_of_nonneg_of_pos (div_nonneg (Finset.sum_nonneg (s := Finset.univ) fun r _ =>
    mul_self_nonneg (h r j - (∑ r, h r j) / 100000)) (by norm_num : (0 : ℝ) ≤ 100000)) he0
  show ∃ x : ℝ, Ideal.rsqrt (M.varR H j + M.eps) = x
  rw [varR_val h hh, he, ← EReal.coe_add, Ideal.rsqrt_coe, if_neg (not_lt.2 hpos.le), if_neg hpos.ne']
  exact ⟨_, rfl⟩

-- The two layers differ in the variance only, taken of the same real array.
section Layer
variable (hA : M.IsReal A) (hw1 : M.IsReal w1) (hb1 : M.IsReal₁ b1) (hw2 : M.IsReal w2) (hb2 : M.IsReal₁ b2)
include hA hw1 hb1 hw2 hb2

theorem layer_eq (hn : (n : ℝ) = 100000) : M.layerK A w1 b1 w2 b2 g be = M.layerR A w1 b1 w2 b2 g be := by
  show M.bn _ _ (M.invOf (M.varK _ _)) g be = M.bn _ _ (M.invOf (M.varR _)) g be
  rw [varK_eq_varR hn (mlp_real hA hw1 hb1 hw2 hb2)]

theorem layerR_real (hg : M.IsReal₁ g) (hbe : M.IsReal₁ be) : M.IsReal (M.layerR A w1 b1 w2 b2 g be) :=
  have hH := mlp_real hA hw1 hb1 hw2 hb2
  bn_real hH (meanOf_real (colSum_real hH)) (invOf_varR_real hH) hg hbe

end Layer

end Cert.Hand.Law

end
-- ==== Proof.LibGatherScatter.lean ====
import Idealize.ShloMosaic.Lib.StableHlo.Predicate
import Idealize.ShloMosaic.Lib.ValueIdx
import Idealize.ShloMosaic.PureOps.Ideal.Laws

open scoped BigOperators

namespace Idealize.ShloMosaic.RowOps

open Idealize.ShloMosaic Idealize.ShloMosaic.ValueIdx Idealize.ShloMosaic.StableHlo.Predicate

/-- The operand row a gather reads for result row `e`: the start index as a signed number, clamped to the operand. -/
def clampRow {n w : Nat} (N : Nat) (hN : 0 < N) (idx : IVec ⟨2, ![n, 1]⟩ w) (e : Fin n) : Fin N :=
  ⟨min (idx (ixP e)).toInt.toNat (N - 1), by omega⟩

/-- A scatter sends update row `e` to operand row `i` when the start index, as a signed number, is exactly `i`. -/
def lands {n w : Nat} (idx : IVec ⟨2, ![n, 1]⟩ w) (e : Fin n) (i : Nat) : Prop := (idx (ixP e)).toInt = (i : Int)

instance {n w : Nat} (idx : IVec ⟨2, ![n, 1]⟩ w) (e : Fin n) (i : Nat) : Decidable (lands idx e i) := Int.decEq _ _

private theorem getElem_singleton_of_eq {β : Type} {l : List β} {b : β} (h : l = [b]) (k : Nat) (hk : k < l.length) :
    l[k] = b :=
  List.mem_singleton.1 (h ▸ List.getElem_mem hk)

private theorem kept_one (sz : Fin 2 → ℕ) : (⟨2, sz⟩ : Shape).kept [1] = [0] := by
  show (List.finRange 2).filter (fun a : Fin 2 => a ∉ [(1 : Fin 2)]) = [0]
  decide

-- Result (e, j) reads operand (clampRow e, j): the row comes from the start index, the column from the offset axis.
theorem gather_rows {α : Type} {N D n w : Nat} (d : GatherDims ⟨2, ![N, D]⟩ ⟨2, ![n, 1]⟩ ⟨2, ![n, D]⟩)
    (hoff : d.offsetDims = [1]) (hcoll : d.collapsedSliceDims = [0]) (hob : d.operandBatchingDims = [])
    (hsim : d.startIndexMap = [0]) (hivd : d.indexVectorDim = 1) (hss : d.sliceSizes = ![1, D])
    (x : (⟨2, ![N, D]⟩ : Shape).Idx → α) (idx : IVec ⟨2, ![n, 1]⟩ w) (e : Fin n) (j : Fin D) (hN : 0 < N) :
    Host.gather d x idx (ix2 e j) = x (ix2 (clampRow N hN idx e) j) := by
  have hb : ∀ a : Fin 2, a ∉ d.operandBatchingDims := fun a => by rw [hob]; exact List.not_mem_nil
  have hbd : d.batchDims = [0] := (congrArg (Shape.kept _) hoff).trans (kept_one _)
  have h0 : (d.operandIdx (ix2 e j) idx (0 : Fin 2)).val = (clampRow N hN idx e).val := by
    show d.start (ix2 e j) idx 0 + d.batchCoord (ix2 e j) 0 + d.offCoord (ix2 e j) 0 = min (idx (ixP e)).toInt.toNat (N - 1)
    rw [d.batchCoord_eq_zero _ _ (hb 0), d.offCoord_eq_zero _ _ (by rw [GatherDims.mem_sKept, hcoll]; simp), Nat.add_zero]
    unfold GatherDims.start
    rw [dif_pos (show (0 : Fin 2) ∈ d.startIndexMap by rw [hsim]; exact List.mem_singleton_self _), hss]
    show min (idx _).toInt.toNat (N - 1) = min (idx (ixP e)).toInt.toNat (N - 1)
    congr 4
    funext b
    unfold GatherDims.siIdx
    match b with
    | ⟨0, _⟩ =>
      rw [dif_neg (by rw [hivd]; simp)]
      exact Fin.ext (congrArg (fun X => ((ix2 e j : (⟨2, ![n, D]⟩ : Shape).Idx) X).val) (getElem_singleton_of_eq hbd _ _))
    | ⟨1, _⟩ =>
      rw [dif_pos (by rw [hivd])]
      apply Fin.ext
      show List.idxOf (0 : Fin 2) d.startIndexMap = 0
      rw [hsim]; rfl
  have h1 : (d.operandIdx (ix2 e j) idx (1 : Fin 2)).val = j.val := by
    show d.start (ix2 e j) idx 1 + d.batchCoord (ix2 e j) 1 + d.offCoord (ix2 e j) 1 = j.val
    rw [d.batchCoord_eq_zero _ _ (hb 1), Nat.add_zero]
    unfold GatherDims.start GatherDims.offCoord
    rw [dif_neg (by rw [hsim]; simp), dif_pos (by rw [GatherDims.mem_sKept, hcoll, hob]; simp), Nat.zero_add]
    exact congrArg (fun X => ((ix2 e j : (⟨2, ![n, D]⟩ : Shape).Idx) X).val) (getElem_singleton_of_eq hoff _ _)
  unfold Host.gather
  congr 1
  funext a
  apply Fin.ext
  match a with
  | ⟨0, _⟩ => exact h0
  | ⟨1, _⟩ => exact h1

theorem ofFin_eq_ix1 {n : Nat} (p : Fin n) : Shape.Idx.ofFin p = ix1 p := by
  funext a
  match a with
  | ⟨0, _⟩ => rfl

-- The result index is `r` iff start + window = `r` on each axis; being in range is then automatic.
theorem resultIdx?_eq_some_iff {s si u : Shape} (d : ScatterDims s si u) {w : Nat} (j : u.Idx) (idx : IVec si w)
    (r : s.Idx) :
    d.resultIdx? j idx = some r ↔ ∀ a, d.start j idx a + (d.window j a : Int) = ((r a).val : Int) := by
  unfold ScatterDims.resultIdx?
  split
  · next h =>
    rw [Option.some.injEq, funext_iff]
    refine forall_congr' fun a => ?_
    have := h a
    rw [Fin.ext_iff]
    show (d.start j idx a + (d.window j a : Int)).toNat = (r a).val ↔ _
    omega
  · next h =>
    refine iff_of_false nofun fun hall => h fun a => ?_
    have := hall a
    have := (r a).isLt
    omega

variable {K D n w : Nat} (d : ScatterDims ⟨2, ![K, D]⟩ ⟨2, ![n, 1]⟩ ⟨2, ![n, D]⟩)
  (huw : d.updateWindowDims = [1]) (hiw : d.insertedWindowDims = [0]) (hsd : d.scatterDimsToOperandDims = [0])
  (hivd : d.indexVectorDim = 1)
include huw hiw hsd hivd

-- Update (e, c) goes to operand (i, j) iff row e's signed index is i and c = j.
theorem resultIdx?_rows_iff (idx : IVec ⟨2, ![n, 1]⟩ w) (u : (⟨2, ![n, D]⟩ : Shape).Idx) (i : Fin K) (j : Fin D) :
    d.resultIdx? u idx = some (ix2 i j) ↔ lands idx (u 0 : Fin n) i.val ∧ (u 1 : Fin D) = j := by
  have hus : d.uScatter = [0] := (congrArg (Shape.kept _) huw).trans (kept_one _)
  have hk : ∀ a : Fin 2, a ∈ d.sKept ↔ a ≠ 0 := fun a => by
    show a ∈ Shape.kept _ d.insertedWindowDims ↔ a ≠ 0
    rw [hiw]; simp [Shape.kept, List.mem_filter, List.mem_finRange]
  have hs0 : d.start u idx (0 : Fin 2) = (idx (ixP (u 0 : Fin n))).toInt := by
    unfold ScatterDims.start
    rw [dif_pos (show (0 : Fin 2) ∈ d.scatterDimsToOperandDims by rw [hsd]; exact List.mem_singleton_self _)]
    congr 2
    funext b
    unfold ScatterDims.siIdx
    match b with
    | ⟨0, _⟩ =>
      rw [dif_neg (by rw [hivd]; simp)]
      exact Fin.ext (congrArg (fun X => (u X).val) (getElem_singleton_of_eq hus _ _))
    | ⟨1, _⟩ =>
      rw [dif_pos (by rw [hivd])]
      apply Fin.ext
      show List.idxOf (0 : Fin 2) d.scatterDimsToOperandDims = 0
      rw [hsd]; rfl
  have hw0 : d.window u (0 : Fin 2) = 0 := by
    unfold ScatterDims.window
    rw [dif_neg (by rw [hk]; simp)]
  have hs1 : d.start u idx (1 : Fin 2) = 0 := by
    unfold ScatterDims.start
    rw [dif_neg (by rw [hsd]; simp)]
  have hw1 : d.window u (1 : Fin 2) = (u 1).val := by
    unfold ScatterDims.window
    rw [dif_pos (by rw [hk]; simp)]
    exact congrArg (fun X => (u X).val) (getElem_singleton_of_eq huw _ _)
  rw [resultIdx?_eq_some_iff, Fin.forall_fin_two, hs0, hw0, hs1, hw1]
  show (idx (ixP (u 0 : Fin n))).toInt + ((0 : ℕ) : Int) = (i.val : Int) ∧ (0 : Int) + ((u 1).val : Int) = (j.val : Int) ↔ _
  unfold lands
  constructor
  · rintro ⟨a, b⟩; exact ⟨by omega, Fin.ext (by omega)⟩
  · rintro ⟨a, rfl⟩; exact ⟨by omega, by omega⟩

-- out[i, j] = x[i, j] + Σ upd[e, j] over rows e with index i: the landing update indices are re-indexed by their row.
theorem scatterAdd_rows (x : (⟨2, ![K, D]⟩ : Shape).Idx → EReal) (idx : IVec ⟨2, ![n, 1]⟩ w) (upd : (⟨2, ![n, D]⟩ : Shape).Idx → EReal)
    (i : Fin K) (j : Fin D) :
    Ideal.hostScatterAdd d x idx upd (ix2 i j)
      = x (ix2 i j) + ∑ e ∈ Finset.univ.filter (fun e : Fin n => lands idx e i.val), upd (ix2 e j) := by
  have hiff := fun u => resultIdx?_rows_iff d huw hiw hsd hivd idx u i j
  unfold Ideal.hostScatterAdd
  congr 1
  have hback : ∀ u ∈ Finset.univ.filter (fun u => d.resultIdx? u idx = some (ix2 i j)), ix2 (u 0 : Fin n) j = u :=
    fun u hu => by rw [← ((hiff u).1 (Finset.mem_filter.1 hu).2).2]; exact (eq_ix2 u).symm
  exact Finset.sum_bij' (fun u _ => (u 0 : Fin n)) (fun e _ => ix2 e j)
    (fun u hu => Finset.mem_filter.2 ⟨Finset.mem_univ _, ((hiff u).1 (Finset.mem_filter.1 hu).2).1⟩)
    (fun e he => Finset.mem_filter.2 ⟨Finset.mem_univ _, (hiff (ix2 e j)).2 ⟨(Finset.mem_filter.1 he).2, rfl⟩⟩)
    hback (fun _ _ => rfl) (fun u hu => (congrArg upd (hback u hu)).symm)

end Idealize.ShloMosaic.RowOps
-- ==== Proof.AggReal.lean ====
import proofs.«414687_j59708635349041_1_alg».proof.Proof.HostSpec
import proofs.«414687_j59708635349041_1_alg».proof.Proof.LibGatherScatter
import proofs.«414687_j59708635349041_1_alg».proof.Proof.LibEReal
import Idealize.ShloMosaic.Lib.IdealHost
import Idealize.ShloMosaic.Lib.ValueIdx

noncomputable section

open scoped BigOperators

namespace Cert.Hand.Agg

open Idealize.ShloMosaic Idealize.ShloMosaic.ValueIdx Idealize.ShloMosaic.RowOps

-- Inside EReal the reals are closed under a + Σ.
theorem add_sum_real {ι : Type} (s : Finset ι) (a : EReal) (g : ι → EReal) (ha : ∃ x : ℝ, a = (x : EReal))
    (hg : ∀ i, ∃ x : ℝ, g i = (x : EReal)) : ∃ x : ℝ, a + ∑ i ∈ s, g i = (x : EReal) := by
  obtain ⟨x, rfl⟩ := ha
  choose f hf using hg
  exact ⟨x + ∑ i ∈ s, f i, by rw [EReal.coe_add, ← Cert.LibEReal.coe_sum, Finset.sum_congr rfl fun i _ => hf i]⟩

theorem add_real {a b : EReal} (ha : ∃ x : ℝ, a = (x : EReal)) (hb : ∃ x : ℝ, b = (x : EReal)) :
    ∃ x : ℝ, a + b = (x : EReal) := by
  obtain ⟨x, rfl⟩ := ha
  obtain ⟨y, rfl⟩ := hb
  exact ⟨x + y, (EReal.coe_add x y).symm⟩

-- h + scatterAdd(z, gather h) has real entries when h and z do: each entry is a finite sum of entries of h and z.
theorem add_scatter_gather_real {N D n w w' : Nat}
    (dg : GatherDims ⟨2, ![N, D]⟩ ⟨2, ![n, 1]⟩ ⟨2, ![n, D]⟩)
    (hoff : dg.offsetDims = [1]) (hcoll : dg.collapsedSliceDims = [0]) (hob : dg.operandBatchingDims = [])
    (hsim : dg.startIndexMap = [0]) (hivd : dg.indexVectorDim = 1) (hss : dg.sliceSizes = ![1, D])
    (ds : ScatterDims ⟨2, ![N, D]⟩ ⟨2, ![n, 1]⟩ ⟨2, ![n, D]⟩)
    (huw : ds.updateWindowDims = [1]) (hiw : ds.insertedWindowDims = [0]) (hsd : ds.scatterDimsToOperandDims = [0])
    (hivd' : ds.indexVectorDim = 1) (hN : 0 < N)
    (z h : FVec Ideal ⟨2, ![N, D]⟩ .f32)
    (hz : ∀ i, ∃ x : ℝ, z i = (x : EReal)) (hh : ∀ r j, ∃ x : ℝ, h (ix2 r j) = (x : EReal))
    (idxS : IVec ⟨2, ![n, 1]⟩ w) (idxD : IVec ⟨2, ![n, 1]⟩ w') (r : Fin N) (j : Fin D) :
    ∃ x : ℝ, addf (F := Ideal) h (Host.scatterAdd (F := Ideal) ds z idxD (Host.gather dg h idxS)) (ix2 r j)
      = (x : EReal) := by
  show ∃ x : ℝ, h (ix2 r j) + Ideal.hostScatterAdd ds z idxD (Host.gather dg h idxS) (ix2 r j) = (x : EReal)
  rw [scatterAdd_rows ds huw hiw hsd hivd', ← add_assoc]
  refine add_sum_real _ _ _ (add_real (hh r j) (hz _)) fun e => ?_
  rw [gather_rows dg hoff hcoll hob hsim hivd hss h idxS e j hN]
  exact hh _ _

open Cert.KernelIdeal Cert.KernelIdeal.Facts₀ Cert.KernelIdeal.Facts Cert.KernelIdeal.Hand

variable [Cert.KernelIdeal.Facts]

-- The instance z = 0 with the program's two index columns.
theorem haggOf_real (h : Vec Ideal S100000x128 .f32) (src dst : Vec Ideal S1600000 .i32)
    (hh : ∀ r j, ∃ x : ℝ, h (ix2 r j) = (x : EReal)) :
    ∀ r j, ∃ x : ℝ, Host.haggOf (F := Ideal) h src dst (ix2 r j) = (x : EReal) := fun r j =>
  add_scatter_gather_real (N := 100000) (D := 128) (n := 1600000) (w := 32) (w' := 32)
    gather_S100000x128_S1600000x1_S1600000x128_1_0_n_n_0_1_1128 rfl rfl rfl rfl rfl rfl
    scatter_S100000x128_S1600000x1_S1600000x128_1_0_0_1 rfl rfl rfl rfl (Nat.succ_pos _) _ h
    (fun i => ⟨0, by rw [broadcastInDim_scalar_apply, constant_apply, Ideal.ofBits_zero_f32, EReal.coe_zero]⟩) hh _ _ r j

end Cert.Hand.Agg

end
-- ==== Proof.SliceReal.lean ====
import proofs.«414687_j59708635349041_1_alg».proof.Proof.HostSpec
import proofs.«414687_j59708635349041_1_alg».proof.Proof.RefSpec
import Idealize.ShloMosaic.PureOps.Ideal

namespace Cert.Hand.SliceReal

open Idealize.ShloMosaic

-- A slice only re-indexes, slice(W)[i] = W[σ i], so real entries stay real.

section KernelSide
open Cert.KernelIdeal Cert.KernelIdeal.Hand.Host
variable [Cert.KernelIdeal.Facts] (W : Vec Ideal S3x128x128 .f32) (h : ∀ i, ∃ x : ℝ, W i = (x : EReal))
include h

theorem w1At0_real : ∀ i, ∃ x : ℝ, w1At0 (F := Ideal) W i = (x : EReal) := fun _ => h _
theorem w1At1_real : ∀ i, ∃ x : ℝ, w1At1 (F := Ideal) W i = (x : EReal) := fun _ => h _
theorem w1At2_real : ∀ i, ∃ x : ℝ, w1At2 (F := Ideal) W i = (x : EReal) := fun _ => h _

end KernelSide

section ReferenceSide
open Cert.ReferenceIdeal Cert.ReferenceIdeal.Hand.Ref
variable [Cert.ReferenceIdeal.Facts] (W : Vec Ideal S3x128 .f32) (h : ∀ i, ∃ x : ℝ, W i = (x : EReal))
include h

theorem vecAt0_real : ∀ i, ∃ x : ℝ, vecAt0 (F := Ideal) W i = (x : EReal) := fun _ => h _
theorem vecAt1_real : ∀ i, ∃ x : ℝ, vecAt1 (F := Ideal) W i = (x : EReal) := fun _ => h _
theorem vecAt2_real : ∀ i, ∃ x : ℝ, vecAt2 (F := Ideal) W i = (x : EReal) := fun _ => h _

end ReferenceSide

end Cert.Hand.SliceReal
-- ==== Proof.KRead.lean ====
import proofs.«414687_j59708635349041_1_alg».proof.Proof.MathSpec
import proofs.«414687_j59708635349041_1_alg».proof.Proof.MlpSpec
import proofs.«414687_j59708635349041_1_alg».proof.Proof.BnSpec
import proofs.«414687_j59708635349041_1_alg».proof.Proof.HostSpec
import Idealize.ShloMosaic.Lib.ValueLayout
import Idealize.ShloMosaic.Lib.IdealHost

noncomputable section

namespace Cert.Hand.KRead

open Cert.KernelIdeal Cert.KernelIdeal.Hand
open Cert.KernelIdeal.Gen (k0_pay1 k0_pay2 k0_pay3 k0_pay4 k0_pay5 k1_pay1)
open Cert.KernelIdeal.Facts₀ Cert.KernelIdeal.Facts
open Idealize.ShloMosaic Idealize.ShloMosaic.ValueIdx
open scoped BigOperators

-- A two-axis array, and a one-row array, as families over their coordinates.
def toM {a b : ℕ} (X : (⟨2, ![a, b]⟩ : Shape).Idx → EReal) : Fin a → Fin b → EReal := fun r j => X (ix2 r j)
def rowM {b : ℕ} (v : (⟨2, ![1, b]⟩ : Shape).Idx → EReal) : Fin b → EReal := fun j => v (ix2 (0 : Fin 1) j)

section Stats
variable (s ss : Vec Ideal S1x128 .f32)

theorem meanVec_read (j : Fin 128) : Host.meanVec (F := Ideal) s (ix1 j) = M.meanOf (rowM s) j := by
  unfold Host.meanVec
  rw [hostDivf_apply, shapeCast_1a_a_apply, broadcastInDim_scalar_apply]
  rfl

theorem meanRow_read : rowM (Host.meanRow (F := Ideal) s) = M.meanOf (rowM s) := by
  funext j
  show Host.meanRow (F := Ideal) s (ix2 (0 : Fin 1) j) = _
  unfold Host.meanRow
  rw [shapeCast_a_1a_apply, meanVec_read]

theorem invRow_read : rowM (Host.invRow (F := Ideal) s ss) = M.invOf (M.varK (rowM s) (rowM ss)) := by
  funext j
  show Host.invRow (F := Ideal) s ss (ix2 (0 : Fin 1) j) = _
  unfold Host.invRow Host.invVec
  rw [shapeCast_a_1a_apply]
  show Ideal.rsqrt _ = _
  rw [addf_apply, subf_apply, mulf_apply, hostDivf_apply, shapeCast_1a_a_apply, broadcastInDim_scalar_apply,
    broadcastInDim_scalar_apply, meanVec_read]
  rfl

end Stats

theorem zero_f32 : Scalar.ofBits (F := Ideal) .f32 0x00000000#32 = (0 : EReal) := Ideal.ofBits_zero_f32

-- Row r of the array is row r % 5000 of block r / 5000.
theorem row_split (r : Fin 100000) (h : 5000 * (r.val / 5000) + r.val % 5000 < 100000) :
    (⟨5000 * (r.val / 5000) + r.val % 5000, h⟩ : Fin 100000) = r := Fin.ext (by show 5000 * (r.val / 5000) + r.val % 5000 = r.val; omega)

theorem outArr_read (H2 : Vec Ideal S100000x128 .f32) (mean inv g be : Vec Ideal S1x128 .f32) :
    toM (Bn.outArr (F := Ideal) H2 mean inv g be) = M.bn (toM H2) (rowM mean) (rowM inv) (rowM g) (rowM be) := by
  funext r j
  show k1_pay1 (F := Ideal) (Bn.blk H2 ⟨r.val / 5000, _⟩) mean inv g be (ix2 (⟨r.val % 5000, _⟩ : Fin 5000) j) = _
  unfold k1_pay1
  simp only [shapeCast_self, maximumf_apply, addf_apply, mulf_apply, subf_apply, broadcast_apply,
    broadcastTo_1b_ab_apply, zero_f32, Bn.blk_apply]
  show max ((H2 (ix2 (⟨5000 * (r.val / 5000) + r.val % 5000, _⟩ : Fin 100000) j) - _) * _ * _ + _) 0 = _
  rw [row_split]
  rfl

theorem mm_read {φ₁ φ₂ : FTy} (L : FVec Ideal S5000x128 φ₁) (R : FVec Ideal S128x128 φ₂) (p : Fin 5000) (q : Fin 128) :
    matmul dot_S5000x128_S128x128_S5000x128_1_0_0_1_n_n none L R (constant S5000x128 .f32 0x00000000#32) (ix2 p q)
      = ∑ k : Fin 128, L (ix2 p k) * R (ix2 k q) := by
  simp only [matmul]
  rw [Ideal.matmul_constant_zero_apply,
    ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  congr 1 <;> (congr 1; funext a; apply Fin.ext)
  · match a with
    | ⟨0, _⟩ => simp [DotDims.lhsIdx, dot_S5000x128_S128x128_S5000x128_1_0_0_1_n_n]; rfl
    | ⟨1, _⟩ => exact (DotDims.lhsIdx_val_of_single _ rfl _ _).trans hk
  · match a with
    | ⟨0, _⟩ => exact (DotDims.rhsIdx_val_of_single _ rfl _ _).trans hk
    | ⟨1, _⟩ => simp [DotDims.rhsIdx, dot_S5000x128_S128x128_S5000x128_1_0_0_1_n_n]; rfl

section Mlp
variable (X : Vec Ideal S100000x128 .f32) (A : Vec Ideal S5000x128 .f32) (w1 w2 : Vec Ideal S128x128 .f32)
  (b1 b2 acc : Vec Ideal S1x128 .f32) (p : Fin 5000) (q : Fin 128)

-- relu(A·w1 + b1)·w2 + b2 over the families an array and the four parameter arrays are.
abbrev mlpM {n : ℕ} (A : Vec Ideal ⟨2, ![n, 128]⟩ .f32) := M.mlp (toM A) (toM w1) (rowM b1) (toM w2) (rowM b2)

theorem pay4_read : k0_pay4 (F := Ideal) A w1 b1 w2 b2 (ix2 p q) = mlpM w1 w2 b1 b2 A p q := by
  unfold k0_pay4
  simp only [shapeCast_self]
  rw [addf_apply, mm_read, broadcastTo_1b_ab_apply]
  unfold mlpM M.mlp
  congr 1
  refine Finset.sum_congr rfl fun k _ => ?_
  rw [truncf_apply, truncf_apply, maximumf_apply, addf_apply, mm_read, broadcastTo_1b_ab_apply, broadcast_apply, zero_f32]
  rfl

-- h2 on block t, at an index of the block: the arithmetic on row 5000·t + p of the whole input.
theorem pay4_blk_read (t : Fin 20) : k0_pay4 (F := Ideal) (Mlp.blk X t) w1 b1 w2 b2 (ix2 p q)
    = mlpM w1 w2 b1 b2 X ⟨t.val * 5000 + p.val, Mlp.blk_row_lt t p⟩ q := pay4_read ..

theorem row_split' (r : Fin 100000) (h : r.val / 5000 * 5000 + r.val % 5000 < 100000) :
    (⟨r.val / 5000 * 5000 + r.val % 5000, h⟩ : Fin 100000) = r := Fin.ext (by show r.val / 5000 * 5000 + r.val % 5000 = r.val; omega)

theorem h2Arr_read : toM (Mlp.h2Arr (F := Ideal) X w1 b1 w2 b2) = mlpM w1 w2 b1 b2 X := by
  funext r j
  show k0_pay4 (F := Ideal) (Mlp.blk X ⟨r.val / 5000, _⟩) w1 b1 w2 b2 (ix2 (⟨r.val % 5000, _⟩ : Fin 5000) j) = _
  rw [pay4_blk_read]
  show mlpM w1 w2 b1 b2 X (⟨r.val / 5000 * 5000 + r.val % 5000, _⟩ : Fin 100000) j = _
  rw [row_split']

theorem pay2_read : k0_pay2 (F := Ideal) (ix2 (0 : Fin 1) q) = 0 := by
  unfold k0_pay2
  simp only [shapeCast_self, broadcast_apply, zero_f32]

theorem pay3_read : k0_pay3 (F := Ideal) (ix2 (0 : Fin 1) q) = 0 := by
  unfold k0_pay3
  simp only [shapeCast_self, broadcast_apply, zero_f32]

theorem colsum_read (V : FVec Ideal S5000x128 .f32) :
    multiReduction .add [0] S128 V 0x00000000#32 reduces_S5000x128_S128 (.inl rfl) rfl (ix1 q)
      = ∑ p : Fin 5000, V (ix2 p q) := by
  refine (Ideal.multiReduction_add_single V _ reduces_S5000x128_S128 _ _ (ix1 q)).trans ?_
  refine Finset.sum_congr rfl fun p _ => congrArg V ?_
  funext a
  match a with
  | ⟨0, _⟩ => rfl
  | ⟨1, _⟩ => rfl

theorem pay5_read : k0_pay5 (F := Ideal) A w1 b1 w2 b2 acc (ix2 (0 : Fin 1) q)
    = acc (ix2 (0 : Fin 1) q) + ∑ p : Fin 5000, k0_pay4 (F := Ideal) A w1 b1 w2 b2 (ix2 p q) := by
  unfold k0_pay5
  simp only [shapeCast_self]
  rw [addf_apply, shapeCast_a_1a_apply, colsum_read]

theorem pay1_read (V : FVec Ideal S5000x128 .f32) : k0_pay1 (F := Ideal) V acc (ix2 (0 : Fin 1) q)
    = acc (ix2 (0 : Fin 1) q) + ∑ p : Fin 5000, V (ix2 p q) * V (ix2 p q) := by
  unfold k0_pay1
  simp only [shapeCast_self]
  rw [addf_apply, shapeCast_a_1a_apply, colsum_read]
  rfl

end Mlp

def ext (f : Fin 100000 → EReal) : ℕ → EReal := fun i => if h : i < 100000 then f ⟨i, h⟩ else 0

variable (f : Fin 100000 → EReal)

theorem blockSum (t : Fin 20) :
    ∑ p : Fin 5000, f ⟨t.val * 5000 + p.val, Mlp.blk_row_lt t p⟩ = ∑ p ∈ Finset.range 5000, ext f (t.val * 5000 + p) := by
  rw [Finset.sum_range]
  exact Finset.sum_congr rfl fun p _ => by unfold ext; rw [dif_pos (Mlp.blk_row_lt t p)]

theorem total : ∑ i ∈ Finset.range 100000, ext f i = ∑ r, f r := by
  rw [Finset.sum_range]
  exact Finset.sum_congr rfl fun r _ => by unfold ext; rw [dif_pos r.isLt]

-- A row that starts from zero and gains one block's sum per step holds, after step n, the sum over the first 5000·(n+1) rows.
theorem acc_rec (a : ℕ → EReal)
    (h0 : a 0 = 0 + ∑ p : Fin 5000, f ⟨(0 : Fin 20).val * 5000 + p.val, Mlp.blk_row_lt 0 p⟩)
    (hs : ∀ n, a (n + 1)
      = a n + ∑ p : Fin 5000, f ⟨(Mlp.pt (n + 1)).val * 5000 + p.val, Mlp.blk_row_lt (Mlp.pt (n + 1)) p⟩) :
    a 19 = ∑ r, f r := by
  have key : ∀ n, n < 20 → a n = ∑ i ∈ Finset.range ((n + 1) * 5000), ext f i := by
    intro n
    induction n with
    | zero =>
      intro _
      rw [h0, zero_add, blockSum]
      show ∑ p ∈ Finset.range 5000, ext f (0 * 5000 + p) = ∑ i ∈ Finset.range ((0 + 1) * 5000), ext f i
      simp only [Nat.zero_mul, Nat.zero_add, Nat.one_mul]
    | succ n ih =>
      intro hn
      rw [hs, ih (by omega), blockSum, show (Mlp.pt (n + 1)).val = n + 1 from Nat.mod_eq_of_lt hn,
        show (n + 1 + 1) * 5000 = (n + 1) * 5000 + 5000 by omega, Finset.sum_range_add]
  rw [key 19 (by decide)]
  exact total f

omit f
variable (X : Vec Ideal S100000x128 .f32) (w1 w2 : Vec Ideal S128x128 .f32) (b1 b2 : Vec Ideal S1x128 .f32)

-- A running row that gains φ of h2 summed over one block per step ends as the column sums of φ of h2.
theorem row_read (φ : EReal → EReal) (a : ℕ → Vec Ideal S1x128 .f32) (j : Fin 128)
    (h0 : a 0 (ix2 (0 : Fin 1) j) = 0 + ∑ p : Fin 5000, φ (k0_pay4 (F := Ideal) (Mlp.blk X 0) w1 b1 w2 b2 (ix2 p j)))
    (hs : ∀ n, a (n + 1) (ix2 (0 : Fin 1) j) = a n (ix2 (0 : Fin 1) j)
      + ∑ p : Fin 5000, φ (k0_pay4 (F := Ideal) (Mlp.blk X (Mlp.pt (n + 1))) w1 b1 w2 b2 (ix2 p j))) :
    a 19 (ix2 (0 : Fin 1) j) = ∑ r, φ (mlpM w1 w2 b1 b2 X r j) :=
  acc_rec (fun r => φ (mlpM w1 w2 b1 b2 X r j)) (fun n => a n (ix2 (0 : Fin 1) j))
    (h0.trans (congrArg (0 + ·) (Finset.sum_congr rfl fun p _ => congrArg φ (pay4_blk_read X w1 w2 b1 b2 p j 0))))
    fun n => (hs n).trans (congrArg (_ + ·) (Finset.sum_congr rfl fun p _ => congrArg φ (pay4_blk_read X w1 w2 b1 b2 p j _)))

theorem sumRow_read : rowM (Mlp.sumRow (F := Ideal) X w1 b1 w2 b2) = M.colSum (mlpM w1 w2 b1 b2 X) := funext fun j =>
  row_read X w1 w2 b1 b2 (fun v => v) (Mlp.sumAcc (F := Ideal) X w1 b1 w2 b2) j
    (by rw [Mlp.sumAcc_zero, pay5_read, pay2_read]) fun n => by rw [Mlp.sumAcc_succ, pay5_read]

theorem sqRow_read : rowM (Mlp.sqRow (F := Ideal) X w1 b1 w2 b2) = M.colSq (mlpM w1 w2 b1 b2 X) := funext fun j =>
  row_read X w1 w2 b1 b2 (fun v => v * v) (Mlp.sqAcc (F := Ideal) X w1 b1 w2 b2) j
    (by rw [Mlp.sqAcc_zero, pay1_read, pay3_read]) fun n => by rw [Mlp.sqAcc_succ, pay1_read]

end Cert.Hand.KRead

end
-- ==== Proof.RRead.lean ====
import proofs.«414687_j59708635349041_1_alg».proof.Proof.RefSpec
import proofs.«414687_j59708635349041_1_alg».proof.Proof.HostSpec
import proofs.«414687_j59708635349041_1_alg».proof.Proof.MathSpec
import proofs.«414687_j59708635349041_1_alg».proof.Proof.BridgeLaw
import Idealize.ShloMosaic.Lib.ValueIdx
import Idealize.ShloMosaic.Lib.ValueLayout
import Idealize.ShloMosaic.Lib.IdealHost
import Idealize.ShloMosaic.Lib.Pipeline.Value

noncomputable section

namespace Cert.Hand.RRead

open Idealize.ShloMosaic Idealize.ShloMosaic.ValueIdx Cert.ReferenceIdeal.Hand
open scoped BigOperators

/-- X as the matrix (r, j) ↦ X[r, j]. -/
def toM {n m : ℕ} (X : (⟨2, ![n, m]⟩ : Shape).Idx → EReal) : Fin n → Fin m → EReal := fun r j => X (ix2 r j)

/-- v as the family j ↦ v[j]. -/
def vecM {n : ℕ} (v : (⟨1, ![n]⟩ : Shape).Idx → EReal) : Fin n → EReal := fun j => v (ix1 j)

section Same
open Cert.KernelIdeal.Hand
variable {F : FTy → Type} [FloatOps F] [Cert.ReferenceIdeal.Facts] [Cert.KernelIdeal.Facts]
  (ei : Vec F ⟨2, ![2, 1600000]⟩ .i32) (W : Vec F ⟨3, ![3, 128, 128]⟩ .f32) (b : Vec F ⟨2, ![3, 128]⟩ .f32) (j : Fin 128)

-- Both programs spell these pieces with identical operations: the equalities are definitional.
theorem srcRow_same : Ref.srcRow ei = Host.srcRow ei := rfl
theorem dstRow_same : Ref.dstRow ei = Host.dstRow ei := rfl
theorem haggOf_same (h : Vec F ⟨2, ![100000, 128]⟩ .f32) (src dst : Vec F ⟨1, ![1600000]⟩ .i32) :
    Ref.haggOf h src dst = Host.haggOf h src dst := rfl
theorem mat_same0 : Ref.matAt0 W = Host.w1At0 W := rfl
theorem mat_same1 : Ref.matAt1 W = Host.w1At1 W := rfl
theorem mat_same2 : Ref.matAt2 W = Host.w1At2 W := rfl

-- rowAtK b is vecAtK b reshaped to [1, 128].
theorem vec_row0 : Host.rowAt0 b (ix2 (0 : Fin 1) j) = Ref.vecAt0 b (ix1 j) :=
  shapeCast_a_1a_apply (Ref.vecAt0 b) _ 0 j
theorem vec_row1 : Host.rowAt1 b (ix2 (0 : Fin 1) j) = Ref.vecAt1 b (ix1 j) :=
  shapeCast_a_1a_apply (Ref.vecAt1 b) _ 0 j
theorem vec_row2 : Host.rowAt2 b (ix2 (0 : Fin 1) j) = Ref.vecAt2 b (ix1 j) :=
  shapeCast_a_1a_apply (Ref.vecAt2 b) _ 0 j

end Same

section Read
variable [Cert.ReferenceIdeal.Facts]
open Cert.ReferenceIdeal Cert.ReferenceIdeal.Facts₀

section
variable (h2 a : Vec Ideal S100000x128 .f32) (w w1 w2 : Vec Ideal S128x128 .f32) (v b1 b2 g be : Vec Ideal S128 .f32)
  (r : Fin 100000) (j : Fin 128)

theorem bcast_row_apply {α : Type} (v : S128.Idx → α) (u : Fin 1) :
    broadcastInDim S1x128 ![1] bcast_S128_S1x128_1 v (ix2 u j) = v (ix1 j) :=
  broadcastInDim_apply _ bcast_S128_S1x128_1 v (ix2 u j) (ix1 j) (fun a => match a with | ⟨0, _⟩ => rfl)

theorem bcast_rows_apply {α : Type} (v : S1x128.Idx → α) :
    broadcastInDim S100000x128 ![0, 1] bcast_S1x128_S100000x128_0_1 v (ix2 r j) = v (ix2 (0 : Fin 1) j) :=
  broadcastInDim_apply _ bcast_S1x128_S100000x128_0_1 v (ix2 r j) (ix2 (0 : Fin 1) j) (fun a => match a with
    | ⟨0, _⟩ => rfl
    | ⟨1, _⟩ => rfl)

theorem rows_apply : Ref.rows v (ix2 r j) = v (ix1 j) := by
  unfold Ref.rows
  rw [bcast_rows_apply, bcast_row_apply]

-- Reducing axis 0 from 0 gives Σ_r h[r, j].
theorem colsum_read :
    Host.reduceAdd (F := Ideal) h2 (constant S_ .f32 0x00000000#32) reducesTo_S100000x128_S128_d0 h_S_ (ix1 j)
      = M.colSum (toM h2) j := by
  rw [hostReduceAdd_apply, Ideal.hostReduceAdd_single reducesTo_S100000x128_S128_d0 (by decide), constant_apply,
    Ideal.ofBits_zero_f32, zero_add]
  exact Finset.sum_congr rfl fun k _ =>
    congrArg h2 (funext fun a => Fin.ext (by match a with | ⟨0, _⟩ => rfl | ⟨1, _⟩ => rfl))

theorem mean_read : Ref.mean h2 (ix1 j) = M.meanOf (M.colSum (toM h2)) j := by
  unfold Ref.mean
  rw [hostDivf_apply, colsum_read, broadcastInDim_scalar_apply, constant_apply]
  rfl

-- 100000 − float(0) = 100000.
theorem varDenom_val (i : S_.Idx) : Ref.varDenom (F := Ideal) i = M.cN := by
  unfold Ref.varDenom
  rw [subf_apply, constant_apply, sitofp_apply, constantI_apply]
  show Ideal.ofBits .f32 0x47C35000#32 - (((0#32 : BitVec 32).toInt : ℝ) : EReal) = M.cN
  rw [show (0#32 : BitVec 32).toInt = 0 by decide, Int.cast_zero, EReal.coe_zero, sub_zero]
  rfl

-- 100000 > 0, so the select takes the variance branch.
theorem var_guard (i : S_.Idx) :
    cmpf (F := Ideal) .ogt (Ref.varDenom (F := Ideal)) (constant S_ .f32 0x00000000#32) i = 1#1 := by
  rw [cmpf_apply, varDenom_val, constant_apply, Ideal.ofBits_zero_f32, Ideal.cmpf_def]
  unfold Ideal.cmp
  show BitVec.ofBool (decide ((0 : EReal) < M.cN)) = 1#1
  rw [decide_eq_true (by rw [Cert.Hand.Law.cN_val]; exact EReal.coe_pos.mpr (by norm_num))]
  rfl

-- meanRows h at (r, j) is the mean of column j.
theorem meanrows_read : Ref.meanRows h2 (ix2 r j) = M.meanOf (M.colSum (toM h2)) j := by
  unfold Ref.meanRows
  rw [bcast_rows_apply, hostDivf_apply, bcast_row_apply, colsum_read, broadcastInDim_scalar_apply, constant_apply]
  rfl

-- var h at j is Σ_r (h[r, j] − mean_j)² / 100000.
theorem var_read : Ref.var h2 (ix1 j) = M.varR (toM h2) j := by
  unfold Ref.var
  rw [select_apply, broadcastInDim_scalar_apply, var_guard, select_one, hostDivf_apply, colsum_read,
    broadcastInDim_scalar_apply, varDenom_val]
  unfold M.varR M.colSum
  refine congrArg (Ideal.div · M.cN) (Finset.sum_congr rfl fun r _ => ?_)
  show mulf _ _ (ix2 r j) = _
  rw [mulf_apply, subf_apply, meanrows_read]
  rfl

-- (a · w)[r, j] = Σ_k a[r, k] · w[k, j].
theorem dot_read :
    Host.dotGeneral (F := Ideal) (φ₁ := .f32) (φ₂ := .f32) dot_S100000x128_S128x128_S100000x128_1_0_0_1_n_n none a w (ix2 r j)
      = ∑ k : Fin 128, a (ix2 r k) * w (ix2 k j) := by
  simp only [Host.dotGeneral]
  rw [Ideal.dotGeneral_apply, ← Equiv.sum_comp (contrEquiv1 dot_S100000x128_S128x128_S100000x128_1_0_0_1_n_n 128 rfl rfl).symm]
  refine Finset.sum_congr rfl fun k _ => ?_
  have hk := contrEquiv1_symm_val dot_S100000x128_S128x128_S100000x128_1_0_0_1_n_n 128 rfl rfl k
  congr 2 <;> funext c <;> apply Fin.ext
  · match c with
    | ⟨0, _⟩ => rfl
    | ⟨1, _⟩ => exact (DotDims.lhsIdx_val_of_single _ rfl _ _).trans hk
  · match c with
    | ⟨0, _⟩ => exact (DotDims.rhsIdx_val_of_single _ rfl _ _).trans hk
    | ⟨1, _⟩ => rfl

theorem relu_apply : Ref.relu a (ix2 r j) = max (a (ix2 r j)) 0 := by
  unfold Ref.relu
  rw [maximumf_apply, broadcastInDim_scalar_apply, constant_apply, Ideal.ofBits_zero_f32]

-- mlp at (r, j) is M.mlp of the coordinate families.
theorem mlp_read :
    Ref.mlp a w1 b1 w2 b2 (ix2 r j) = M.mlp (toM a) (toM w1) (vecM b1) (toM w2) (vecM b2) r j := by
  unfold Ref.mlp
  rw [addf_apply, dot_read, rows_apply]
  unfold M.mlp
  refine congrArg (· + b2 (ix1 j)) (Finset.sum_congr rfl fun k _ => ?_)
  rw [relu_apply, addf_apply, dot_read, rows_apply]
  rfl

-- bn at (r, j) is M.bn with the column mean and the inverse deviation.
theorem bn_read :
    Ref.bn h2 g be (ix2 r j)
      = M.bn (toM h2) (M.meanOf (M.colSum (toM h2))) (M.invOf (M.varR (toM h2))) (vecM g) (vecM be) r j := by
  unfold Ref.bn
  rw [relu_apply, addf_apply, mulf_apply, mulf_apply, subf_apply, rows_apply, rows_apply, rows_apply, rows_apply, mean_read,
    show ∀ (x : FVec Ideal S128 .f32) i, Host.rsqrt x i = Ideal.rsqrt (x i) from fun _ _ => rfl,
    addf_apply, var_read, broadcastInDim_scalar_apply, constant_apply]
  rfl

end

-- A layer at (r, j) is M.layerR of the neighbour sum and the parameters.
theorem layerOf_read (h : Vec Ideal S100000x128 .f32) (src dst : Vec Ideal S1600000 .i32) (w1 : Vec Ideal S128x128 .f32)
    (b1 : Vec Ideal S128 .f32) (w2 : Vec Ideal S128x128 .f32) (b2 g be : Vec Ideal S128 .f32) (r : Fin 100000) (j : Fin 128) :
    Ref.layerOf h src dst w1 b1 w2 b2 g be (ix2 r j)
      = M.layerR (toM (Ref.haggOf h src dst)) (toM w1) (vecM b1) (toM w2) (vecM b2) (vecM g) (vecM be) r j := by
  unfold Ref.layerOf
  rw [bn_read, show toM (Ref.mlp (Ref.haggOf h src dst) w1 b1 w2 b2) = _ from
    funext fun r => funext fun j => mlp_read _ _ _ _ _ r j]
  rfl

end Read

end Cert.Hand.RRead

end
-- ==== Proof.PoolKRead.lean ====
import proofs.«414687_j59708635349041_1_alg».proof.Proof.PoolSpec
import proofs.«414687_j59708635349041_1_alg».proof.Proof.MathSpec
import proofs.«414687_j59708635349041_1_alg».proof.Proof.KRead
import Idealize.ShloMosaic.Lib.ValueIdx
import Idealize.ShloMosaic.Lib.ValueLayout
import Idealize.ShloMosaic.Lib.Pipeline.Value
import Idealize.ShloMosaic.PureOps.Ideal.Laws

noncomputable section

namespace Cert.Hand.PoolB

open Cert.KernelIdeal Cert.KernelIdeal.Hand
open Cert.KernelIdeal.Gen (k6_pay1 k6_pay2)
open Cert.KernelIdeal.Facts₀ Cert.KernelIdeal.Facts
open Idealize.ShloMosaic Idealize.ShloMosaic.ValueIdx
open scoped BigOperators

-- The comparison with the word of `g < 2³¹`, widened and made a float, marks the words that read `g` signed.
theorem mark_read (w : BitVec 32) (g : ℕ) (hg : g < 2 ^ 31) :
    FloatOps.sitofp (F := Ideal) .f32 ((IntOp.cmpi .eq w (BitVec.ofNat 32 g)).setWidth 32)
      = if w.toInt = (g : Int) then (1 : EReal) else 0 := by
  have hg' : (BitVec.ofNat 32 g).toInt = g := by
    have e := BitVec.toInt_eq_toNat_cond (BitVec.ofNat 32 g)
    rw [BitVec.toNat_ofNat] at e
    rw [e]; split <;> omega
  show (((((IntOp.cmpi .eq w (BitVec.ofNat 32 g)).setWidth 32).toInt : ℤ) : ℝ) : EReal) = _
  by_cases h : w = BitVec.ofNat 32 g
  · subst h
    rw [if_pos hg']
    simp [IntOp.cmpi]
  · rw [if_neg fun h' => h (BitVec.eq_of_toInt_eq (h'.trans hg'.symm))]
    simp [IntOp.cmpi, beq_false_of_ne h]

section Dot

variable (j : S512x128.Idx) (k : dot_S512x5000_S5000x128_S512x128_1_0_0_1_n_n.contr.Idx)

theorem lhs_0 : (dot_S512x5000_S5000x128_S512x128_1_0_0_1_n_n.lhsIdx j k 0 : ℕ) = j 0 := by
  simp [DotDims.lhsIdx, dot_S512x5000_S5000x128_S512x128_1_0_0_1_n_n]; rfl

theorem lhs_1 : (dot_S512x5000_S5000x128_S512x128_1_0_0_1_n_n.lhsIdx j k 1 : ℕ) = k ⟨0, by decide⟩ :=
  DotDims.lhsIdx_val_of_single _ rfl j k

theorem rhs_0 : (dot_S512x5000_S5000x128_S512x128_1_0_0_1_n_n.rhsIdx j k 0 : ℕ) = k ⟨0, by decide⟩ :=
  DotDims.rhsIdx_val_of_single _ rfl j k

theorem rhs_1 : (dot_S512x5000_S5000x128_S512x128_1_0_0_1_n_n.rhsIdx j k 1 : ℕ) = j 1 := by
  simp [DotDims.rhsIdx, dot_S512x5000_S5000x128_S512x128_1_0_0_1_n_n]; rfl

end Dot

theorem mm_read {φ₁ φ₂ : FTy} (L : FVec Ideal S512x5000 φ₁) (R : FVec Ideal S5000x128 φ₂) (g : Fin 512) (q : Fin 128) :
    matmul dot_S512x5000_S5000x128_S512x128_1_0_0_1_n_n none L R (constant S512x128 .f32 0x00000000#32) (ix2 g q)
      = ∑ p : Fin 5000, L (ix2 g p) * R (ix2 p q) := by
  simp only [matmul]
  rw [Ideal.matmul_constant_zero_apply, ← Equiv.sum_comp (contrEquiv1 _ 5000 rfl rfl).symm]
  refine Finset.sum_congr rfl fun p _ => ?_
  have hp := contrEquiv1_symm_val dot_S512x5000_S5000x128_S512x128_1_0_0_1_n_n 5000 rfl rfl p
  congr 1 <;> congr 1 <;> funext a <;> apply Fin.ext
  · match a with
    | ⟨0, _⟩ => exact lhs_0 _ _
    | ⟨1, _⟩ => exact (lhs_1 _ _).trans hp
  · match a with
    | ⟨0, _⟩ => exact (rhs_0 _ _).trans hp
    | ⟨1, _⟩ => exact rhs_1 _ _

theorem pay1_read (g : Fin 512) (q : Fin 128) : k6_pay1 (F := Ideal) (ix2 g q) = 0 := by
  unfold k6_pay1
  simp only [shapeCast_self, broadcast_apply]
  exact Ideal.ofBits_zero_f32

theorem table_read (v3 : Vec Ideal S5000x1 .i32) (p : Fin 5000) (g : Fin 512) :
    truncf .bf16 (sitofp (F := Ideal) .f32 (extui 32 (cmpi .eq (broadcastTo S5000x512 v3 broadcasts_S5000x1_S5000x512)
        (iota .tc S5000x512 32 [1] iota_S5000x512_d1_w32)) natLt_1_32)) bitsLt_bf16_f32 (ix2 p g)
      = if (v3 (ix2 p (0 : Fin 1))).toInt = (g.val : Int) then (1 : EReal) else 0 := by
  rw [truncf_apply, sitofp_apply, extui_apply]
  show FloatOps.sitofp (F := Ideal) .f32 ((IntOp.cmpi .eq _ _).setWidth 32) = _
  rw [iota_single_apply,
    broadcastTo_apply v3 broadcasts_S5000x1_S5000x512 (ix2 p g) (ix2 p (0 : Fin 1))
      (fun a => match a with | ⟨0, _⟩ => rfl | ⟨1, _⟩ => rfl)]
  exact mark_read _ g.val (by have := g.isLt; omega)

-- One block's step at `(g, q)`: a product by the table of marks keeps the marked rows, as 1 · x = x and 0 · x = 0.
theorem pay2_read (v3 : Vec Ideal S5000x1 .i32) (v11 : Vec Ideal S5000x128 .f32) (v14 : Vec Ideal S512x128 .f32)
    (g : Fin 512) (q : Fin 128) :
    k6_pay2 (F := Ideal) v3 v11 v14 (ix2 g q)
      = v14 (ix2 g q) + ∑ p : Fin 5000, if (v3 (ix2 p (0 : Fin 1))).toInt = (g.val : Int) then v11 (ix2 p q) else 0 := by
  unfold k6_pay2
  simp only [shapeCast_self]
  rw [addf_apply, mm_read]
  congr 1
  refine Finset.sum_congr rfl fun p _ => ?_
  rw [transpose_ix2_apply, table_read, truncf_apply]
  split
  · rw [one_mul]
  · rw [zero_mul]

-- The running entry starts from zero and gains one block's sum of marked entries per step; twenty blocks of 5000 rows are the 100000 rows.
theorem poolK_read (B : Vec Ideal S100000x1 .i32) (H : Vec Ideal S100000x128 .f32) (g : Fin 512) (j : Fin 128) :
    Pool.out (F := Ideal) B H (ix2 g j) = M.poolSum (fun r => B (ix2 r (0 : Fin 1))) (fun r j => H (ix2 r j)) g j := by
  unfold Pool.out M.poolSum
  refine KRead.acc_rec (fun r : Fin 100000 => if (B (ix2 r (0 : Fin 1))).toInt = (g.val : Int) then H (ix2 r j) else 0)
    (fun n => Pool.acc (F := Ideal) B H n (ix2 g j)) ?_ fun n => ?_
  · show k6_pay2 _ _ k6_pay1 (ix2 g j) = _
    rw [pay2_read, pay1_read]; rfl
  · show k6_pay2 _ _ _ (ix2 g j) = _
    rw [pay2_read]; rfl

end Cert.Hand.PoolB

end
-- ==== Proof.PoolBridge.lean ====
import proofs.«414687_j59708635349041_1_alg».proof.Proof.PoolSpec
import proofs.«414687_j59708635349041_1_alg».proof.Proof.PoolKRead
import proofs.«414687_j59708635349041_1_alg».proof.Proof.RefSpec
import proofs.«414687_j59708635349041_1_alg».proof.Proof.HostSpec
import proofs.«414687_j59708635349041_1_alg».proof.Proof.MathSpec
import proofs.«414687_j59708635349041_1_alg».proof.Proof.LibGatherScatter
import proofs.«414687_j59708635349041_1_alg».proof.Proof.LibEReal
import Idealize.ShloMosaic.Lib.IdealHost
import Idealize.ShloMosaic.Lib.ValueIdx
import Idealize.ShloMosaic.Lib.Pipeline.Value

noncomputable section

open scoped BigOperators

namespace Cert.Hand.PoolB

open Idealize.ShloMosaic Idealize.ShloMosaic.ValueIdx Idealize.ShloMosaic.RowOps
open Idealize.ShloMosaic.StableHlo.Predicate

section Reference

open Cert.ReferenceIdeal Cert.ReferenceIdeal.Facts₀ Cert.ReferenceIdeal.Facts
open Cert.ReferenceIdeal.Hand

variable [Cert.ReferenceIdeal.Facts]

-- The scatter-add into zero rows reads, at (g, j), the sum of the entries j of the rows whose graph number is g.
theorem poolR_read (h : Vec Ideal S100000x128 .f32) (b : Vec Ideal S100000 .i32) (g : Fin 512) (j : Fin 128) :
    Ref.pool (F := Ideal) h b (ix2 g j) = M.poolSum (fun r => b (ix1 r)) (fun r j => h (ix2 r j)) g j := by
  unfold Ref.pool Host.scatterAdd M.poolSum
  rw [Ideal.hostScatterAdd_def, scatterAdd_rows _ rfl rfl rfl rfl, broadcastInDim_scalar_apply, constant_apply,
    Ideal.ofBits_zero_f32, zero_add, Finset.sum_filter]
  refine Finset.sum_congr rfl fun e _ => if_congr ?_ rfl rfl
  unfold lands; rw [bcast_col1, ofFin_eq_ix1]

end Reference

theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    rw [Shape.rowMajor_val_two, Shape.rowMajor_val_one]
    show i.val = i.val * 1 + u.val
    omega)

variable [Cert.KernelIdeal.Facts] [Cert.ReferenceIdeal.Facts]

theorem pool_eq (b : Vec Ideal Cert.KernelIdeal.S100000 .i32) (H : Vec Ideal Cert.KernelIdeal.S100000x128 .f32) :
    Cert.KernelIdeal.Hand.Pool.out (F := Ideal) (Cert.KernelIdeal.Hand.Host.batchCol (F := Ideal) b) H
      = Cert.ReferenceIdeal.Hand.Ref.pool (F := Ideal) H b := by
  funext i
  obtain ⟨g, j, rfl⟩ : ∃ (g : Fin 512) (j : Fin 128), i = ix2 g j := ⟨i 0, i 1, eq_ix2 i⟩
  rw [poolK_read, poolR_read]
  exact congrArg (M.poolSum · _ g j)
    (funext fun r => shapeCast_a_a1_apply b Cert.KernelIdeal.Facts₀.shapeCasts_S100000_S100000x1 r 0)

end Cert.Hand.PoolB

end
-- ==== Proof.BridgeTop.lean ====
import proofs.«414687_j59708635349041_1_alg».proof.Proof.MathSpec
import proofs.«414687_j59708635349041_1_alg».proof.Proof.BridgeLaw
import proofs.«414687_j59708635349041_1_alg».proof.Proof.MlpSpec
import proofs.«414687_j59708635349041_1_alg».proof.Proof.BnSpec
import proofs.«414687_j59708635349041_1_alg».proof.Proof.PoolSpec
import proofs.«414687_j59708635349041_1_alg».proof.Proof.HostSpec
import proofs.«414687_j59708635349041_1_alg».proof.Proof.RefSpec
import proofs.«414687_j59708635349041_1_alg».proof.Proof.AggReal
import proofs.«414687_j59708635349041_1_alg».proof.Proof.SliceReal
import proofs.«414687_j59708635349041_1_alg».proof.Proof.KRead
import proofs.«414687_j59708635349041_1_alg».proof.Proof.RRead
import proofs.«414687_j59708635349041_1_alg».proof.Proof.PoolBridge
import proofs.«414687_j59708635349041_1_alg».proof.Proof.KValSpec
import proofs.«414687_j59708635349041_1_alg».proof.Proof.RValSpec
import Idealize.ShloMosaic.Lib.ValueIdx

noncomputable section

namespace Cert.Hand.Top

open Idealize.ShloMosaic Idealize.ShloMosaic.ValueIdx
open Cert.KernelIdeal (S100000x128 S1600000 S128x128 S1x128 S128 S2x1600000 S3x128x128 S3x128 S100000 S512x128)
open Cert.KernelIdeal.Hand Cert.ReferenceIdeal.Hand
open Cert.Hand

variable [Cert.KernelIdeal.Facts] [Cert.ReferenceIdeal.Facts]

-- Every entry of an array is a real number.
abbrev Re {s : Shape} (v : Vec Ideal s .f32) : Prop := ∀ i, ∃ x : ℝ, v i = (x : EReal)

section Layer
variable {h : Vec Ideal S100000x128 .f32} {src dst : Vec Ideal S1600000 .i32} {w1 w2 : Vec Ideal S128x128 .f32}
  {b1r b2r gr ber : Vec Ideal S1x128 .f32} {b1v b2v gv bev : Vec Ideal S128 .f32}

-- One layer of the first program is the plain formula with the variance E[h²] − E[h]², over the neighbour sum.
theorem kLayerOf_read : KRead.toM (kLayerOf (F := Ideal) h src dst w1 b1r w2 b2r gr ber)
    = M.layerK (KRead.toM (Host.haggOf (F := Ideal) h src dst)) (KRead.toM w1) (KRead.rowM b1r) (KRead.toM w2)
        (KRead.rowM b2r) (KRead.rowM gr) (KRead.rowM ber) := by
  unfold kLayerOf
  rw [KRead.outArr_read, KRead.h2Arr_read, KRead.meanRow_read, KRead.invRow_read, KRead.sumRow_read, KRead.sqRow_read]
  rfl

-- One layer of the second program is the plain formula with the variance E[(h − E h)²], over the same neighbour sum.
theorem layerOf_read' (r : Fin 100000) (j : Fin 128) : Ref.layerOf (F := Ideal) h src dst w1 b1v w2 b2v gv bev (ix2 r j)
    = M.layerR (RRead.toM (Host.haggOf (F := Ideal) h src dst)) (RRead.toM w1) (RRead.vecM b1v) (RRead.toM w2)
        (RRead.vecM b2v) (RRead.vecM gv) (RRead.vecM bev) r j := by
  rw [RRead.layerOf_read, RRead.haggOf_same]

-- On a real array with real parameters, rows and vectors holding the same numbers, the two layers are one real array.
theorem layer_bridge (e1 : ∀ j : Fin 128, b1r (ix2 (0 : Fin 1) j) = b1v (ix1 j))
    (e2 : ∀ j : Fin 128, b2r (ix2 (0 : Fin 1) j) = b2v (ix1 j)) (eg : ∀ j : Fin 128, gr (ix2 (0 : Fin 1) j) = gv (ix1 j))
    (ebe : ∀ j : Fin 128, ber (ix2 (0 : Fin 1) j) = bev (ix1 j)) (hh : ∀ r j, ∃ x : ℝ, h (ix2 r j) = (x : EReal))
    (hw1 : Re w1) (hw2 : Re w2) (hb1 : Re b1v) (hb2 : Re b2v) (hg : Re gv) (hbe : Re bev) :
    kLayerOf (F := Ideal) h src dst w1 b1r w2 b2r gr ber = Ref.layerOf (F := Ideal) h src dst w1 b1v w2 b2v gv bev
      ∧ ∀ r j, ∃ x : ℝ, Ref.layerOf (F := Ideal) h src dst w1 b1v w2 b2v gv bev (ix2 r j) = (x : EReal) := by
  have hA : M.IsReal (RRead.toM (Host.haggOf (F := Ideal) h src dst)) := Agg.haggOf_real h src dst hh
  have hW1 : M.IsReal (RRead.toM w1) := fun r j => hw1 (ix2 r j)
  have hW2 : M.IsReal (RRead.toM w2) := fun r j => hw2 (ix2 r j)
  have hB1 : M.IsReal₁ (RRead.vecM b1v) := fun j => hb1 (ix1 j)
  have hB2 : M.IsReal₁ (RRead.vecM b2v) := fun j => hb2 (ix1 j)
  have hG : M.IsReal₁ (RRead.vecM gv) := fun j => hg (ix1 j)
  have hBE : M.IsReal₁ (RRead.vecM bev) := fun j => hbe (ix1 j)
  refine ⟨funext fun i => ?_, fun r j => ?_⟩
  · obtain ⟨r, j, rfl⟩ : ∃ r j, i = ix2 r j := ⟨i 0, i 1, eq_ix2 i⟩
    refine (congrFun (congrFun kLayerOf_read r) j).trans ?_
    rw [layerOf_read', show KRead.rowM b1r = RRead.vecM b1v from funext e1, show KRead.rowM b2r = RRead.vecM b2v from funext e2,
      show KRead.rowM gr = RRead.vecM gv from funext eg, show KRead.rowM ber = RRead.vecM bev from funext ebe]
    exact congrFun (congrFun (Law.layer_eq hA hW1 hB1 hW2 hB2 (by norm_num)) r) j
  · rw [layerOf_read']
    exact Law.layerR_real hA hW1 hB1 hW2 hB2 hG hBE r j

end Layer

section Net
variable (x : Vec Ideal S100000x128 .f32) (ei : Vec Ideal S2x1600000 .i32) (batch : Vec Ideal S100000 .i32)
  (W1 : Vec Ideal S3x128x128 .f32) (b1 : Vec Ideal S3x128 .f32) (W2 : Vec Ideal S3x128x128 .f32) (b2 g be : Vec Ideal S3x128 .f32)
  (hx : Re x) (hW1 : Re W1) (hb1 : Re b1) (hW2 : Re W2) (hb2 : Re b2) (hg : Re g) (hbe : Re be)
include hx hW1 hb1 hW2 hb2 hg hbe

-- Layer 0 on the input, layer 1 on layer 0's real result, layer 2 on layer 1's.
theorem bridge_H : kH (F := Ideal) x ei W1 b1 W2 b2 g be = rH (F := Ideal) x ei W1 b1 W2 b2 g be := by
  obtain ⟨q0, p0⟩ := layer_bridge (src := Host.srcRow ei) (dst := Host.dstRow ei)
    (RRead.vec_row0 b1) (RRead.vec_row0 b2) (RRead.vec_row0 g) (RRead.vec_row0 be)
    (fun r j => hx (ix2 r j)) (SliceReal.w1At0_real W1 hW1) (SliceReal.w1At0_real W2 hW2)
    (SliceReal.vecAt0_real b1 hb1) (SliceReal.vecAt0_real b2 hb2) (SliceReal.vecAt0_real g hg) (SliceReal.vecAt0_real be hbe)
  obtain ⟨q1, p1⟩ := layer_bridge (src := Host.srcRow ei) (dst := Host.dstRow ei)
    (RRead.vec_row1 b1) (RRead.vec_row1 b2) (RRead.vec_row1 g) (RRead.vec_row1 be)
    p0 (SliceReal.w1At1_real W1 hW1) (SliceReal.w1At1_real W2 hW2)
    (SliceReal.vecAt1_real b1 hb1) (SliceReal.vecAt1_real b2 hb2) (SliceReal.vecAt1_real g hg) (SliceReal.vecAt1_real be hbe)
  obtain ⟨q2, -⟩ := layer_bridge (src := Host.srcRow ei) (dst := Host.dstRow ei)
    (RRead.vec_row2 b1) (RRead.vec_row2 b2) (RRead.vec_row2 g) (RRead.vec_row2 be)
    p1 (SliceReal.w1At2_real W1 hW1) (SliceReal.w1At2_real W2 hW2)
    (SliceReal.vecAt2_real b1 hb1) (SliceReal.vecAt2_real b2 hb2) (SliceReal.vecAt2_real g hg) (SliceReal.vecAt2_real be hbe)
  unfold kH rH
  rw [RRead.srcRow_same, RRead.dstRow_same, RRead.mat_same0, RRead.mat_same0, RRead.mat_same1, RRead.mat_same1,
    RRead.mat_same2, RRead.mat_same2, q0, q1, q2]

-- Equal feature arrays, then the per-graph sum of one array read both ways.
theorem bridge_P : kP (F := Ideal) x ei batch W1 b1 W2 b2 g be = rP (F := Ideal) x ei batch W1 b1 W2 b2 g be := by
  unfold kP rP
  rw [bridge_H x ei W1 b1 W2 b2 g be hx hW1 hb1 hW2 hb2 hg hbe, PoolB.pool_eq]

end Net

end Cert.Hand.Top

end
-- ==== Proof.PreReal.lean ====
import proofs.«414687_j59708635349041_1_alg».proof.Pre_finite_inputs
import Idealize.ShloMosaic.Lib.ReduceAll
import Idealize.ShloMosaic.Lib.ValueIdx
import Idealize.ShloMosaic.PureOps.Ideal

namespace Cert.Hand.PreReal

open Idealize.ShloMosaic Cert.Pre_finite_inputs

-- max x (−x) < ⊤ excludes x = ⊥ and x = ⊤.
theorem real_of_abs_lt_top (x : EReal) (h : max x (-x) < ⊤) : ∃ r : ℝ, x = (r : EReal) := by
  induction x using EReal.rec with
  | bot => simp at h
  | coe r => exact ⟨r, rfl⟩
  | top => simp at h

-- The test |x| < 0x7F800000 (which is +∞) returning 1 means x is finite.
theorem real_of_cmp (x : Ideal .f32)
    (h : FloatOps.cmpf (F := Ideal) .olt (FloatOps.hostAbsf x) (FloatOps.ofBits (F := Ideal) .f32 0x7F800000#32) = 1#1) :
    ∃ r : ℝ, x = (r : EReal) := by
  apply real_of_abs_lt_top
  have h' : Ideal.cmp .olt (max x (-x)) (Ideal.ofBits .f32 0x7F800000#32) = 1#1 := h
  rw [show Ideal.ofBits .f32 0x7F800000#32 = (⊤ : EReal) by simp [Ideal.ofBits, Ideal.ieee]] at h'
  by_contra hlt
  simp only [Ideal.cmp, hlt, decide_false] at h'
  exact absurd h' (by decide)

instance : Subsingleton S_.Idx := ⟨fun a b => funext fun d => d.elim0⟩

-- An and-reduction equal to 1 means every entry passed the test.
theorem real_of_all {s : Shape} {axes : List (Fin s.rank)} (a : FVec Ideal s .f32)
    (hb : S_.BroadcastsInDim s (![] : Fin 0 → Fin s.rank)) (hr : s.ReducesTo axes S_) (hu : 0 < S_.numel)
    (e : Host.reduce IntOp.andi
          (cmpf .olt (Host.absf (F := Ideal) a) (broadcastInDim s ![] hb (constant (F := Ideal) S_ .f32 0x7F800000#32)))
          (constantI S_ 1 1#1) hr hu ValueIdx.ix0 = 1#1) :
    ∀ i, ∃ r : ℝ, a i = (r : EReal) :=
  fun i => real_of_cmp (a i) (Host.reduce_andi_all _ _ hr hu ValueIdx.ix0 e i)

-- Split the seven-fold conjunction and use the previous lemma on each float argument.
theorem real_of_pre [Cert.Pre_finite_inputs.Facts]
    (a0 : FVec Ideal S100000x128 .f32) (a1 : IVec S2x1600000 32) (a2 : IVec S100000 32)
    (a3 : FVec Ideal S3x128x128 .f32) (a4 : FVec Ideal S3x128 .f32) (a5 : FVec Ideal S3x128x128 .f32)
    (a6 a7 a8 : FVec Ideal S3x128 .f32)
    (h : Cert.Pre_finite_inputs.fn (F := Ideal) a0 a1 a2 a3 a4 a5 a6 a7 a8 = fun _ => 1#1) :
    (∀ i, ∃ x : ℝ, a0 i = (x : EReal)) ∧ (∀ i, ∃ x : ℝ, a3 i = (x : EReal)) ∧ (∀ i, ∃ x : ℝ, a4 i = (x : EReal))
      ∧ (∀ i, ∃ x : ℝ, a5 i = (x : EReal)) ∧ (∀ i, ∃ x : ℝ, a6 i = (x : EReal)) ∧ (∀ i, ∃ x : ℝ, a7 i = (x : EReal))
      ∧ (∀ i, ∃ x : ℝ, a8 i = (x : EReal)) := by
  have h0 := congrFun h ValueIdx.ix0
  dsimp only [fn, fn_part1, Idealize.ShloMosaic.andi] at h0
  simp only [IntOp.andi_eq_one] at h0
  obtain ⟨⟨⟨⟨⟨⟨e0, e3⟩, e4⟩, e5⟩, e6⟩, e7⟩, e8⟩ := h0
  exact ⟨real_of_all a0 _ _ _ e0, real_of_all a3 _ _ _ e3, real_of_all a4 _ _ _ e4, real_of_all a5 _ _ _ e5,
    real_of_all a6 _ _ _ e6, real_of_all a7 _ _ _ e7, real_of_all a8 _ _ _ e8⟩

end Cert.Hand.PreReal
-- ==== Proof.Claims.lean ====
import proofs.«414687_j59708635349041_1_alg».proof.Defs
import proofs.«414687_j59708635349041_1_alg».proof.Proof.Segs
import proofs.«414687_j59708635349041_1_alg».proof.Proof.Bits.Segs
import proofs.«414687_j59708635349041_1_alg».proof.Proof.KVal
import proofs.«414687_j59708635349041_1_alg».proof.Proof.RefRun
import proofs.«414687_j59708635349041_1_alg».proof.Proof.RVal
import proofs.«414687_j59708635349041_1_alg».proof.Proof.BridgeTop
import proofs.«414687_j59708635349041_1_alg».proof.Proof.PreReal

noncomputable section

open Idealize.ShloMosaic Idealize.ShloMosaic.TcCoe Idealize.SL.Sem

namespace Cert.Proof.Claims

theorem frame_k [hKernel : Cert.Kernel.Facts] [hPre_finite_inputs : Cert.Pre_finite_inputs.Facts] : Cert.frame_Kernel :=
  fun m ρ _ => (θ_run Cert.Kernel.defs _ _).mono (fun _ h c => (h c).2.2) (Cert.Kernel.Hand.run_main (F := Bits) m ρ)

theorem frame_ki [hKernelIdeal : Cert.KernelIdeal.Facts] [hPre_finite_inputs : Cert.Pre_finite_inputs.Facts] :
    Cert.frame_KernelIdeal :=
  fun m ρ _ => (θ_run Cert.KernelIdeal.defs _ _).mono (fun _ h c => (h c).2.2)
    (Cert.KernelIdeal.Hand.run_main (F := Ideal) m ρ)

theorem frame_ri [hReferenceIdeal : Cert.ReferenceIdeal.Facts] [hPre_finite_inputs : Cert.Pre_finite_inputs.Facts] :
    Cert.frame_ReferenceIdeal :=
  fun m ρ _ => (θ_run Cert.ReferenceIdeal.defs _ _).mono (fun _ h c => (h c).2.2)
    (Cert.ReferenceIdeal.Hand.run (F := Ideal) m ρ)

theorem preserves : Cert.preserves_Kernel_KernelIdeal := trivial

-- Both runs end at closed forms of their arguments; the arguments agree and are real, where the closed forms are equal.
theorem algebraic [hKernelIdeal : Cert.KernelIdeal.Facts] [hReferenceIdeal : Cert.ReferenceIdeal.Facts]
    [hPre_finite_inputs : Cert.Pre_finite_inputs.Facts] : Cert.algebraic_KernelIdeal_ReferenceIdeal := by
  intro m ρ m' ρ' hpre hagree
  refine ⟨_, _, (θ_run Cert.KernelIdeal.defs _ _).mono (fun _ h c => ⟨(h c).1.trans (Cert.KernelIdeal.Hand.kval_H m c),
      (h c).2.1.trans (Cert.KernelIdeal.Hand.kval_P m c), (h c).2.2⟩) (Cert.KernelIdeal.Hand.run_main (F := Ideal) m ρ),
    (θ_run Cert.ReferenceIdeal.defs _ _).mono (fun _ h c => ?_) (Cert.ReferenceIdeal.Hand.run (F := Ideal) m' ρ')⟩
  obtain ⟨e0, e1, e2, e3, e4, e5, e6, e7, e8⟩ := hagree c
  have hp := hpre c
  rw [← e0, ← e1, ← e2, ← e3, ← e4, ← e5, ← e6, ← e7, ← e8] at hp ⊢
  obtain ⟨r0, r3, r4, r5, r6, r7, r8⟩ := Cert.Hand.PreReal.real_of_pre _ _ _ _ _ _ _ _ _ hp
  exact ⟨(h c).1.trans ((Cert.ReferenceIdeal.Hand.rval_H _).trans
      (Cert.Hand.Top.bridge_H _ _ _ _ _ _ _ _ r0 r3 r4 r5 r6 r7 r8).symm),
    (h c).2.1.trans ((Cert.ReferenceIdeal.Hand.rval_P _).trans
      (Cert.Hand.Top.bridge_P _ _ _ _ _ _ _ _ _ r0 r3 r4 r5 r6 r7 r8).symm), (h c).2.2⟩

end Cert.Proof.Claims

end
-- ==== Proof.lean ====
/-
  Three graph-convolution layers (neighbour sum, two-matrix perceptron, batch normalisation, rectifier) and a per-graph
  sum of the rows: the block-wise program and the whole-array program give equal results over the extended reals.
  The one law that is not a regrouping of sums is  E[u²] − (E u)² = E[(u − E u)²],  which holds for real entries only;
  so "every entry is a real number" is carried from the precondition through each layer.
-/
import proofs.«414687_j59708635349041_1_alg».proof.Defs
import proofs.«414687_j59708635349041_1_alg».proof.Proof.Gen.Kernel
import proofs.«414687_j59708635349041_1_alg».proof.Proof.Gen.KernelIdeal
import proofs.«414687_j59708635349041_1_alg».proof.Proof.Gen.ReferenceIdeal
import proofs.«414687_j59708635349041_1_alg».proof.Proof.Gen.Pre_finite_inputs
import proofs.«414687_j59708635349041_1_alg».proof.Proof.Claims

noncomputable section

namespace Cert.Proof

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
